-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v144)) (v1 : (c : Dev Cert.KernelIdeal.nD) → Buf (Elt Ideal) ((c.tc : Thread Cert.KernelIdeal.nD Cert.KernelIdeal.τ).loc Cert.KernelIdeal.main_v153_0)) (v2 : (c : Dev Cert.KernelIdeal.nD) → Buf (Elt Ideal) ((c.tc : Thread Cert.KernelIdeal.nD Cert.KernelIdeal.τ).loc Cert.KernelIdeal.main_v153_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_v153_0) = v1 c
          ∧ r.2.mem ((c.tc : Thread Cert.KernelIdeal.nD Cert.KernelIdeal.τ).loc Cert.KernelIdeal.main_v153_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_v235) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x128 : Shape := ⟨3, ![256, 128, 128]⟩
abbrev S2x262144 : Shape := ⟨2, ![2, 262144]⟩
abbrev S2x256x256 : Shape := ⟨3, ![2, 256, 256]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S256x128x128 : S_.BroadcastsInDim S256x128x128 (![] : Fin 0 → Fin S256x128x128.rank)
  reducesTo_S256x128x128_S_d0_1_2 : S256x128x128.ReducesTo [0, 1, 2] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S2x384x256 : S_.BroadcastsInDim S2x384x256 (![] : Fin 0 → Fin S2x384x256.rank)
  reducesTo_S2x384x256_S_d0_1_2 : S2x384x256.ReducesTo [0, 1, 2] S_
  bcast_S_S2x384x128 : S_.BroadcastsInDim S2x384x128 (![] : Fin 0 → Fin S2x384x128.rank)
  reducesTo_S2x384x128_S_d0_1_2 : S2x384x128.ReducesTo [0, 1, 2] S_
  bcast_S_S2x384 : S_.BroadcastsInDim S2x384 (![] : Fin 0 → Fin S2x384.rank)
  reducesTo_S2x384_S_d0_1 : S2x384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128 .f32) (main_arg16 : FVec F S1x128 .f32) (main_arg17 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S1x128 .f32 := Host.absf main_arg16
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S1x128 .f32) (main_arg13 : FVec F S1 .f32) (main_arg14 : FVec F S128x128 .f32) (main_arg15 : FVec F S128 .f32) (main_arg16 : FVec F S1x128 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg12
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S2x384 .f32) (main_arg9 : FVec F S2x384 .f32) (main_arg10 : FVec F S128x128 .f32) (main_arg11 : FVec F S128 .f32) (main_arg12 : FVec F S1x128 .f32) (main_arg13 : FVec F S1 .f32) (main_arg14 : FVec F S128x128 .f32) (main_arg15 : FVec F S128 .f32) (main_arg16 : FVec F S1x128 .f32) (main_arg17 : FVec F S1 .f32) (main_v33 : IVec S_ 1) : IVec S_ 1 :=
  let main_v34 : FVec F S2x384 .f32 := Host.absf main_arg8
  let main_cst_12 : FVec F S_ .f32 := constant S_ .f32 0x7F800000#32
  let main_v35 : FVec F S2x384 .f32 := broadcastInDim S2x384 ![] bcast_S_S2x384 main_cst_12
  let main_v36 : IVec S2x384 1 := cmpf .olt main_v34 main_v35
  let main_c_13 : IVec S_ 1 := constantI S_ 1 1#1
  let main_v37 : IVec S_ 1 := (fun x v => Host.reduce IntOp.andi x v reducesTo_S2x384_S_d0_1 h_S_) main_v36 main_c_13
  let main_v38 : IVec S_ 1 := andi main_v33 main_v37
  let main_v39 : FVec F S2x384 .f32 := Host.absf main_arg9
  let main_cst_14 : FVec F S_ .f32 := constant S_ .f32 0x7F800000#32
  let main_v40 : FVec F S2x384 .f32 := broadcastInDim S2x384 ![] bcast_S_S2x384 main_cst_14
  let main_v41 : IVec S2x384 1 := cmpf .olt main_v39 main_v40
  let main_c_15 : IVec S_ 1 := constantI S_ 1 1#1
  let main_v42 : IVec S_ 1 := (fun x v => Host.reduce IntOp.andi x v reducesTo_S2x384_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S2x256 .f32) (main_arg6 : FVec F S2x384x256 .f32) (main_arg7 : FVec F S2x384x128 .f32) (main_arg8 : FVec F S2x384 .f32) (main_arg9 : FVec F S2x384 .f32) (main_arg10 : FVec F S128x128 .f32) (main_arg11 : FVec F S128 .f32) (main_arg12 : FVec F S1x128 .f32) (main_arg13 : FVec F S1 .f32) (main_arg14 : FVec F S128x128 .f32) (main_arg15 : FVec F S128 .f32) (main_arg16 : FVec F S1x128 .f32) (main_arg17 : FVec F S1 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x384x256 .f32 := Host.absf main_arg6
  let main_cst_8 : FVec F S_ .f32 := constant S_ .f32 0x7F800000#32
  let main_v25 : FVec F S2x384x256 .f32 := broadcastInDim S2x384x256 ![] bcast_S_S2x384x256 main_cst_8
  let main_v26 : IVec S2x384x256 1 := cmpf .olt main_v24 main_v25
  let main_c_9 : IVec S_ 1 := constantI S_ 1 1#1
  let main_v27 : IVec S_ 1 := (fun x v => Host.reduce IntOp.andi x v reducesTo_S2x384x256_S_d0_1_2 h_S_) main_v26 main_c_9
  let main_v28 : IVec S_ 1 := andi main_v23 main_v27
  let main_v29 : FVec F S2x384x128 .f32 := Host.absf main_arg7
  let main_cst_10 : FVec F S_ .f32 := constant S_ .f32 0x7F800000#32
  let main_v30 : FVec F S2x384x128 .f32 := broadcastInDim S2x384x128 ![] bcast_S_S2x384x128 main_cst_10
  let main_v31 : IVec S2x384x128 1 := cmpf .olt main_v29 main_v30
  let main_c_11 : IVec S_ 1 := constantI S_ 1 1#1
  let main_v32 : IVec S_ 1 := (fun x v => Host.reduce IntOp.andi x v reducesTo_S2x384x128_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S256x128x128 .f32) (main_arg1 : IVec S2x262144 32) (main_arg2 : FVec F S2x256x256 .f32) (main_arg3 : FVec F S2x256 .f32) (main_arg4 : FVec F S2x256x256 .f32) (main_arg5 : FVec F S2x256 .f32) (main_arg6 : FVec F S2x384x256 .f32) (main_arg7 : FVec F S2x384x128 .f32) (main_arg8 : FVec F S2x384 .f32) (main_arg9 : FVec F S2x384 .f32) (main_arg10 : FVec F S128x128 .f32) (main_arg11 : FVec F S128 .f32) (main_arg12 : FVec F S1x128 .f32) (main_arg13 : FVec F S1 .f32) (main_arg14 : FVec F S128x128 .f32) (main_arg15 : FVec F S128 .f32) (main_arg16 : FVec F S1x128 .f32) (main_arg17 : FVec F S1 .f32) : IVec S_ 1 :=
  let main_v0 : FVec F S256x128x128 .f32 := Host.absf main_arg0
  let main_cst : FVec F S_ .f32 := constant S_ .f32 0x7F800000#32
  let main_v1 : FVec F S256x128x128 .f32 := broadcastInDim S256x128x128 ![] bcast_S_S256x128x128 main_cst
  let main_v2 : IVec S256x128x128 1 := cmpf .olt main_v0 main_v1
  let main_c : IVec S_ 1 := constantI S_ 1 1#1
  let main_v3 : IVec S_ 1 := (fun x v => Host.reduce IntOp.andi x v reducesTo_S256x128x128_S_d0_1_2 h_S_) main_v2 main_c
  let main_v4 : FVec F S2x256x256 .f32 := Host.absf main_arg2
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  let main_v9 : FVec F S2x256 .f32 := Host.absf main_arg3
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S2x256x256 .f32 := Host.absf main_arg4
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S256x128x128 : Shape := ⟨3, ![256, 128, 128]⟩
abbrev S2x262144 : Shape := ⟨2, ![2, 262144]⟩
abbrev S2x256x256 : Shape := ⟨3, ![2, 256, 256]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S32768x128 : Shape := ⟨2, ![32768, 128]⟩
abbrev S1x262144 : Shape := ⟨2, ![1, 262144]⟩
abbrev S262144 : Shape := ⟨1, ![262144]⟩
abbrev S_ : Shape := ⟨0, ![]⟩
abbrev S32768 : Shape := ⟨1, ![32768]⟩
abbrev S262144x1 : Shape := ⟨2, ![262144, 1]⟩
abbrev S32768x1 : Shape := ⟨2, ![32768, 1]⟩
abbrev S1x256x256 : Shape := ⟨3, ![1, 256, 256]⟩
abbrev S256x256 : Shape := ⟨2, ![256, 256]⟩
abbrev S256x128 : Shape := ⟨2, ![256, 128]⟩
abbrev S128x256 : Shape := ⟨2, ![128, 256]⟩
abbrev S128x1024 : Shape := ⟨2, ![128, 1024]⟩
abbrev S32768x512 : Shape := ⟨2, ![32768, 512]⟩
abbrev S4096x128 : Shape := ⟨2, ![4096, 128]⟩
abbrev S4096x512 : Shape := ⟨2, ![4096, 512]⟩
abbrev S4096x1024 : Shape := ⟨2, ![4096, 1024]⟩
abbrev S32768x256 : Shape := ⟨2, ![32768, 256]⟩
abbrev S262144x256 : Shape := ⟨2, ![262144, 256]⟩
abbrev S1x384x256 : Shape := ⟨3, ![1, 384, 256]⟩
abbrev S384x256 : Shape := ⟨2, ![384, 256]⟩
abbrev S256x384 : Shape := ⟨2, ![256, 384]⟩
abbrev S1x384x128 : Shape := ⟨3, ![1, 384, 128]⟩
abbrev S384x128 : Shape := ⟨2, ![384, 128]⟩
abbrev S128x384 : Shape := ⟨2, ![128, 384]⟩
abbrev S1x256 : Shape := ⟨2, ![1, 256]⟩
abbrev S256 : Shape := ⟨1, ![256]⟩
abbrev S1x384 : Shape := ⟨2, ![1, 384]⟩
abbrev S384 : Shape := ⟨1, ![384]⟩
abbrev S4096x256 : Shape := ⟨2, ![4096, 256]⟩
abbrev S4096x1 : Shape := ⟨2, ![4096, 1]⟩
abbrev S4096x384 : Shape := ⟨2, ![4096, 384]⟩
abbrev S4096 : Shape := ⟨1, ![4096]⟩
abbrev S1x1 : Shape := ⟨2, ![1, 1]⟩
abbrev S32x128x128 : Shape := ⟨3, ![32, 128, 128]⟩
abbrev S32x128 : Shape := ⟨2, ![32, 128]⟩
abbrev S32 : Shape := ⟨1, ![32]⟩
abbrev S32x1 : Shape := ⟨2, ![32, 1]⟩

abbrev nBuf : Space → Nat
  | .hbm => 190
  | .vmem => 68
  | .smem => 0
  | _ => 0

abbrev hbmTy0_0 (i : Nat) : BufTy := match i % 128 with
  | 0 => ⟨S256x128x128, .f32⟩
  | 1 => ⟨S2x262144, .i32⟩
  | 2 => ⟨S2x256x256, .f32⟩
  | 3 => ⟨S2x256, .f32⟩
  | 4 => ⟨S2x256x256, .f32⟩
  | 5 => ⟨S2x256, .f32⟩
  | 6 => ⟨S2x384x256, .f32⟩
  | 7 => ⟨S2x384x128, .f32⟩
  | 8 => ⟨S2x384, .f32⟩
  | 9 => ⟨S2x384, .f32⟩
  | 10 => ⟨S128x128, .f32⟩
  | 11 => ⟨S128, .f32⟩
  | 12 => ⟨S1x128, .f32⟩
  | 13 => ⟨S1, .f32⟩
  | 14 => ⟨S128x128, .f32⟩
  | 15 => ⟨S128, .f32⟩
  | 16 => ⟨S1x128, .f32⟩
  | 17 => ⟨S1, .f32⟩
  | 18 => ⟨S32768x128, .f32⟩
  | 19 => ⟨S1x262144, .i32⟩
  | 20 => ⟨S262144, .i32⟩
  | 21 => ⟨S1x262144, .i32⟩
  | 22 => ⟨S262144, .i32⟩
  | 23 => ⟨S_, .f32⟩
  | 24 => ⟨S262144, .f32⟩
  | 25 => ⟨S_, .f32⟩
  | 26 => ⟨S32768, .f32⟩
  | 27 => ⟨S262144x1, .i32⟩
  | 28 => ⟨S32768, .f32⟩
  | 29 => ⟨S32768x1, .f32⟩
  | 30 => ⟨S_, .f32⟩
  | 31 => ⟨S32768, .f32⟩
  | 32 => ⟨S262144x1, .i32⟩
  | 33 => ⟨S32768, .f32⟩
  | 34 => ⟨S32768x1, .f32⟩
  | 35 => ⟨S1x256x256, .f32⟩
  | 36 => ⟨S256x256, .f32⟩
  | 37 => ⟨S256x128, .f32⟩
  | 38 => ⟨S128x256, .f32⟩
  | 39 => ⟨S1x256x256, .f32⟩
  | 40 => ⟨S256x256, .f32⟩
  | 41 => ⟨S256x128, .f32⟩
  | 42 => ⟨S128x256, .f32⟩
  | 43 => ⟨S1x256x256, .f32⟩
  | 44 => ⟨S256x256, .f32⟩
  | 45 => ⟨S256x128, .f32⟩
  | 46 => ⟨S128x256, .f32⟩
  | 47 => ⟨S1x256x256, .f32⟩
  | 48 => ⟨S256x256, .f32⟩
  | 49 => ⟨S256x128, .f32⟩
  | 50 => ⟨S128x256, .f32⟩
  | 51 => ⟨S128x1024, .f32⟩
  | 52 => ⟨S128x1024, .bf16⟩
  | 53 => ⟨S32768x512, .bf16⟩
  | 54 => ⟨S32768x512, .f32⟩
  | 55 => ⟨S32768x256, .bf16⟩
  | 56 => ⟨S32768x256, .bf16⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S262144x256, .bf16⟩
  | 66 => ⟨S262144x256, .f32⟩
  | 67 => ⟨S_, .f32⟩
  | 68 => ⟨S32768x256, .f32⟩
  | 69 => ⟨S262144x1, .i32⟩
  | 70 => ⟨S32768x256, .f32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S262144x256, .bf16⟩
  | 80 => ⟨S262144x256, .f32⟩
  | 81 => ⟨S_, .f32⟩
  | 82 => ⟨S32768x256, .f32⟩
  | 83 => ⟨S262144x1, .i32⟩
  | 84 => ⟨S32768x256, .f32⟩
  | 85 => ⟨S32768x256, .f32⟩
  | 86 => ⟨S1x384x256, .f32⟩
  | 87 => ⟨S384x256, .f32⟩
  | 88 => ⟨S256x384, .f32⟩
  | 89 => ⟨S1x384x128, .f32⟩
  | 90 => ⟨S384x128, .f32⟩
  | 91 => ⟨S128x384, .f32⟩
  | 92 => ⟨S1x256, .f32⟩
  | 93 => ⟨S256, .f32⟩
  | 94 => ⟨S1x256, .f32⟩
  | 95 => ⟨S256, .f32⟩
  | 96 => ⟨S1x384, .f32⟩
  | 97 => ⟨S384, .f32⟩
  | 98 => ⟨S1x384, .f32⟩
  | 99 => ⟨S384, .f32⟩
  | 100 => ⟨S1x256, .f32⟩
  | 101 => ⟨S1x256, .f32⟩
  | 102 => ⟨S1x384, .f32⟩
  | 103 => ⟨S1x384, .f32⟩
  | 104 => ⟨S256x384, .bf16⟩
  | 105 => ⟨S128x384, .bf16⟩
  | 106 => ⟨S32768x128, .f32⟩
  | 107 => ⟨S1x256x256, .f32⟩
  | 108 => ⟨S256x256, .f32⟩
  | 109 => ⟨S256x128, .f32⟩
  | 110 => ⟨S128x256, .f32⟩
  | 111 => ⟨S1x256x256, .f32⟩
  | 112 => ⟨S256x256, .f32⟩
  | 113 => ⟨S256x128, .f32⟩
  | 114 => ⟨S128x256, .f32⟩
  | 115 => ⟨S1x256x256, .f32⟩
  | 116 => ⟨S256x256, .f32⟩
  | 117 => ⟨S256x128, .f32⟩
  | 118 => ⟨S128x256, .f32⟩
  | 119 => ⟨S1x256x256, .f32⟩
  | 120 => ⟨S256x256, .f32⟩
  | 121 => ⟨S256x128, .f32⟩
  | 122 => ⟨S128x256, .f32⟩
  | 123 => ⟨S128x1024, .f32⟩
  | 124 => ⟨S128x1024, .bf16⟩
  | 125 => ⟨S32768x512, .bf16⟩
  | 126 => ⟨S32768x512, .f32⟩
  | 127 => ⟨S32768x256, .bf16⟩
  | _ => ⟨S256x128x128, .f32⟩

abbrev hbmTy0_1 (i : Nat) : BufTy := match i % 128 with
  | 0 => ⟨S32768x256, .bf16⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S262144x1, .i32⟩
  | 9 => ⟨S262144x256, .bf16⟩
  | 10 => ⟨S262144x256, .f32⟩
  | 11 => ⟨S_, .f32⟩
  | 12 => ⟨S32768x256, .f32⟩
  | 13 => ⟨S262144x1, .i32⟩
  | 14 => ⟨S32768x256, .f32⟩
  | 15 => ⟨S_, .i32⟩
  | 16 => ⟨S262144, .i32⟩
  | 17 => ⟨S262144, .i1⟩
  | 18 => ⟨S_, .i32⟩
  | 19 => ⟨S262144, .i32⟩
  | 20 => ⟨S262144, .i32⟩
  | 21 => ⟨S262144, .i32⟩
  | 22 => ⟨S262144x1, .i32⟩
  | 23 => ⟨S262144x256, .bf16⟩
  | 24 => ⟨S262144x256, .f32⟩
  | 25 => ⟨S_, .f32⟩
  | 26 => ⟨S32768x256, .f32⟩
  | 27 => ⟨S262144x1, .i32⟩
  | 28 => ⟨S32768x256, .f32⟩
  | 29 => ⟨S32768x256, .f32⟩
  | 30 => ⟨S1x384x256, .f32⟩
  | 31 => ⟨S384x256, .f32⟩
  | 32 => ⟨S256x384, .f32⟩
  | 33 => ⟨S1x384x128, .f32⟩
  | 34 => ⟨S384x128, .f32⟩
  | 35 => ⟨S128x384, .f32⟩
  | 36 => ⟨S1x256, .f32⟩
  | 37 => ⟨S256, .f32⟩
  | 38 => ⟨S1x256, .f32⟩
  | 39 => ⟨S256, .f32⟩
  | 40 => ⟨S1x384, .f32⟩
  | 41 => ⟨S384, .f32⟩
  | 42 => ⟨S1x384, .f32⟩
  | 43 => ⟨S384, .f32⟩
  | 44 => ⟨S1x256, .f32⟩
  | 45 => ⟨S1x256, .f32⟩
  | 46 => ⟨S1x384, .f32⟩
  | 47 => ⟨S1x384, .f32⟩
  | 48 => ⟨S256x384, .bf16⟩
  | 49 => ⟨S128x384, .bf16⟩
  | 50 => ⟨S32768x128, .f32⟩
  | 51 => ⟨S256x128x128, .f32⟩
  | 52 => ⟨S128x128, .f32⟩
  | 53 => ⟨S128x128, .bf16⟩
  | 54 => ⟨S128x128, .f32⟩
  | 55 => ⟨S128x128, .bf16⟩
  | 56 => ⟨S1x128, .f32⟩
  | 57 => ⟨S1x1, .f32⟩
  | 58 => ⟨S1x128, .f32⟩
  | 59 => ⟨S1x1, .f32⟩
  | 60 => ⟨S256x128, .f32⟩
  | 61 => ⟨S256x128, .f32⟩
  | _ => ⟨S256x128x128, .f32⟩

abbrev hbmTy (i : Nat) : BufTy := match i / 128 with
  | 0 => hbmTy0_0 i
  | 1 => hbmTy0_1 i
  | _ => ⟨S256x128x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x1024, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .f32⟩
  | .local _ .vmem, ⟨6, _⟩ => ⟨S4096x512, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x1, .f32⟩
  | .local _ .vmem, ⟨14, _⟩ => ⟨S4096x1, .f32⟩
  | .local _ .vmem, ⟨15, _⟩ => ⟨S4096x1, .f32⟩
  | .local _ .vmem, ⟨16, _⟩ => ⟨S4096x1, .f32⟩
  | .local _ .vmem, ⟨17, _⟩ => ⟨S1x256, .f32⟩
  | .local _ .vmem, ⟨18, _⟩ => ⟨S1x256, .f32⟩
  | .local _ .vmem, ⟨19, _⟩ => ⟨S4096x128, .f32⟩
  | .local _ .vmem, ⟨20, _⟩ => ⟨S4096x128, .f32⟩
  | .local _ .vmem, ⟨21, _⟩ => ⟨S256x384, .bf16⟩
  | .local _ .vmem, ⟨22, _⟩ => ⟨S128x384, .bf16⟩
  | .local _ .vmem, ⟨23, _⟩ => ⟨S1x384, .f32⟩
  | .local _ .vmem, ⟨24, _⟩ => ⟨S1x384, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S128x1024, .bf16⟩
  | .local _ .vmem, ⟨30, _⟩ => ⟨S4096x512, .bf16⟩
  | .local _ .vmem, ⟨31, _⟩ => ⟨S4096x512, .bf16⟩
  | .local _ .vmem, ⟨32, _⟩ => ⟨S4096x512, .f32⟩
  | .local _ .vmem, ⟨33, _⟩ => ⟨S4096x512, .f32⟩
  | .local _ .vmem, ⟨34, _⟩ => ⟨S4096x256, .f32⟩
  | .local _ .vmem, ⟨35, _⟩ => ⟨S4096x256, .f32⟩
  | .local _ .vmem, ⟨36, _⟩ => ⟨S4096x256, .f32⟩
  | .local _ .vmem, ⟨37, _⟩ => ⟨S4096x256, .f32⟩
  | .local _ .vmem, ⟨38, _⟩ => ⟨S4096x256, .f32⟩
  | .local _ .vmem, ⟨39, _⟩ => ⟨S4096x256, .f32⟩
  | .local _ .vmem, ⟨40, _⟩ => ⟨S4096x1, .f32⟩
  | .local _ .vmem, ⟨41, _⟩ => ⟨S4096x1, .f32⟩
  | .local _ .vmem, ⟨42, _⟩ => ⟨S4096x1, .f32⟩
  | .local _ .vmem, ⟨43, _⟩ => ⟨S4096x1, .f32⟩
  | .local _ .vmem, ⟨44, _⟩ => ⟨S1x256, .f32⟩
  | .local _ .vmem, ⟨45, _⟩ => ⟨S1x256, .f32⟩
  | .local _ .vmem, ⟨46, _⟩ => ⟨S4096x128, .f32⟩
  | .local _ .vmem, ⟨47, _⟩ => ⟨S4096x128, .f32⟩
  | .local _ .vmem, ⟨48, _⟩ => ⟨S256x384, .bf16⟩
  | .local _ .vmem, ⟨49, _⟩ => ⟨S128x384, .bf16⟩
  | .local _ .vmem, ⟨50, _⟩ => ⟨S1x384, .f32⟩
  | .local _ .vmem, ⟨51, _⟩ => ⟨S1x384, .f32⟩
  | .local _ .vmem, ⟨52, _⟩ => ⟨S4096x128, .f32⟩
  | .local _ .vmem, ⟨53, _⟩ => ⟨S4096x128, .f32⟩
  | .local _ .vmem, ⟨54, _⟩ => ⟨S32x128x128, .f32⟩
  | .local _ .vmem, ⟨55, _⟩ => ⟨S32x128x128, .f32⟩
  | .local _ .vmem, ⟨56, _⟩ => ⟨S128x128, .bf16⟩
  | .local _ .vmem, ⟨57, _⟩ => ⟨S1x128, .f32⟩
  | .local _ .vmem, ⟨58, _⟩ => ⟨S1x128, .f32⟩
  | .local _ .vmem, ⟨59, _⟩ => ⟨S1x1, .f32⟩
  | .local _ .vmem, ⟨60, _⟩ => ⟨S128x128, .bf16⟩
  | .local _ .vmem, ⟨61, _⟩ => ⟨S1x128, .f32⟩
  | .local _ .vmem, ⟨62, _⟩ => ⟨S1x128, .f32⟩
  | .local _ .vmem, ⟨63, _⟩ => ⟨S1x1, .f32⟩
  | .local _ .vmem, ⟨64, _⟩ => ⟨S32x128, .f32⟩
  | .local _ .vmem, ⟨65, _⟩ => ⟨S32x128, .f32⟩
  | .local _ .vmem, ⟨66, _⟩ => ⟨S32x128, .f32⟩
  | .local _ .vmem, ⟨67, _⟩ => ⟨S32x128, .f32⟩
  | _, _ => ⟨S256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32_0 : Ref sig .tc := ⟨.hbm, 53, rfl⟩
abbrev main_v32_1 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_c_2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_4 : Ref sig .tc := ⟨.hbm, 71, rfl⟩
abbrev main_v46 : Ref sig .tc := ⟨.hbm, 72, rfl⟩
abbrev main_v47 : Ref sig .tc := ⟨.hbm, 73, rfl⟩
abbrev main_c_5 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_6 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97_0 : Ref sig .tc := ⟨.hbm, 125, rfl⟩
abbrev main_v97_1 : Ref sig .tc := ⟨.hbm, 126, rfl⟩
abbrev main_v98 : Ref sig .tc := ⟨.hbm, 127, rfl⟩
abbrev main_v99 : Ref sig .tc := ⟨.hbm, 128, rfl⟩
abbrev main_c_7 : Ref sig .tc := ⟨.hbm, 129, rfl⟩
abbrev main_v100 : Ref sig .tc := ⟨.hbm, 130, rfl⟩
abbrev main_v101 : Ref sig .tc := ⟨.hbm, 131, rfl⟩
abbrev main_c_8 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_9 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_10 : Ref sig .tc := ⟨.hbm, 143, rfl⟩
abbrev main_v111 : Ref sig .tc := ⟨.hbm, 144, rfl⟩
abbrev main_v112 : Ref sig .tc := ⟨.hbm, 145, rfl⟩
abbrev main_c_11 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_12 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153_0 : Ref sig .tc := ⟨.hbm, 188, rfl⟩
abbrev main_v153_1 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg12_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc3_stg8_0 : Ref sig .tc := ⟨.vmem, 48, rfl⟩
abbrev cc3_stg9_0 : Ref sig .tc := ⟨.vmem, 49, rfl⟩
abbrev cc3_stg10_0 : Ref sig .tc := ⟨.vmem, 50, rfl⟩
abbrev cc3_stg11_0 : Ref sig .tc := ⟨.vmem, 51, rfl⟩
abbrev cc3_stg12_0 : Ref sig .tc := ⟨.vmem, 52, rfl⟩
abbrev cc3_stg12_1 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg2_0 : Ref sig .tc := ⟨.vmem, 57, rfl⟩
abbrev cc4_stg3_0 : Ref sig .tc := ⟨.vmem, 58, rfl⟩
abbrev cc4_stg4_0 : Ref sig .tc := ⟨.vmem, 59, rfl⟩
abbrev cc4_stg5_0 : Ref sig .tc := ⟨.vmem, 60, rfl⟩
abbrev cc4_stg6_0 : Ref sig .tc := ⟨.vmem, 61, rfl⟩
abbrev cc4_stg7_0 : Ref sig .tc := ⟨.vmem, 62, rfl⟩
abbrev cc4_stg8_0 : Ref sig .tc := ⟨.vmem, 63, rfl⟩
abbrev cc4_stg9_0 : Ref sig .tc := ⟨.vmem, 64, rfl⟩
abbrev cc4_stg9_1 : Ref sig .tc := ⟨.vmem, 65, rfl⟩
abbrev cc4_stg10_0 : Ref sig .tc := ⟨.vmem, 66, rfl⟩
abbrev cc4_stg10_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem12_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem2_1 : DmaSem sig := 31
abbrev cc2_sem3_0 : DmaSem sig := 32
abbrev cc2_sem3_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem6_0 : DmaSem sig := 45
abbrev cc3_sem7_0 : DmaSem sig := 46
abbrev cc3_sem7_1 : DmaSem sig := 47
abbrev cc3_sem8_0 : DmaSem sig := 48
abbrev cc3_sem9_0 : DmaSem sig := 49
abbrev cc3_sem10_0 : DmaSem sig := 50
abbrev cc3_sem11_0 : DmaSem sig := 51
abbrev cc3_sem12_0 : DmaSem sig := 52
abbrev cc3_sem12_1 : DmaSem sig := 53
abbrev cc4_sem0_0 : DmaSem sig := 54
abbrev cc4_sem0_1 : DmaSem sig := 55
abbrev cc4_sem1_0 : DmaSem sig := 56
abbrev cc4_sem2_0 : DmaSem sig := 57
abbrev cc4_sem3_0 : DmaSem sig := 58
abbrev cc4_sem4_0 : DmaSem sig := 59
abbrev cc4_sem5_0 : DmaSem sig := 60
abbrev cc4_sem6_0 : DmaSem sig := 61
abbrev cc4_sem7_0 : DmaSem sig := 62
abbrev cc4_sem8_0 : DmaSem sig := 63
abbrev cc4_sem9_0 : DmaSem sig := 64
abbrev cc4_sem9_1 : DmaSem sig := 65
abbrev cc4_sem10_0 : DmaSem sig := 66
abbrev cc4_sem10_1 : DmaSem sig := 67

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S256x384 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x384 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x384 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S4096x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c1_i32 : BitVec 32 := 1#32
  let c0_i32 : BitVec 32 := 0#32
  ![arg0.toNat, c1_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4096x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S256x384 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x384 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x384 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x384 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S4096x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S32x128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S32x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S32x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  shapeCasts_S256x128x128_S32768x128 : S256x128x128.ShapeCasts S32768x128
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S32768 : S_.BroadcastsInDim S32768 (![] : Fin 0 → Fin S32768.rank)
  bcast_S262144_S262144x1_0 : S262144.BroadcastsInDim S262144x1 (![0] : Fin 1 → Fin S262144x1.rank)
  bcast_S32768_S32768x1_0 : S32768.BroadcastsInDim S32768x1 (![0] : Fin 1 → Fin S32768x1.rank)
  slices_S2x256x256_S1x256x256_0_0_0 : S2x256x256.Slices ![0, 0, 0] S1x256x256
  shapeCasts_S1x256x256_S256x256 : S1x256x256.ShapeCasts S256x256
  slices_S256x256_S256x128_0_0 : S256x256.Slices ![0, 0] S256x128
  transposes_S256x128_S128x256_1_0 : S256x128.Transposes [1, 0] S128x256
  slices_S256x256_S256x128_0_128 : S256x256.Slices ![0, 128] S256x128
  concatenates_S128x256_S128x256_S128x256_S128x256_S128x1024_d1 : Shape.Concatenates [S128x256, S128x256, S128x256, S128x256] S128x1024 1
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  slices_S4096x1024_o0_0_S4096x512 : S4096x1024.Slices ![0, 0] S4096x512
  inb_S4096x512_S4096x512_0_0 : ∀ a, (![0, 0] : Fin 2 → Nat) a + S4096x512.size a ≤ S4096x512.size a
  h_S4096x512 : 0 < S4096x512.numel
  packedbf16_S4096x512_S4096x512_0_0 : (Rect.unit (s := S4096x512) ![0, 0] S4096x512.size inb_S4096x512_S4096x512_0_0).PackedRows (EltTy.packing .bf16)
  slices_S4096x1024_o0_512_S4096x512 : S4096x1024.Slices ![0, 512] S4096x512
  slices_S32768x512_S32768x256_0_0 : S32768x512.Slices ![0, 0] S32768x256
  slices_S32768x512_S32768x256_0_256 : S32768x512.Slices ![0, 256] S32768x256
  bcast_S_S32768x256 : S_.BroadcastsInDim S32768x256 (![] : Fin 0 → Fin S32768x256.rank)
  slices_S2x384x256_S1x384x256_0_0_0 : S2x384x256.Slices ![0, 0, 0] S1x384x256
  shapeCasts_S1x384x256_S384x256 : S1x384x256.ShapeCasts S384x256
  transposes_S384x256_S256x384_1_0 : S384x256.Transposes [1, 0] S256x384
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S2x256_S1x256_0_0 : S2x256.Slices ![0, 0] S1x256
  shapeCasts_S1x256_S256 : S1x256.ShapeCasts S256
  slices_S2x384_S1x384_0_0 : S2x384.Slices ![0, 0] S1x384
  shapeCasts_S1x384_S384 : S1x384.ShapeCasts S384
  shapeCasts_S256_S1x256 : S256.ShapeCasts S1x256
  shapeCasts_S384_S1x384 : S384.ShapeCasts S1x384
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  broadcasts_S4096x1_S4096x256 : S4096x1.Broadcasts S4096x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  slices_S2x256x256_S1x256x256_1_0_0 : S2x256x256.Slices ![1, 0, 0] S1x256x256
  slices_S2x384x256_S1x384x256_1_0_0 : S2x384x256.Slices ![1, 0, 0] S1x384x256
  slices_S2x384x128_S1x384x128_1_0_0 : S2x384x128.Slices ![1, 0, 0] S1x384x128
  slices_S2x256_S1x256_1_0 : S2x256.Slices ![1, 0] S1x256
  slices_S2x384_S1x384_1_0 : S2x384.Slices ![1, 0] S1x384
  reduces_S4096x128_S4096 : S4096x128.Reduces [1] S4096
  shapeCasts_S4096_S4096x1 : S4096.ShapeCasts S4096x1
  broadcasts_S4096x1_S4096x128 : S4096x1.Broadcasts S4096x128
  shapeCasts_S32768x128_S256x128x128 : S32768x128.ShapeCasts S256x128x128
  transposes_S128x128_S128x128_1_0 : S128x128.Transposes [1, 0] S128x128
  shapeCasts_S128_S1x128 : S128.ShapeCasts S1x128
  shapeCasts_S1_S1x1 : S1.ShapeCasts S1x1
  inb_S32x128x128_S32x128x128_0_0_0 : ∀ a, (![0, 0, 0] : Fin 3 → Nat) a + S32x128x128.size a ≤ S32x128x128.size a
  h_S32x128x128 : 0 < S32x128x128.numel
  shapeCasts_S32x128x128_S32x128x128 : S32x128x128.ShapeCasts S32x128x128
  shapeCasts_S32x128x128_S4096x128 : S32x128x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x128_S32x128x128 : S4096x128.ShapeCasts S32x128x128
  reduces_S32x128x128_S32x128 : S32x128x128.Reduces [1] S32x128
  reduces_S32x128_S32 : S32x128.Reduces [1] S32
  shapeCasts_S32_S32x1 : S32.ShapeCasts S32x1
  broadcasts_S32x1_S32x128 : S32x1.Broadcasts S32x128
  inb_S32x128_S32x128_0_0 : ∀ a, (![0, 0] : Fin 2 → Nat) a + S32x128.size a ≤ S32x128.size a
  h_S32x128 : 0 < S32x128.numel
  scatter_S32768_S262144x1_S262144_n_0_0_1_wf : ScatterDims.WF S32768 S262144x1 S262144 [] [0] [0] 1
  dot_S4096x128_S128x1024_S4096x1024_1_0_0_1_n_n_wf : DotDims.WF S4096x128 S128x1024 S4096x1024 [1] [0] [0] [1] [] []
  gather_S32768x256_S262144x1_S262144x256_1_0_n_n_0_1_1256_wf : GatherDims.WF S32768x256 S262144x1 S262144x256 [1] [0] [] [0] [] 1 ![1, 256]
  scatter_S32768x256_S262144x1_S262144x256_1_0_0_1_wf : ScatterDims.WF S32768x256 S262144x1 S262144x256 [1] [0] [0] 1
  dot_S4096x256_S256x384_S4096x384_1_0_0_1_n_n_wf : DotDims.WF S4096x256 S256x384 S4096x384 [1] [0] [0] [1] [] []
  dot_S4096x128_S128x384_S4096x384_1_0_0_1_n_n_wf : DotDims.WF S4096x128 S128x384 S4096x384 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .f32 = 32 ∨ (Rect.block (s := S32768x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S32768x512.size a
  hwx0_2 : ∀ i : grid0.Coords, EltTy.bits .bf16 = 32 ∨ (Rect.block (s := S32768x512) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S32768x512.size a
  hwx0_3 : ∀ i : grid0.Coords, EltTy.bits .f32 = 32 ∨ (Rect.block (s := S32768x512) S4096x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S32768x256.size a
  hwx1_0 : ∀ i : grid1.Coords, EltTy.bits .f32 = 32 ∨ (Rect.block (s := S32768x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S32768x512.size a
  hwx1_1 : ∀ i : grid1.Coords, EltTy.bits .f32 = 32 ∨ (Rect.block (s := S32768x512) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S32768x512.size a
  hwx1_2 : ∀ i : grid1.Coords, EltTy.bits .f32 = 32 ∨ (Rect.block (s := S32768x512) S4096x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S32768x1.size a
  hwx1_3 : ∀ i : grid1.Coords, EltTy.bits .f32 = 32 ∨ (Rect.block (s := S32768x1) S4096x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x1.size a ≤ S32768x1.size a
  hwx1_4 : ∀ i : grid1.Coords, EltTy.bits .f32 = 32 ∨ (Rect.block (s := S32768x1) S4096x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x128.size a ≤ S32768x128.size a
  hwx1_7 : ∀ i : grid1.Coords, EltTy.bits .f32 = 32 ∨ (Rect.block (s := S32768x128) S4096x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x384.size a ≤ S256x384.size a
  hwx1_8 : ∀ i : grid1.Coords, EltTy.bits .bf16 = 32 ∨ (Rect.block (s := S256x384) S256x384.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x384.size a ≤ S128x384.size a
  hwx1_9 : ∀ i : grid1.Coords, EltTy.bits .bf16 = 32 ∨ (Rect.block (s := S128x384) S128x384.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x384.size a ≤ S1x384.size a
  hwx1_10 : ∀ i : grid1.Coords, EltTy.bits .f32 = 32 ∨ (Rect.block (s := S1x384) S1x384.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x384.size a ≤ S1x384.size a
  hwx1_11 : ∀ i : grid1.Coords, EltTy.bits .f32 = 32 ∨ (Rect.block (s := S1x384) S1x384.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S4096x128.size a ≤ S32768x128.size a
  hwx1_12 : ∀ i : grid1.Coords, EltTy.bits .f32 = 32 ∨ (Rect.block (s := S32768x128) S4096x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S32768x128.size a
  hwx2_0 : ∀ i : grid2.Coords, EltTy.bits .f32 = 32 ∨ (Rect.block (s := S32768x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S128x1024.size a
  hwx2_1 : ∀ i : grid2.Coords, EltTy.bits .bf16 = 32 ∨ (Rect.block (s := S128x1024) S128x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x512.size a ≤ S32768x512.size a
  hwx2_2 : ∀ i : grid2.Coords, EltTy.bits .bf16 = 32 ∨ (Rect.block (s := S32768x512) S4096x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x512.size a ≤ S32768x512.size a
  hwx2_3 : ∀ i : grid2.Coords, EltTy.bits .f32 = 32 ∨ (Rect.block (s := S32768x512) S4096x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S32768x256.size a
  hwx3_0 : ∀ i : grid3.Coords, EltTy.bits .f32 = 32 ∨ (Rect.block (s := S32768x256) S4096x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x256.size a ≤ S32768x512.size a
  hwx3_1 : ∀ i : grid3.Coords, EltTy.bits .f32 = 32 ∨ (Rect.block (s := S32768x512) S4096x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x256.size a ≤ S32768x512.size a
  hwx3_2 : ∀ i : grid3.Coords, EltTy.bits .f32 = 32 ∨ (Rect.block (s := S32768x512) S4096x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x1.size a ≤ S32768x1.size a
  hwx3_3 : ∀ i : grid3.Coords, EltTy.bits .f32 = 32 ∨ (Rect.block (s := S32768x1) S4096x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x1.size a ≤ S32768x1.size a
  hwx3_4 : ∀ i : grid3.Coords, EltTy.bits .f32 = 32 ∨ (Rect.block (s := S32768x1) S4096x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x128.size a ≤ S32768x128.size a
  hwx3_7 : ∀ i : grid3.Coords, EltTy.bits .f32 = 32 ∨ (Rect.block (s := S32768x128) S4096x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x384.size a ≤ S256x384.size a
  hwx3_8 : ∀ i : grid3.Coords, EltTy.bits .bf16 = 32 ∨ (Rect.block (s := S256x384) S256x384.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x384.size a ≤ S128x384.size a
  hwx3_9 : ∀ i : grid3.Coords, EltTy.bits .bf16 = 32 ∨ (Rect.block (s := S128x384) S128x384.size (cc3_transform_9 i) (hinb3_9 i)).WholeWords (EltTy.packing .bf16)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x384.size a ≤ S1x384.size a
  hwx3_10 : ∀ i : grid3.Coords, EltTy.bits .f32 = 32 ∨ (Rect.block (s := S1x384) S1x384.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x384.size a ≤ S1x384.size a
  hwx3_11 : ∀ i : grid3.Coords, EltTy.bits .f32 = 32 ∨ (Rect.block (s := S1x384) S1x384.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S4096x128.size a ≤ S32768x128.size a
  hwx3_12 : ∀ i : grid3.Coords, EltTy.bits .f32 = 32 ∨ (Rect.block (s := S32768x128) S4096x128.size (cc3_transform_12 i) (hinb3_12 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S32x128x128.size a ≤ S256x128x128.size a
  hwx4_0 : ∀ i : grid4.Coords, EltTy.bits .f32 = 32 ∨ (Rect.block (s := S256x128x128) S32x128x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .bf16 = 32 ∨ (Rect.block (s := S128x128) S128x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S32x128.size a ≤ S256x128.size a
  hwx4_9 : ∀ i : grid4.Coords, EltTy.bits .f32 = 32 ∨ (Rect.block (s := S256x128) S32x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S32x128.size a ≤ S256x128.size a
  hwx4_10 : ∀ i : grid4.Coords, EltTy.bits .f32 = 32 ∨ (Rect.block (s := S256x128) S32x128.size (cc4_transform_10 i) (hinb4_10 i)).WholeWords (EltTy.packing .f32)

variable [Facts₀]

def scatter_S32768_S262144x1_S262144_n_0_0_1 : ScatterDims S32768 S262144x1 S262144 where
  updateWindowDims := []
  insertedWindowDims := [0]
  scatterDimsToOperandDims := [0]
  indexVectorDim := 1
  wf := scatter_S32768_S262144x1_S262144_n_0_0_1_wf
def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf
def gather_S32768x256_S262144x1_S262144x256_1_0_n_n_0_1_1256 : GatherDims S32768x256 S262144x1 S262144x256 where
  offsetDims := [1]
  collapsedSliceDims := [0]
  operandBatchingDims := []
  startIndicesBatchingDims := []
  startIndexMap := [0]
  indexVectorDim := 1
  sliceSizes := ![1, 256]
  wf := gather_S32768x256_S262144x1_S262144x256_1_0_n_n_0_1_1256_wf
def scatter_S32768x256_S262144x1_S262144x256_1_0_0_1 : ScatterDims S32768x256 S262144x1 S262144x256 where
  updateWindowDims := [1]
  insertedWindowDims := [0]
  scatterDimsToOperandDims := [0]
  indexVectorDim := 1
  wf := scatter_S32768x256_S262144x1_S262144x256_1_0_0_1_wf
def dot_S4096x256_S256x384_S4096x384_1_0_0_1_n_n : DotDims S4096x256 S256x384 S4096x384 where
  lhsContracting := [1]
  rhsContracting := [0]
  lhsNonContracting := [0]
  rhsNonContracting := [1]
  lhsBatch := []
  rhsBatch := []
  wf := dot_S4096x256_S256x384_S4096x384_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32_0) S4096x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32_1) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_1) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32_1) S4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S4096x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S4096x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v72) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S4096x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v76) S256x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v77) S128x384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v74) S1x384.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v75) S1x384.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v78) S4096x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v78) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S128x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v97_0) S4096x512.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v97_1) S4096x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v122) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97_1) S4096x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v97_1) S4096x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S4096x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13) S4096x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v137) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v138) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S4096x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v141) S256x384.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v142) S128x384.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v139) S1x384.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v140) S1x384.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v143) S4096x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v144) S32x128x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v146) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v149) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v150) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v148) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v151) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg16) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v152) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v153_0) S32x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v153_1) S32x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S256x128x128 : Shape := ⟨3, ![256, 128, 128]⟩
abbrev S2x262144 : Shape := ⟨2, ![2, 262144]⟩
abbrev S2x256x256 : Shape := ⟨3, ![2, 256, 256]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S32768x128 : Shape := ⟨2, ![32768, 128]⟩
abbrev S1x262144 : Shape := ⟨2, ![1, 262144]⟩
abbrev S262144 : Shape := ⟨1, ![262144]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S524288x256 : Shape := ⟨2, ![524288, 256]⟩
abbrev S262144x256 : Shape := ⟨2, ![262144, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S32768x256 : Shape := ⟨2, ![32768, 256]⟩
abbrev S1x384x256 : Shape := ⟨3, ![1, 384, 256]⟩
abbrev S384x256 : Shape := ⟨2, ![384, 256]⟩
abbrev S256x384 : Shape := ⟨2, ![256, 384]⟩
abbrev S32768x384 : Shape := ⟨2, ![32768, 384]⟩
abbrev S1x384 : Shape := ⟨2, ![1, 384]⟩
abbrev S384 : Shape := ⟨1, ![384]⟩
abbrev S1x384x128 : Shape := ⟨3, ![1, 384, 128]⟩
abbrev S384x128 : Shape := ⟨2, ![384, 128]⟩
abbrev S128x384 : Shape := ⟨2, ![128, 384]⟩
abbrev S32768 : Shape := ⟨1, ![32768]⟩
abbrev S32768x1 : Shape := ⟨2, ![32768, 1]⟩
abbrev S128x1 : Shape := ⟨2, ![128, 1]⟩
abbrev S1x1 : Shape := ⟨2, ![1, 1]⟩
abbrev S256x128 : Shape := ⟨2, ![256, 128]⟩
abbrev S256x1 : Shape := ⟨2, ![256, 1]⟩

abbrev nBuf : Space → Nat
  | .hbm => 296
  | .vmem => 0
  | .smem => 0
  | _ => 0

abbrev hbmTy0_0 (i : Nat) : BufTy := match i % 128 with
  | 0 => ⟨S256x128x128, .f32⟩
  | 1 => ⟨S2x262144, .i32⟩
  | 2 => ⟨S2x256x256, .f32⟩
  | 3 => ⟨S2x256, .f32⟩
  | 4 => ⟨S2x256x256, .f32⟩
  | 5 => ⟨S2x256, .f32⟩
  | 6 => ⟨S2x384x256, .f32⟩
  | 7 => ⟨S2x384x128, .f32⟩
  | 8 => ⟨S2x384, .f32⟩
  | 9 => ⟨S2x384, .f32⟩
  | 10 => ⟨S128x128, .f32⟩
  | 11 => ⟨S128, .f32⟩
  | 12 => ⟨S1x128, .f32⟩
  | 13 => ⟨S1, .f32⟩
  | 14 => ⟨S128x128, .f32⟩
  | 15 => ⟨S128, .f32⟩
  | 16 => ⟨S1x128, .f32⟩
  | 17 => ⟨S1, .f32⟩
  | 18 => ⟨S32768x128, .f32⟩
  | 19 => ⟨S1x262144, .i32⟩
  | 20 => ⟨S262144, .i32⟩
  | 21 => ⟨S1x262144, .i32⟩
  | 22 => ⟨S262144, .i32⟩
  | 23 => ⟨S524288, .i32⟩
  | 24 => ⟨S1x262144, .i32⟩
  | 25 => ⟨S262144, .i32⟩
  | 26 => ⟨S1x262144, .i32⟩
  | 27 => ⟨S262144, .i32⟩
  | 28 => ⟨S524288, .i32⟩
  | 29 => ⟨S_, .i32⟩
  | 30 => ⟨S524288, .i32⟩
  | 31 => ⟨S524288, .i1⟩
  | 32 => ⟨S_, .i32⟩
  | 33 => ⟨S524288, .i32⟩
  | 34 => ⟨S524288, .i32⟩
  | 35 => ⟨S524288, .i32⟩
  | 36 => ⟨S524288x1, .i32⟩
  | 37 => ⟨S524288x128, .f32⟩
  | 38 => ⟨S_, .i32⟩
  | 39 => ⟨S524288, .i32⟩
  | 40 => ⟨S524288, .i1⟩
  | 41 => ⟨S_, .i32⟩
  | 42 => ⟨S524288, .i32⟩
  | 43 => ⟨S524288, .i32⟩
  | 44 => ⟨S524288, .i32⟩
  | 45 => ⟨S524288x1, .i32⟩
  | 46 => ⟨S524288x128, .f32⟩
  | 47 => ⟨S524288x256, .f32⟩
  | 48 => ⟨S262144x256, .f32⟩
  | 49 => ⟨S1x256x256, .f32⟩
  | 50 => ⟨S256x256, .f32⟩
  | 51 => ⟨S256x256, .f32⟩
  | 52 => ⟨S262144x256, .f32⟩
  | 53 => ⟨S1x256, .f32⟩
  | 54 => ⟨S256, .f32⟩
  | 55 => ⟨S1x256, .f32⟩
  | 56 => ⟨S262144x256, .f32⟩
  | 57 => ⟨S262144x256, .f32⟩
  | 58 => ⟨S262144x256, .f32⟩
  | 59 => ⟨S1x256x256, .f32⟩
  | 60 => ⟨S256x256, .f32⟩
  | 61 => ⟨S256x256, .f32⟩
  | 62 => ⟨S262144x256, .f32⟩
  | 63 => ⟨S1x256, .f32⟩
  | 64 => ⟨S256, .f32⟩
  | 65 => ⟨S1x256, .f32⟩
  | 66 => ⟨S262144x256, .f32⟩
  | 67 => ⟨S262144x256, .f32⟩
  | 68 => ⟨S524288x256, .f32⟩
  | 69 => ⟨S_, .f32⟩
  | 70 => ⟨S32768x256, .f32⟩
  | 71 => ⟨S524288x1, .i32⟩
  | 72 => ⟨S32768x256, .f32⟩
  | 73 => ⟨S1x384x256, .f32⟩
  | 74 => ⟨S384x256, .f32⟩
  | 75 => ⟨S256x384, .f32⟩
  | 76 => ⟨S32768x384, .f32⟩
  | 77 => ⟨S1x384, .f32⟩
  | 78 => ⟨S384, .f32⟩
  | 79 => ⟨S1x384, .f32⟩
  | 80 => ⟨S32768x384, .f32⟩
  | 81 => ⟨S32768x384, .f32⟩
  | 82 => ⟨S1x384x128, .f32⟩
  | 83 => ⟨S384x128, .f32⟩
  | 84 => ⟨S128x384, .f32⟩
  | 85 => ⟨S32768x384, .f32⟩
  | 86 => ⟨S1x384, .f32⟩
  | 87 => ⟨S384, .f32⟩
  | 88 => ⟨S1x384, .f32⟩
  | 89 => ⟨S32768x384, .f32⟩
  | 90 => ⟨S32768x384, .f32⟩
  | 91 => ⟨S32768x128, .f32⟩
  | 92 => ⟨S32768x128, .f32⟩
  | 93 => ⟨S32768x128, .f32⟩
  | 94 => ⟨S32768x128, .f32⟩
  | 95 => ⟨S32768x128, .f32⟩
  | 96 => ⟨S32768x128, .f32⟩
  | 97 => ⟨S32768x128, .f32⟩
  | 98 => ⟨S32768x128, .f32⟩
  | 99 => ⟨S32768x128, .f32⟩
  | 100 => ⟨S_, .f32⟩
  | 101 => ⟨S32768x128, .f32⟩
  | 102 => ⟨S32768x128, .f32⟩
  | 103 => ⟨S_, .f32⟩
  | 104 => ⟨S32768x128, .f32⟩
  | 105 => ⟨S32768x128, .f32⟩
  | 106 => ⟨S32768x128, .f32⟩
  | 107 => ⟨S32768x128, .f32⟩
  | 108 => ⟨S32768x128, .f32⟩
  | 109 => ⟨S_, .f32⟩
  | 110 => ⟨S32768x128, .f32⟩
  | 111 => ⟨S32768x128, .f32⟩
  | 112 => ⟨S_, .f32⟩
  | 113 => ⟨S32768x128, .f32⟩
  | 114 => ⟨S32768x128, .f32⟩
  | 115 => ⟨S32768x128, .f32⟩
  | 116 => ⟨S32768x128, .f32⟩
  | 117 => ⟨S32768x128, .f32⟩
  | 118 => ⟨S_, .f32⟩
  | 119 => ⟨S32768x128, .f32⟩
  | 120 => ⟨S32768x128, .f32⟩
  | 121 => ⟨S32768x128, .f32⟩
  | 122 => ⟨S32768x128, .f32⟩
  | 123 => ⟨S32768x128, .f32⟩
  | 124 => ⟨S_, .i32⟩
  | 125 => ⟨S524288, .i32⟩
  | 126 => ⟨S524288, .i1⟩
  | 127 => ⟨S_, .i32⟩
  | _ => ⟨S256x128x128, .f32⟩

abbrev hbmTy0_1 (i : Nat) : BufTy := match i % 128 with
  | 0 => ⟨S524288, .i32⟩
  | 1 => ⟨S524288, .i32⟩
  | 2 => ⟨S524288, .i32⟩
  | 3 => ⟨S524288x1, .i32⟩
  | 4 => ⟨S524288x128, .f32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S524288x1, .i32⟩
  | 13 => ⟨S524288x128, .f32⟩
  | 14 => ⟨S524288x256, .f32⟩
  | 15 => ⟨S262144x256, .f32⟩
  | 16 => ⟨S1x256x256, .f32⟩
  | 17 => ⟨S256x256, .f32⟩
  | 18 => ⟨S256x256, .f32⟩
  | 19 => ⟨S262144x256, .f32⟩
  | 20 => ⟨S1x256, .f32⟩
  | 21 => ⟨S256, .f32⟩
  | 22 => ⟨S1x256, .f32⟩
  | 23 => ⟨S262144x256, .f32⟩
  | 24 => ⟨S262144x256, .f32⟩
  | 25 => ⟨S262144x256, .f32⟩
  | 26 => ⟨S1x256x256, .f32⟩
  | 27 => ⟨S256x256, .f32⟩
  | 28 => ⟨S256x256, .f32⟩
  | 29 => ⟨S262144x256, .f32⟩
  | 30 => ⟨S1x256, .f32⟩
  | 31 => ⟨S256, .f32⟩
  | 32 => ⟨S1x256, .f32⟩
  | 33 => ⟨S262144x256, .f32⟩
  | 34 => ⟨S262144x256, .f32⟩
  | 35 => ⟨S524288x256, .f32⟩
  | 36 => ⟨S_, .f32⟩
  | 37 => ⟨S32768x256, .f32⟩
  | 38 => ⟨S524288x1, .i32⟩
  | 39 => ⟨S32768x256, .f32⟩
  | 40 => ⟨S1x384x256, .f32⟩
  | 41 => ⟨S384x256, .f32⟩
  | 42 => ⟨S256x384, .f32⟩
  | 43 => ⟨S32768x384, .f32⟩
  | 44 => ⟨S1x384, .f32⟩
  | 45 => ⟨S384, .f32⟩
  | 46 => ⟨S1x384, .f32⟩
  | 47 => ⟨S32768x384, .f32⟩
  | 48 => ⟨S32768x384, .f32⟩
  | 49 => ⟨S1x384x128, .f32⟩
  | 50 => ⟨S384x128, .f32⟩
  | 51 => ⟨S128x384, .f32⟩
  | 52 => ⟨S32768x384, .f32⟩
  | 53 => ⟨S1x384, .f32⟩
  | 54 => ⟨S384, .f32⟩
  | 55 => ⟨S1x384, .f32⟩
  | 56 => ⟨S32768x384, .f32⟩
  | 57 => ⟨S32768x384, .f32⟩
  | 58 => ⟨S32768x128, .f32⟩
  | 59 => ⟨S32768x128, .f32⟩
  | 60 => ⟨S32768x128, .f32⟩
  | 61 => ⟨S32768x128, .f32⟩
  | 62 => ⟨S32768x128, .f32⟩
  | 63 => ⟨S32768x128, .f32⟩
  | 64 => ⟨S32768x128, .f32⟩
  | 65 => ⟨S32768x128, .f32⟩
  | 66 => ⟨S32768x128, .f32⟩
  | 67 => ⟨S_, .f32⟩
  | 68 => ⟨S32768x128, .f32⟩
  | 69 => ⟨S32768x128, .f32⟩
  | 70 => ⟨S_, .f32⟩
  | 71 => ⟨S32768x128, .f32⟩
  | 72 => ⟨S32768x128, .f32⟩
  | 73 => ⟨S32768x128, .f32⟩
  | 74 => ⟨S32768x128, .f32⟩
  | 75 => ⟨S32768x128, .f32⟩
  | 76 => ⟨S_, .f32⟩
  | 77 => ⟨S32768x128, .f32⟩
  | 78 => ⟨S32768x128, .f32⟩
  | 79 => ⟨S_, .f32⟩
  | 80 => ⟨S32768x128, .f32⟩
  | 81 => ⟨S32768x128, .f32⟩
  | 82 => ⟨S32768x128, .f32⟩
  | 83 => ⟨S32768x128, .f32⟩
  | 84 => ⟨S32768x128, .f32⟩
  | 85 => ⟨S_, .f32⟩
  | 86 => ⟨S32768x128, .f32⟩
  | 87 => ⟨S32768x128, .f32⟩
  | 88 => ⟨S32768x128, .f32⟩
  | 89 => ⟨S32768x128, .f32⟩
  | 90 => ⟨S32768x128, .f32⟩
  | 91 => ⟨S32768x128, .f32⟩
  | 92 => ⟨S_, .f32⟩
  | 93 => ⟨S32768, .f32⟩
  | 94 => ⟨S32768x1, .f32⟩
  | 95 => ⟨S32768x1, .f32⟩
  | 96 => ⟨S_, .f32⟩
  | 97 => ⟨S32768x1, .f32⟩
  | 98 => ⟨S32768x1, .f32⟩
  | 99 => ⟨S32768x128, .f32⟩
  | 100 => ⟨S32768x128, .f32⟩
  | 101 => ⟨S128x128, .f32⟩
  | 102 => ⟨S32768x128, .f32⟩
  | 103 => ⟨S1x128, .f32⟩
  | 104 => ⟨S32768x128, .f32⟩
  | 105 => ⟨S32768x128, .f32⟩
  | 106 => ⟨S128x1, .f32⟩
  | 107 => ⟨S32768x1, .f32⟩
  | 108 => ⟨S1x1, .f32⟩
  | 109 => ⟨S32768x1, .f32⟩
  | 110 => ⟨S32768x1, .f32⟩
  | 111 => ⟨S32768x1, .f32⟩
  | 112 => ⟨S32768x1, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S32768x128, .f32⟩
  | 120 => ⟨S32768x128, .f32⟩
  | 121 => ⟨S256x128x128, .f32⟩
  | 122 => ⟨S_, .f32⟩
  | 123 => ⟨S256x128, .f32⟩
  | 124 => ⟨S256x128, .f32⟩
  | 125 => ⟨S_, .f32⟩
  | 126 => ⟨S256, .f32⟩
  | 127 => ⟨S256x1, .f32⟩
  | _ => ⟨S256x128x128, .f32⟩

abbrev hbmTy0_2 (i : Nat) : BufTy := match i % 128 with
  | 0 => ⟨S256x1, .f32⟩
  | 1 => ⟨S_, .f32⟩
  | 2 => ⟨S256x1, .f32⟩
  | 3 => ⟨S256x1, .f32⟩
  | 4 => ⟨S256x128, .f32⟩
  | 5 => ⟨S256x128, .f32⟩
  | 6 => ⟨S128x128, .f32⟩
  | 7 => ⟨S32768x128, .f32⟩
  | 8 => ⟨S1x128, .f32⟩
  | 9 => ⟨S32768x128, .f32⟩
  | 10 => ⟨S32768x128, .f32⟩
  | 11 => ⟨S128x1, .f32⟩
  | 12 => ⟨S32768x1, .f32⟩
  | 13 => ⟨S1x1, .f32⟩
  | 14 => ⟨S32768x1, .f32⟩
  | 15 => ⟨S32768x1, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x128, .f32⟩
  | 25 => ⟨S32768x128, .f32⟩
  | 26 => ⟨S256x128x128, .f32⟩
  | 27 => ⟨S_, .f32⟩
  | 28 => ⟨S256x128, .f32⟩
  | 29 => ⟨S256x128, .f32⟩
  | 30 => ⟨S_, .f32⟩
  | 31 => ⟨S256, .f32⟩
  | 32 => ⟨S256x1, .f32⟩
  | 33 => ⟨S256x1, .f32⟩
  | 34 => ⟨S_, .f32⟩
  | 35 => ⟨S256x1, .f32⟩
  | 36 => ⟨S256x1, .f32⟩
  | 37 => ⟨S256x128, .f32⟩
  | 38 => ⟨S256x128, .f32⟩
  | 39 => ⟨S256x128x128, .f32⟩
  | _ => ⟨S256x128x128, .f32⟩

abbrev hbmTy (i : Nat) : BufTy := match i / 128 with
  | 0 => hbmTy0_0 i
  | 1 => hbmTy0_1 i
  | 2 => hbmTy0_2 i
  | _ => ⟨S256x128x128, .f32⟩

abbrev bufTy : (tb : Table) → Fin (tcTables nBuf tb) → BufTy
  | .hbm, ⟨i, _⟩ => hbmTy i
  | _, _ => ⟨S256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_3 : Ref sig .tc := ⟨.hbm, 100, rfl⟩
abbrev main_v77 : Ref sig .tc := ⟨.hbm, 101, rfl⟩
abbrev main_v78 : Ref sig .tc := ⟨.hbm, 102, rfl⟩
abbrev main_cst_4 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_5 : Ref sig .tc := ⟨.hbm, 109, rfl⟩
abbrev main_v84 : Ref sig .tc := ⟨.hbm, 110, rfl⟩
abbrev main_v85 : Ref sig .tc := ⟨.hbm, 111, rfl⟩
abbrev main_cst_6 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_7 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_8 : Ref sig .tc := ⟨.hbm, 124, rfl⟩
abbrev main_v96 : Ref sig .tc := ⟨.hbm, 125, rfl⟩
abbrev main_v97 : Ref sig .tc := ⟨.hbm, 126, rfl⟩
abbrev main_c_9 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_c_10 : Ref sig .tc := ⟨.hbm, 133, rfl⟩
abbrev main_v103 : Ref sig .tc := ⟨.hbm, 134, rfl⟩
abbrev main_v104 : Ref sig .tc := ⟨.hbm, 135, rfl⟩
abbrev main_c_11 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_12 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_13 : Ref sig .tc := ⟨.hbm, 195, rfl⟩
abbrev main_v162 : Ref sig .tc := ⟨.hbm, 196, rfl⟩
abbrev main_v163 : Ref sig .tc := ⟨.hbm, 197, rfl⟩
abbrev main_cst_14 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_cst_15 : Ref sig .tc := ⟨.hbm, 204, rfl⟩
abbrev main_v169 : Ref sig .tc := ⟨.hbm, 205, rfl⟩
abbrev main_v170 : Ref sig .tc := ⟨.hbm, 206, rfl⟩
abbrev main_cst_16 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_cst_17 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_call0_v0 : Ref sig .tc := ⟨.hbm, 219, rfl⟩
abbrev main_call0_cst : Ref sig .tc := ⟨.hbm, 220, rfl⟩
abbrev main_call0_v1 : Ref sig .tc := ⟨.hbm, 221, rfl⟩
abbrev main_call0_v2 : Ref sig .tc := ⟨.hbm, 222, rfl⟩
abbrev main_v181 : Ref sig .tc := ⟨.hbm, 223, rfl⟩
abbrev main_cst_18 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_cst_19 : Ref sig .tc := ⟨.hbm, 241, rfl⟩
abbrev main_v198 : Ref sig .tc := ⟨.hbm, 242, rfl⟩
abbrev main_v199 : Ref sig .tc := ⟨.hbm, 243, rfl⟩
abbrev main_cst_20 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_cst_21 : Ref sig .tc := ⟨.hbm, 250, rfl⟩
abbrev main_v205 : Ref sig .tc := ⟨.hbm, 251, rfl⟩
abbrev main_call1_v0 : Ref sig .tc := ⟨.hbm, 252, rfl⟩
abbrev main_call1_cst : Ref sig .tc := ⟨.hbm, 253, rfl⟩
abbrev main_call1_v1 : Ref sig .tc := ⟨.hbm, 254, rfl⟩
abbrev main_call1_v2 : Ref sig .tc := ⟨.hbm, 255, rfl⟩
abbrev main_v206 : Ref sig .tc := ⟨.hbm, 256, rfl⟩
abbrev main_cst_22 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_cst_23 : Ref sig .tc := ⟨.hbm, 274, rfl⟩
abbrev main_v223 : Ref sig .tc := ⟨.hbm, 275, rfl⟩
abbrev main_v224 : Ref sig .tc := ⟨.hbm, 276, rfl⟩
abbrev main_cst_24 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_cst_25 : Ref sig .tc := ⟨.hbm, 283, rfl⟩
abbrev main_v230 : Ref sig .tc := ⟨.hbm, 284, rfl⟩
abbrev main_call2_v0 : Ref sig .tc := ⟨.hbm, 285, rfl⟩
abbrev main_call2_cst : Ref sig .tc := ⟨.hbm, 286, rfl⟩
abbrev main_call2_v1 : Ref sig .tc := ⟨.hbm, 287, rfl⟩
abbrev main_call2_v2 : Ref sig .tc := ⟨.hbm, 288, rfl⟩
abbrev main_v231 : Ref sig .tc := ⟨.hbm, 289, rfl⟩
abbrev main_cst_26 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩

abbrev nD : Nat := 1
abbrev τ : Topo := Topo.v7x

variable {F : FTy → Type} [FloatOps F]

class Facts₀ : Prop where
  shapeCasts_S256x128x128_S32768x128 : S256x128x128.ShapeCasts S32768x128
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S262144_S524288_d0 : Shape.Concatenates [S262144, S262144] S524288 0
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x256_d1 : Shape.Concatenates [S524288x128, S524288x128] S524288x256 1
  slices_S524288x256_S262144x256_0_0 : S524288x256.Slices ![0, 0] S262144x256
  slices_S2x256x256_S1x256x256_0_0_0 : S2x256x256.Slices ![0, 0, 0] S1x256x256
  shapeCasts_S1x256x256_S256x256 : S1x256x256.ShapeCasts S256x256
  transposes_S256x256_S256x256_1_0 : S256x256.Transposes [1, 0] S256x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S524288x256_S262144x256_262144_0 : S524288x256.Slices ![262144, 0] S262144x256
  concatenates_S262144x256_S262144x256_S524288x256_d0 : Shape.Concatenates [S262144x256, S262144x256] S524288x256 0
  bcast_S_S32768x256 : S_.BroadcastsInDim S32768x256 (![] : Fin 0 → Fin S32768x256.rank)
  slices_S2x384x256_S1x384x256_0_0_0 : S2x384x256.Slices ![0, 0, 0] S1x384x256
  shapeCasts_S1x384x256_S384x256 : S1x384x256.ShapeCasts S384x256
  transposes_S384x256_S256x384_1_0 : S384x256.Transposes [1, 0] S256x384
  slices_S2x384_S1x384_0_0 : S2x384.Slices ![0, 0] S1x384
  shapeCasts_S1x384_S384 : S1x384.ShapeCasts S384
  bcast_S384_S1x384_1 : S384.BroadcastsInDim S1x384 (![1] : Fin 1 → Fin S1x384.rank)
  bcast_S1x384_S32768x384_0_1 : S1x384.BroadcastsInDim S32768x384 (![0, 1] : Fin 2 → Fin S32768x384.rank)
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S32768x384_S32768x128_0_0 : S32768x384.Slices ![0, 0] S32768x128
  slices_S32768x384_S32768x128_0_128 : S32768x384.Slices ![0, 128] S32768x128
  slices_S32768x384_S32768x128_0_256 : S32768x384.Slices ![0, 256] S32768x128
  bcast_S_S32768x128 : S_.BroadcastsInDim S32768x128 (![] : Fin 0 → Fin S32768x128.rank)
  slices_S2x256x256_S1x256x256_1_0_0 : S2x256x256.Slices ![1, 0, 0] S1x256x256
  slices_S2x256_S1x256_1_0 : S2x256.Slices ![1, 0] S1x256
  slices_S2x384x256_S1x384x256_1_0_0 : S2x384x256.Slices ![1, 0, 0] S1x384x256
  slices_S2x384_S1x384_1_0 : S2x384.Slices ![1, 0] S1x384
  slices_S2x384x128_S1x384x128_1_0_0 : S2x384x128.Slices ![1, 0, 0] S1x384x128
  reducesTo_S32768x128_S32768_d1 : S32768x128.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x128_0_1 : S32768x1.BroadcastsInDim S32768x128 (![0, 1] : Fin 2 → Fin S32768x128.rank)
  transposes_S128x128_S128x128_1_0 : S128x128.Transposes [1, 0] S128x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  transposes_S1x128_S128x1_1_0 : S1x128.Transposes [1, 0] S128x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x128_S256x128x128 : S32768x128.ShapeCasts S256x128x128
  reducesTo_S256x128x128_S256x128_d1 : S256x128x128.ReducesTo [1] S256x128
  reducesTo_S256x128_S256_d1 : S256x128.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  gather_S32768x128_S524288x1_S524288x128_1_0_n_n_0_1_1128_wf : GatherDims.WF S32768x128 S524288x1 S524288x128 [1] [0] [] [0] [] 1 ![1, 128]
  dot_S262144x256_S256x256_S262144x256_1_0_0_1_n_n_wf : DotDims.WF S262144x256 S256x256 S262144x256 [1] [0] [0] [1] [] []
  scatter_S32768x256_S524288x1_S524288x256_1_0_0_1_wf : ScatterDims.WF S32768x256 S524288x1 S524288x256 [1] [0] [0] 1
  dot_S32768x256_S256x384_S32768x384_1_0_0_1_n_n_wf : DotDims.WF S32768x256 S256x384 S32768x384 [1] [0] [0] [1] [] []
  dot_S32768x128_S128x384_S32768x384_1_0_0_1_n_n_wf : DotDims.WF S32768x128 S128x384 S32768x384 [1] [0] [0] [1] [] []
  dot_S32768x128_S128x128_S32768x128_1_0_0_1_n_n_wf : DotDims.WF S32768x128 S128x128 S32768x128 [1] [0] [0] [1] [] []
  dot_S32768x128_S128x1_S32768x1_1_0_0_1_n_n_wf : DotDims.WF S32768x128 S128x1 S32768x1 [1] [0] [0] [1] [] []

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S32768x256_S256x384_S32768x384_1_0_0_1_n_n : DotDims S32768x256 S256x384 S32768x384 where
  lhsContracting := [1]
  rhsContracting := [0]
  lhsNonContracting := [0]
  rhsNonContracting := [1]
  lhsBatch := []
  rhsBatch := []
  wf := dot_S32768x256_S256x384_S32768x384_1_0_0_1_n_n_wf
def dot_S32768x128_S128x384_S32768x384_1_0_0_1_n_n : DotDims S32768x128 S128x384 S32768x384 where
  lhsContracting := [1]
  rhsContracting := [0]
  lhsNonContracting := [0]
  rhsNonContracting := [1]
  lhsBatch := []
  rhsBatch := []
  wf := dot_S32768x128_S128x384_S32768x384_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x128_S128x1_S32768x1_1_0_0_1_n_n : DotDims S32768x128 S128x1 S32768x1 where
  lhsContracting := [1]
  rhsContracting := [0]
  lhsNonContracting := [0]
  rhsNonContracting := [1]
  lhsBatch := []
  rhsBatch := []
  wf := dot_S32768x128_S128x1_S32768x1_1_0_0_1_n_n_wf

class Facts : Prop extends Facts₀ where

variable [Facts]
-- ==== Proof.K.Body0.lean ====
import proofs.«425588_j41618233098847_3_alg».proof.Proof.Gen.Kernel.Launch
import proofs.«425588_j41618233098847_3_alg».proof.Proof.Gen.Kernel.Skeleton
import proofs.«425588_j41618233098847_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4096x128 := Rect.unit (s := S4096x128) ![0, 0] S4096x128.size inb_S4096x128_S4096x128_0_0
abbrev r0_1 : Rect S128x1024 := Rect.unit (s := S128x1024) ![0, 0] S128x1024.size inb_S128x1024_S128x1024_0_0
abbrev r0_2 : Rect S4096x512 := Rect.unit (s := S4096x512) ![0, 0] S4096x512.size inb_S4096x512_S4096x512_0_0

def out0_2 (x0 : Vec F S4096x128 .f32) (x1 : Vec F S128x1024 .bf16) : Vec F S4096x512 .bf16 :=
  View.canon [⟨r0_2, k0_pay2 (View.ld x0 r0_0) (View.ld x1 r0_1)⟩]

def out0_3 (x0 : Vec F S4096x128 .f32) (x1 : Vec F S128x1024 .bf16) : Vec F S4096x512 .f32 :=
  View.canon [⟨r0_2, k0_pay3 (View.ld x0 r0_0) (View.ld x1 r0_1)⟩]

set_option maxHeartbeats 1000000 in
theorem sound_kernel0 (c : Dev nD) (E : Set ℕ) (i arg1 harg1 arg2 harg2 arg3 harg3 arg4 harg4 x0 x1) (K : PUnit → sProp 𝕄) :
    iprop(ownsTc c arg1 fullShare x0 ∗ ownsTc c arg2 fullShare x1 ∗ (∃ d, ownsTc c arg3 fullShare d) ∗ (∃ d, ownsTc c arg4 fullShare d)
        ∗ (iprop(ownsTc c arg1 fullShare x0 ∗ ownsTc c arg2 fullShare x1 ∗ ownsTc c arg3 fullShare (out0_2 x0 x1) ∗ ownsTc c arg4 fullShare (out0_3 x0 x1)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold ownsTc owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (View.cover_of_tiled _ S4096x512.size (by rfl))
  iexists _; isplitr
  swap; · iexact H3
  ipureintro
  exact View.read_writes_eq_canon _ _ _ (View.cover_of_tiled _ S4096x512.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_in (c : Dev nD) (w : Fin cfg0.W) (hw : (cfg0.win w).isOut = false) (t : Fin cfg0.N) (d) :
    (dat0 V c).before w t d = (dat0 V c).after w t := by
  fin_cases w <;> first
    | exact Bool.noConfusion hw
    | exact (dat0 V c).before_in_eq_fetched _ rfl (fun _ => rfl) (fun _ _ _ => rfl) (fun _ => rfl) t d

theorem sound_body0 (c : Dev nD) (t : Fin cfg0.N) :
    iprop((dat0 V c).Φ t.castSucc ∗ (dat0 V c).owesAt () t.castSucc
      ∗ bigSep Finset.univ fun w : Fin cfg0.W => iprop(∃ d, ownsTc c ((cfg0.win w).stage (cfg0.slots t w)) fullShare ((dat0 V c).before w t d)))
    ⊢ wp frame (wpE (defs₀ (F := F)) Variants.none c none) Set.univ (bodyAt0 t) fun _ =>
      iprop((dat0 V c).Φ t.succ ∗ (dat0 V c).owesAt () t.succ
        ∗ bigSep Finset.univ fun w : Fin cfg0.W => ownsTc c ((cfg0.win w).stage (cfg0.slots t w)) fullShare ((dat0 V c).after w t)) := by
  rw [bigSep_W0, bigSep_W0]
  unfold bodyAt0
  simp only [before0_in V c 0 rfl, before0_in V c 1 rfl]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  iframe H0 H1
  isplitl [H2]; · iexists _; iexact H2
  isplitl [H3]; · iexists _; iexact H3
  iintro H
  isplitl [HΦ]; · iexact HΦ
  isplitl [Ho]; · iexact Ho
  iexact H

theorem body_obligation0 (c : Dev nD) : BodyObligation (dat0 (F := F) V c) (defs₀ (F := F)) Variants.none () Set.univ :=
  sound_body0 V c

end Cert.Kernel.Hand

end
-- ==== Proof.K.Body1.lean ====
import proofs.«425588_j41618233098847_3_alg».proof.Proof.Gen.Kernel.Launch
import proofs.«425588_j41618233098847_3_alg».proof.Proof.Gen.Kernel.Skeleton
import proofs.«425588_j41618233098847_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4096x256 := Rect.unit (s := S4096x256) ![0, 0] S4096x256.size inb_S4096x256_S4096x256_0_0
abbrev r1_1 : Rect S4096x1 := Rect.unit (s := S4096x1) ![0, 0] S4096x1.size inb_S4096x1_S4096x1_0_0
abbrev r1_2 : Rect S1x256 := Rect.unit (s := S1x256) ![0, 0] S1x256.size inb_S1x256_S1x256_0_0
abbrev r1_3 : Rect S4096x128 := Rect.unit (s := S4096x128) ![0, 0] S4096x128.size inb_S4096x128_S4096x128_0_0
abbrev r1_4 : Rect S256x384 := Rect.unit (s := S256x384) ![0, 0] S256x384.size inb_S256x384_S256x384_0_0
abbrev r1_5 : Rect S128x384 := Rect.unit (s := S128x384) ![0, 0] S128x384.size inb_S128x384_S128x384_0_0
abbrev r1_6 : Rect S1x384 := Rect.unit (s := S1x384) ![0, 0] S1x384.size inb_S1x384_S1x384_0_0

def out1_12 (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) : Vec F S4096x128 .f32 :=
  View.canon [⟨r1_3, k1_pay1 (k1_pay2 (View.ld x7 r1_3)) (k1_pay3 (View.ld x7 r1_3)) (k1_pay4 (View.ld x0 r1_0) (View.ld x3 r1_1) (View.ld x1 r1_0) (View.ld x5 r1_2) (View.ld x4 r1_1) (View.ld x2 r1_0) (View.ld x6 r1_2) (View.ld x8 r1_4) (View.ld x10 r1_6)) (View.ld x9 r1_5) (View.ld x11 r1_6)⟩]

set_option maxHeartbeats 4000000 in
theorem sound_kernel1 (c : Dev nD) (E : Set ℕ) (i arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (K : PUnit → sProp 𝕄) :
    iprop(ownsTc c arg0 fullShare x0 ∗ ownsTc c arg1 fullShare x1 ∗ ownsTc c arg2 fullShare x2 ∗ ownsTc c arg3 fullShare x3 ∗ ownsTc c arg4 fullShare x4 ∗ ownsTc c arg5 fullShare x5 ∗ ownsTc c arg6 fullShare x6 ∗ ownsTc c arg7 fullShare x7 ∗ ownsTc c arg8 fullShare x8 ∗ ownsTc c arg9 fullShare x9 ∗ ownsTc c arg10 fullShare x10 ∗ ownsTc c arg11 fullShare x11 ∗ (∃ d, ownsTc c arg12 fullShare d)
        ∗ (iprop(ownsTc c arg0 fullShare x0 ∗ ownsTc c arg1 fullShare x1 ∗ ownsTc c arg2 fullShare x2 ∗ ownsTc c arg3 fullShare x3 ∗ ownsTc c arg4 fullShare x4 ∗ ownsTc c arg5 fullShare x5 ∗ ownsTc c arg6 fullShare x6 ∗ ownsTc c arg7 fullShare x7 ∗ ownsTc c arg8 fullShare x8 ∗ ownsTc c arg9 fullShare x9 ∗ ownsTc c arg10 fullShare x10 ∗ ownsTc c arg11 fullShare x11 ∗ ownsTc c arg12 fullShare (out1_12 x0 x1 x2 x3 x4 x5 x6 x7 x8 x9 x10 x11)) -∗ K ⟨⟩))
      ⊢ wp frame (wpE (defs₀ (F := F)) Variants.none c none) E (cc1_kernel i arg0 harg0 arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]; unfold k1_part1_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (View.cover_of_tiled _ S4096x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q w := if w = 1 then fullShare.left else if w = 2 then fullShare.right else fullShare
  owed _ := 0

theorem A_eq1 (c : Dev nD) (w : Fin cfg1.W) : (dat1 V c).A w = V c (Pipeline.arrRef spec1 w) := by
  dsimp only [dat1]

theorem q1_1 (c : Dev nD) : (dat1 V c).q 1 = fullShare.left := by
  dsimp only [dat1]; rw [if_pos rfl]
theorem q1_2 (c : Dev nD) : (dat1 V c).q 2 = fullShare.right := by
  dsimp only [dat1]; rw [if_neg (by decide), if_pos rfl]
theorem q1_of (c : Dev nD) (w : Fin cfg1.W) (h1 : w ≠ 1) (h2 : w ≠ 2) : (dat1 V c).q w = fullShare := by
  dsimp only [dat1]; rw [if_neg h1, if_neg h2]

theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

theorem before1_in (c : Dev nD) (w : Fin cfg1.W) (hw : (cfg1.win w).isOut = false) (t : Fin cfg1.N) (d) :
    (dat1 V c).before w t d = (dat1 V c).after w t := by
  fin_cases w <;> first
    | exact Bool.noConfusion hw
    | exact (dat1 V c).before_in_eq_fetched _ rfl (fun _ => rfl) (fun _ _ _ => rfl) (fun _ => rfl) t d

set_option maxHeartbeats 1000000 in
theorem sound_body1 (c : Dev nD) (t : Fin cfg1.N) :
    iprop((dat1 V c).Φ t.castSucc ∗ (dat1 V c).owesAt () t.castSucc
      ∗ bigSep Finset.univ fun w : Fin cfg1.W => iprop(∃ d, ownsTc c ((cfg1.win w).stage (cfg1.slots t w)) fullShare ((dat1 V c).before w t d)))
    ⊢ wp frame (wpE (defs₀ (F := F)) Variants.none c none) Set.univ (bodyAt1 t) fun _ =>
      iprop((dat1 V c).Φ t.succ ∗ (dat1 V c).owesAt () t.succ
        ∗ bigSep Finset.univ fun w : Fin cfg1.W => ownsTc c ((cfg1.win w).stage (cfg1.slots t w)) fullShare ((dat1 V c).after w t)) := by
  rw [bigSep_W1, bigSep_W1]
  unfold bodyAt1
  simp only [before1_in V c 0 rfl, before1_in V c 1 rfl, before1_in V c 2 rfl, before1_in V c 3 rfl, before1_in V c 4 rfl, before1_in V c 5 rfl, before1_in V c 6 rfl, before1_in V c 7 rfl, before1_in V c 8 rfl, before1_in V c 9 rfl, before1_in V c 10 rfl, before1_in V c 11 rfl]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  iframe H0 H1 H2 H3 H4 H5 H6 H7 H8 H9 H10 H11
  isplitl [H12]; · iexists _; iexact H12
  iintro H
  isplitl [HΦ]; · iexact HΦ
  isplitl [Ho]; · iexact Ho
  iexact H

theorem body_obligation1 (c : Dev nD) : BodyObligation (dat1 (F := F) V c) (defs₀ (F := F)) Variants.none () Set.univ :=
  sound_body1 V c

end Cert.Kernel.Hand

end
-- ==== Proof.K.Body2.lean ====
import proofs.«425588_j41618233098847_3_alg».proof.Proof.Gen.Kernel.Launch
import proofs.«425588_j41618233098847_3_alg».proof.Proof.Gen.Kernel.Skeleton
import proofs.«425588_j41618233098847_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4096x128 := Rect.unit (s := S4096x128) ![0, 0] S4096x128.size inb_S4096x128_S4096x128_0_0
abbrev r2_1 : Rect S128x1024 := Rect.unit (s := S128x1024) ![0, 0] S128x1024.size inb_S128x1024_S128x1024_0_0
abbrev r2_2 : Rect S4096x512 := Rect.unit (s := S4096x512) ![0, 0] S4096x512.size inb_S4096x512_S4096x512_0_0

def out2_2 (x0 : Vec F S4096x128 .f32) (x1 : Vec F S128x1024 .bf16) : Vec F S4096x512 .bf16 :=
  View.canon [⟨r2_2, k2_pay2 (View.ld x0 r2_0) (View.ld x1 r2_1)⟩]

def out2_3 (x0 : Vec F S4096x128 .f32) (x1 : Vec F S128x1024 .bf16) : Vec F S4096x512 .f32 :=
  View.canon [⟨r2_2, k2_pay3 (View.ld x0 r2_0) (View.ld x1 r2_1)⟩]

set_option maxHeartbeats 1000000 in
theorem sound_kernel2 (c : Dev nD) (E : Set ℕ) (i arg1 harg1 arg2 harg2 arg3 harg3 arg4 harg4 x0 x1) (K : PUnit → sProp 𝕄) :
    iprop(ownsTc c arg1 fullShare x0 ∗ ownsTc c arg2 fullShare x1 ∗ (∃ d, ownsTc c arg3 fullShare d) ∗ (∃ d, ownsTc c arg4 fullShare d)
        ∗ (iprop(ownsTc c arg1 fullShare x0 ∗ ownsTc c arg2 fullShare x1 ∗ ownsTc c arg3 fullShare (out2_2 x0 x1) ∗ ownsTc c arg4 fullShare (out2_3 x0 x1)) -∗ K ⟨⟩))
      ⊢ wp frame (wpE (defs₀ (F := F)) Variants.none c none) E (cc2__project_kernel i arg1 harg1 arg2 harg2 arg3 harg3 arg4 harg4) K := by
  simp only [cc2__project_kernel_eq_skeleton]; unfold cc2__project_kernel_skel
  unfold ownsTc owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (View.cover_of_tiled _ S4096x512.size (by rfl))
  iexists _; isplitr
  swap; · iexact H3
  ipureintro
  exact View.read_writes_eq_canon _ _ _ (View.cover_of_tiled _ S4096x512.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_in (c : Dev nD) (w : Fin cfg2.W) (hw : (cfg2.win w).isOut = false) (t : Fin cfg2.N) (d) :
    (dat2 V c).before w t d = (dat2 V c).after w t := by
  fin_cases w <;> first
    | exact Bool.noConfusion hw
    | exact (dat2 V c).before_in_eq_fetched _ rfl (fun _ => rfl) (fun _ _ _ => rfl) (fun _ => rfl) t d

theorem sound_body2 (c : Dev nD) (t : Fin cfg2.N) :
    iprop((dat2 V c).Φ t.castSucc ∗ (dat2 V c).owesAt () t.castSucc
      ∗ bigSep Finset.univ fun w : Fin cfg2.W => iprop(∃ d, ownsTc c ((cfg2.win w).stage (cfg2.slots t w)) fullShare ((dat2 V c).before w t d)))
    ⊢ wp frame (wpE (defs₀ (F := F)) Variants.none c none) Set.univ (bodyAt2 t) fun _ =>
      iprop((dat2 V c).Φ t.succ ∗ (dat2 V c).owesAt () t.succ
        ∗ bigSep Finset.univ fun w : Fin cfg2.W => ownsTc c ((cfg2.win w).stage (cfg2.slots t w)) fullShare ((dat2 V c).after w t)) := by
  rw [bigSep_W2, bigSep_W2]
  unfold bodyAt2
  simp only [before2_in V c 0 rfl, before2_in V c 1 rfl]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  iframe H0 H1
  isplitl [H2]; · iexists _; iexact H2
  isplitl [H3]; · iexists _; iexact H3
  iintro H
  isplitl [HΦ]; · iexact HΦ
  isplitl [Ho]; · iexact Ho
  iexact H

theorem body_obligation2 (c : Dev nD) : BodyObligation (dat2 (F := F) V c) (defs₀ (F := F)) Variants.none () Set.univ :=
  sound_body2 V c

end Cert.Kernel.Hand

end
-- ==== Proof.K.Body3.lean ====
import proofs.«425588_j41618233098847_3_alg».proof.Proof.Gen.Kernel.Launch
import proofs.«425588_j41618233098847_3_alg».proof.Proof.Gen.Kernel.Skeleton
import proofs.«425588_j41618233098847_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4096x256 := Rect.unit (s := S4096x256) ![0, 0] S4096x256.size inb_S4096x256_S4096x256_0_0
abbrev r3_1 : Rect S4096x1 := Rect.unit (s := S4096x1) ![0, 0] S4096x1.size inb_S4096x1_S4096x1_0_0
abbrev r3_2 : Rect S1x256 := Rect.unit (s := S1x256) ![0, 0] S1x256.size inb_S1x256_S1x256_0_0
abbrev r3_3 : Rect S4096x128 := Rect.unit (s := S4096x128) ![0, 0] S4096x128.size inb_S4096x128_S4096x128_0_0
abbrev r3_4 : Rect S256x384 := Rect.unit (s := S256x384) ![0, 0] S256x384.size inb_S256x384_S256x384_0_0
abbrev r3_5 : Rect S128x384 := Rect.unit (s := S128x384) ![0, 0] S128x384.size inb_S128x384_S128x384_0_0
abbrev r3_6 : Rect S1x384 := Rect.unit (s := S1x384) ![0, 0] S1x384.size inb_S1x384_S1x384_0_0

def out3_12 (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) : Vec F S4096x128 .f32 :=
  View.canon [⟨r3_3, k3_pay1 (k3_pay2 (View.ld x7 r3_3)) (k3_pay3 (View.ld x7 r3_3)) (k3_pay4 (View.ld x0 r3_0) (View.ld x3 r3_1) (View.ld x1 r3_0) (View.ld x5 r3_2) (View.ld x4 r3_1) (View.ld x2 r3_0) (View.ld x6 r3_2) (View.ld x8 r3_4) (View.ld x10 r3_6)) (View.ld x9 r3_5) (View.ld x11 r3_6)⟩]

set_option maxHeartbeats 4000000 in
theorem sound_kernel3 (c : Dev nD) (E : Set ℕ) (i arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (K : PUnit → sProp 𝕄) :
    iprop(ownsTc c arg0 fullShare x0 ∗ ownsTc c arg1 fullShare x1 ∗ ownsTc c arg2 fullShare x2 ∗ ownsTc c arg3 fullShare x3 ∗ ownsTc c arg4 fullShare x4 ∗ ownsTc c arg5 fullShare x5 ∗ ownsTc c arg6 fullShare x6 ∗ ownsTc c arg7 fullShare x7 ∗ ownsTc c arg8 fullShare x8 ∗ ownsTc c arg9 fullShare x9 ∗ ownsTc c arg10 fullShare x10 ∗ ownsTc c arg11 fullShare x11 ∗ (∃ d, ownsTc c arg12 fullShare d)
        ∗ (iprop(ownsTc c arg0 fullShare x0 ∗ ownsTc c arg1 fullShare x1 ∗ ownsTc c arg2 fullShare x2 ∗ ownsTc c arg3 fullShare x3 ∗ ownsTc c arg4 fullShare x4 ∗ ownsTc c arg5 fullShare x5 ∗ ownsTc c arg6 fullShare x6 ∗ ownsTc c arg7 fullShare x7 ∗ ownsTc c arg8 fullShare x8 ∗ ownsTc c arg9 fullShare x9 ∗ ownsTc c arg10 fullShare x10 ∗ ownsTc c arg11 fullShare x11 ∗ ownsTc c arg12 fullShare (out3_12 x0 x1 x2 x3 x4 x5 x6 x7 x8 x9 x10 x11)) -∗ K ⟨⟩))
      ⊢ wp frame (wpE (defs₀ (F := F)) Variants.none c none) E (cc3_kernel i arg0 harg0 arg1 harg1 arg2 harg2 arg3 harg3 arg4 harg4 arg5 harg5 arg6 harg6 arg7 harg7 arg8 harg8 arg9 harg9 arg10 harg10 arg11 harg11 arg12 harg12) K := by
  simp only [cc3_kernel_eq_skeleton]; unfold cc3_kernel_skel
  simp only [k3_part1_eq_skeleton]; unfold k3_part1_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (View.cover_of_tiled _ S4096x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
  Φ _ := Pipeline.ΦA spec3 c
  q w := if w = 1 then fullShare.left else if w = 2 then fullShare.right else fullShare
  owed _ := 0

theorem A_eq3 (c : Dev nD) (w : Fin cfg3.W) : (dat3 V c).A w = V c (Pipeline.arrRef spec3 w) := by
  dsimp only [dat3]

theorem q3_1 (c : Dev nD) : (dat3 V c).q 1 = fullShare.left := by
  dsimp only [dat3]; rw [if_pos rfl]
theorem q3_2 (c : Dev nD) : (dat3 V c).q 2 = fullShare.right := by
  dsimp only [dat3]; rw [if_neg (by decide), if_pos rfl]
theorem q3_of (c : Dev nD) (w : Fin cfg3.W) (h1 : w ≠ 1) (h2 : w ≠ 2) : (dat3 V c).q w = fullShare := by
  dsimp only [dat3]; rw [if_neg h1, if_neg h2]

theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]

theorem before3_in (c : Dev nD) (w : Fin cfg3.W) (hw : (cfg3.win w).isOut = false) (t : Fin cfg3.N) (d) :
    (dat3 V c).before w t d = (dat3 V c).after w t := by
  fin_cases w <;> first
    | exact Bool.noConfusion hw
    | exact (dat3 V c).before_in_eq_fetched _ rfl (fun _ => rfl) (fun _ _ _ => rfl) (fun _ => rfl) t d

set_option maxHeartbeats 1000000 in
theorem sound_body3 (c : Dev nD) (t : Fin cfg3.N) :
    iprop((dat3 V c).Φ t.castSucc ∗ (dat3 V c).owesAt () t.castSucc
      ∗ bigSep Finset.univ fun w : Fin cfg3.W => iprop(∃ d, ownsTc c ((cfg3.win w).stage (cfg3.slots t w)) fullShare ((dat3 V c).before w t d)))
    ⊢ wp frame (wpE (defs₀ (F := F)) Variants.none c none) Set.univ (bodyAt3 t) fun _ =>
      iprop((dat3 V c).Φ t.succ ∗ (dat3 V c).owesAt () t.succ
        ∗ bigSep Finset.univ fun w : Fin cfg3.W => ownsTc c ((cfg3.win w).stage (cfg3.slots t w)) fullShare ((dat3 V c).after w t)) := by
  rw [bigSep_W3, bigSep_W3]
  unfold bodyAt3
  simp only [before3_in V c 0 rfl, before3_in V c 1 rfl, before3_in V c 2 rfl, before3_in V c 3 rfl, before3_in V c 4 rfl, before3_in V c 5 rfl, before3_in V c 6 rfl, before3_in V c 7 rfl, before3_in V c 8 rfl, before3_in V c 9 rfl, before3_in V c 10 rfl, before3_in V c 11 rfl]
  rw [show (dat3 V c).Φ t.succ = (dat3 V c).Φ t.castSucc from rfl,
    show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel3 c Set.univ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) _)
  iframe H0 H1 H2 H3 H4 H5 H6 H7 H8 H9 H10 H11
  isplitl [H12]; · iexists _; iexact H12
  iintro H
  isplitl [HΦ]; · iexact HΦ
  isplitl [Ho]; · iexact Ho
  iexact H

theorem body_obligation3 (c : Dev nD) : BodyObligation (dat3 (F := F) V c) (defs₀ (F := F)) Variants.none () Set.univ :=
  sound_body3 V c

end Cert.Kernel.Hand

end
-- ==== Proof.K.Body4.lean ====
import proofs.«425588_j41618233098847_3_alg».proof.Proof.Gen.Kernel.Launch
import proofs.«425588_j41618233098847_3_alg».proof.Proof.Gen.Kernel.Skeleton
import proofs.«425588_j41618233098847_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S32x128x128 := Rect.unit (s := S32x128x128) ![0, 0, 0] S32x128x128.size inb_S32x128x128_S32x128x128_0_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S1x1 := Rect.unit (s := S1x1) ![0, 0] S1x1.size inb_S1x1_S1x1_0_0
abbrev r4_4 : Rect S32x128 := Rect.unit (s := S32x128) ![0, 0] S32x128.size inb_S32x128_S32x128_0_0

def out4_9 (x0 : Vec F S32x128x128 .f32) (x1 : Vec F S128x128 .bf16) (x2 : Vec F S1x128 .f32) (x3 : Vec F S1x128 .f32) (x4 : Vec F S1x1 .f32) : Vec F S32x128 .f32 :=
  View.canon [⟨r4_4, k4_pay4 (View.ld x0 r4_0) (View.ld x1 r4_1) (View.ld x2 r4_2) (View.ld x3 r4_2) (View.ld x4 r4_3)⟩]

def out4_10 (x0 : Vec F S32x128x128 .f32) (x5 : Vec F S128x128 .bf16) (x6 : Vec F S1x128 .f32) (x7 : Vec F S1x128 .f32) (x8 : Vec F S1x1 .f32) : Vec F S32x128 .f32 :=
  View.canon [⟨r4_4, k4_pay1 (k4_pay2 (View.ld x0 r4_0)) (k4_pay5 (View.ld x0 r4_0) (View.ld x5 r4_1)) (View.ld x6 r4_2) (View.ld x7 r4_2) (View.ld x8 r4_3)⟩]

set_option maxHeartbeats 4000000 in
theorem sound_kernel4 (c : Dev nD) (E : Set ℕ) (i arg1 harg1 arg2 harg2 arg3 harg3 arg4 harg4 arg5 harg5 arg6 harg6 arg7 harg7 arg8 harg8 arg9 harg9 arg10 harg10 arg11 harg11 x0 x1 x2 x3 x4 x5 x6 x7 x8) (K : PUnit → sProp 𝕄) :
    iprop(ownsTc c arg1 fullShare x0 ∗ ownsTc c arg2 fullShare x1 ∗ ownsTc c arg3 fullShare x2 ∗ ownsTc c arg4 fullShare x3 ∗ ownsTc c arg5 fullShare x4 ∗ ownsTc c arg6 fullShare x5 ∗ ownsTc c arg7 fullShare x6 ∗ ownsTc c arg8 fullShare x7 ∗ ownsTc c arg9 fullShare x8 ∗ (∃ d, ownsTc c arg10 fullShare d) ∗ (∃ d, ownsTc c arg11 fullShare d)
        ∗ (iprop(ownsTc c arg1 fullShare x0 ∗ ownsTc c arg2 fullShare x1 ∗ ownsTc c arg3 fullShare x2 ∗ ownsTc c arg4 fullShare x3 ∗ ownsTc c arg5 fullShare x4 ∗ ownsTc c arg6 fullShare x5 ∗ ownsTc c arg7 fullShare x6 ∗ ownsTc c arg8 fullShare x7 ∗ ownsTc c arg9 fullShare x8 ∗ ownsTc c arg10 fullShare (out4_9 x0 x1 x2 x3 x4) ∗ ownsTc c arg11 fullShare (out4_10 x0 x5 x6 x7 x8)) -∗ K ⟨⟩))
      ⊢ wp frame (wpE (defs₀ (F := F)) Variants.none c none) E (cc4__readout_kernel i arg1 harg1 arg2 harg2 arg3 harg3 arg4 harg4 arg5 harg5 arg6 harg6 arg7 harg7 arg8 harg8 arg9 harg9 arg10 harg10 arg11 harg11) K := by
  simp only [cc4__readout_kernel_eq_skeleton]; unfold cc4__readout_kernel_skel
  simp only [k4_part1_eq_skeleton]; unfold k4_part1_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (View.cover_of_tiled _ S32x128.size (by rfl))
  iexists _; isplitr
  swap; · iexact H10
  ipureintro
  exact View.read_writes_eq_canon _ _ _ (View.cover_of_tiled _ S32x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t)
    | ⟨10, _⟩ => out4_10 (iblk4 V c 0 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_9 (c : Dev nD) (t : Fin cfg4.N) : (dat4 V c).after 9 t = out4_9 (iblk4 V c 0 t) (iblk4 V c 1 t) (iblk4 V c 2 t) (iblk4 V c 3 t) (iblk4 V c 4 t) := by dsimp only [dat4]
theorem after4_10 (c : Dev nD) (t : Fin cfg4.N) : (dat4 V c).after 10 t = out4_10 (iblk4 V c 0 t) (iblk4 V c 5 t) (iblk4 V c 6 t) (iblk4 V c 7 t) (iblk4 V c 8 t) := by dsimp only [dat4]

theorem before4_in (c : Dev nD) (w : Fin cfg4.W) (hw : (cfg4.win w).isOut = false) (t : Fin cfg4.N) (d) :
    (dat4 V c).before w t d = (dat4 V c).after w t := by
  fin_cases w <;> first
    | exact Bool.noConfusion hw
    | exact (dat4 V c).before_in_eq_fetched _ rfl (fun _ => rfl) (fun _ _ _ => rfl) (fun _ => rfl) t d

set_option maxHeartbeats 1000000 in
theorem sound_body4 (c : Dev nD) (t : Fin cfg4.N) :
    iprop((dat4 V c).Φ t.castSucc ∗ (dat4 V c).owesAt () t.castSucc
      ∗ bigSep Finset.univ fun w : Fin cfg4.W => iprop(∃ d, ownsTc c ((cfg4.win w).stage (cfg4.slots t w)) fullShare ((dat4 V c).before w t d)))
    ⊢ wp frame (wpE (defs₀ (F := F)) Variants.none c none) Set.univ (bodyAt4 t) fun _ =>
      iprop((dat4 V c).Φ t.succ ∗ (dat4 V c).owesAt () t.succ
        ∗ bigSep Finset.univ fun w : Fin cfg4.W => ownsTc c ((cfg4.win w).stage (cfg4.slots t w)) fullShare ((dat4 V c).after w t)) := by
  rw [bigSep_W4, bigSep_W4]
  unfold bodyAt4
  simp only [before4_in V c 0 rfl, before4_in V c 1 rfl, before4_in V c 2 rfl, before4_in V c 3 rfl, before4_in V c 4 rfl, before4_in V c 5 rfl, before4_in V c 6 rfl, before4_in V c 7 rfl, before4_in V c 8 rfl]
  rw [show (dat4 V c).Φ t.succ = (dat4 V c).Φ t.castSucc from rfl,
    show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  iframe H0 H1 H2 H3 H4 H5 H6 H7 H8
  isplitl [H9]; · iexists _; iexact H9
  isplitl [H10]; · iexists _; iexact H10
  iintro H
  isplitl [HΦ]; · iexact HΦ
  isplitl [Ho]; · iexact Ho
  iexact H

theorem body_obligation4 (c : Dev nD) : BodyObligation (dat4 (F := F) V c) (defs₀ (F := F)) Variants.none () Set.univ :=
  sound_body4 V c

end Cert.Kernel.Hand

end
-- ==== Proof.K.Chain.lean ====
import proofs.«425588_j41618233098847_3_alg».proof.Proof.K.Body0
import proofs.«425588_j41618233098847_3_alg».proof.Proof.K.Body1
import proofs.«425588_j41618233098847_3_alg».proof.Proof.K.Body2
import proofs.«425588_j41618233098847_3_alg».proof.Proof.K.Body3
import proofs.«425588_j41618233098847_3_alg».proof.Proof.K.Body4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Function.update (W3 m c) main_v78 ((dat1 (V3 m) c).arrAt 12 cfg1.N)
theorem W4_out (c : Dev nD) : W4 m c main_v78 = (dat1 (V3 m) c).arrAt 12 cfg1.N := by
  unfold W4; exact Function.update_self ..
theorem W4_of_ne (c : Dev nD) (b : Ref sig .tc) (hb : b ≠ main_v78) : W4 m c b = W3 m c b := by
  unfold W4; exact Function.update_of_ne (StableHlo.devRef_ne_of_ne hb) ..
abbrev V4 : (c : Dev nD) → (b : Ref sig .tc) → Buf (Elt F) ((c : Thread nD τ).loc b) := fun c b => W4 m c b

theorem in_of_ne_out1 : ∀ w : Fin cfg1.W, w ≠ 12 → (cfg1.win w).isOut = false ∧ Pipeline.arrRef spec1 w ≠ main_v78 := by decide
theorem hF1 (c : Dev nD) (w : Fin cfg1.W) : (dat1 (V3 m) c).arrAt w cfg1.N = V4 m c (Pipeline.arrRef spec1 w) := by
  by_cases h : w = 12
  · subst h; exact (W4_out m c).symm
  · obtain ⟨hin, hne⟩ := in_of_ne_out1 w h
    exact (((dat1 (V3 m) c).arrAt_in w hin _).trans (A_eq1 (V3 m) c w)).trans (W4_of_ne m c _ hne).symm
theorem hrest1 (c : Dev nD) : ∀ b, b ∉ Finset.univ.image (Pipeline.arrRef spec1) → V4 m c b = V3 m c b :=
  fun b hb => W4_of_ne m c b fun e => hb (Finset.mem_image.mpr ⟨12, Finset.mem_univ _, e.symm⟩)

abbrev W5 : Dev nD → Valuation τ sig (Elt F) := fun c => StableHlo.after hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)
abbrev V7 : (c : Dev nD) → (b : Ref sig .tc) → Buf (Elt F) ((c : Thread nD τ).loc b) := fun c b => W7 m c b

def W8 (c : Dev nD) : Valuation τ sig (Elt F) :=
  Function.update (W7 m c) main_v143 ((dat3 (V7 m) c).arrAt 12 cfg3.N)
theorem W8_out (c : Dev nD) : W8 m c main_v143 = (dat3 (V7 m) c).arrAt 12 cfg3.N := by
  unfold W8; exact Function.update_self ..
theorem W8_of_ne (c : Dev nD) (b : Ref sig .tc) (hb : b ≠ main_v143) : W8 m c b = W7 m c b := by
  unfold W8; exact Function.update_of_ne (StableHlo.devRef_ne_of_ne hb) ..
abbrev V8 : (c : Dev nD) → (b : Ref sig .tc) → Buf (Elt F) ((c : Thread nD τ).loc b) := fun c b => W8 m c b

theorem in_of_ne_out3 : ∀ w : Fin cfg3.W, w ≠ 12 → (cfg3.win w).isOut = false ∧ Pipeline.arrRef spec3 w ≠ main_v143 := by decide
theorem hF3 (c : Dev nD) (w : Fin cfg3.W) : (dat3 (V7 m) c).arrAt w cfg3.N = V8 m c (Pipeline.arrRef spec3 w) := by
  by_cases h : w = 12
  · subst h; exact (W8_out m c).symm
  · obtain ⟨hin, hne⟩ := in_of_ne_out3 w h
    exact (((dat3 (V7 m) c).arrAt_in w hin _).trans (A_eq3 (V7 m) c w)).trans (W8_of_ne m c _ hne).symm
theorem hrest3 (c : Dev nD) : ∀ b, b ∉ Finset.univ.image (Pipeline.arrRef spec3) → V8 m c b = V7 m c b :=
  fun b hb => W8_of_ne m c b fun e => hb (Finset.mem_image.mpr ⟨12, Finset.mem_univ _, e.symm⟩)

abbrev W9 : Dev nD → Valuation τ sig (Elt F) := fun c => StableHlo.after hostOps4 (W8 m c)

abbrev V9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m c) ∗ ∃ r, prngReg c r)

end Cert.Kernel.Hand

end
-- ==== Proof.K.Reg0.lean ====
import proofs.«425588_j41618233098847_3_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.LibSharedArrays.lean ====
import Idealize.ShloMosaic.Lib.Pipeline.Launch
import Mathlib.Data.Finset.Fold

noncomputable section

namespace Idealize.ShloMosaic

open Idealize.SL
open Idealize.SL.BI (sProp bigSep bigSep_congr bigSep_erase bigSep_univ_split)
open scoped Idealize.SL.BI
open Idealize.SL.BI.BIBase Idealize.SL.BI.Laws Idealize.SL.Sem Idealize.SL.ProofMode
open Idealize.SL.RA
open PCS
open TcCoe

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

namespace Pipeline

variable {Λ₀ : SL.Sem.Labels}

theorem bigSep_image_of_injOn {I J : Type} [DecidableEq J] {M : Type} [URA M] {s : Finset I} {g : I → J}
    (H : Set.InjOn g ↑s) (Φ : J → sProp M) : bigSep (s.image g) Φ = bigSep s fun i => Φ (g i) :=
  Finset.fold_image H

theorem sep_regroup {M : Type} [URA M] {A Ai Aj R : sProp M} (h₁ : A ⊢ iprop(Ai ∗ Aj)) (h₂ : iprop(Ai ∗ Aj) ⊢ A) :
    (iprop(A ∗ R) ⊢ iprop(Aj ∗ Ai ∗ R)) ∧ (iprop(Aj ∗ Ai ∗ R) ⊢ iprop(A ∗ R)) := by
  constructor
  · iintro ⟨HA, HR⟩
    ihave HA := (h₁) $$ HA
    icases HA with ⟨Hi, Hj⟩
    isplitl [Hj]; · iexact Hj
    isplitl [Hi]; · iexact Hi
    iexact HR
  · iintro ⟨Hj, Hi, HR⟩
    isplitl [Hi Hj]
    · iapply (h₂)
      isplitl [Hi]; · iexact Hi
      iexact Hj
    · iexact HR

section Facts

variable {gr : Nat} {W : Nat} (win : Fin W → WinSpec sig gr)

structure SharedPair (i j : Fin W) : Prop where
  ne : i ≠ j
  same : arrRef win i = arrRef win j
  inj : ∀ w w', w ≠ j → w' ≠ j → arrRef win w = arrRef win w' → w = w'

instance (i j : Fin W) : Decidable (SharedPair win i j) :=
  decidable_of_iff (i ≠ j ∧ arrRef win i = arrRef win j ∧ ∀ w w', w ≠ j → w' ≠ j → arrRef win w = arrRef win w' → w = w')
    ⟨fun ⟨h₁, h₂, h₃⟩ => ⟨h₁, h₂, h₃⟩, fun ⟨h₁, h₂, h₃⟩ => ⟨h₁, h₂, h₃⟩⟩

variable {win}

theorem arrBufs_pair (c : Dev nD) {i j : Fin W} (h : SharedPair win i j)
    (V : (b : Ref sig .tc) → Buf Val ((c.tc : Thread nD τ).loc b)) :
    (arrBufs win c V : sProp 𝕄)
      = iprop((((c.tc : Thread nD τ).loc (arrRef win i)) ↦{fullShare} V (arrRef win i))
        ∗ bigSep ((Finset.univ.erase j).erase i) fun w => (((c.tc : Thread nD τ).loc (arrRef win w)) ↦{fullShare} V (arrRef win w))) := by
  classical
  have himg : Finset.univ.image (arrRef win) = (Finset.univ.erase j).image (arrRef win) := by
    ext b
    constructor
    · intro hb
      obtain ⟨w, -, rfl⟩ := Finset.mem_image.mp hb
      by_cases hw : w = j
      · exact Finset.mem_image.mpr ⟨i, Finset.mem_erase.mpr ⟨h.ne, Finset.mem_univ i⟩, by rw [hw, h.same]⟩
      · exact Finset.mem_image.mpr ⟨w, Finset.mem_erase.mpr ⟨hw, Finset.mem_univ w⟩, rfl⟩
    · intro hb
      obtain ⟨w, -, rfl⟩ := Finset.mem_image.mp hb
      exact Finset.mem_image.mpr ⟨w, Finset.mem_univ w, rfl⟩
  have hinj : Set.InjOn (arrRef win) ↑(Finset.univ.erase j : Finset (Fin W)) := fun w hw w' hw' e =>
    h.inj w w' (Finset.ne_of_mem_erase (Finset.mem_coe.mp hw)) (Finset.ne_of_mem_erase (Finset.mem_coe.mp hw')) e
  unfold arrBufs
  rw [himg, bigSep_image_of_injOn hinj, bigSep_erase (Finset.mem_erase.mpr ⟨h.ne, Finset.mem_univ i⟩)]
  rfl

end Facts

theorem pointsTo_ref_congr (c : Dev nD) (V : (b : Ref sig .tc) → Buf Val ((c.tc : Thread nD τ).loc b)) (q : PosShare TreeShare)
    {b b' : Ref sig .tc} (e : b = b') :
    ((((c.tc : Thread nD τ).loc b) ↦{q} V b : sProp 𝕄)) = (((c.tc : Thread nD τ).loc b') ↦{q} V b') := by
  subst e; rfl

variable (cfg : Cfg sig Λ₀) (c : Dev nD) (dat : Dat τ Val Ix Name U Lvl cfg c)

theorem arrBufs_pair_iff {i j : Fin cfg.W} (h : SharedPair cfg.spec i j) (harr : ∀ w, (cfg.spec w).arr.IsWhole)
    (hfull : ∀ w, w ≠ i → w ≠ j → dat.share w = fullShare) (hsh : fullShare ∈ dat.share i ·? dat.share j)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    ((arrBufs cfg.spec c V : sProp 𝕄) ⊢ dat.arrays F) ∧ (dat.arrays F ⊢ (arrBufs cfg.spec c V : sProp 𝕄)) := by
  classical
  have hA : dat.arrays F = bigSep Finset.univ fun w =>
      ((((c.tc : Thread nD τ).loc (arrRef cfg.spec w)) ↦{dat.share w} V (arrRef cfg.spec w) : sProp 𝕄)) := by
    unfold Dat.arrays
    exact bigSep_congr fun w _ => by rw [(harr w).set_eq_univ, hF]
  have hR : (bigSep ((Finset.univ.erase j).erase i) fun w =>
        ((((c.tc : Thread nD τ).loc (arrRef cfg.spec w)) ↦{dat.share w} V (arrRef cfg.spec w) : sProp 𝕄)))
      = bigSep ((Finset.univ.erase j).erase i) fun w => (((c.tc : Thread nD τ).loc (arrRef cfg.spec w)) ↦{fullShare} V (arrRef cfg.spec w)) :=
    bigSep_congr fun w hw => by
      rw [hfull w (Finset.ne_of_mem_erase hw) (Finset.ne_of_mem_erase (Finset.mem_of_mem_erase hw))]
  rw [hA, bigSep_univ_split j, bigSep_erase (Finset.mem_erase.mpr ⟨h.ne, Finset.mem_univ i⟩), hR, arrBufs_pair c h V,
    pointsTo_ref_congr c V (dat.share j) h.same.symm]
  exact sep_regroup (pointsTo_share hsh).1 (pointsTo_share hsh).2

theorem arrays_of_unscopedBufs_pair (hw : WinFacts₀ cfg.spec) {i j : Fin cfg.W} (h : SharedPair cfg.spec i j)
    (harr : ∀ w, (cfg.spec w).arr.IsWhole)
    (hfull : ∀ w, w ≠ i → w ≠ j → dat.share w = fullShare) (hsh : fullShare ∈ dat.share i ·? dat.share j)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (unscopedBufs c V : sProp 𝕄) ⊢ iprop(dat.arrays F ∗ unscopedRest cfg.spec c V) := by
  have hs : (unscopedBufs c V : sProp 𝕄) = iprop((arrBufs cfg.spec c V : sProp 𝕄) ∗ unscopedRest cfg.spec c V) :=
    PerCore.unscopedBufs_split₀ (fun _ (_ : Unit) => cfg) () c hw.arr_unscoped V
  rw [hs]
  exact sep_mono (arrBufs_pair_iff cfg c dat h harr hfull hsh V F hF).1 .rfl

theorem unscopedBufs_of_arrays_pair (hw : WinFacts₀ cfg.spec) {i j : Fin cfg.W} (h : SharedPair cfg.spec i j)
    (harr : ∀ w, (cfg.spec w).arr.IsWhole)
    (hfull : ∀ w, w ≠ i → w ≠ j → dat.share w = fullShare) (hsh : fullShare ∈ dat.share i ·? dat.share j)
    (V V' : (b : Ref sig .tc) → Buf Val ((c.tc : Thread nD τ).loc b))
    (F : (w : Fin cfg.W) → Buf Val ((cfg.spec w).arr.view.loc (c.tc : Thread nD τ))) (hF : ∀ w, F w = V' (arrRef cfg.spec w))
    (hrest : ∀ b, b ∉ Finset.univ.image (arrRef cfg.spec) → V' b = V b) :
    iprop(dat.arrays F ∗ unscopedRest cfg.spec c V) ⊢ (unscopedBufs c V' : sProp 𝕄) := by
  have hs : (unscopedBufs c V' : sProp 𝕄) = iprop((arrBufs cfg.spec c V' : sProp 𝕄) ∗ unscopedRest cfg.spec c V') :=
    PerCore.unscopedBufs_split₀ (fun _ (_ : Unit) => cfg) () c hw.arr_unscoped V'
  rw [hs]
  refine sep_mono (arrBufs_pair_iff cfg c dat h harr hfull hsh V' F hF).2 (Entails.of_eq ?_)
  unfold unscopedRest
  exact bigSep_congr fun b hb => by rw [hrest b (Finset.mem_sdiff.mp hb).2]

end Pipeline

end Idealize.ShloMosaic

end
-- ==== Proof.K.Shared1.lean ====
import proofs.«425588_j41618233098847_3_alg».proof.Proof.Gen.Kernel.Launch
import Idealize.ShloMosaic.Lib.Pipeline.RegionsLoop
import Idealize.ShloMosaic.Lib.Pipeline.FrameSuffix
import proofs.«425588_j41618233098847_3_alg».proof.Proof.LibSharedArrays

set_option maxRecDepth 1544

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open PCS
open Idealize.ShloMosaic.Pipeline (Dat)

variable {F : FTy → Type} [FloatOps F]

local notation "𝕄" => MT nD τ sig Unit (Elt F) ℕ (UR sig nD τ) ℕ

theorem sharedPair1 : Pipeline.SharedPair spec1 1 2 := by decide

section

variable {c : Dev nD} (dat : Dat τ (Elt F) Unit ℕ (UR sig nD τ) ℕ cfg1 c)

theorem share_rest1 (hq : ∀ w, w ≠ 1 → w ≠ 2 → dat.q w = fullShare) (w : Fin cfg1.W) (h1 : w ≠ 1) (h2 : w ≠ 2) :
    dat.share w = fullShare := by
  unfold Dat.share
  split
  · rfl
  · exact hq w h1 h2

theorem share_pair1 (hq1 : dat.q 1 = fullShare.left) (hq2 : dat.q 2 = fullShare.right) :
    fullShare ∈ dat.share (1 : Fin cfg1.W) ·? dat.share (2 : Fin cfg1.W) := by
  have e1 : dat.share (1 : Fin cfg1.W) = fullShare.left := by
    unfold Dat.share; rw [if_neg (by decide), hq1]
  have e2 : dat.share (2 : Fin cfg1.W) = fullShare.right := by
    unfold Dat.share; rw [if_neg (by decide), hq2]
  rw [e1, e2]
  exact PosShare.mem_left_op_right fullShare

theorem entry1 (hq1 : dat.q 1 = fullShare.left) (hq2 : dat.q 2 = fullShare.right)
    (hq : ∀ w, w ≠ 1 → w ≠ 2 → dat.q w = fullShare)
    (V : (b : Ref sig .tc) → Buf (Elt F) ((c.tc : Thread nD τ).loc b)) :
    (unscopedBufs c V : sProp 𝕄) ⊢ iprop(dat.arrays (fun w => V (Pipeline.arrRef spec1 w)) ∗ Pipeline.unscopedRest spec1 c V) :=
  Pipeline.arrays_of_unscopedBufs_pair cfg1 c dat winFacts₀1 sharedPair1 arr_whole1 (share_rest1 dat hq)
    (share_pair1 dat hq1 hq2) V (fun w => V (Pipeline.arrRef spec1 w)) fun _ => rfl

theorem exit1 (hq1 : dat.q 1 = fullShare.left) (hq2 : dat.q 2 = fullShare.right)
    (hq : ∀ w, w ≠ 1 → w ≠ 2 → dat.q w = fullShare)
    (V V' : (b : Ref sig .tc) → Buf (Elt F) ((c.tc : Thread nD τ).loc b))
    (Fw : (w : Fin cfg1.W) → Buf (Elt F) ((cfg1.win w).arr.view.loc (c.tc : Thread nD τ)))
    (hF : ∀ w, Fw w = V' (Pipeline.arrRef spec1 w))
    (hrest : ∀ b, b ∉ Finset.univ.image (Pipeline.arrRef spec1) → V' b = V b) :
    iprop(dat.arrays Fw ∗ Pipeline.unscopedRest spec1 c V) ⊢ (unscopedBufs c V' : sProp 𝕄) :=
  Pipeline.unscopedBufs_of_arrays_pair cfg1 c dat winFacts₀1 sharedPair1 arr_whole1 (share_rest1 dat hq)
    (share_pair1 dat hq1 hq2) V V' Fw hF hrest

end

end Cert.Kernel.Hand

end
-- ==== Proof.K.Reg1.lean ====
import proofs.«425588_j41618233098847_3_alg».proof.Proof.K.Chain
import proofs.«425588_j41618233098847_3_alg».proof.Proof.K.Shared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 (F := F) (c := c) (dat1 (V3 m) c) (q1_1 (V3 m) c) (q1_2 (V3 m) c) (fun w h1 h2 => q1_of (V3 m) c w h1 h2) (V3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) (c := c) (dat1 (V3 m) c) (q1_1 (V3 m) c) (q1_2 (V3 m) c) (fun w h1 h2 => q1_of (V3 m) c w h1 h2)
      (V3 m c) (V4 m c) ((dat1 (V3 m) c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Reg2.lean ====
import proofs.«425588_j41618233098847_3_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Shared3.lean ====
import proofs.«425588_j41618233098847_3_alg».proof.Proof.Gen.Kernel.Launch
import Idealize.ShloMosaic.Lib.Pipeline.RegionsLoop
import Idealize.ShloMosaic.Lib.Pipeline.FrameSuffix
import proofs.«425588_j41618233098847_3_alg».proof.Proof.LibSharedArrays

set_option maxRecDepth 1544

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open PCS
open Idealize.ShloMosaic.Pipeline (Dat)

variable {F : FTy → Type} [FloatOps F]

local notation "𝕄" => MT nD τ sig Unit (Elt F) ℕ (UR sig nD τ) ℕ

theorem sharedPair3 : Pipeline.SharedPair spec3 1 2 := by decide

section

variable {c : Dev nD} (dat : Dat τ (Elt F) Unit ℕ (UR sig nD τ) ℕ cfg3 c)

theorem share_rest3 (hq : ∀ w, w ≠ 1 → w ≠ 2 → dat.q w = fullShare) (w : Fin cfg3.W) (h1 : w ≠ 1) (h2 : w ≠ 2) :
    dat.share w = fullShare := by
  unfold Dat.share
  split
  · rfl
  · exact hq w h1 h2

theorem share_pair3 (hq1 : dat.q 1 = fullShare.left) (hq2 : dat.q 2 = fullShare.right) :
    fullShare ∈ dat.share (1 : Fin cfg3.W) ·? dat.share (2 : Fin cfg3.W) := by
  have e1 : dat.share (1 : Fin cfg3.W) = fullShare.left := by
    unfold Dat.share; rw [if_neg (by decide), hq1]
  have e2 : dat.share (2 : Fin cfg3.W) = fullShare.right := by
    unfold Dat.share; rw [if_neg (by decide), hq2]
  rw [e1, e2]
  exact PosShare.mem_left_op_right fullShare

theorem entry3 (hq1 : dat.q 1 = fullShare.left) (hq2 : dat.q 2 = fullShare.right)
    (hq : ∀ w, w ≠ 1 → w ≠ 2 → dat.q w = fullShare)
    (V : (b : Ref sig .tc) → Buf (Elt F) ((c.tc : Thread nD τ).loc b)) :
    (unscopedBufs c V : sProp 𝕄) ⊢ iprop(dat.arrays (fun w => V (Pipeline.arrRef spec3 w)) ∗ Pipeline.unscopedRest spec3 c V) :=
  Pipeline.arrays_of_unscopedBufs_pair cfg3 c dat winFacts₀3 sharedPair3 arr_whole3 (share_rest3 dat hq)
    (share_pair3 dat hq1 hq2) V (fun w => V (Pipeline.arrRef spec3 w)) fun _ => rfl

theorem exit3 (hq1 : dat.q 1 = fullShare.left) (hq2 : dat.q 2 = fullShare.right)
    (hq : ∀ w, w ≠ 1 → w ≠ 2 → dat.q w = fullShare)
    (V V' : (b : Ref sig .tc) → Buf (Elt F) ((c.tc : Thread nD τ).loc b))
    (Fw : (w : Fin cfg3.W) → Buf (Elt F) ((cfg3.win w).arr.view.loc (c.tc : Thread nD τ)))
    (hF : ∀ w, Fw w = V' (Pipeline.arrRef spec3 w))
    (hrest : ∀ b, b ∉ Finset.univ.image (Pipeline.arrRef spec3) → V' b = V b) :
    iprop(dat.arrays Fw ∗ Pipeline.unscopedRest spec3 c V) ⊢ (unscopedBufs c V' : sProp 𝕄) :=
  Pipeline.unscopedBufs_of_arrays_pair cfg3 c dat winFacts₀3 sharedPair3 arr_whole3 (share_rest3 dat hq)
    (share_pair3 dat hq1 hq2) V V' Fw hF hrest

end

end Cert.Kernel.Hand

end
-- ==== Proof.K.Reg3.lean ====
import proofs.«425588_j41618233098847_3_alg».proof.Proof.K.Chain
import proofs.«425588_j41618233098847_3_alg».proof.Proof.K.Shared3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := entry3 (F := F) (c := c) (dat3 (V7 m) c) (q3_1 (V7 m) c) (q3_2 (V7 m) c) (fun w h1 h2 => q3_of (V7 m) c w h1 h2) (V7 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (F := F) (c := c) (dat3 (V7 m) c) (q3_1 (V7 m) c) (q3_2 (V7 m) c) (fun w h1 h2 => q3_of (V7 m) c w h1 h2)
      (V7 m c) (V8 m c) ((dat3 (V7 m) c).arrAt · cfg3.N) (hF3 m c) (hrest3 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Reg4.lean ====
import proofs.«425588_j41618233098847_3_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
import proofs.«425588_j41618233098847_3_alg».proof.Proof.K.Reg0
import proofs.«425588_j41618233098847_3_alg».proof.Proof.K.Reg1
import proofs.«425588_j41618233098847_3_alg».proof.Proof.K.Reg2
import proofs.«425588_j41618233098847_3_alg».proof.Proof.K.Reg3
import proofs.«425588_j41618233098847_3_alg».proof.Proof.K.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]

theorem main_run (c : Dev nD) : main (F := F) c = Pipeline.Seg.run (segs m) := (main_chain c).trans (by chain_rfl)

set_option backward.isDefEq.respectTransparency.types false in

theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W10 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := hQ)

end Cert.Kernel.Hand

end
-- ==== Proof.K.Keep.lean ====
import proofs.«425588_j41618233098847_3_alg».proof.Proof.K.Chain
import proofs.«425588_j41618233098847_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W2_keep (c : Dev nD) (b : Ref sig .tc) (h : ∀ w, Pipeline.arrRef spec0 w = b → (cfg0.win w).isOut = false) :
    W2 m c b = W1 m c b := by
  by_cases hb : ∃ w, Pipeline.arrRef spec0 w = b
  · obtain ⟨w, rfl⟩ := hb
    exact (W2_arr m c w).trans (((dat0 (V1 m) c).arrAt_in w (h w rfl) _).trans (A_eq0 (V1 m) c w))
  · exact W2_of_ne m c b fun w e => hb ⟨w, e⟩

theorem W6_keep (c : Dev nD) (b : Ref sig .tc) (h : ∀ w, Pipeline.arrRef spec2 w = b → (cfg2.win w).isOut = false) :
    W6 m c b = W5 m c b := by
  by_cases hb : ∃ w, Pipeline.arrRef spec2 w = b
  · obtain ⟨w, rfl⟩ := hb
    exact (W6_arr m c w).trans (((dat2 (V5 m) c).arrAt_in w (h w rfl) _).trans (A_eq2 (V5 m) c w))
  · exact W6_of_ne m c b fun w e => hb ⟨w, e⟩

theorem W10_keep (c : Dev nD) (b : Ref sig .tc) (h : ∀ w, Pipeline.arrRef spec4 w = b → (cfg4.win w).isOut = false) :
    W10 m c b = W9 m c b := by
  by_cases hb : ∃ w, Pipeline.arrRef spec4 w = b
  · obtain ⟨w, rfl⟩ := hb
    exact (W10_arr m c w).trans (((dat4 (V9 m) c).arrAt_in w (h w rfl) _).trans (A_eq4 (V9 m) c w))
  · exact W10_of_ne m c b fun w e => hb ⟨w, e⟩

theorem W1_keep (c : Dev nD) (b : Ref sig .tc) (h : b ∉ hostOps0_W) : W1 m c b = W0 m c b :=
  StableHlo.after_of_writes_sub hostOps0 _ hostOps0_writes h
theorem W3_keep (c : Dev nD) (b : Ref sig .tc) (h : b ∉ hostOps1_W) : W3 m c b = W2 m c b :=
  StableHlo.after_of_writes_sub hostOps1 _ hostOps1_writes h
theorem W5_keep (c : Dev nD) (b : Ref sig .tc) (h : b ∉ hostOps2_W) : W5 m c b = W4 m c b :=
  StableHlo.after_of_writes_sub hostOps2 _ hostOps2_writes h
theorem W7_keep (c : Dev nD) (b : Ref sig .tc) (h : b ∉ hostOps3_W) : W7 m c b = W6 m c b :=
  StableHlo.after_of_writes_sub hostOps3 _ hostOps3_writes h
theorem W9_keep (c : Dev nD) (b : Ref sig .tc) (h : b ∉ hostOps4_W) : W9 m c b = W8 m c b :=
  StableHlo.after_of_writes_sub hostOps4 _ hostOps4_writes h

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17]

theorem arg_untouched : ∀ b ∈ argRefs,
    b ∉ hostOps0_W ∧ b ∉ hostOps1_W ∧ b ∉ hostOps2_W ∧ b ∉ hostOps3_W ∧ b ∉ hostOps4_W
    ∧ (∀ w, Pipeline.arrRef spec0 w = b → (cfg0.win w).isOut = false)
    ∧ (∀ w, Pipeline.arrRef spec2 w = b → (cfg2.win w).isOut = false)
    ∧ (∀ w, Pipeline.arrRef spec4 w = b → (cfg4.win w).isOut = false)
    ∧ b ≠ main_v78 ∧ b ≠ main_v143 := by decide

theorem W10_arg (c : Dev nD) (b : Ref sig .tc) (hb : b ∈ argRefs) : W10 m c b = m (c, b) := by
  obtain ⟨h0, h1, h2, h3, h4, k0, k2, k4, n1, n3⟩ := arg_untouched b hb
  exact (W10_keep m c b k4).trans <| (W9_keep m c b h4).trans <| (W8_of_ne m c b n3).trans <| (W7_keep m c b h3).trans <|
    (W6_keep m c b k2).trans <| (W5_keep m c b h2).trans <| (W4_of_ne m c b n1).trans <| (W3_keep m c b h1).trans <|
    (W2_keep m c b k0).trans <| (W1_keep m c b h0)

end Cert.Kernel.Hand

end
-- ==== Proof.K.Frame.lean ====
import proofs.«425588_j41618233098847_3_alg».proof.Proof.K.Run
import proofs.«425588_j41618233098847_3_alg».proof.Proof.K.Keep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_all m ρ fun s h c => ⟨
    (h c _ (mem_uc main_arg0 (by decide))).trans (W10_arg m c main_arg0 (by decide)),
    (h c _ (mem_uc main_arg1 (by decide))).trans (W10_arg m c main_arg1 (by decide)),
    (h c _ (mem_uc main_arg2 (by decide))).trans (W10_arg m c main_arg2 (by decide)),
    (h c _ (mem_uc main_arg3 (by decide))).trans (W10_arg m c main_arg3 (by decide)),
    (h c _ (mem_uc main_arg4 (by decide))).trans (W10_arg m c main_arg4 (by decide)),
    (h c _ (mem_uc main_arg5 (by decide))).trans (W10_arg m c main_arg5 (by decide)),
    (h c _ (mem_uc main_arg6 (by decide))).trans (W10_arg m c main_arg6 (by decide)),
    (h c _ (mem_uc main_arg7 (by decide))).trans (W10_arg m c main_arg7 (by decide)),
    (h c _ (mem_uc main_arg8 (by decide))).trans (W10_arg m c main_arg8 (by decide)),
    (h c _ (mem_uc main_arg9 (by decide))).trans (W10_arg m c main_arg9 (by decide)),
    (h c _ (mem_uc main_arg10 (by decide))).trans (W10_arg m c main_arg10 (by decide)),
    (h c _ (mem_uc main_arg11 (by decide))).trans (W10_arg m c main_arg11 (by decide)),
    (h c _ (mem_uc main_arg12 (by decide))).trans (W10_arg m c main_arg12 (by decide)),
    (h c _ (mem_uc main_arg13 (by decide))).trans (W10_arg m c main_arg13 (by decide)),
    (h c _ (mem_uc main_arg14 (by decide))).trans (W10_arg m c main_arg14 (by decide)),
    (h c _ (mem_uc main_arg15 (by decide))).trans (W10_arg m c main_arg15 (by decide)),
    (h c _ (mem_uc main_arg16 (by decide))).trans (W10_arg m c main_arg16 (by decide)),
    (h c _ (mem_uc main_arg17 (by decide))).trans (W10_arg m c main_arg17 (by decide))⟩

theorem run_results : θ_run defs (onTc (τ := τ) (main (F := F))) ⟨m, fun _ => 0, ρ⟩ (fun r => ∀ c : Dev nD,
      r.2.mem ((c.tc : Thread nD τ).loc main_v144) = W10 m c main_v144
      ∧ r.2.mem ((c.tc : Thread nD τ).loc main_v153_0) = W10 m c main_v153_0
      ∧ r.2.mem ((c.tc : Thread nD τ).loc main_v153_1) = W10 m c main_v153_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_all m ρ fun s h c => ⟨h c _ (mem_uc main_v144 (by decide)), h c _ (mem_uc main_v153_0 (by decide)), h c _ (mem_uc main_v153_1 (by decide)),
    (h c _ (mem_uc main_arg0 (by decide))).trans (W10_arg m c main_arg0 (by decide)),
    (h c _ (mem_uc main_arg1 (by decide))).trans (W10_arg m c main_arg1 (by decide)),
    (h c _ (mem_uc main_arg2 (by decide))).trans (W10_arg m c main_arg2 (by decide)),
    (h c _ (mem_uc main_arg3 (by decide))).trans (W10_arg m c main_arg3 (by decide)),
    (h c _ (mem_uc main_arg4 (by decide))).trans (W10_arg m c main_arg4 (by decide)),
    (h c _ (mem_uc main_arg5 (by decide))).trans (W10_arg m c main_arg5 (by decide)),
    (h c _ (mem_uc main_arg6 (by decide))).trans (W10_arg m c main_arg6 (by decide)),
    (h c _ (mem_uc main_arg7 (by decide))).trans (W10_arg m c main_arg7 (by decide)),
    (h c _ (mem_uc main_arg8 (by decide))).trans (W10_arg m c main_arg8 (by decide)),
    (h c _ (mem_uc main_arg9 (by decide))).trans (W10_arg m c main_arg9 (by decide)),
    (h c _ (mem_uc main_arg10 (by decide))).trans (W10_arg m c main_arg10 (by decide)),
    (h c _ (mem_uc main_arg11 (by decide))).trans (W10_arg m c main_arg11 (by decide)),
    (h c _ (mem_uc main_arg12 (by decide))).trans (W10_arg m c main_arg12 (by decide)),
    (h c _ (mem_uc main_arg13 (by decide))).trans (W10_arg m c main_arg13 (by decide)),
    (h c _ (mem_uc main_arg14 (by decide))).trans (W10_arg m c main_arg14 (by decide)),
    (h c _ (mem_uc main_arg15 (by decide))).trans (W10_arg m c main_arg15 (by decide)),
    (h c _ (mem_uc main_arg16 (by decide))).trans (W10_arg m c main_arg16 (by decide)),
    (h c _ (mem_uc main_arg17 (by decide))).trans (W10_arg m c main_arg17 (by decide))⟩

end Cert.Kernel.Hand

end
-- ==== Proof.KI.Body0.lean ====
import proofs.«425588_j41618233098847_3_alg».proof.Proof.Gen.KernelIdeal.Launch
import proofs.«425588_j41618233098847_3_alg».proof.Proof.Gen.KernelIdeal.Skeleton
import proofs.«425588_j41618233098847_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4096x128 := Rect.unit (s := S4096x128) ![0, 0] S4096x128.size inb_S4096x128_S4096x128_0_0
abbrev r0_1 : Rect S128x1024 := Rect.unit (s := S128x1024) ![0, 0] S128x1024.size inb_S128x1024_S128x1024_0_0
abbrev r0_2 : Rect S4096x512 := Rect.unit (s := S4096x512) ![0, 0] S4096x512.size inb_S4096x512_S4096x512_0_0

def out0_2 (x0 : Vec F S4096x128 .f32) (x1 : Vec F S128x1024 .bf16) : Vec F S4096x512 .bf16 :=
  View.canon [⟨r0_2, k0_pay2 (View.ld x0 r0_0) (View.ld x1 r0_1)⟩]

def out0_3 (x0 : Vec F S4096x128 .f32) (x1 : Vec F S128x1024 .bf16) : Vec F S4096x512 .f32 :=
  View.canon [⟨r0_2, k0_pay3 (View.ld x0 r0_0) (View.ld x1 r0_1)⟩]

set_option maxHeartbeats 1000000 in
theorem sound_kernel0 (c : Dev nD) (E : Set ℕ) (i arg1 harg1 arg2 harg2 arg3 harg3 arg4 harg4 x0 x1) (K : PUnit → sProp 𝕄) :
    iprop(ownsTc c arg1 fullShare x0 ∗ ownsTc c arg2 fullShare x1 ∗ (∃ d, ownsTc c arg3 fullShare d) ∗ (∃ d, ownsTc c arg4 fullShare d)
        ∗ (iprop(ownsTc c arg1 fullShare x0 ∗ ownsTc c arg2 fullShare x1 ∗ ownsTc c arg3 fullShare (out0_2 x0 x1) ∗ ownsTc c arg4 fullShare (out0_3 x0 x1)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold ownsTc owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (View.cover_of_tiled _ S4096x512.size (by rfl))
  iexists _; isplitr
  swap; · iexact H3
  ipureintro
  exact View.read_writes_eq_canon _ _ _ (View.cover_of_tiled _ S4096x512.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_in (c : Dev nD) (w : Fin cfg0.W) (hw : (cfg0.win w).isOut = false) (t : Fin cfg0.N) (d) :
    (dat0 V c).before w t d = (dat0 V c).after w t := by
  fin_cases w <;> first
    | exact Bool.noConfusion hw
    | exact (dat0 V c).before_in_eq_fetched _ rfl (fun _ => rfl) (fun _ _ _ => rfl) (fun _ => rfl) t d

theorem sound_body0 (c : Dev nD) (t : Fin cfg0.N) :
    iprop((dat0 V c).Φ t.castSucc ∗ (dat0 V c).owesAt () t.castSucc
      ∗ bigSep Finset.univ fun w : Fin cfg0.W => iprop(∃ d, ownsTc c ((cfg0.win w).stage (cfg0.slots t w)) fullShare ((dat0 V c).before w t d)))
    ⊢ wp frame (wpE (defs₀ (F := F)) Variants.none c none) Set.univ (bodyAt0 t) fun _ =>
      iprop((dat0 V c).Φ t.succ ∗ (dat0 V c).owesAt () t.succ
        ∗ bigSep Finset.univ fun w : Fin cfg0.W => ownsTc c ((cfg0.win w).stage (cfg0.slots t w)) fullShare ((dat0 V c).after w t)) := by
  rw [bigSep_W0, bigSep_W0]
  unfold bodyAt0
  simp only [before0_in V c 0 rfl, before0_in V c 1 rfl]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  iframe H0 H1
  isplitl [H2]; · iexists _; iexact H2
  isplitl [H3]; · iexists _; iexact H3
  iintro H
  isplitl [HΦ]; · iexact HΦ
  isplitl [Ho]; · iexact Ho
  iexact H

theorem body_obligation0 (c : Dev nD) : BodyObligation (dat0 (F := F) V c) (defs₀ (F := F)) Variants.none () Set.univ :=
  sound_body0 V c

end Cert.KernelIdeal.Hand

end
-- ==== Proof.KI.Body1.lean ====
import proofs.«425588_j41618233098847_3_alg».proof.Proof.Gen.KernelIdeal.Launch
import proofs.«425588_j41618233098847_3_alg».proof.Proof.Gen.KernelIdeal.Skeleton
import proofs.«425588_j41618233098847_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4096x256 := Rect.unit (s := S4096x256) ![0, 0] S4096x256.size inb_S4096x256_S4096x256_0_0
abbrev r1_1 : Rect S4096x1 := Rect.unit (s := S4096x1) ![0, 0] S4096x1.size inb_S4096x1_S4096x1_0_0
abbrev r1_2 : Rect S1x256 := Rect.unit (s := S1x256) ![0, 0] S1x256.size inb_S1x256_S1x256_0_0
abbrev r1_3 : Rect S4096x128 := Rect.unit (s := S4096x128) ![0, 0] S4096x128.size inb_S4096x128_S4096x128_0_0
abbrev r1_4 : Rect S256x384 := Rect.unit (s := S256x384) ![0, 0] S256x384.size inb_S256x384_S256x384_0_0
abbrev r1_5 : Rect S128x384 := Rect.unit (s := S128x384) ![0, 0] S128x384.size inb_S128x384_S128x384_0_0
abbrev r1_6 : Rect S1x384 := Rect.unit (s := S1x384) ![0, 0] S1x384.size inb_S1x384_S1x384_0_0

def out1_12 (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) : Vec F S4096x128 .f32 :=
  View.canon [⟨r1_3, k1_pay1 (k1_pay2 (View.ld x7 r1_3)) (k1_pay3 (View.ld x7 r1_3)) (k1_pay4 (View.ld x0 r1_0) (View.ld x3 r1_1) (View.ld x1 r1_0) (View.ld x5 r1_2) (View.ld x4 r1_1) (View.ld x2 r1_0) (View.ld x6 r1_2) (View.ld x8 r1_4) (View.ld x10 r1_6)) (View.ld x9 r1_5) (View.ld x11 r1_6)⟩]

set_option maxHeartbeats 4000000 in
theorem sound_kernel1 (c : Dev nD) (E : Set ℕ) (i arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (K : PUnit → sProp 𝕄) :
    iprop(ownsTc c arg0 fullShare x0 ∗ ownsTc c arg1 fullShare x1 ∗ ownsTc c arg2 fullShare x2 ∗ ownsTc c arg3 fullShare x3 ∗ ownsTc c arg4 fullShare x4 ∗ ownsTc c arg5 fullShare x5 ∗ ownsTc c arg6 fullShare x6 ∗ ownsTc c arg7 fullShare x7 ∗ ownsTc c arg8 fullShare x8 ∗ ownsTc c arg9 fullShare x9 ∗ ownsTc c arg10 fullShare x10 ∗ ownsTc c arg11 fullShare x11 ∗ (∃ d, ownsTc c arg12 fullShare d)
        ∗ (iprop(ownsTc c arg0 fullShare x0 ∗ ownsTc c arg1 fullShare x1 ∗ ownsTc c arg2 fullShare x2 ∗ ownsTc c arg3 fullShare x3 ∗ ownsTc c arg4 fullShare x4 ∗ ownsTc c arg5 fullShare x5 ∗ ownsTc c arg6 fullShare x6 ∗ ownsTc c arg7 fullShare x7 ∗ ownsTc c arg8 fullShare x8 ∗ ownsTc c arg9 fullShare x9 ∗ ownsTc c arg10 fullShare x10 ∗ ownsTc c arg11 fullShare x11 ∗ ownsTc c arg12 fullShare (out1_12 x0 x1 x2 x3 x4 x5 x6 x7 x8 x9 x10 x11)) -∗ K ⟨⟩))
      ⊢ wp frame (wpE (defs₀ (F := F)) Variants.none c none) E (cc1_kernel i arg0 harg0 arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]; unfold k1_part1_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (View.cover_of_tiled _ S4096x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q w := if w = 1 then fullShare.left else if w = 2 then fullShare.right else fullShare
  owed _ := 0

theorem A_eq1 (c : Dev nD) (w : Fin cfg1.W) : (dat1 V c).A w = V c (Pipeline.arrRef spec1 w) := by
  dsimp only [dat1]

theorem q1_1 (c : Dev nD) : (dat1 V c).q 1 = fullShare.left := by
  dsimp only [dat1]; rw [if_pos rfl]
theorem q1_2 (c : Dev nD) : (dat1 V c).q 2 = fullShare.right := by
  dsimp only [dat1]; rw [if_neg (by decide), if_pos rfl]
theorem q1_of (c : Dev nD) (w : Fin cfg1.W) (h1 : w ≠ 1) (h2 : w ≠ 2) : (dat1 V c).q w = fullShare := by
  dsimp only [dat1]; rw [if_neg h1, if_neg h2]

theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

theorem before1_in (c : Dev nD) (w : Fin cfg1.W) (hw : (cfg1.win w).isOut = false) (t : Fin cfg1.N) (d) :
    (dat1 V c).before w t d = (dat1 V c).after w t := by
  fin_cases w <;> first
    | exact Bool.noConfusion hw
    | exact (dat1 V c).before_in_eq_fetched _ rfl (fun _ => rfl) (fun _ _ _ => rfl) (fun _ => rfl) t d

set_option maxHeartbeats 1000000 in
theorem sound_body1 (c : Dev nD) (t : Fin cfg1.N) :
    iprop((dat1 V c).Φ t.castSucc ∗ (dat1 V c).owesAt () t.castSucc
      ∗ bigSep Finset.univ fun w : Fin cfg1.W => iprop(∃ d, ownsTc c ((cfg1.win w).stage (cfg1.slots t w)) fullShare ((dat1 V c).before w t d)))
    ⊢ wp frame (wpE (defs₀ (F := F)) Variants.none c none) Set.univ (bodyAt1 t) fun _ =>
      iprop((dat1 V c).Φ t.succ ∗ (dat1 V c).owesAt () t.succ
        ∗ bigSep Finset.univ fun w : Fin cfg1.W => ownsTc c ((cfg1.win w).stage (cfg1.slots t w)) fullShare ((dat1 V c).after w t)) := by
  rw [bigSep_W1, bigSep_W1]
  unfold bodyAt1
  simp only [before1_in V c 0 rfl, before1_in V c 1 rfl, before1_in V c 2 rfl, before1_in V c 3 rfl, before1_in V c 4 rfl, before1_in V c 5 rfl, before1_in V c 6 rfl, before1_in V c 7 rfl, before1_in V c 8 rfl, before1_in V c 9 rfl, before1_in V c 10 rfl, before1_in V c 11 rfl]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  iframe H0 H1 H2 H3 H4 H5 H6 H7 H8 H9 H10 H11
  isplitl [H12]; · iexists _; iexact H12
  iintro H
  isplitl [HΦ]; · iexact HΦ
  isplitl [Ho]; · iexact Ho
  iexact H

theorem body_obligation1 (c : Dev nD) : BodyObligation (dat1 (F := F) V c) (defs₀ (F := F)) Variants.none () Set.univ :=
  sound_body1 V c

end Cert.KernelIdeal.Hand

end
-- ==== Proof.KI.Body2.lean ====
import proofs.«425588_j41618233098847_3_alg».proof.Proof.Gen.KernelIdeal.Launch
import proofs.«425588_j41618233098847_3_alg».proof.Proof.Gen.KernelIdeal.Skeleton
import proofs.«425588_j41618233098847_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4096x128 := Rect.unit (s := S4096x128) ![0, 0] S4096x128.size inb_S4096x128_S4096x128_0_0
abbrev r2_1 : Rect S128x1024 := Rect.unit (s := S128x1024) ![0, 0] S128x1024.size inb_S128x1024_S128x1024_0_0
abbrev r2_2 : Rect S4096x512 := Rect.unit (s := S4096x512) ![0, 0] S4096x512.size inb_S4096x512_S4096x512_0_0

def out2_2 (x0 : Vec F S4096x128 .f32) (x1 : Vec F S128x1024 .bf16) : Vec F S4096x512 .bf16 :=
  View.canon [⟨r2_2, k2_pay2 (View.ld x0 r2_0) (View.ld x1 r2_1)⟩]

def out2_3 (x0 : Vec F S4096x128 .f32) (x1 : Vec F S128x1024 .bf16) : Vec F S4096x512 .f32 :=
  View.canon [⟨r2_2, k2_pay3 (View.ld x0 r2_0) (View.ld x1 r2_1)⟩]

set_option maxHeartbeats 1000000 in
theorem sound_kernel2 (c : Dev nD) (E : Set ℕ) (i arg1 harg1 arg2 harg2 arg3 harg3 arg4 harg4 x0 x1) (K : PUnit → sProp 𝕄) :
    iprop(ownsTc c arg1 fullShare x0 ∗ ownsTc c arg2 fullShare x1 ∗ (∃ d, ownsTc c arg3 fullShare d) ∗ (∃ d, ownsTc c arg4 fullShare d)
        ∗ (iprop(ownsTc c arg1 fullShare x0 ∗ ownsTc c arg2 fullShare x1 ∗ ownsTc c arg3 fullShare (out2_2 x0 x1) ∗ ownsTc c arg4 fullShare (out2_3 x0 x1)) -∗ K ⟨⟩))
      ⊢ wp frame (wpE (defs₀ (F := F)) Variants.none c none) E (cc2__project_kernel i arg1 harg1 arg2 harg2 arg3 harg3 arg4 harg4) K := by
  simp only [cc2__project_kernel_eq_skeleton]; unfold cc2__project_kernel_skel
  unfold ownsTc owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (View.cover_of_tiled _ S4096x512.size (by rfl))
  iexists _; isplitr
  swap; · iexact H3
  ipureintro
  exact View.read_writes_eq_canon _ _ _ (View.cover_of_tiled _ S4096x512.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_in (c : Dev nD) (w : Fin cfg2.W) (hw : (cfg2.win w).isOut = false) (t : Fin cfg2.N) (d) :
    (dat2 V c).before w t d = (dat2 V c).after w t := by
  fin_cases w <;> first
    | exact Bool.noConfusion hw
    | exact (dat2 V c).before_in_eq_fetched _ rfl (fun _ => rfl) (fun _ _ _ => rfl) (fun _ => rfl) t d

theorem sound_body2 (c : Dev nD) (t : Fin cfg2.N) :
    iprop((dat2 V c).Φ t.castSucc ∗ (dat2 V c).owesAt () t.castSucc
      ∗ bigSep Finset.univ fun w : Fin cfg2.W => iprop(∃ d, ownsTc c ((cfg2.win w).stage (cfg2.slots t w)) fullShare ((dat2 V c).before w t d)))
    ⊢ wp frame (wpE (defs₀ (F := F)) Variants.none c none) Set.univ (bodyAt2 t) fun _ =>
      iprop((dat2 V c).Φ t.succ ∗ (dat2 V c).owesAt () t.succ
        ∗ bigSep Finset.univ fun w : Fin cfg2.W => ownsTc c ((cfg2.win w).stage (cfg2.slots t w)) fullShare ((dat2 V c).after w t)) := by
  rw [bigSep_W2, bigSep_W2]
  unfold bodyAt2
  simp only [before2_in V c 0 rfl, before2_in V c 1 rfl]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  iframe H0 H1
  isplitl [H2]; · iexists _; iexact H2
  isplitl [H3]; · iexists _; iexact H3
  iintro H
  isplitl [HΦ]; · iexact HΦ
  isplitl [Ho]; · iexact Ho
  iexact H

theorem body_obligation2 (c : Dev nD) : BodyObligation (dat2 (F := F) V c) (defs₀ (F := F)) Variants.none () Set.univ :=
  sound_body2 V c

end Cert.KernelIdeal.Hand

end
-- ==== Proof.KI.Body3.lean ====
import proofs.«425588_j41618233098847_3_alg».proof.Proof.Gen.KernelIdeal.Launch
import proofs.«425588_j41618233098847_3_alg».proof.Proof.Gen.KernelIdeal.Skeleton
import proofs.«425588_j41618233098847_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4096x256 := Rect.unit (s := S4096x256) ![0, 0] S4096x256.size inb_S4096x256_S4096x256_0_0
abbrev r3_1 : Rect S4096x1 := Rect.unit (s := S4096x1) ![0, 0] S4096x1.size inb_S4096x1_S4096x1_0_0
abbrev r3_2 : Rect S1x256 := Rect.unit (s := S1x256) ![0, 0] S1x256.size inb_S1x256_S1x256_0_0
abbrev r3_3 : Rect S4096x128 := Rect.unit (s := S4096x128) ![0, 0] S4096x128.size inb_S4096x128_S4096x128_0_0
abbrev r3_4 : Rect S256x384 := Rect.unit (s := S256x384) ![0, 0] S256x384.size inb_S256x384_S256x384_0_0
abbrev r3_5 : Rect S128x384 := Rect.unit (s := S128x384) ![0, 0] S128x384.size inb_S128x384_S128x384_0_0
abbrev r3_6 : Rect S1x384 := Rect.unit (s := S1x384) ![0, 0] S1x384.size inb_S1x384_S1x384_0_0

def out3_12 (x0 : Vec F S4096x256 .f32) (x1 : Vec F S4096x256 .f32) (x2 : Vec F S4096x256 .f32) (x3 : Vec F S4096x1 .f32) (x4 : Vec F S4096x1 .f32) (x5 : Vec F S1x256 .f32) (x6 : Vec F S1x256 .f32) (x7 : Vec F S4096x128 .f32) (x8 : Vec F S256x384 .bf16) (x9 : Vec F S128x384 .bf16) (x10 : Vec F S1x384 .f32) (x11 : Vec F S1x384 .f32) : Vec F S4096x128 .f32 :=
  View.canon [⟨r3_3, k3_pay1 (k3_pay2 (View.ld x7 r3_3)) (k3_pay3 (View.ld x7 r3_3)) (k3_pay4 (View.ld x0 r3_0) (View.ld x3 r3_1) (View.ld x1 r3_0) (View.ld x5 r3_2) (View.ld x4 r3_1) (View.ld x2 r3_0) (View.ld x6 r3_2) (View.ld x8 r3_4) (View.ld x10 r3_6)) (View.ld x9 r3_5) (View.ld x11 r3_6)⟩]

set_option maxHeartbeats 4000000 in
theorem sound_kernel3 (c : Dev nD) (E : Set ℕ) (i arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (K : PUnit → sProp 𝕄) :
    iprop(ownsTc c arg0 fullShare x0 ∗ ownsTc c arg1 fullShare x1 ∗ ownsTc c arg2 fullShare x2 ∗ ownsTc c arg3 fullShare x3 ∗ ownsTc c arg4 fullShare x4 ∗ ownsTc c arg5 fullShare x5 ∗ ownsTc c arg6 fullShare x6 ∗ ownsTc c arg7 fullShare x7 ∗ ownsTc c arg8 fullShare x8 ∗ ownsTc c arg9 fullShare x9 ∗ ownsTc c arg10 fullShare x10 ∗ ownsTc c arg11 fullShare x11 ∗ (∃ d, ownsTc c arg12 fullShare d)
        ∗ (iprop(ownsTc c arg0 fullShare x0 ∗ ownsTc c arg1 fullShare x1 ∗ ownsTc c arg2 fullShare x2 ∗ ownsTc c arg3 fullShare x3 ∗ ownsTc c arg4 fullShare x4 ∗ ownsTc c arg5 fullShare x5 ∗ ownsTc c arg6 fullShare x6 ∗ ownsTc c arg7 fullShare x7 ∗ ownsTc c arg8 fullShare x8 ∗ ownsTc c arg9 fullShare x9 ∗ ownsTc c arg10 fullShare x10 ∗ ownsTc c arg11 fullShare x11 ∗ ownsTc c arg12 fullShare (out3_12 x0 x1 x2 x3 x4 x5 x6 x7 x8 x9 x10 x11)) -∗ K ⟨⟩))
      ⊢ wp frame (wpE (defs₀ (F := F)) Variants.none c none) E (cc3_kernel i arg0 harg0 arg1 harg1 arg2 harg2 arg3 harg3 arg4 harg4 arg5 harg5 arg6 harg6 arg7 harg7 arg8 harg8 arg9 harg9 arg10 harg10 arg11 harg11 arg12 harg12) K := by
  simp only [cc3_kernel_eq_skeleton]; unfold cc3_kernel_skel
  simp only [k3_part1_eq_skeleton]; unfold k3_part1_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (View.cover_of_tiled _ S4096x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
  Φ _ := Pipeline.ΦA spec3 c
  q w := if w = 1 then fullShare.left else if w = 2 then fullShare.right else fullShare
  owed _ := 0

theorem A_eq3 (c : Dev nD) (w : Fin cfg3.W) : (dat3 V c).A w = V c (Pipeline.arrRef spec3 w) := by
  dsimp only [dat3]

theorem q3_1 (c : Dev nD) : (dat3 V c).q 1 = fullShare.left := by
  dsimp only [dat3]; rw [if_pos rfl]
theorem q3_2 (c : Dev nD) : (dat3 V c).q 2 = fullShare.right := by
  dsimp only [dat3]; rw [if_neg (by decide), if_pos rfl]
theorem q3_of (c : Dev nD) (w : Fin cfg3.W) (h1 : w ≠ 1) (h2 : w ≠ 2) : (dat3 V c).q w = fullShare := by
  dsimp only [dat3]; rw [if_neg h1, if_neg h2]

theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]

theorem before3_in (c : Dev nD) (w : Fin cfg3.W) (hw : (cfg3.win w).isOut = false) (t : Fin cfg3.N) (d) :
    (dat3 V c).before w t d = (dat3 V c).after w t := by
  fin_cases w <;> first
    | exact Bool.noConfusion hw
    | exact (dat3 V c).before_in_eq_fetched _ rfl (fun _ => rfl) (fun _ _ _ => rfl) (fun _ => rfl) t d

set_option maxHeartbeats 1000000 in
theorem sound_body3 (c : Dev nD) (t : Fin cfg3.N) :
    iprop((dat3 V c).Φ t.castSucc ∗ (dat3 V c).owesAt () t.castSucc
      ∗ bigSep Finset.univ fun w : Fin cfg3.W => iprop(∃ d, ownsTc c ((cfg3.win w).stage (cfg3.slots t w)) fullShare ((dat3 V c).before w t d)))
    ⊢ wp frame (wpE (defs₀ (F := F)) Variants.none c none) Set.univ (bodyAt3 t) fun _ =>
      iprop((dat3 V c).Φ t.succ ∗ (dat3 V c).owesAt () t.succ
        ∗ bigSep Finset.univ fun w : Fin cfg3.W => ownsTc c ((cfg3.win w).stage (cfg3.slots t w)) fullShare ((dat3 V c).after w t)) := by
  rw [bigSep_W3, bigSep_W3]
  unfold bodyAt3
  simp only [before3_in V c 0 rfl, before3_in V c 1 rfl, before3_in V c 2 rfl, before3_in V c 3 rfl, before3_in V c 4 rfl, before3_in V c 5 rfl, before3_in V c 6 rfl, before3_in V c 7 rfl, before3_in V c 8 rfl, before3_in V c 9 rfl, before3_in V c 10 rfl, before3_in V c 11 rfl]
  rw [show (dat3 V c).Φ t.succ = (dat3 V c).Φ t.castSucc from rfl,
    show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel3 c Set.univ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) _)
  iframe H0 H1 H2 H3 H4 H5 H6 H7 H8 H9 H10 H11
  isplitl [H12]; · iexists _; iexact H12
  iintro H
  isplitl [HΦ]; · iexact HΦ
  isplitl [Ho]; · iexact Ho
  iexact H

theorem body_obligation3 (c : Dev nD) : BodyObligation (dat3 (F := F) V c) (defs₀ (F := F)) Variants.none () Set.univ :=
  sound_body3 V c

end Cert.KernelIdeal.Hand

end
-- ==== Proof.KI.Body4.lean ====
import proofs.«425588_j41618233098847_3_alg».proof.Proof.Gen.KernelIdeal.Launch
import proofs.«425588_j41618233098847_3_alg».proof.Proof.Gen.KernelIdeal.Skeleton
import proofs.«425588_j41618233098847_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S32x128x128 := Rect.unit (s := S32x128x128) ![0, 0, 0] S32x128x128.size inb_S32x128x128_S32x128x128_0_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S1x1 := Rect.unit (s := S1x1) ![0, 0] S1x1.size inb_S1x1_S1x1_0_0
abbrev r4_4 : Rect S32x128 := Rect.unit (s := S32x128) ![0, 0] S32x128.size inb_S32x128_S32x128_0_0

def out4_9 (x0 : Vec F S32x128x128 .f32) (x1 : Vec F S128x128 .bf16) (x2 : Vec F S1x128 .f32) (x3 : Vec F S1x128 .f32) (x4 : Vec F S1x1 .f32) : Vec F S32x128 .f32 :=
  View.canon [⟨r4_4, k4_pay4 (View.ld x0 r4_0) (View.ld x1 r4_1) (View.ld x2 r4_2) (View.ld x3 r4_2) (View.ld x4 r4_3)⟩]

def out4_10 (x0 : Vec F S32x128x128 .f32) (x5 : Vec F S128x128 .bf16) (x6 : Vec F S1x128 .f32) (x7 : Vec F S1x128 .f32) (x8 : Vec F S1x1 .f32) : Vec F S32x128 .f32 :=
  View.canon [⟨r4_4, k4_pay1 (k4_pay2 (View.ld x0 r4_0)) (k4_pay5 (View.ld x0 r4_0) (View.ld x5 r4_1)) (View.ld x6 r4_2) (View.ld x7 r4_2) (View.ld x8 r4_3)⟩]

set_option maxHeartbeats 4000000 in
theorem sound_kernel4 (c : Dev nD) (E : Set ℕ) (i arg1 harg1 arg2 harg2 arg3 harg3 arg4 harg4 arg5 harg5 arg6 harg6 arg7 harg7 arg8 harg8 arg9 harg9 arg10 harg10 arg11 harg11 x0 x1 x2 x3 x4 x5 x6 x7 x8) (K : PUnit → sProp 𝕄) :
    iprop(ownsTc c arg1 fullShare x0 ∗ ownsTc c arg2 fullShare x1 ∗ ownsTc c arg3 fullShare x2 ∗ ownsTc c arg4 fullShare x3 ∗ ownsTc c arg5 fullShare x4 ∗ ownsTc c arg6 fullShare x5 ∗ ownsTc c arg7 fullShare x6 ∗ ownsTc c arg8 fullShare x7 ∗ ownsTc c arg9 fullShare x8 ∗ (∃ d, ownsTc c arg10 fullShare d) ∗ (∃ d, ownsTc c arg11 fullShare d)
        ∗ (iprop(ownsTc c arg1 fullShare x0 ∗ ownsTc c arg2 fullShare x1 ∗ ownsTc c arg3 fullShare x2 ∗ ownsTc c arg4 fullShare x3 ∗ ownsTc c arg5 fullShare x4 ∗ ownsTc c arg6 fullShare x5 ∗ ownsTc c arg7 fullShare x6 ∗ ownsTc c arg8 fullShare x7 ∗ ownsTc c arg9 fullShare x8 ∗ ownsTc c arg10 fullShare (out4_9 x0 x1 x2 x3 x4) ∗ ownsTc c arg11 fullShare (out4_10 x0 x5 x6 x7 x8)) -∗ K ⟨⟩))
      ⊢ wp frame (wpE (defs₀ (F := F)) Variants.none c none) E (cc4__readout_kernel i arg1 harg1 arg2 harg2 arg3 harg3 arg4 harg4 arg5 harg5 arg6 harg6 arg7 harg7 arg8 harg8 arg9 harg9 arg10 harg10 arg11 harg11) K := by
  simp only [cc4__readout_kernel_eq_skeleton]; unfold cc4__readout_kernel_skel
  simp only [k4_part1_eq_skeleton]; unfold k4_part1_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (View.cover_of_tiled _ S32x128.size (by rfl))
  iexists _; isplitr
  swap; · iexact H10
  ipureintro
  exact View.read_writes_eq_canon _ _ _ (View.cover_of_tiled _ S32x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t)
    | ⟨10, _⟩ => out4_10 (iblk4 V c 0 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_9 (c : Dev nD) (t : Fin cfg4.N) : (dat4 V c).after 9 t = out4_9 (iblk4 V c 0 t) (iblk4 V c 1 t) (iblk4 V c 2 t) (iblk4 V c 3 t) (iblk4 V c 4 t) := by dsimp only [dat4]
theorem after4_10 (c : Dev nD) (t : Fin cfg4.N) : (dat4 V c).after 10 t = out4_10 (iblk4 V c 0 t) (iblk4 V c 5 t) (iblk4 V c 6 t) (iblk4 V c 7 t) (iblk4 V c 8 t) := by dsimp only [dat4]

theorem before4_in (c : Dev nD) (w : Fin cfg4.W) (hw : (cfg4.win w).isOut = false) (t : Fin cfg4.N) (d) :
    (dat4 V c).before w t d = (dat4 V c).after w t := by
  fin_cases w <;> first
    | exact Bool.noConfusion hw
    | exact (dat4 V c).before_in_eq_fetched _ rfl (fun _ => rfl) (fun _ _ _ => rfl) (fun _ => rfl) t d

set_option maxHeartbeats 1000000 in
theorem sound_body4 (c : Dev nD) (t : Fin cfg4.N) :
    iprop((dat4 V c).Φ t.castSucc ∗ (dat4 V c).owesAt () t.castSucc
      ∗ bigSep Finset.univ fun w : Fin cfg4.W => iprop(∃ d, ownsTc c ((cfg4.win w).stage (cfg4.slots t w)) fullShare ((dat4 V c).before w t d)))
    ⊢ wp frame (wpE (defs₀ (F := F)) Variants.none c none) Set.univ (bodyAt4 t) fun _ =>
      iprop((dat4 V c).Φ t.succ ∗ (dat4 V c).owesAt () t.succ
        ∗ bigSep Finset.univ fun w : Fin cfg4.W => ownsTc c ((cfg4.win w).stage (cfg4.slots t w)) fullShare ((dat4 V c).after w t)) := by
  rw [bigSep_W4, bigSep_W4]
  unfold bodyAt4
  simp only [before4_in V c 0 rfl, before4_in V c 1 rfl, before4_in V c 2 rfl, before4_in V c 3 rfl, before4_in V c 4 rfl, before4_in V c 5 rfl, before4_in V c 6 rfl, before4_in V c 7 rfl, before4_in V c 8 rfl]
  rw [show (dat4 V c).Φ t.succ = (dat4 V c).Φ t.castSucc from rfl,
    show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  iframe H0 H1 H2 H3 H4 H5 H6 H7 H8
  isplitl [H9]; · iexists _; iexact H9
  isplitl [H10]; · iexists _; iexact H10
  iintro H
  isplitl [HΦ]; · iexact HΦ
  isplitl [Ho]; · iexact Ho
  iexact H

theorem body_obligation4 (c : Dev nD) : BodyObligation (dat4 (F := F) V c) (defs₀ (F := F)) Variants.none () Set.univ :=
  sound_body4 V c

end Cert.KernelIdeal.Hand

end
-- ==== Proof.KI.Chain.lean ====
import proofs.«425588_j41618233098847_3_alg».proof.Proof.KI.Body0
import proofs.«425588_j41618233098847_3_alg».proof.Proof.KI.Body1
import proofs.«425588_j41618233098847_3_alg».proof.Proof.KI.Body2
import proofs.«425588_j41618233098847_3_alg».proof.Proof.KI.Body3
import proofs.«425588_j41618233098847_3_alg».proof.Proof.KI.Body4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Function.update (W3 m c) main_v78 ((dat1 (V3 m) c).arrAt 12 cfg1.N)
theorem W4_out (c : Dev nD) : W4 m c main_v78 = (dat1 (V3 m) c).arrAt 12 cfg1.N := by
  unfold W4; exact Function.update_self ..
theorem W4_of_ne (c : Dev nD) (b : Ref sig .tc) (hb : b ≠ main_v78) : W4 m c b = W3 m c b := by
  unfold W4; exact Function.update_of_ne (StableHlo.devRef_ne_of_ne hb) ..
abbrev V4 : (c : Dev nD) → (b : Ref sig .tc) → Buf (Elt F) ((c : Thread nD τ).loc b) := fun c b => W4 m c b

theorem in_of_ne_out1 : ∀ w : Fin cfg1.W, w ≠ 12 → (cfg1.win w).isOut = false ∧ Pipeline.arrRef spec1 w ≠ main_v78 := by decide
theorem hF1 (c : Dev nD) (w : Fin cfg1.W) : (dat1 (V3 m) c).arrAt w cfg1.N = V4 m c (Pipeline.arrRef spec1 w) := by
  by_cases h : w = 12
  · subst h; exact (W4_out m c).symm
  · obtain ⟨hin, hne⟩ := in_of_ne_out1 w h
    exact (((dat1 (V3 m) c).arrAt_in w hin _).trans (A_eq1 (V3 m) c w)).trans (W4_of_ne m c _ hne).symm
theorem hrest1 (c : Dev nD) : ∀ b, b ∉ Finset.univ.image (Pipeline.arrRef spec1) → V4 m c b = V3 m c b :=
  fun b hb => W4_of_ne m c b fun e => hb (Finset.mem_image.mpr ⟨12, Finset.mem_univ _, e.symm⟩)

abbrev W5 : Dev nD → Valuation τ sig (Elt F) := fun c => StableHlo.after hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)
abbrev V7 : (c : Dev nD) → (b : Ref sig .tc) → Buf (Elt F) ((c : Thread nD τ).loc b) := fun c b => W7 m c b

def W8 (c : Dev nD) : Valuation τ sig (Elt F) :=
  Function.update (W7 m c) main_v143 ((dat3 (V7 m) c).arrAt 12 cfg3.N)
theorem W8_out (c : Dev nD) : W8 m c main_v143 = (dat3 (V7 m) c).arrAt 12 cfg3.N := by
  unfold W8; exact Function.update_self ..
theorem W8_of_ne (c : Dev nD) (b : Ref sig .tc) (hb : b ≠ main_v143) : W8 m c b = W7 m c b := by
  unfold W8; exact Function.update_of_ne (StableHlo.devRef_ne_of_ne hb) ..
abbrev V8 : (c : Dev nD) → (b : Ref sig .tc) → Buf (Elt F) ((c : Thread nD τ).loc b) := fun c b => W8 m c b

theorem in_of_ne_out3 : ∀ w : Fin cfg3.W, w ≠ 12 → (cfg3.win w).isOut = false ∧ Pipeline.arrRef spec3 w ≠ main_v143 := by decide
theorem hF3 (c : Dev nD) (w : Fin cfg3.W) : (dat3 (V7 m) c).arrAt w cfg3.N = V8 m c (Pipeline.arrRef spec3 w) := by
  by_cases h : w = 12
  · subst h; exact (W8_out m c).symm
  · obtain ⟨hin, hne⟩ := in_of_ne_out3 w h
    exact (((dat3 (V7 m) c).arrAt_in w hin _).trans (A_eq3 (V7 m) c w)).trans (W8_of_ne m c _ hne).symm
theorem hrest3 (c : Dev nD) : ∀ b, b ∉ Finset.univ.image (Pipeline.arrRef spec3) → V8 m c b = V7 m c b :=
  fun b hb => W8_of_ne m c b fun e => hb (Finset.mem_image.mpr ⟨12, Finset.mem_univ _, e.symm⟩)

abbrev W9 : Dev nD → Valuation τ sig (Elt F) := fun c => StableHlo.after hostOps4 (W8 m c)

abbrev V9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m c) ∗ ∃ r, prngReg c r)

end Cert.KernelIdeal.Hand

end
-- ==== Proof.KI.Reg0.lean ====
import proofs.«425588_j41618233098847_3_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Shared1.lean ====
import proofs.«425588_j41618233098847_3_alg».proof.Proof.Gen.KernelIdeal.Launch
import Idealize.ShloMosaic.Lib.Pipeline.RegionsLoop
import Idealize.ShloMosaic.Lib.Pipeline.FrameSuffix
import proofs.«425588_j41618233098847_3_alg».proof.Proof.LibSharedArrays

set_option maxRecDepth 1544

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open PCS
open Idealize.ShloMosaic.Pipeline (Dat)

variable {F : FTy → Type} [FloatOps F]

local notation "𝕄" => MT nD τ sig Unit (Elt F) ℕ (UR sig nD τ) ℕ

theorem sharedPair1 : Pipeline.SharedPair spec1 1 2 := by decide

section

variable {c : Dev nD} (dat : Dat τ (Elt F) Unit ℕ (UR sig nD τ) ℕ cfg1 c)

theorem share_rest1 (hq : ∀ w, w ≠ 1 → w ≠ 2 → dat.q w = fullShare) (w : Fin cfg1.W) (h1 : w ≠ 1) (h2 : w ≠ 2) :
    dat.share w = fullShare := by
  unfold Dat.share
  split
  · rfl
  · exact hq w h1 h2

theorem share_pair1 (hq1 : dat.q 1 = fullShare.left) (hq2 : dat.q 2 = fullShare.right) :
    fullShare ∈ dat.share (1 : Fin cfg1.W) ·? dat.share (2 : Fin cfg1.W) := by
  have e1 : dat.share (1 : Fin cfg1.W) = fullShare.left := by
    unfold Dat.share; rw [if_neg (by decide), hq1]
  have e2 : dat.share (2 : Fin cfg1.W) = fullShare.right := by
    unfold Dat.share; rw [if_neg (by decide), hq2]
  rw [e1, e2]
  exact PosShare.mem_left_op_right fullShare

theorem entry1 (hq1 : dat.q 1 = fullShare.left) (hq2 : dat.q 2 = fullShare.right)
    (hq : ∀ w, w ≠ 1 → w ≠ 2 → dat.q w = fullShare)
    (V : (b : Ref sig .tc) → Buf (Elt F) ((c.tc : Thread nD τ).loc b)) :
    (unscopedBufs c V : sProp 𝕄) ⊢ iprop(dat.arrays (fun w => V (Pipeline.arrRef spec1 w)) ∗ Pipeline.unscopedRest spec1 c V) :=
  Pipeline.arrays_of_unscopedBufs_pair cfg1 c dat winFacts₀1 sharedPair1 arr_whole1 (share_rest1 dat hq)
    (share_pair1 dat hq1 hq2) V (fun w => V (Pipeline.arrRef spec1 w)) fun _ => rfl

theorem exit1 (hq1 : dat.q 1 = fullShare.left) (hq2 : dat.q 2 = fullShare.right)
    (hq : ∀ w, w ≠ 1 → w ≠ 2 → dat.q w = fullShare)
    (V V' : (b : Ref sig .tc) → Buf (Elt F) ((c.tc : Thread nD τ).loc b))
    (Fw : (w : Fin cfg1.W) → Buf (Elt F) ((cfg1.win w).arr.view.loc (c.tc : Thread nD τ)))
    (hF : ∀ w, Fw w = V' (Pipeline.arrRef spec1 w))
    (hrest : ∀ b, b ∉ Finset.univ.image (Pipeline.arrRef spec1) → V' b = V b) :
    iprop(dat.arrays Fw ∗ Pipeline.unscopedRest spec1 c V) ⊢ (unscopedBufs c V' : sProp 𝕄) :=
  Pipeline.unscopedBufs_of_arrays_pair cfg1 c dat winFacts₀1 sharedPair1 arr_whole1 (share_rest1 dat hq)
    (share_pair1 dat hq1 hq2) V V' Fw hF hrest

end

end Cert.KernelIdeal.Hand

end
-- ==== Proof.KI.Reg1.lean ====
import proofs.«425588_j41618233098847_3_alg».proof.Proof.KI.Chain
import proofs.«425588_j41618233098847_3_alg».proof.Proof.KI.Shared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 (F := F) (c := c) (dat1 (V3 m) c) (q1_1 (V3 m) c) (q1_2 (V3 m) c) (fun w h1 h2 => q1_of (V3 m) c w h1 h2) (V3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) (c := c) (dat1 (V3 m) c) (q1_1 (V3 m) c) (q1_2 (V3 m) c) (fun w h1 h2 => q1_of (V3 m) c w h1 h2)
      (V3 m c) (V4 m c) ((dat1 (V3 m) c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Reg2.lean ====
import proofs.«425588_j41618233098847_3_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Shared3.lean ====
import proofs.«425588_j41618233098847_3_alg».proof.Proof.Gen.KernelIdeal.Launch
import Idealize.ShloMosaic.Lib.Pipeline.RegionsLoop
import Idealize.ShloMosaic.Lib.Pipeline.FrameSuffix
import proofs.«425588_j41618233098847_3_alg».proof.Proof.LibSharedArrays

set_option maxRecDepth 1544

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open PCS
open Idealize.ShloMosaic.Pipeline (Dat)

variable {F : FTy → Type} [FloatOps F]

local notation "𝕄" => MT nD τ sig Unit (Elt F) ℕ (UR sig nD τ) ℕ

theorem sharedPair3 : Pipeline.SharedPair spec3 1 2 := by decide

section

variable {c : Dev nD} (dat : Dat τ (Elt F) Unit ℕ (UR sig nD τ) ℕ cfg3 c)

theorem share_rest3 (hq : ∀ w, w ≠ 1 → w ≠ 2 → dat.q w = fullShare) (w : Fin cfg3.W) (h1 : w ≠ 1) (h2 : w ≠ 2) :
    dat.share w = fullShare := by
  unfold Dat.share
  split
  · rfl
  · exact hq w h1 h2

theorem share_pair3 (hq1 : dat.q 1 = fullShare.left) (hq2 : dat.q 2 = fullShare.right) :
    fullShare ∈ dat.share (1 : Fin cfg3.W) ·? dat.share (2 : Fin cfg3.W) := by
  have e1 : dat.share (1 : Fin cfg3.W) = fullShare.left := by
    unfold Dat.share; rw [if_neg (by decide), hq1]
  have e2 : dat.share (2 : Fin cfg3.W) = fullShare.right := by
    unfold Dat.share; rw [if_neg (by decide), hq2]
  rw [e1, e2]
  exact PosShare.mem_left_op_right fullShare

theorem entry3 (hq1 : dat.q 1 = fullShare.left) (hq2 : dat.q 2 = fullShare.right)
    (hq : ∀ w, w ≠ 1 → w ≠ 2 → dat.q w = fullShare)
    (V : (b : Ref sig .tc) → Buf (Elt F) ((c.tc : Thread nD τ).loc b)) :
    (unscopedBufs c V : sProp 𝕄) ⊢ iprop(dat.arrays (fun w => V (Pipeline.arrRef spec3 w)) ∗ Pipeline.unscopedRest spec3 c V) :=
  Pipeline.arrays_of_unscopedBufs_pair cfg3 c dat winFacts₀3 sharedPair3 arr_whole3 (share_rest3 dat hq)
    (share_pair3 dat hq1 hq2) V (fun w => V (Pipeline.arrRef spec3 w)) fun _ => rfl

theorem exit3 (hq1 : dat.q 1 = fullShare.left) (hq2 : dat.q 2 = fullShare.right)
    (hq : ∀ w, w ≠ 1 → w ≠ 2 → dat.q w = fullShare)
    (V V' : (b : Ref sig .tc) → Buf (Elt F) ((c.tc : Thread nD τ).loc b))
    (Fw : (w : Fin cfg3.W) → Buf (Elt F) ((cfg3.win w).arr.view.loc (c.tc : Thread nD τ)))
    (hF : ∀ w, Fw w = V' (Pipeline.arrRef spec3 w))
    (hrest : ∀ b, b ∉ Finset.univ.image (Pipeline.arrRef spec3) → V' b = V b) :
    iprop(dat.arrays Fw ∗ Pipeline.unscopedRest spec3 c V) ⊢ (unscopedBufs c V' : sProp 𝕄) :=
  Pipeline.unscopedBufs_of_arrays_pair cfg3 c dat winFacts₀3 sharedPair3 arr_whole3 (share_rest3 dat hq)
    (share_pair3 dat hq1 hq2) V V' Fw hF hrest

end

end Cert.KernelIdeal.Hand

end
-- ==== Proof.KI.Reg3.lean ====
import proofs.«425588_j41618233098847_3_alg».proof.Proof.KI.Chain
import proofs.«425588_j41618233098847_3_alg».proof.Proof.KI.Shared3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := entry3 (F := F) (c := c) (dat3 (V7 m) c) (q3_1 (V7 m) c) (q3_2 (V7 m) c) (fun w h1 h2 => q3_of (V7 m) c w h1 h2) (V7 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (F := F) (c := c) (dat3 (V7 m) c) (q3_1 (V7 m) c) (q3_2 (V7 m) c) (fun w h1 h2 => q3_of (V7 m) c w h1 h2)
      (V7 m c) (V8 m c) ((dat3 (V7 m) c).arrAt · cfg3.N) (hF3 m c) (hrest3 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Reg4.lean ====
import proofs.«425588_j41618233098847_3_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
import proofs.«425588_j41618233098847_3_alg».proof.Proof.KI.Reg0
import proofs.«425588_j41618233098847_3_alg».proof.Proof.KI.Reg1
import proofs.«425588_j41618233098847_3_alg».proof.Proof.KI.Reg2
import proofs.«425588_j41618233098847_3_alg».proof.Proof.KI.Reg3
import proofs.«425588_j41618233098847_3_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]

theorem main_run (c : Dev nD) : main (F := F) c = Pipeline.Seg.run (segs m) := (main_chain c).trans (by chain_rfl)

set_option backward.isDefEq.respectTransparency.types false in

theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W10 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := hQ)

end Cert.KernelIdeal.Hand

end
-- ==== Proof.KI.Keep.lean ====
import proofs.«425588_j41618233098847_3_alg».proof.Proof.KI.Chain
import proofs.«425588_j41618233098847_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W2_keep (c : Dev nD) (b : Ref sig .tc) (h : ∀ w, Pipeline.arrRef spec0 w = b → (cfg0.win w).isOut = false) :
    W2 m c b = W1 m c b := by
  by_cases hb : ∃ w, Pipeline.arrRef spec0 w = b
  · obtain ⟨w, rfl⟩ := hb
    exact (W2_arr m c w).trans (((dat0 (V1 m) c).arrAt_in w (h w rfl) _).trans (A_eq0 (V1 m) c w))
  · exact W2_of_ne m c b fun w e => hb ⟨w, e⟩

theorem W6_keep (c : Dev nD) (b : Ref sig .tc) (h : ∀ w, Pipeline.arrRef spec2 w = b → (cfg2.win w).isOut = false) :
    W6 m c b = W5 m c b := by
  by_cases hb : ∃ w, Pipeline.arrRef spec2 w = b
  · obtain ⟨w, rfl⟩ := hb
    exact (W6_arr m c w).trans (((dat2 (V5 m) c).arrAt_in w (h w rfl) _).trans (A_eq2 (V5 m) c w))
  · exact W6_of_ne m c b fun w e => hb ⟨w, e⟩

theorem W10_keep (c : Dev nD) (b : Ref sig .tc) (h : ∀ w, Pipeline.arrRef spec4 w = b → (cfg4.win w).isOut = false) :
    W10 m c b = W9 m c b := by
  by_cases hb : ∃ w, Pipeline.arrRef spec4 w = b
  · obtain ⟨w, rfl⟩ := hb
    exact (W10_arr m c w).trans (((dat4 (V9 m) c).arrAt_in w (h w rfl) _).trans (A_eq4 (V9 m) c w))
  · exact W10_of_ne m c b fun w e => hb ⟨w, e⟩

theorem W1_keep (c : Dev nD) (b : Ref sig .tc) (h : b ∉ hostOps0_W) : W1 m c b = W0 m c b :=
  StableHlo.after_of_writes_sub hostOps0 _ hostOps0_writes h
theorem W3_keep (c : Dev nD) (b : Ref sig .tc) (h : b ∉ hostOps1_W) : W3 m c b = W2 m c b :=
  StableHlo.after_of_writes_sub hostOps1 _ hostOps1_writes h
theorem W5_keep (c : Dev nD) (b : Ref sig .tc) (h : b ∉ hostOps2_W) : W5 m c b = W4 m c b :=
  StableHlo.after_of_writes_sub hostOps2 _ hostOps2_writes h
theorem W7_keep (c : Dev nD) (b : Ref sig .tc) (h : b ∉ hostOps3_W) : W7 m c b = W6 m c b :=
  StableHlo.after_of_writes_sub hostOps3 _ hostOps3_writes h
theorem W9_keep (c : Dev nD) (b : Ref sig .tc) (h : b ∉ hostOps4_W) : W9 m c b = W8 m c b :=
  StableHlo.after_of_writes_sub hostOps4 _ hostOps4_writes h

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17]

theorem arg_untouched : ∀ b ∈ argRefs,
    b ∉ hostOps0_W ∧ b ∉ hostOps1_W ∧ b ∉ hostOps2_W ∧ b ∉ hostOps3_W ∧ b ∉ hostOps4_W
    ∧ (∀ w, Pipeline.arrRef spec0 w = b → (cfg0.win w).isOut = false)
    ∧ (∀ w, Pipeline.arrRef spec2 w = b → (cfg2.win w).isOut = false)
    ∧ (∀ w, Pipeline.arrRef spec4 w = b → (cfg4.win w).isOut = false)
    ∧ b ≠ main_v78 ∧ b ≠ main_v143 := by decide

theorem W10_arg (c : Dev nD) (b : Ref sig .tc) (hb : b ∈ argRefs) : W10 m c b = m (c, b) := by
  obtain ⟨h0, h1, h2, h3, h4, k0, k2, k4, n1, n3⟩ := arg_untouched b hb
  exact (W10_keep m c b k4).trans <| (W9_keep m c b h4).trans <| (W8_of_ne m c b n3).trans <| (W7_keep m c b h3).trans <|
    (W6_keep m c b k2).trans <| (W5_keep m c b h2).trans <| (W4_of_ne m c b n1).trans <| (W3_keep m c b h1).trans <|
    (W2_keep m c b k0).trans <| (W1_keep m c b h0)

end Cert.KernelIdeal.Hand

end
-- ==== Proof.KI.Frame.lean ====
import proofs.«425588_j41618233098847_3_alg».proof.Proof.KI.Run
import proofs.«425588_j41618233098847_3_alg».proof.Proof.KI.Keep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_all m ρ fun s h c => ⟨
    (h c _ (mem_uc main_arg0 (by decide))).trans (W10_arg m c main_arg0 (by decide)),
    (h c _ (mem_uc main_arg1 (by decide))).trans (W10_arg m c main_arg1 (by decide)),
    (h c _ (mem_uc main_arg2 (by decide))).trans (W10_arg m c main_arg2 (by decide)),
    (h c _ (mem_uc main_arg3 (by decide))).trans (W10_arg m c main_arg3 (by decide)),
    (h c _ (mem_uc main_arg4 (by decide))).trans (W10_arg m c main_arg4 (by decide)),
    (h c _ (mem_uc main_arg5 (by decide))).trans (W10_arg m c main_arg5 (by decide)),
    (h c _ (mem_uc main_arg6 (by decide))).trans (W10_arg m c main_arg6 (by decide)),
    (h c _ (mem_uc main_arg7 (by decide))).trans (W10_arg m c main_arg7 (by decide)),
    (h c _ (mem_uc main_arg8 (by decide))).trans (W10_arg m c main_arg8 (by decide)),
    (h c _ (mem_uc main_arg9 (by decide))).trans (W10_arg m c main_arg9 (by decide)),
    (h c _ (mem_uc main_arg10 (by decide))).trans (W10_arg m c main_arg10 (by decide)),
    (h c _ (mem_uc main_arg11 (by decide))).trans (W10_arg m c main_arg11 (by decide)),
    (h c _ (mem_uc main_arg12 (by decide))).trans (W10_arg m c main_arg12 (by decide)),
    (h c _ (mem_uc main_arg13 (by decide))).trans (W10_arg m c main_arg13 (by decide)),
    (h c _ (mem_uc main_arg14 (by decide))).trans (W10_arg m c main_arg14 (by decide)),
    (h c _ (mem_uc main_arg15 (by decide))).trans (W10_arg m c main_arg15 (by decide)),
    (h c _ (mem_uc main_arg16 (by decide))).trans (W10_arg m c main_arg16 (by decide)),
    (h c _ (mem_uc main_arg17 (by decide))).trans (W10_arg m c main_arg17 (by decide))⟩

theorem run_results : θ_run defs (onTc (τ := τ) (main (F := F))) ⟨m, fun _ => 0, ρ⟩ (fun r => ∀ c : Dev nD,
      r.2.mem ((c.tc : Thread nD τ).loc main_v144) = W10 m c main_v144
      ∧ r.2.mem ((c.tc : Thread nD τ).loc main_v153_0) = W10 m c main_v153_0
      ∧ r.2.mem ((c.tc : Thread nD τ).loc main_v153_1) = W10 m c main_v153_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_all m ρ fun s h c => ⟨h c _ (mem_uc main_v144 (by decide)), h c _ (mem_uc main_v153_0 (by decide)), h c _ (mem_uc main_v153_1 (by decide)),
    (h c _ (mem_uc main_arg0 (by decide))).trans (W10_arg m c main_arg0 (by decide)),
    (h c _ (mem_uc main_arg1 (by decide))).trans (W10_arg m c main_arg1 (by decide)),
    (h c _ (mem_uc main_arg2 (by decide))).trans (W10_arg m c main_arg2 (by decide)),
    (h c _ (mem_uc main_arg3 (by decide))).trans (W10_arg m c main_arg3 (by decide)),
    (h c _ (mem_uc main_arg4 (by decide))).trans (W10_arg m c main_arg4 (by decide)),
    (h c _ (mem_uc main_arg5 (by decide))).trans (W10_arg m c main_arg5 (by decide)),
    (h c _ (mem_uc main_arg6 (by decide))).trans (W10_arg m c main_arg6 (by decide)),
    (h c _ (mem_uc main_arg7 (by decide))).trans (W10_arg m c main_arg7 (by decide)),
    (h c _ (mem_uc main_arg8 (by decide))).trans (W10_arg m c main_arg8 (by decide)),
    (h c _ (mem_uc main_arg9 (by decide))).trans (W10_arg m c main_arg9 (by decide)),
    (h c _ (mem_uc main_arg10 (by decide))).trans (W10_arg m c main_arg10 (by decide)),
    (h c _ (mem_uc main_arg11 (by decide))).trans (W10_arg m c main_arg11 (by decide)),
    (h c _ (mem_uc main_arg12 (by decide))).trans (W10_arg m c main_arg12 (by decide)),
    (h c _ (mem_uc main_arg13 (by decide))).trans (W10_arg m c main_arg13 (by decide)),
    (h c _ (mem_uc main_arg14 (by decide))).trans (W10_arg m c main_arg14 (by decide)),
    (h c _ (mem_uc main_arg15 (by decide))).trans (W10_arg m c main_arg15 (by decide)),
    (h c _ (mem_uc main_arg16 (by decide))).trans (W10_arg m c main_arg16 (by decide)),
    (h c _ (mem_uc main_arg17 (by decide))).trans (W10_arg m c main_arg17 (by decide))⟩

end Cert.KernelIdeal.Hand

end
-- ==== Proof.KI.Val0.lean ====
import proofs.«425588_j41618233098847_3_alg».proof.Proof.KI.Body0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem lhs0_proj_0 (j : S4096x1024.Idx) (k : dot_S4096x128_S128x1024_S4096x1024_1_0_0_1_n_n.contr.Idx) :
    (dot_S4096x128_S128x1024_S4096x1024_1_0_0_1_n_n.lhsIdx j k 0 : ℕ) = j 0 := by
  simp [DotDims.lhsIdx, dot_S4096x128_S128x1024_S4096x1024_1_0_0_1_n_n]; rfl
theorem lhs0_proj_1 (j : S4096x1024.Idx) (k : dot_S4096x128_S128x1024_S4096x1024_1_0_0_1_n_n.contr.Idx) :
    (dot_S4096x128_S128x1024_S4096x1024_1_0_0_1_n_n.lhsIdx j k 1 : ℕ) = k ⟨0, by decide⟩ := by
  simp [DotDims.lhsIdx, dot_S4096x128_S128x1024_S4096x1024_1_0_0_1_n_n]; rfl
theorem rhs0_proj_0 (j : S4096x1024.Idx) (k : dot_S4096x128_S128x1024_S4096x1024_1_0_0_1_n_n.contr.Idx) :
    (dot_S4096x128_S128x1024_S4096x1024_1_0_0_1_n_n.rhsIdx j k 0 : ℕ) = k ⟨0, by decide⟩ := by
  simp [DotDims.rhsIdx, dot_S4096x128_S128x1024_S4096x1024_1_0_0_1_n_n]; rfl
theorem rhs0_proj_1 (j : S4096x1024.Idx) (k : dot_S4096x128_S128x1024_S4096x1024_1_0_0_1_n_n.contr.Idx) :
    (dot_S4096x128_S128x1024_S4096x1024_1_0_0_1_n_n.rhsIdx j k 1 : ℕ) = j 1 := by
  simp [DotDims.rhsIdx, dot_S4096x128_S128x1024_S4096x1024_1_0_0_1_n_n]; rfl

theorem pay0_1_apply (x0 : Vec Ideal S4096x128 .f32) (x1 : Vec Ideal S128x1024 .bf16) (p : Fin 4096) (q : Fin 1024) :
    k0_pay1 x0 x1 (ix2 p q) = ∑ k : Fin 128, x0 (ix2 p k) * x1 (ix2 k q) := by
  unfold k0_pay1
  simp only [shapeCast_self]
  refine (Ideal.matmul_constant_zero_apply (φ₁ := .bf16) (φ₂ := .bf16) dot_S4096x128_S128x1024_S4096x1024_1_0_0_1_n_n none _ _ (ix2 p q)).trans ?_
  rw [← Equiv.sum_comp (contrEquiv1 dot_S4096x128_S128x1024_S4096x1024_1_0_0_1_n_n 128 rfl rfl).symm]
  refine Finset.sum_congr rfl fun k _ => ?_
  rw [truncf_apply]
  congr 1
  · congr 1; funext a; apply Fin.ext
    match a with
    | ⟨0, _⟩ => exact lhs0_proj_0 _ _
    | ⟨1, _⟩ => exact (lhs0_proj_1 _ _).trans (contrEquiv1_symm_val _ 128 rfl rfl k)
  · congr 1; funext a; apply Fin.ext
    match a with
    | ⟨0, _⟩ => exact (rhs0_proj_0 _ _).trans (contrEquiv1_symm_val _ 128 rfl rfl k)
    | ⟨1, _⟩ => exact rhs0_proj_1 _ _

theorem pay0_2_apply (x0 : Vec Ideal S4096x128 .f32) (x1 : Vec Ideal S128x1024 .bf16) (p : Fin 4096) (q : Fin 512) :
    k0_pay2 x0 x1 (ix2 p q) = ∑ k : Fin 128, x0 (ix2 p k) * x1 (ix2 k (⟨q.val, by omega⟩ : Fin 1024)) := by
  unfold k0_pay2
  rw [truncf_apply]
  refine (slice2_axis1_apply 0 (k0_pay1 x0 x1) slices_S4096x1024_o0_0_S4096x512 p q ⟨q.val, by omega⟩ (Nat.zero_add _).symm).trans ?_
  exact pay0_1_apply x0 x1 p _

theorem pay0_3_apply (x0 : Vec Ideal S4096x128 .f32) (x1 : Vec Ideal S128x1024 .bf16) (p : Fin 4096) (q : Fin 512) :
    k0_pay3 x0 x1 (ix2 p q) = ∑ k : Fin 128, x0 (ix2 p k) * x1 (ix2 k (⟨512 + q.val, by omega⟩ : Fin 1024)) := by
  unfold k0_pay3
  refine (slice2_axis1_apply 512 (k0_pay1 x0 x1) slices_S4096x1024_o0_512_S4096x512 p q ⟨512 + q.val, by omega⟩ rfl).trans ?_
  exact pay0_1_apply x0 x1 p _

def G0_2 (hf : S32768x128.Idx → EReal) (wcat : S128x1024.Idx → EReal) : S32768x512.Idx → EReal :=
  fun i => ∑ k : Fin 128, hf (ix2 (i 0 : Fin 32768) k) * wcat (ix2 k (⟨(i 1).val, by have := idx2_lt1 i; omega⟩ : Fin 1024))

def G0_3 (hf : S32768x128.Idx → EReal) (wcat : S128x1024.Idx → EReal) : S32768x512.Idx → EReal :=
  fun i => ∑ k : Fin 128, hf (ix2 (i 0 : Fin 32768) k) * wcat (ix2 k (⟨512 + (i 1).val, by have := idx2_lt1 i; omega⟩ : Fin 1024))

theorem hz_r0 : (![0, 0] : Fin 2 → Nat) = fun _ => 0 := funext fun a => by fin_cases a <;> rfl

theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0
    ∧ win0_3.index t (0 : Fin 2) = win0_2.index t (0 : Fin 2) ∧ win0_3.index t (1 : Fin 2) = 0
    ∧ win0_2.index t (0 : Fin 2) ≤ 7 :=
  (by decide +kernel : ∀ t : Fin grid0.N, _)

theorem idx_onto0_2 : ∀ q0 : Fin 8, ∃ t : Fin cfg0.N, win0_2.index t = ![q0.val, 0] :=
  (by decide +kernel : ∀ q0 : Fin 8, ∃ t : Fin grid0.N, win0_2.index t = ![q0.val, 0])
theorem idx_onto0_3 : ∀ q0 : Fin 8, ∃ t : Fin cfg0.N, win0_3.index t = ![q0.val, 0] :=
  (by decide +kernel : ∀ q0 : Fin 8, ∃ t : Fin grid0.N, win0_3.index t = ![q0.val, 0])

theorem flushed0_2_eq (c : Dev nD) (t : Fin cfg0.N) :
    (dat0 V c).flushed 2 t = ((cfg0.win 2).blk t).view.read (Elt Ideal) (G0_2 (V c main_v0) (V c main_v31)) := by
  show (cfg0.win 2).cut (grid0.coords t) ((dat0 V c).after 2 t) = _
  rw [after0_2]
  unfold out0_2
  rw [View.canon_unit_zero hz_r0]
  simp only [View.ld_unit_zero (S := S4096x128) hz_r0, View.ld_unit_zero (S := S128x1024) hz_r0]
  obtain ⟨e0, e1, e2, e3, e4, e5, e6, e7⟩ := idx_facts0 t
  funext j
  obtain ⟨p, q, rfl⟩ : ∃ (p : Fin 4096) (q : Fin 512), j = ix2 p q := ⟨j 0, j 1, eq_ix2 j⟩
  refine (pay0_2_apply (iblk0 V c 0 t) (iblk0 V c 1 t) p q).trans ?_
  show _ = G0_2 (V c main_v0) (V c main_v31) (((cfg0.win 2).blk t).view.emb (ix2 p q))
  unfold G0_2
  refine Finset.sum_congr rfl fun k _ => ?_
  refine congrArg₂ (· * ·) ?_ ?_
  · show V c main_v0 (((cfg0.win 0).blk t).view.emb (ix2 p k)) = V c main_v0 _
    refine congrArg (V c main_v0) ?_
    funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 128 + 1 * k.val = k.val; omega
  · show V c main_v31 (((cfg0.win 1).blk t).view.emb (ix2 k (⟨q.val, by omega⟩ : Fin 1024))) = V c main_v31 _
    refine congrArg (V c main_v31) ?_
    funext a; apply Fin.ext
    match a with
    | ⟨0, _⟩ => show win0_1.index t (0 : Fin 2) * 128 + 1 * k.val = k.val; omega
    | ⟨1, _⟩ => show win0_1.index t (1 : Fin 2) * 1024 + 1 * q.val = win0_2.index t (1 : Fin 2) * 512 + 1 * q.val; omega

theorem flushed0_3_eq (c : Dev nD) (t : Fin cfg0.N) :
    (dat0 V c).flushed 3 t = ((cfg0.win 3).blk t).view.read (Elt Ideal) (G0_3 (V c main_v0) (V c main_v31)) := by
  show (cfg0.win 3).cut (grid0.coords t) ((dat0 V c).after 3 t) = _
  rw [after0_3]
  unfold out0_3
  rw [View.canon_unit_zero hz_r0]
  simp only [View.ld_unit_zero (S := S4096x128) hz_r0, View.ld_unit_zero (S := S128x1024) hz_r0]
  obtain ⟨e0, e1, e2, e3, e4, e5, e6, e7⟩ := idx_facts0 t
  funext j
  obtain ⟨p, q, rfl⟩ : ∃ (p : Fin 4096) (q : Fin 512), j = ix2 p q := ⟨j 0, j 1, eq_ix2 j⟩
  refine (pay0_3_apply (iblk0 V c 0 t) (iblk0 V c 1 t) p q).trans ?_
  show _ = G0_3 (V c main_v0) (V c main_v31) (((cfg0.win 3).blk t).view.emb (ix2 p q))
  unfold G0_3
  refine Finset.sum_congr rfl fun k _ => ?_
  refine congrArg₂ (· * ·) ?_ ?_
  · show V c main_v0 (((cfg0.win 0).blk t).view.emb (ix2 p k)) = V c main_v0 _
    refine congrArg (V c main_v0) ?_
    funext a; apply Fin.ext
    match a with
    | ⟨0, _⟩ => show win0_0.index t (0 : Fin 2) * 4096 + 1 * p.val = win0_3.index t (0 : Fin 2) * 4096 + 1 * p.val; omega
    | ⟨1, _⟩ => show win0_0.index t (1 : Fin 2) * 128 + 1 * k.val = k.val; omega
  · show V c main_v31 (((cfg0.win 1).blk t).view.emb (ix2 k (⟨512 + q.val, by omega⟩ : Fin 1024))) = V c main_v31 _
    refine congrArg (V c main_v31) ?_
    funext a; apply Fin.ext
    match a with
    | ⟨0, _⟩ => show win0_1.index t (0 : Fin 2) * 128 + 1 * k.val = k.val; omega
    | ⟨1, _⟩ => show win0_1.index t (1 : Fin 2) * 1024 + 1 * (512 + q.val) = 512 + (win0_3.index t (1 : Fin 2) * 512 + 1 * q.val); omega

theorem mem_blk0_2 (t : Fin cfg0.N) (i : S32768x512.Idx) :
    i ∈ ((cfg0.win 2).blk t).view.set ↔ ∀ a : Fin 2, win0_2.index t a * S4096x512.size a ≤ (i a).val ∧ (i a).val < win0_2.index t a * S4096x512.size a + S4096x512.size a := by
  show i ∈ ((View.whole main_v32_0).slice (win0_2.rect t)).set ↔ _
  rw [View.set_slice_whole, Rect.mem_set_unit]
  exact Iff.rfl
theorem mem_blk0_3 (t : Fin cfg0.N) (i : S32768x512.Idx) :
    i ∈ ((cfg0.win 3).blk t).view.set ↔ ∀ a : Fin 2, win0_3.index t a * S4096x512.size a ≤ (i a).val ∧ (i a).val < win0_3.index t a * S4096x512.size a + S4096x512.size a := by
  show i ∈ ((View.whole main_v32_1).slice (win0_3.rect t)).set ↔ _
  rw [View.set_slice_whole, Rect.mem_set_unit]
  exact Iff.rfl

theorem covered0_2 (i : S32768x512.Idx) : ∃ t : Fin cfg0.N, (cfg0.win 2).flush t = true ∧ i ∈ ((cfg0.win 2).blk t).view.set := by
  have hi0 : (i 0).val < 32768 := idx2_lt0 i
  have hi1 : (i 1).val < 512 := idx2_lt1 i
  obtain ⟨t, ht⟩ := idx_onto0_2 ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 512 ≤ (i 1).val ∧ (i 1).val < win0_2.index t (1 : Fin 2) * 512 + 512; omega
theorem covered0_3 (i : S32768x512.Idx) : ∃ t : Fin cfg0.N, (cfg0.win 3).flush t = true ∧ i ∈ ((cfg0.win 3).blk t).view.set := by
  have hi0 : (i 0).val < 32768 := idx2_lt0 i
  have hi1 : (i 1).val < 512 := idx2_lt1 i
  obtain ⟨t, ht⟩ := idx_onto0_3 ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 512 ≤ (i 1).val ∧ (i 1).val < win0_3.index t (1 : Fin 2) * 512 + 512; omega

theorem final0_2 (c : Dev nD) : (dat0 (F := Ideal) V c).arrAt 2 cfg0.N = G0_2 (V c main_v0) (V c main_v31) :=
  (dat0 V c).arrAt_eq_of_cover 2 (G0_2 (V c main_v0) (V c main_v31)) (fun t _ => flushed0_2_eq V c t) covered0_2
theorem final0_3 (c : Dev nD) : (dat0 (F := Ideal) V c).arrAt 3 cfg0.N = G0_3 (V c main_v0) (V c main_v31) :=
  (dat0 V c).arrAt_eq_of_cover 3 (G0_3 (V c main_v0) (V c main_v31)) (fun t _ => flushed0_3_eq V c t) covered0_3

theorem G0_2_apply (hf : S32768x128.Idx → EReal) (wcat : S128x1024.Idx → EReal) (n : Fin 32768) (j : Fin 512) :
    G0_2 hf wcat (ix2 n j) = ∑ k : Fin 128, hf (ix2 n k) * wcat (ix2 k (⟨j.val, by omega⟩ : Fin 1024)) := rfl
theorem G0_3_apply (hf : S32768x128.Idx → EReal) (wcat : S128x1024.Idx → EReal) (n : Fin 32768) (j : Fin 512) :
    G0_3 hf wcat (ix2 n j) = ∑ k : Fin 128, hf (ix2 n k) * wcat (ix2 k (⟨512 + j.val, by omega⟩ : Fin 1024)) := rfl

end Cert.KernelIdeal.Val

end
-- ==== Proof.KI.Val2.lean ====
import proofs.«425588_j41618233098847_3_alg».proof.Proof.KI.Body2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem lhs2_proj_0 (j : S4096x1024.Idx) (k : dot_S4096x128_S128x1024_S4096x1024_1_0_0_1_n_n.contr.Idx) :
    (dot_S4096x128_S128x1024_S4096x1024_1_0_0_1_n_n.lhsIdx j k 0 : ℕ) = j 0 := by
  simp [DotDims.lhsIdx, dot_S4096x128_S128x1024_S4096x1024_1_0_0_1_n_n]; rfl
theorem lhs2_proj_1 (j : S4096x1024.Idx) (k : dot_S4096x128_S128x1024_S4096x1024_1_0_0_1_n_n.contr.Idx) :
    (dot_S4096x128_S128x1024_S4096x1024_1_0_0_1_n_n.lhsIdx j k 1 : ℕ) = k ⟨0, by decide⟩ := by
  simp [DotDims.lhsIdx, dot_S4096x128_S128x1024_S4096x1024_1_0_0_1_n_n]; rfl
theorem rhs2_proj_0 (j : S4096x1024.Idx) (k : dot_S4096x128_S128x1024_S4096x1024_1_0_0_1_n_n.contr.Idx) :
    (dot_S4096x128_S128x1024_S4096x1024_1_0_0_1_n_n.rhsIdx j k 0 : ℕ) = k ⟨0, by decide⟩ := by
  simp [DotDims.rhsIdx, dot_S4096x128_S128x1024_S4096x1024_1_0_0_1_n_n]; rfl
theorem rhs2_proj_1 (j : S4096x1024.Idx) (k : dot_S4096x128_S128x1024_S4096x1024_1_0_0_1_n_n.contr.Idx) :
    (dot_S4096x128_S128x1024_S4096x1024_1_0_0_1_n_n.rhsIdx j k 1 : ℕ) = j 1 := by
  simp [DotDims.rhsIdx, dot_S4096x128_S128x1024_S4096x1024_1_0_0_1_n_n]; rfl

theorem pay2_1_apply (x0 : Vec Ideal S4096x128 .f32) (x1 : Vec Ideal S128x1024 .bf16) (p : Fin 4096) (q : Fin 1024) :
    k2_pay1 x0 x1 (ix2 p q) = ∑ k : Fin 128, x0 (ix2 p k) * x1 (ix2 k q) := by
  unfold k2_pay1
  simp only [shapeCast_self]
  refine (Ideal.matmul_constant_zero_apply (φ₁ := .bf16) (φ₂ := .bf16) dot_S4096x128_S128x1024_S4096x1024_1_0_0_1_n_n none _ _ (ix2 p q)).trans ?_
  rw [← Equiv.sum_comp (contrEquiv1 dot_S4096x128_S128x1024_S4096x1024_1_0_0_1_n_n 128 rfl rfl).symm]
  refine Finset.sum_congr rfl fun k _ => ?_
  rw [truncf_apply]
  congr 1
  · congr 1; funext a; apply Fin.ext
    match a with
    | ⟨0, _⟩ => exact lhs2_proj_0 _ _
    | ⟨1, _⟩ => exact (lhs2_proj_1 _ _).trans (contrEquiv1_symm_val _ 128 rfl rfl k)
  · congr 1; funext a; apply Fin.ext
    match a with
    | ⟨0, _⟩ => exact (rhs2_proj_0 _ _).trans (contrEquiv1_symm_val _ 128 rfl rfl k)
    | ⟨1, _⟩ => exact rhs2_proj_1 _ _

theorem pay2_2_apply (x0 : Vec Ideal S4096x128 .f32) (x1 : Vec Ideal S128x1024 .bf16) (p : Fin 4096) (q : Fin 512) :
    k2_pay2 x0 x1 (ix2 p q) = ∑ k : Fin 128, x0 (ix2 p k) * x1 (ix2 k (⟨q.val, by omega⟩ : Fin 1024)) := by
  unfold k2_pay2
  rw [truncf_apply]
  refine (slice2_axis1_apply 0 (k2_pay1 x0 x1) slices_S4096x1024_o0_0_S4096x512 p q ⟨q.val, by omega⟩ (Nat.zero_add _).symm).trans ?_
  exact pay2_1_apply x0 x1 p _

theorem pay2_3_apply (x0 : Vec Ideal S4096x128 .f32) (x1 : Vec Ideal S128x1024 .bf16) (p : Fin 4096) (q : Fin 512) :
    k2_pay3 x0 x1 (ix2 p q) = ∑ k : Fin 128, x0 (ix2 p k) * x1 (ix2 k (⟨512 + q.val, by omega⟩ : Fin 1024)) := by
  unfold k2_pay3
  refine (slice2_axis1_apply 512 (k2_pay1 x0 x1) slices_S4096x1024_o0_512_S4096x512 p q ⟨512 + q.val, by omega⟩ rfl).trans ?_
  exact pay2_1_apply x0 x1 p _

def G2_2 (hf : S32768x128.Idx → EReal) (wcat : S128x1024.Idx → EReal) : S32768x512.Idx → EReal :=
  fun i => ∑ k : Fin 128, hf (ix2 (i 0 : Fin 32768) k) * wcat (ix2 k (⟨(i 1).val, by have := idx2_lt1 i; omega⟩ : Fin 1024))

def G2_3 (hf : S32768x128.Idx → EReal) (wcat : S128x1024.Idx → EReal) : S32768x512.Idx → EReal :=
  fun i => ∑ k : Fin 128, hf (ix2 (i 0 : Fin 32768) k) * wcat (ix2 k (⟨512 + (i 1).val, by have := idx2_lt1 i; omega⟩ : Fin 1024))

theorem hz_r2 : (![0, 0] : Fin 2 → Nat) = fun _ => 0 := funext fun a => by fin_cases a <;> rfl

theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0
    ∧ win2_3.index t (0 : Fin 2) = win2_2.index t (0 : Fin 2) ∧ win2_3.index t (1 : Fin 2) = 0
    ∧ win2_2.index t (0 : Fin 2) ≤ 7 :=
  (by decide +kernel : ∀ t : Fin grid2.N, _)

theorem idx_onto2_2 : ∀ q0 : Fin 8, ∃ t : Fin cfg2.N, win2_2.index t = ![q0.val, 0] :=
  (by decide +kernel : ∀ q0 : Fin 8, ∃ t : Fin grid2.N, win2_2.index t = ![q0.val, 0])
theorem idx_onto2_3 : ∀ q0 : Fin 8, ∃ t : Fin cfg2.N, win2_3.index t = ![q0.val, 0] :=
  (by decide +kernel : ∀ q0 : Fin 8, ∃ t : Fin grid2.N, win2_3.index t = ![q0.val, 0])

theorem flushed2_2_eq (c : Dev nD) (t : Fin cfg2.N) :
    (dat2 V c).flushed 2 t = ((cfg2.win 2).blk t).view.read (Elt Ideal) (G2_2 (V c main_v78) (V c main_v96)) := by
  show (cfg2.win 2).cut (grid2.coords t) ((dat2 V c).after 2 t) = _
  rw [after2_2]
  unfold out2_2
  rw [View.canon_unit_zero hz_r2]
  simp only [View.ld_unit_zero (S := S4096x128) hz_r2, View.ld_unit_zero (S := S128x1024) hz_r2]
  obtain ⟨e0, e1, e2, e3, e4, e5, e6, e7⟩ := idx_facts2 t
  funext j
  obtain ⟨p, q, rfl⟩ : ∃ (p : Fin 4096) (q : Fin 512), j = ix2 p q := ⟨j 0, j 1, eq_ix2 j⟩
  refine (pay2_2_apply (iblk2 V c 0 t) (iblk2 V c 1 t) p q).trans ?_
  show _ = G2_2 (V c main_v78) (V c main_v96) (((cfg2.win 2).blk t).view.emb (ix2 p q))
  unfold G2_2
  refine Finset.sum_congr rfl fun k _ => ?_
  refine congrArg₂ (· * ·) ?_ ?_
  · show V c main_v78 (((cfg2.win 0).blk t).view.emb (ix2 p k)) = V c main_v78 _
    refine congrArg (V c main_v78) ?_
    funext a; apply Fin.ext
    match a with
    | ⟨0, _⟩ => show win2_0.index t (0 : Fin 2) * 4096 + 1 * p.val = win2_2.index t (0 : Fin 2) * 4096 + 1 * p.val; omega
    | ⟨1, _⟩ => show win2_0.index t (1 : Fin 2) * 128 + 1 * k.val = k.val; omega
  · show V c main_v96 (((cfg2.win 1).blk t).view.emb (ix2 k (⟨q.val, by omega⟩ : Fin 1024))) = V c main_v96 _
    refine congrArg (V c main_v96) ?_
    funext a; apply Fin.ext
    match a with
    | ⟨0, _⟩ => show win2_1.index t (0 : Fin 2) * 128 + 1 * k.val = k.val; omega
    | ⟨1, _⟩ => show win2_1.index t (1 : Fin 2) * 1024 + 1 * q.val = win2_2.index t (1 : Fin 2) * 512 + 1 * q.val; omega

theorem flushed2_3_eq (c : Dev nD) (t : Fin cfg2.N) :
    (dat2 V c).flushed 3 t = ((cfg2.win 3).blk t).view.read (Elt Ideal) (G2_3 (V c main_v78) (V c main_v96)) := by
  show (cfg2.win 3).cut (grid2.coords t) ((dat2 V c).after 3 t) = _
  rw [after2_3]
  unfold out2_3
  rw [View.canon_unit_zero hz_r2]
  simp only [View.ld_unit_zero (S := S4096x128) hz_r2, View.ld_unit_zero (S := S128x1024) hz_r2]
  obtain ⟨e0, e1, e2, e3, e4, e5, e6, e7⟩ := idx_facts2 t
  funext j
  obtain ⟨p, q, rfl⟩ : ∃ (p : Fin 4096) (q : Fin 512), j = ix2 p q := ⟨j 0, j 1, eq_ix2 j⟩
  refine (pay2_3_apply (iblk2 V c 0 t) (iblk2 V c 1 t) p q).trans ?_
  show _ = G2_3 (V c main_v78) (V c main_v96) (((cfg2.win 3).blk t).view.emb (ix2 p q))
  unfold G2_3
  refine Finset.sum_congr rfl fun k _ => ?_
  refine congrArg₂ (· * ·) ?_ ?_
  · show V c main_v78 (((cfg2.win 0).blk t).view.emb (ix2 p k)) = V c main_v78 _
    refine congrArg (V c main_v78) ?_
    funext a; apply Fin.ext
    match a with
    | ⟨0, _⟩ => show win2_0.index t (0 : Fin 2) * 4096 + 1 * p.val = win2_3.index t (0 : Fin 2) * 4096 + 1 * p.val; omega
    | ⟨1, _⟩ => show win2_0.index t (1 : Fin 2) * 128 + 1 * k.val = k.val; omega
  · show V c main_v96 (((cfg2.win 1).blk t).view.emb (ix2 k (⟨512 + q.val, by omega⟩ : Fin 1024))) = V c main_v96 _
    refine congrArg (V c main_v96) ?_
    funext a; apply Fin.ext
    match a with
    | ⟨0, _⟩ => show win2_1.index t (0 : Fin 2) * 128 + 1 * k.val = k.val; omega
    | ⟨1, _⟩ => show win2_1.index t (1 : Fin 2) * 1024 + 1 * (512 + q.val) = 512 + (win2_3.index t (1 : Fin 2) * 512 + 1 * q.val); omega

theorem mem_blk2_2 (t : Fin cfg2.N) (i : S32768x512.Idx) :
    i ∈ ((cfg2.win 2).blk t).view.set ↔ ∀ a : Fin 2, win2_2.index t a * S4096x512.size a ≤ (i a).val ∧ (i a).val < win2_2.index t a * S4096x512.size a + S4096x512.size a := by
  show i ∈ ((View.whole main_v97_0).slice (win2_2.rect t)).set ↔ _
  rw [View.set_slice_whole, Rect.mem_set_unit]
  exact Iff.rfl
theorem mem_blk2_3 (t : Fin cfg2.N) (i : S32768x512.Idx) :
    i ∈ ((cfg2.win 3).blk t).view.set ↔ ∀ a : Fin 2, win2_3.index t a * S4096x512.size a ≤ (i a).val ∧ (i a).val < win2_3.index t a * S4096x512.size a + S4096x512.size a := by
  show i ∈ ((View.whole main_v97_1).slice (win2_3.rect t)).set ↔ _
  rw [View.set_slice_whole, Rect.mem_set_unit]
  exact Iff.rfl

theorem covered2_2 (i : S32768x512.Idx) : ∃ t : Fin cfg2.N, (cfg2.win 2).flush t = true ∧ i ∈ ((cfg2.win 2).blk t).view.set := by
  have hi0 : (i 0).val < 32768 := idx2_lt0 i
  have hi1 : (i 1).val < 512 := idx2_lt1 i
  obtain ⟨t, ht⟩ := idx_onto2_2 ⟨(i 0).val / 4096, by omega⟩
  have q0 : win2_2.index t (0 : Fin 2) = (i 0).val / 4096 := congrFun ht 0
  have q1 : win2_2.index t (1 : Fin 2) = 0 := congrFun ht 1
  refine ⟨t, flush2_2 t, ?_⟩
  rw [mem_blk2_2]
  intro a
  match a with
  | ⟨0, _⟩ => show win2_2.index t (0 : Fin 2) * 4096 ≤ (i 0).val ∧ (i 0).val < win2_2.index t (0 : Fin 2) * 4096 + 4096; omega
  | ⟨1, _⟩ => show win2_2.index t (1 : Fin 2) * 512 ≤ (i 1).val ∧ (i 1).val < win2_2.index t (1 : Fin 2) * 512 + 512; omega
theorem covered2_3 (i : S32768x512.Idx) : ∃ t : Fin cfg2.N, (cfg2.win 3).flush t = true ∧ i ∈ ((cfg2.win 3).blk t).view.set := by
  have hi0 : (i 0).val < 32768 := idx2_lt0 i
  have hi1 : (i 1).val < 512 := idx2_lt1 i
  obtain ⟨t, ht⟩ := idx_onto2_3 ⟨(i 0).val / 4096, by omega⟩
  have q0 : win2_3.index t (0 : Fin 2) = (i 0).val / 4096 := congrFun ht 0
  have q1 : win2_3.index t (1 : Fin 2) = 0 := congrFun ht 1
  refine ⟨t, flush2_3 t, ?_⟩
  rw [mem_blk2_3]
  intro a
  match a with
  | ⟨0, _⟩ => show win2_3.index t (0 : Fin 2) * 4096 ≤ (i 0).val ∧ (i 0).val < win2_3.index t (0 : Fin 2) * 4096 + 4096; omega
  | ⟨1, _⟩ => show win2_3.index t (1 : Fin 2) * 512 ≤ (i 1).val ∧ (i 1).val < win2_3.index t (1 : Fin 2) * 512 + 512; omega

theorem final2_2 (c : Dev nD) : (dat2 (F := Ideal) V c).arrAt 2 cfg2.N = G2_2 (V c main_v78) (V c main_v96) :=
  (dat2 V c).arrAt_eq_of_cover 2 (G2_2 (V c main_v78) (V c main_v96)) (fun t _ => flushed2_2_eq V c t) covered2_2
theorem final2_3 (c : Dev nD) : (dat2 (F := Ideal) V c).arrAt 3 cfg2.N = G2_3 (V c main_v78) (V c main_v96) :=
  (dat2 V c).arrAt_eq_of_cover 3 (G2_3 (V c main_v78) (V c main_v96)) (fun t _ => flushed2_3_eq V c t) covered2_3

theorem G2_2_apply (hf : S32768x128.Idx → EReal) (wcat : S128x1024.Idx → EReal) (n : Fin 32768) (j : Fin 512) :
    G2_2 hf wcat (ix2 n j) = ∑ k : Fin 128, hf (ix2 n k) * wcat (ix2 k (⟨j.val, by omega⟩ : Fin 1024)) := rfl
theorem G2_3_apply (hf : S32768x128.Idx → EReal) (wcat : S128x1024.Idx → EReal) (n : Fin 32768) (j : Fin 512) :
    G2_3 hf wcat (ix2 n j) = ∑ k : Fin 128, hf (ix2 n k) * wcat (ix2 k (⟨512 + j.val, by omega⟩ : Fin 1024)) := rfl

end Cert.KernelIdeal.Val

end
-- ==== Proof.KI.Carry.lean ====
import proofs.«425588_j41618233098847_3_alg».proof.Proof.KI.Keep
import proofs.«425588_j41618233098847_3_alg».proof.Proof.KI.Val0
import proofs.«425588_j41618233098847_3_alg».proof.Proof.KI.Val2

set_option maxRecDepth 16384

noncomputable section

namespace Cert.KernelIdeal.Val

open Cert.KernelIdeal Cert.KernelIdeal.Gen Cert.KernelIdeal.Hand Idealize.ShloMosaic Idealize.ShloMosaic.TcCoe Idealize.SL.Sem
open Idealize.ShloMosaic.ValueIdx

variable (m : (ℓ : Loc nD τ sig) → Buf (Elt Ideal) ℓ)

abbrev arg0 (c : Dev nD) : S256x128x128.Idx → EReal := m (c, main_arg0)
abbrev arg1 (c : Dev nD) : S2x262144.Idx → BitVec 32 := m (c, main_arg1)
abbrev arg2 (c : Dev nD) : S2x256x256.Idx → EReal := m (c, main_arg2)
abbrev arg3 (c : Dev nD) : S2x256.Idx → EReal := m (c, main_arg3)
abbrev arg4 (c : Dev nD) : S2x256x256.Idx → EReal := m (c, main_arg4)
abbrev arg5 (c : Dev nD) : S2x256.Idx → EReal := m (c, main_arg5)
abbrev arg6 (c : Dev nD) : S2x384x256.Idx → EReal := m (c, main_arg6)
abbrev arg7 (c : Dev nD) : S2x384x128.Idx → EReal := m (c, main_arg7)
abbrev arg8 (c : Dev nD) : S2x384.Idx → EReal := m (c, main_arg8)
abbrev arg9 (c : Dev nD) : S2x384.Idx → EReal := m (c, main_arg9)
abbrev arg10 (c : Dev nD) : S128x128.Idx → EReal := m (c, main_arg10)
abbrev arg11 (c : Dev nD) : S128.Idx → EReal := m (c, main_arg11)
abbrev arg12 (c : Dev nD) : S1x128.Idx → EReal := m (c, main_arg12)
abbrev arg13 (c : Dev nD) : S1.Idx → EReal := m (c, main_arg13)
abbrev arg14 (c : Dev nD) : S128x128.Idx → EReal := m (c, main_arg14)
abbrev arg15 (c : Dev nD) : S128.Idx → EReal := m (c, main_arg15)
abbrev arg16 (c : Dev nD) : S1x128.Idx → EReal := m (c, main_arg16)
abbrev arg17 (c : Dev nD) : S1.Idx → EReal := m (c, main_arg17)

theorem W1_arg (c : Dev nD) (b : Ref sig .tc) (hb : b ∈ argRefs) : W1 m c b = m (c, b) := by
  obtain ⟨h0, h1, h2, h3, h4, k0, k2, k4, n1, n3⟩ := arg_untouched b hb
  exact W1_keep m c b h0
theorem W2_arg (c : Dev nD) (b : Ref sig .tc) (hb : b ∈ argRefs) : W2 m c b = m (c, b) := by
  obtain ⟨h0, h1, h2, h3, h4, k0, k2, k4, n1, n3⟩ := arg_untouched b hb
  exact (W2_keep m c b k0).trans (W1_arg m c b hb)
theorem W3_arg (c : Dev nD) (b : Ref sig .tc) (hb : b ∈ argRefs) : W3 m c b = m (c, b) := by
  obtain ⟨h0, h1, h2, h3, h4, k0, k2, k4, n1, n3⟩ := arg_untouched b hb
  exact (W3_keep m c b h1).trans (W2_arg m c b hb)
theorem W4_arg (c : Dev nD) (b : Ref sig .tc) (hb : b ∈ argRefs) : W4 m c b = m (c, b) := by
  obtain ⟨h0, h1, h2, h3, h4, k0, k2, k4, n1, n3⟩ := arg_untouched b hb
  exact (W4_of_ne m c b n1).trans (W3_arg m c b hb)
theorem W5_arg (c : Dev nD) (b : Ref sig .tc) (hb : b ∈ argRefs) : W5 m c b = m (c, b) := by
  obtain ⟨h0, h1, h2, h3, h4, k0, k2, k4, n1, n3⟩ := arg_untouched b hb
  exact (W5_keep m c b h2).trans (W4_arg m c b hb)
theorem W6_arg (c : Dev nD) (b : Ref sig .tc) (hb : b ∈ argRefs) : W6 m c b = m (c, b) := by
  obtain ⟨h0, h1, h2, h3, h4, k0, k2, k4, n1, n3⟩ := arg_untouched b hb
  exact (W6_keep m c b k2).trans (W5_arg m c b hb)
theorem W7_arg (c : Dev nD) (b : Ref sig .tc) (hb : b ∈ argRefs) : W7 m c b = m (c, b) := by
  obtain ⟨h0, h1, h2, h3, h4, k0, k2, k4, n1, n3⟩ := arg_untouched b hb
  exact (W7_keep m c b h3).trans (W6_arg m c b hb)
theorem W8_arg (c : Dev nD) (b : Ref sig .tc) (hb : b ∈ argRefs) : W8 m c b = m (c, b) := by
  obtain ⟨h0, h1, h2, h3, h4, k0, k2, k4, n1, n3⟩ := arg_untouched b hb
  exact (W8_of_ne m c b n3).trans (W7_arg m c b hb)
theorem W9_arg (c : Dev nD) (b : Ref sig .tc) (hb : b ∈ argRefs) : W9 m c b = m (c, b) := by
  obtain ⟨h0, h1, h2, h3, h4, k0, k2, k4, n1, n3⟩ := arg_untouched b hb
  exact (W9_keep m c b h4).trans (W8_arg m c b hb)

theorem W2_v32_0 (c : Dev nD) : W2 m c main_v32_0 = G0_2 (W1 m c main_v0) (W1 m c main_v31) :=
  (W2_arr m c 2).trans (final0_2 (Hand.V1 m) c)
theorem W2_v32_1 (c : Dev nD) : W2 m c main_v32_1 = G0_3 (W1 m c main_v0) (W1 m c main_v31) :=
  (W2_arr m c 3).trans (final0_3 (Hand.V1 m) c)

theorem W6_v97_0 (c : Dev nD) : W6 m c main_v97_0 = G2_2 (W5 m c main_v78) (W5 m c main_v96) :=
  (W6_arr m c 2).trans (final2_2 (Hand.V5 m) c)
theorem W6_v97_1 (c : Dev nD) : W6 m c main_v97_1 = G2_3 (W5 m c main_v78) (W5 m c main_v96) :=
  (W6_arr m c 3).trans (final2_3 (Hand.V5 m) c)

theorem W3_eq_W1 (c : Dev nD) (b : Ref sig .tc) (h1 : b ∉ hostOps1_W)
    (k0 : ∀ w, Pipeline.arrRef spec0 w = b → (cfg0.win w).isOut = false) : W3 m c b = W1 m c b :=
  (W3_keep m c b h1).trans (W2_keep m c b k0)

theorem W7_eq_W4 (c : Dev nD) (b : Ref sig .tc) (h3 : b ∉ hostOps3_W)
    (k2 : ∀ w, Pipeline.arrRef spec2 w = b → (cfg2.win w).isOut = false) (h2 : b ∉ hostOps2_W) : W7 m c b = W4 m c b :=
  (W7_keep m c b h3).trans ((W6_keep m c b k2).trans (W5_keep m c b h2))

theorem W7_eq_W1 (c : Dev nD) (b : Ref sig .tc) (h3 : b ∉ hostOps3_W)
    (k2 : ∀ w, Pipeline.arrRef spec2 w = b → (cfg2.win w).isOut = false) (h2 : b ∉ hostOps2_W) (n1 : b ≠ main_v78)
    (h1 : b ∉ hostOps1_W) (k0 : ∀ w, Pipeline.arrRef spec0 w = b → (cfg0.win w).isOut = false) : W7 m c b = W1 m c b :=
  (W7_eq_W4 m c b h3 k2 h2).trans ((W4_of_ne m c b n1).trans (W3_eq_W1 m c b h1 k0))

theorem W6_eq_W1 (c : Dev nD) (b : Ref sig .tc)
    (k2 : ∀ w, Pipeline.arrRef spec2 w = b → (cfg2.win w).isOut = false) (h2 : b ∉ hostOps2_W) (n1 : b ≠ main_v78)
    (h1 : b ∉ hostOps1_W) (k0 : ∀ w, Pipeline.arrRef spec0 w = b → (cfg0.win w).isOut = false) : W6 m c b = W1 m c b :=
  (W6_keep m c b k2).trans ((W5_keep m c b h2).trans ((W4_of_ne m c b n1).trans (W3_eq_W1 m c b h1 k0)))

end Cert.KernelIdeal.Val

end
-- ==== Proof.LibRows.lean ====
import Idealize.ShloMosaic.PureOps
import Idealize.ShloMosaic.PureOps.Ideal
import Idealize.ShloMosaic.PureOps.Ideal.Laws
import Idealize.ShloMosaic.Lib.ValueIdx
import Mathlib.Data.EReal.Operations
import Mathlib.Logic.Equiv.Fin.Basic
import Mathlib.Algebra.BigOperators.Fin

noncomputable section

open scoped BigOperators

namespace Idealize.ShloMosaic.Rows

open Idealize.ShloMosaic Idealize.ShloMosaic.ValueIdx

def grow (N : ℕ) (hN : 0 < N) {w : ℕ} (v : BitVec w) : Fin N := ⟨min v.toInt.toNat (N - 1), by omega⟩

def srow (N : ℕ) {w : ℕ} (v : BitVec w) : Option (Fin N) :=
  if h : 0 ≤ v.toInt ∧ v.toInt < N then some ⟨v.toInt.toNat, by omega⟩ else none

theorem grow_of_srow {N : ℕ} (hN : 0 < N) {w : ℕ} {v : BitVec w} {n : Fin N} (h : srow N v = some n) :
    grow N hN v = n := by
  unfold srow at h
  split at h
  · rename_i hv
    obtain rfl := Option.some.inj h
    refine Fin.ext ?_
    show min v.toInt.toNat (N - 1) = v.toInt.toNat
    omega
  · exact absurd h (by simp)

theorem srow_nonneg {N w : ℕ} {v : BitVec w} {n : Fin N} (h : srow N v = some n) : 0 ≤ v.toInt := by
  unfold srow at h
  split at h
  · rename_i hv
    exact hv.1
  · exact absurd h (by simp)

theorem srow_eq_some_iff {N w : ℕ} {v : BitVec w} {r : Fin N} : srow N v = some r ↔ v.toInt = (r.val : ℤ) := by
  have hr := r.isLt
  unfold srow
  constructor
  · intro h
    split at h
    · rename_i hv
      obtain rfl := Option.some.inj h
      show v.toInt = ((v.toInt.toNat : ℕ) : ℤ)
      omega
    · exact absurd h (by simp)
  · intro h
    rw [dif_pos ⟨by omega, by omega⟩]
    congr 1
    refine Fin.ext ?_
    show v.toInt.toNat = r.val
    omega

abbrev rowGatherDims (N n C : ℕ)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

theorem gather_rows_apply {α : Type} {N n C w : ℕ} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (j : (⟨2, ![n, C]⟩ : Shape).Idx) :
    Host.gather (rowGatherDims N n C wf) x idx j
      = x (ix2 (grow N hN (idx (ix2 ⟨(j 0).val, idx2_lt0 j⟩ ⟨0, Nat.one_pos⟩))) ⟨(j 1).val, idx2_lt1 j⟩) := by
  unfold Host.gather
  congr 1
  funext a
  refine Fin.ext ?_
  show (rowGatherDims N n C wf).start j idx a + (rowGatherDims N n C wf).batchCoord j a
    + (rowGatherDims N n C wf).offCoord j a = _
  rw [GatherDims.batchCoord_eq_zero _ _ _ List.not_mem_nil]
  match a with
  | ⟨0, h0⟩ =>

    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N n C wf).startIndexMap from List.mem_singleton.mpr rfl)]
    have hsi : (rowGatherDims N n C wf).siIdx j ⟨List.idxOf (⟨0, h0⟩ : Fin 2) (rowGatherDims N n C wf).startIndexMap,
        List.idxOf_lt_length_iff.2 (List.mem_singleton.mpr rfl)⟩ = ix2 ⟨(j 0).val, idx2_lt0 j⟩ ⟨0, Nat.one_pos⟩ := by
      funext b; refine Fin.ext ?_
      match b with
      | ⟨0, _⟩ => rfl
      | ⟨1, _⟩ => rfl
    rw [hsi]
    rfl
  | ⟨1, h1⟩ =>

    have hns : (⟨1, h1⟩ : Fin 2) ∉ (rowGatherDims N n C wf).startIndexMap :=
      fun h => Nat.one_ne_zero (congrArg Fin.val (List.mem_singleton.mp h))
    have hk : (⟨1, h1⟩ : Fin 2) ∈ (rowGatherDims N n C wf).sKept :=
      (GatherDims.mem_sKept _ _).mpr
        ⟨fun h => Nat.one_ne_zero (congrArg Fin.val (List.mem_singleton.mp h)), List.not_mem_nil⟩
    unfold GatherDims.start GatherDims.offCoord
    rw [dif_neg hns, dif_pos hk]
    simp only [Nat.zero_add, Nat.add_zero]
    rfl

abbrev rowScatterDims (N n C : ℕ) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

theorem resultIdx_rows {N n C w : ℕ} (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) (i : (⟨2, ![N, C]⟩ : Shape).Idx) :
    (rowScatterDims N n C wf).resultIdx? j idx = some i
      ↔ srow N (idx (ix2 ⟨(j 0).val, idx2_lt0 j⟩ ⟨0, Nat.one_pos⟩)) = some ⟨(i 0).val, idx2_lt0 i⟩
        ∧ (i 1).val = (j 1).val := by

  have hs0 : ∀ h0 : 0 < 2, (rowScatterDims N n C wf).start j idx ⟨0, h0⟩
      = (idx (ix2 ⟨(j 0).val, idx2_lt0 j⟩ ⟨0, Nat.one_pos⟩)).toInt := by
    intro h0
    unfold ScatterDims.start
    rw [dif_pos (show (⟨0, h0⟩ : Fin 2) ∈ (rowScatterDims N n C wf).scatterDimsToOperandDims from
      List.mem_singleton.mpr rfl)]
    have hsi : (rowScatterDims N n C wf).siIdx j
        ⟨List.idxOf (⟨0, h0⟩ : Fin 2) (rowScatterDims N n C wf).scatterDimsToOperandDims,
          List.idxOf_lt_length_iff.2 (List.mem_singleton.mpr rfl)⟩
        = ix2 ⟨(j 0).val, idx2_lt0 j⟩ ⟨0, Nat.one_pos⟩ := by
      funext b; refine Fin.ext ?_
      match b with
      | ⟨0, _⟩ => rfl
      | ⟨1, _⟩ => rfl
    rw [hsi]
  have hs1 : ∀ h1 : 1 < 2, (rowScatterDims N n C wf).start j idx ⟨1, h1⟩ = 0 := by
    intro h1
    unfold ScatterDims.start
    rw [dif_neg (fun h => Nat.one_ne_zero (congrArg Fin.val (List.mem_singleton.mp h)))]
  have hw0 : ∀ h0 : 0 < 2, (rowScatterDims N n C wf).window j ⟨0, h0⟩ = 0 := by
    intro h0
    unfold ScatterDims.window
    rw [dif_neg]
    intro h
    have := (List.mem_filter.mp h).2
    simp at this
  have hw1 : ∀ h1 : 1 < 2, (rowScatterDims N n C wf).window j ⟨1, h1⟩ = (j 1).val := by
    intro h1
    have hk : (⟨1, h1⟩ : Fin 2) ∈ (rowScatterDims N n C wf).sKept :=
      List.mem_filter.mpr ⟨List.mem_finRange _, by simp⟩
    unfold ScatterDims.window
    rw [dif_pos hk]
    rfl
  have hi0 := idx2_lt0 i
  have hj1 := idx2_lt1 j
  rw [srow_eq_some_iff]
  show _ ↔ (idx (ix2 ⟨(j 0).val, idx2_lt0 j⟩ ⟨0, Nat.one_pos⟩)).toInt = ((i 0).val : ℤ) ∧ (i 1).val = (j 1).val
  unfold ScatterDims.resultIdx?
  constructor
  ·
    intro h
    by_cases hall : ∀ a, 0 ≤ (rowScatterDims N n C wf).start j idx a + ((rowScatterDims N n C wf).window j a : ℕ)
        ∧ (rowScatterDims N n C wf).start j idx a + ((rowScatterDims N n C wf).window j a : ℕ)
          < ((⟨2, ![N, C]⟩ : Shape).size a : ℕ)
    · rw [dif_pos hall] at h
      have hi := Option.some.inj h
      have a0 := hall ⟨0, Nat.zero_lt_two⟩
      have e0 : ((rowScatterDims N n C wf).start j idx ⟨0, Nat.zero_lt_two⟩
          + ((rowScatterDims N n C wf).window j ⟨0, Nat.zero_lt_two⟩ : ℕ)).toNat = (i 0).val :=
        congrArg (fun f => (f 0).val) hi
      have e1 : ((rowScatterDims N n C wf).start j idx ⟨1, Nat.one_lt_two⟩
          + ((rowScatterDims N n C wf).window j ⟨1, Nat.one_lt_two⟩ : ℕ)).toNat = (i 1).val :=
        congrArg (fun f => (f 1).val) hi
      rw [hs0, hw0] at a0 e0
      rw [hs1, hw1] at e1
      constructor <;> omega
    · rw [dif_neg hall] at h
      exact absurd h (by simp)
  ·
    rintro ⟨hv, hc⟩
    have hall : ∀ a, 0 ≤ (rowScatterDims N n C wf).start j idx a + ((rowScatterDims N n C wf).window j a : ℕ)
        ∧ (rowScatterDims N n C wf).start j idx a + ((rowScatterDims N n C wf).window j a : ℕ)
          < ((⟨2, ![N, C]⟩ : Shape).size a : ℕ) := by
      intro a
      match a with
      | ⟨0, h0⟩ =>
        rw [hs0, hw0]
        show _ ∧ _ < ((N : ℕ) : ℤ)
        omega
      | ⟨1, h1⟩ =>
        rw [hs1, hw1]
        show _ ∧ _ < ((C : ℕ) : ℤ)
        omega
    rw [dif_pos hall]
    congr 1
    funext a
    refine Fin.ext ?_
    match a with
    | ⟨0, h0⟩ =>
      show ((rowScatterDims N n C wf).start j idx ⟨0, h0⟩
        + ((rowScatterDims N n C wf).window j ⟨0, h0⟩ : ℕ)).toNat = (i 0).val
      rw [hs0, hw0]
      omega
    | ⟨1, h1⟩ =>
      show ((rowScatterDims N n C wf).start j idx ⟨1, h1⟩
        + ((rowScatterDims N n C wf).window j ⟨1, h1⟩ : ℕ)).toNat = (i 1).val
      rw [hs1, hw1]
      omega

theorem scatterAdd_rows_apply {N n C w : ℕ}
    (wf : ScatterDims.WF ⟨2, ![N, C]⟩ ⟨2, ![n, 1]⟩ ⟨2, ![n, C]⟩ [1] [0] [0] 1)
    (x : FVec Ideal ⟨2, ![N, C]⟩ .f32) (idx : IVec ⟨2, ![n, 1]⟩ w) (upd : FVec Ideal ⟨2, ![n, C]⟩ .f32)
    (i : (⟨2, ![N, C]⟩ : Shape).Idx) :
    Host.scatterAdd (F := Ideal) (φ := .f32) (rowScatterDims N n C wf) x idx upd i
      = x i + ∑ e : Fin n,
          if srow N (idx (ix2 e ⟨0, Nat.one_pos⟩)) = some ⟨(i 0).val, idx2_lt0 i⟩
          then upd (ix2 e ⟨(i 1).val, idx2_lt1 i⟩) else 0 := by
  show Ideal.hostScatterAdd (rowScatterDims N n C wf) x idx upd i = _
  unfold Ideal.hostScatterAdd
  congr 1
  rw [Finset.sum_filter, sum_idx2]
  refine Finset.sum_congr rfl fun e _ => ?_

  have key : ∀ b : Fin C, (rowScatterDims N n C wf).resultIdx? (ix2 e b) idx = some i
      ↔ srow N (idx (ix2 e ⟨0, Nat.one_pos⟩)) = some ⟨(i 0).val, idx2_lt0 i⟩ ∧ (i 1).val = b.val :=
    fun b => resultIdx_rows wf idx (ix2 e b) i
  by_cases hrow : srow N (idx (ix2 e ⟨0, Nat.one_pos⟩)) = some ⟨(i 0).val, idx2_lt0 i⟩
  ·
    rw [if_pos hrow, Finset.sum_eq_single (⟨(i 1).val, idx2_lt1 i⟩ : Fin C)]
    · exact if_pos ((key ⟨(i 1).val, idx2_lt1 i⟩).mpr ⟨hrow, rfl⟩)
    · intro b _ hb
      exact if_neg fun h => hb (Fin.ext ((key b).mp h).2.symm)
    · intro h
      exact absurd (Finset.mem_univ _) h
  ·
    rw [if_neg hrow]
    exact Finset.sum_eq_zero fun b _ => if_neg fun h => hrow ((key b).mp h).1

end Idealize.ShloMosaic.Rows

end
-- ==== Proof.Spec.lean ====
import proofs.«425588_j41618233098847_3_alg».proof.Proof.LibRows

noncomputable section

open scoped BigOperators

namespace Cert.Spec

open Idealize.ShloMosaic Idealize.ShloMosaic.Rows

def wrap (w : BitVec 32) : BitVec 32 := if w.toInt < 0 then w + 32768#32 else w

def row (w : BitVec 32) : Fin 32768 := grow 32768 (by decide) (wrap w)

theorem row_of_srow {w : BitVec 32} {v : Fin 32768} (h : srow 32768 w = some v) : row w = v := by
  have h0 := srow_nonneg h
  unfold row wrap
  rw [if_neg (by omega)]
  exact grow_of_srow (by decide) h

def P (hf : Fin 32768 → Fin 128 → EReal) (W : Fin 256 → Fin 256 → EReal) (n : Fin 32768) (o : Fin 256) : EReal :=
  ∑ k : Fin 128, hf n k * W o ⟨k.val, by omega⟩

def Q (hf : Fin 32768 → Fin 128 → EReal) (W : Fin 256 → Fin 256 → EReal) (n : Fin 32768) (o : Fin 256) : EReal :=
  ∑ k : Fin 128, hf n k * W o ⟨128 + k.val, by omega⟩

def agg (hf : Fin 32768 → Fin 128 → EReal) (a b : Fin 262144 → BitVec 32)
    (Wm Wr : Fin 256 → Fin 256 → EReal) (bm br : Fin 256 → EReal) (v : Fin 32768) (o : Fin 256) : EReal :=
  (((∑ e : Fin 262144, if srow 32768 (b e) = some v then P hf Wm (row (a e)) o else 0)
      + (∑ e : Fin 262144, if srow 32768 (a e) = some v then P hf Wr (row (b e)) o else 0))
    + (∑ e : Fin 262144, if srow 32768 (b e) = some v then (1 : EReal) else 0) * (Q hf Wm v o + bm o))
    + (∑ e : Fin 262144, if srow 32768 (a e) = some v then (1 : EReal) else 0) * (Q hf Wr v o + br o)

def msgIn (hf : Fin 32768 → Fin 128 → EReal) (W : Fin 256 → Fin 256 → EReal) (β : Fin 256 → EReal)
    (s t : Fin 32768) (o : Fin 256) : EReal :=
  (∑ k : Fin 256, (if h : k.val < 128 then hf s ⟨k.val, h⟩ else hf t ⟨k.val - 128, by omega⟩) * W o k) + β o

def gru (g : Fin 32768 → Fin 256 → EReal) (hf : Fin 32768 → Fin 128 → EReal)
    (Wih : Fin 384 → Fin 256 → EReal) (Whh : Fin 384 → Fin 128 → EReal) (bih bhh : Fin 384 → EReal)
    (n : Fin 32768) (j : Fin 128) : EReal :=
  let gi : Fin 384 → EReal := fun q => (∑ k : Fin 256, g n k * Wih q k) + bih q
  let gh : Fin 384 → EReal := fun q => (∑ k : Fin 128, hf n k * Whh q k) + bhh q
  let r := Ideal.logistic (gi ⟨j.val, by omega⟩ + gh ⟨j.val, by omega⟩)
  let z := Ideal.logistic (gi ⟨128 + j.val, by omega⟩ + gh ⟨128 + j.val, by omega⟩)
  let c := Ideal.tanh (gi ⟨256 + j.val, by omega⟩ + r * gh ⟨256 + j.val, by omega⟩)
  (1 - z) * c + z * hf n j

def layer (hf : Fin 32768 → Fin 128 → EReal) (a b : Fin 262144 → BitVec 32)
    (Wm Wr : Fin 256 → Fin 256 → EReal) (bm br : Fin 256 → EReal)
    (Wih : Fin 384 → Fin 256 → EReal) (Whh : Fin 384 → Fin 128 → EReal) (bih bhh : Fin 384 → EReal) :
    Fin 32768 → Fin 128 → EReal :=
  gru (agg hf a b Wm Wr bm br) hf Wih Whh bih bhh

def eps : EReal := Ideal.ofBits .f32 0x2B8CBCCC#32

def normalize {N : ℕ} (x : Fin N → Fin 128 → EReal) (n : Fin N) (j : Fin 128) : EReal :=
  Ideal.div (x n j) (max (Ideal.sqrt (∑ k : Fin 128, x n k * x n k)) eps)

def pooled (h : Fin 32768 → Fin 128 → EReal) (W : Fin 128 → Fin 128 → EReal) (β : Fin 128 → EReal)
    (w : Fin 128 → EReal) (γ : EReal) (b : Fin 256) (j : Fin 128) : EReal :=
  ∑ p : Fin 128,
    ((∑ k : Fin 128, h ⟨b.val * 128 + p.val, by omega⟩ k * W j k) + β j)
      * Ideal.logistic ((∑ k : Fin 128, h ⟨b.val * 128 + p.val, by omega⟩ k * w k) + γ)

def readout (h : Fin 32768 → Fin 128 → EReal) (W : Fin 128 → Fin 128 → EReal) (β : Fin 128 → EReal)
    (w : Fin 128 → EReal) (γ : EReal) : Fin 256 → Fin 128 → EReal :=
  normalize (pooled h W β w γ)

end Cert.Spec

end
-- ==== Proof.SpecNet.lean ====
import proofs.«425588_j41618233098847_3_alg».proof.Proof.Spec

noncomputable section

namespace Cert.Spec

open Idealize.ShloMosaic Idealize.ShloMosaic.ValueIdx

def rows (x0 : (⟨3, ![256, 128, 128]⟩ : Shape).Idx → EReal) : Fin 32768 → Fin 128 → EReal :=
  fun n k => x0 (ix3 ⟨n.val / 128, by omega⟩ ⟨n.val % 128, by omega⟩ k)

def endA (x1 : (⟨2, ![2, 262144]⟩ : Shape).Idx → BitVec 32) : Fin 262144 → BitVec 32 := fun e => x1 (ix2 0 e)
def endB (x1 : (⟨2, ![2, 262144]⟩ : Shape).Idx → BitVec 32) : Fin 262144 → BitVec 32 := fun e => x1 (ix2 1 e)

def mat {A B : ℕ} (x : (⟨3, ![2, A, B]⟩ : Shape).Idx → EReal) (l : Fin 2) : Fin A → Fin B → EReal := fun o k => x (ix3 l o k)
def vec {A : ℕ} (x : (⟨2, ![2, A]⟩ : Shape).Idx → EReal) (l : Fin 2) : Fin A → EReal := fun o => x (ix2 l o)

def layerOf (l : Fin 2) (h : Fin 32768 → Fin 128 → EReal) (x1 : (⟨2, ![2, 262144]⟩ : Shape).Idx → BitVec 32)
    (x2 : (⟨3, ![2, 256, 256]⟩ : Shape).Idx → EReal) (x3 : (⟨2, ![2, 256]⟩ : Shape).Idx → EReal)
    (x4 : (⟨3, ![2, 256, 256]⟩ : Shape).Idx → EReal) (x5 : (⟨2, ![2, 256]⟩ : Shape).Idx → EReal)
    (x6 : (⟨3, ![2, 384, 256]⟩ : Shape).Idx → EReal) (x7 : (⟨3, ![2, 384, 128]⟩ : Shape).Idx → EReal)
    (x8 x9 : (⟨2, ![2, 384]⟩ : Shape).Idx → EReal) : Fin 32768 → Fin 128 → EReal :=
  layer h (endA x1) (endB x1) (mat x2 l) (mat x4 l) (vec x3 l) (vec x5 l) (mat x6 l) (mat x7 l) (vec x8 l) (vec x9 l)

def net (x0 : (⟨3, ![256, 128, 128]⟩ : Shape).Idx → EReal) (x1 : (⟨2, ![2, 262144]⟩ : Shape).Idx → BitVec 32)
    (x2 : (⟨3, ![2, 256, 256]⟩ : Shape).Idx → EReal) (x3 : (⟨2, ![2, 256]⟩ : Shape).Idx → EReal)
    (x4 : (⟨3, ![2, 256, 256]⟩ : Shape).Idx → EReal) (x5 : (⟨2, ![2, 256]⟩ : Shape).Idx → EReal)
    (x6 : (⟨3, ![2, 384, 256]⟩ : Shape).Idx → EReal) (x7 : (⟨3, ![2, 384, 128]⟩ : Shape).Idx → EReal)
    (x8 x9 : (⟨2, ![2, 384]⟩ : Shape).Idx → EReal) : Fin 32768 → Fin 128 → EReal :=
  normalize (layerOf 1 (layerOf 0 (rows x0) x1 x2 x3 x4 x5 x6 x7 x8 x9) x1 x2 x3 x4 x5 x6 x7 x8 x9)

def out (h : Fin 32768 → Fin 128 → EReal) (xW : (⟨2, ![128, 128]⟩ : Shape).Idx → EReal) (xb : (⟨1, ![128]⟩ : Shape).Idx → EReal)
    (xg : (⟨2, ![1, 128]⟩ : Shape).Idx → EReal) (xc : (⟨1, ![1]⟩ : Shape).Idx → EReal) : Fin 256 → Fin 128 → EReal :=
  readout h (fun j k => xW (ix2 j k)) (fun j => xb (ix1 j)) (fun k => xg (ix2 0 k)) (xc (ix1 0))

end Cert.Spec

end
-- ==== Proof.LibSums.lean ====
import proofs.«425588_j41618233098847_3_alg».proof.Proof.LibRows
import Mathlib.Algebra.Order.BigOperators.Group.Finset

noncomputable section

open scoped BigOperators

namespace Idealize.ShloMosaic.Rows

open Idealize.ShloMosaic Idealize.ShloMosaic.ValueIdx

def idxEquiv1 {n : ℕ} : (⟨1, ![n]⟩ : Shape).Idx ≃ Fin n where
  toFun i := i 0
  invFun a := ix1 a
  left_inv i := (eq_ix1 i).symm
  right_inv _ := rfl

theorem sum_idx1 {M : Type} [AddCommMonoid M] {n : ℕ} (f : (⟨1, ![n]⟩ : Shape).Idx → M) :
    ∑ i, f i = ∑ a : Fin n, f (ix1 a) := by
  rw [← Equiv.sum_comp (idxEquiv1 (n := n)).symm f]
  rfl

abbrev colScatterDims (N n : ℕ) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

theorem resultIdx_col {N n w : ℕ} (wf : ScatterDims.WF ⟨1, ![N]⟩ ⟨2, ![n, 1]⟩ ⟨1, ![n]⟩ [] [0] [0] 1)
    (idx : IVec ⟨2, ![n, 1]⟩ w) (j : (⟨1, ![n]⟩ : Shape).Idx) (i : (⟨1, ![N]⟩ : Shape).Idx) :
    (colScatterDims N n wf).resultIdx? j idx = some i
      ↔ srow N (idx (ix2 ⟨(j 0).val, (j 0).isLt⟩ ⟨0, Nat.one_pos⟩)) = some ⟨(i 0).val, (i 0).isLt⟩ := by

  have hs0 : (colScatterDims N n wf).start j idx 0
      = (idx (ix2 ⟨(j 0).val, (j 0).isLt⟩ ⟨0, Nat.one_pos⟩)).toInt := by
    unfold ScatterDims.start
    rw [dif_pos (show (0 : Fin 1) ∈ (colScatterDims N n wf).scatterDimsToOperandDims from
      List.mem_singleton.mpr rfl)]
    have hsi : (colScatterDims N n wf).siIdx j
        ⟨List.idxOf (0 : Fin 1) (colScatterDims N n wf).scatterDimsToOperandDims,
          List.idxOf_lt_length_iff.2 (List.mem_singleton.mpr rfl)⟩
        = ix2 ⟨(j 0).val, (j 0).isLt⟩ ⟨0, Nat.one_pos⟩ := by
      funext b; refine Fin.ext ?_
      match b with
      | ⟨0, _⟩ => rfl
      | ⟨1, _⟩ => rfl
    exact congrArg (fun k => (idx k).toInt) hsi
  have hw0 : (colScatterDims N n wf).window j 0 = 0 := by
    unfold ScatterDims.window
    rw [dif_neg]
    intro h
    have := (List.mem_filter.mp h).2
    simp at this
  have hi0 : (i 0).val < N := (i 0).isLt
  rw [srow_eq_some_iff]
  show _ ↔ (idx (ix2 ⟨(j 0).val, (j 0).isLt⟩ ⟨0, Nat.one_pos⟩)).toInt = ((i 0).val : ℤ)
  unfold ScatterDims.resultIdx?
  constructor
  ·
    intro h
    by_cases hall : ∀ a, 0 ≤ (colScatterDims N n wf).start j idx a + ((colScatterDims N n wf).window j a : ℕ)
        ∧ (colScatterDims N n wf).start j idx a + ((colScatterDims N n wf).window j a : ℕ)
          < ((⟨1, ![N]⟩ : Shape).size a : ℕ)
    · rw [dif_pos hall] at h
      have hi := Option.some.inj h
      have a0 := hall 0
      have e0 : ((colScatterDims N n wf).start j idx 0
          + ((colScatterDims N n wf).window j 0 : ℕ)).toNat = (i 0).val :=
        congrArg (fun f => (f 0).val) hi
      rw [hs0, hw0] at a0 e0
      omega
    · rw [dif_neg hall] at h
      exact absurd h (by simp)
  ·
    intro hv
    have hall : ∀ a, 0 ≤ (colScatterDims N n wf).start j idx a + ((colScatterDims N n wf).window j a : ℕ)
        ∧ (colScatterDims N n wf).start j idx a + ((colScatterDims N n wf).window j a : ℕ)
          < ((⟨1, ![N]⟩ : Shape).size a : ℕ) := by
      intro a
      obtain rfl : a = 0 := Subsingleton.elim _ _
      rw [hs0, hw0]
      show _ ∧ _ < ((N : ℕ) : ℤ)
      omega
    rw [dif_pos hall]
    congr 1
    funext a
    obtain rfl : a = 0 := Subsingleton.elim _ _
    refine Fin.ext ?_
    show ((colScatterDims N n wf).start j idx 0 + ((colScatterDims N n wf).window j 0 : ℕ)).toNat = (i 0).val
    rw [hs0, hw0]
    omega

theorem scatterAdd_col_apply {N n w : ℕ} (wf : ScatterDims.WF ⟨1, ![N]⟩ ⟨2, ![n, 1]⟩ ⟨1, ![n]⟩ [] [0] [0] 1)
    (x : FVec Ideal ⟨1, ![N]⟩ .f32) (idx : IVec ⟨2, ![n, 1]⟩ w) (upd : FVec Ideal ⟨1, ![n]⟩ .f32)
    (i : (⟨1, ![N]⟩ : Shape).Idx) :
    Host.scatterAdd (F := Ideal) (φ := .f32) (colScatterDims N n wf) x idx upd i
      = x i + ∑ e : Fin n,
          if srow N (idx (ix2 e ⟨0, Nat.one_pos⟩)) = some ⟨(i 0).val, (i 0).isLt⟩ then upd (ix1 e) else 0 := by
  show Ideal.hostScatterAdd (colScatterDims N n wf) x idx upd i = _
  unfold Ideal.hostScatterAdd
  congr 1
  rw [Finset.sum_filter, sum_idx1]
  refine Finset.sum_congr rfl fun e _ => ?_
  have key : (colScatterDims N n wf).resultIdx? (ix1 e) idx = some i
      ↔ srow N (idx (ix2 e ⟨0, Nat.one_pos⟩)) = some ⟨(i 0).val, (i 0).isLt⟩ :=
    resultIdx_col wf idx (ix1 e) i
  by_cases hrow : srow N (idx (ix2 e ⟨0, Nat.one_pos⟩)) = some ⟨(i 0).val, (i 0).isLt⟩
  · rw [if_pos hrow, if_pos (key.mpr hrow)]
  · rw [if_neg hrow, if_neg fun h => hrow (key.mp h)]

theorem sum_ite_one_nonneg {ι : Type} (s : Finset ι) (p : ι → Prop) [DecidablePred p] :
    (0 : EReal) ≤ ∑ e ∈ s, if p e then (1 : EReal) else 0 := by
  refine Finset.sum_nonneg fun e _ => ?_
  by_cases h : p e
  · rw [if_pos h]; exact zero_le_one
  · rw [if_neg h]

theorem sum_ite_one_mul_finset {ι : Type} (s : Finset ι) (p : ι → Prop) [DecidablePred p] (Y : EReal) :
    (∑ e ∈ s, if p e then (1 : EReal) else 0) * Y = ∑ e ∈ s, if p e then Y else 0 := by
  classical
  induction s using Finset.induction_on with
  | empty => simp
  | insert a s ha ih =>
    have h1 : (0 : EReal) ≤ if p a then (1 : EReal) else 0 := by
      by_cases h : p a
      · rw [if_pos h]; exact zero_le_one
      · rw [if_neg h]
    rw [Finset.sum_insert ha, Finset.sum_insert ha,
      EReal.right_distrib_of_nonneg h1 (sum_ite_one_nonneg s p), ih]
    congr 1
    by_cases h : p a
    · rw [if_pos h, if_pos h, one_mul]
    · rw [if_neg h, if_neg h, zero_mul]

theorem sum_ite_one_mul {ι : Type} [Fintype ι] (p : ι → Prop) [DecidablePred p] (Y : EReal) :
    (∑ e, if p e then (1 : EReal) else 0) * Y = ∑ e, if p e then Y else 0 :=
  sum_ite_one_mul_finset Finset.univ p Y

theorem sum_ite_add_const {ι : Type} [Fintype ι] (p : ι → Prop) [DecidablePred p] (A : ι → EReal) (Y : EReal) :
    (∑ e, if p e then (A e + Y) else 0)
      = (∑ e, if p e then A e else 0) + (∑ e, if p e then (1 : EReal) else 0) * Y := by
  rw [sum_ite_one_mul, ← Finset.sum_add_distrib]
  refine Finset.sum_congr rfl fun e _ => ?_
  by_cases h : p e
  · rw [if_pos h, if_pos h, if_pos h]
  · rw [if_neg h, if_neg h, if_neg h, add_zero]

theorem sum_ite_add_const_two {ι : Type} [Fintype ι] (p q : ι → Prop) [DecidablePred p] [DecidablePred q]
    (A A' : ι → EReal) (Y Y' : EReal) :
    (∑ e, if p e then (A e + Y) else 0) + (∑ e, if q e then (A' e + Y') else 0)
      = (((∑ e, if p e then A e else 0) + (∑ e, if q e then A' e else 0))
          + (∑ e, if p e then (1 : EReal) else 0) * Y)
        + (∑ e, if q e then (1 : EReal) else 0) * Y' := by
  rw [sum_ite_add_const p A Y, sum_ite_add_const q A' Y', add_add_add_comm, ← add_assoc]

theorem ofBits_f32_one : Ideal.ofBits .f32 0x3F800000#32 = (1 : EReal) := by
  simp [Ideal.ofBits, Ideal.ieee, -EReal.coe_mul]; norm_num

theorem ofBits_f32_zero : Ideal.ofBits .f32 0x00000000#32 = (0 : EReal) := by
  simp [Ideal.ofBits, Ideal.ieee]

theorem sum_fin_halves {M : Type} [AddCommMonoid M] {m n : ℕ} (hm : m = n + n) (h : Fin m → M) :
    ∑ e : Fin m, h e
      = (∑ e : Fin n, h ⟨e.val, by have := e.isLt; omega⟩)
        + ∑ e : Fin n, h ⟨n + e.val, by have := e.isLt; omega⟩ := by
  subst hm
  exact Fin.sum_univ_add h

theorem sum_fin_524288 {M : Type} [AddCommMonoid M] (h : Fin 524288 → M) :
    ∑ e : Fin 524288, h e
      = (∑ e : Fin 262144, h ⟨e.val, by have := e.isLt; omega⟩)
        + ∑ e : Fin 262144, h ⟨262144 + e.val, by have := e.isLt; omega⟩ :=
  sum_fin_halves (n := 262144) (by norm_num) h

theorem sum_fin_256 {M : Type} [AddCommMonoid M] (h : Fin 256 → M) :
    ∑ k : Fin 256, h k
      = (∑ k : Fin 128, h ⟨k.val, by have := k.isLt; omega⟩)
        + ∑ k : Fin 128, h ⟨128 + k.val, by have := k.isLt; omega⟩ :=
  sum_fin_halves (n := 128) (by norm_num) h

end Idealize.ShloMosaic.Rows

end
-- ==== Proof.KAgg.lean ====
import proofs.«425588_j41618233098847_3_alg».proof.Proof.Spec
import proofs.«425588_j41618233098847_3_alg».proof.Proof.LibSums

noncomputable section

open scoped BigOperators

namespace Cert.Spec

open Idealize.ShloMosaic Idealize.ShloMosaic.Rows

theorem msgIn_split (hf : Fin 32768 → Fin 128 → EReal) (W : Fin 256 → Fin 256 → EReal) (β : Fin 256 → EReal)
    (s t : Fin 32768) (o : Fin 256) : msgIn hf W β s t o = P hf W s o + (Q hf W t o + β o) := by
  unfold msgIn P Q
  rw [sum_fin_256, add_assoc]
  refine congrArg₂ (· + ·) (Finset.sum_congr rfl fun k _ => ?_)
    (congrArg (· + β o) (Finset.sum_congr rfl fun k _ => ?_))
  ·
    rw [dif_pos (show (⟨k.val, by omega⟩ : Fin 256).val < 128 from k.isLt)]
  ·
    rw [dif_neg (show ¬ (⟨128 + k.val, by omega⟩ : Fin 256).val < 128 from by show ¬ 128 + k.val < 128; omega)]
    exact congrArg (fun x => hf t x * W o ⟨128 + k.val, by omega⟩)
      (Fin.ext (by show 128 + k.val - 128 = k.val; omega))

theorem agg_of_parts (hf : Fin 32768 → Fin 128 → EReal) (a b : Fin 262144 → BitVec 32)
    (Wm Wr : Fin 256 → Fin 256 → EReal) (bm br : Fin 256 → EReal) (wc : Fin 128 → Fin 1024 → EReal)
    (G S : Fin 32768 → Fin 512 → EReal) (T : Fin 32768 → Fin 256 → EReal) (din dout : Fin 32768 → EReal)
    (hwc0 : ∀ (k : Fin 128) (o : Fin 256), wc k ⟨o.val, by omega⟩ = Wm o ⟨k.val, by omega⟩)
    (hwc1 : ∀ (k : Fin 128) (o : Fin 256), wc k ⟨256 + o.val, by omega⟩ = Wr o ⟨k.val, by omega⟩)
    (hwc2 : ∀ (k : Fin 128) (o : Fin 256), wc k ⟨512 + o.val, by omega⟩ = Wm o ⟨128 + k.val, by omega⟩)
    (hwc3 : ∀ (k : Fin 128) (o : Fin 256), wc k ⟨768 + o.val, by omega⟩ = Wr o ⟨128 + k.val, by omega⟩)
    (hG : ∀ (n : Fin 32768) (j : Fin 512), G n j = ∑ k : Fin 128, hf n k * wc k ⟨j.val, by omega⟩)
    (hS : ∀ (n : Fin 32768) (j : Fin 512), S n j = ∑ k : Fin 128, hf n k * wc k ⟨512 + j.val, by omega⟩)
    (hT : ∀ (v : Fin 32768) (o : Fin 256), T v o
      = (0 + ∑ e : Fin 262144, if srow 32768 (b e) = some v then G (row (a e)) ⟨o.val, by omega⟩ else 0)
        + (0 + ∑ e : Fin 262144, if srow 32768 (a e) = some v then G (row (b e)) ⟨256 + o.val, by omega⟩ else 0))
    (hdin : ∀ v : Fin 32768, din v = 0 + ∑ e : Fin 262144, if srow 32768 (b e) = some v then (1 : EReal) else 0)
    (hdout : ∀ v : Fin 32768, dout v = 0 + ∑ e : Fin 262144, if srow 32768 (a e) = some v then (1 : EReal) else 0)
    (v : Fin 32768) (o : Fin 256) :
    (T v o + din v * (S v ⟨o.val, by omega⟩ + bm o)) + dout v * (S v ⟨256 + o.val, by omega⟩ + br o)
      = agg hf a b Wm Wr bm br v o := by

  have gP0 : ∀ n : Fin 32768, G n ⟨o.val, by omega⟩ = P hf Wm n o := fun n => by
    rw [hG]; unfold P
    exact Finset.sum_congr rfl fun k _ => congrArg (fun x => hf n k * x) (hwc0 k o)
  have gP1 : ∀ n : Fin 32768, G n ⟨256 + o.val, by omega⟩ = P hf Wr n o := fun n => by
    rw [hG]; unfold P
    exact Finset.sum_congr rfl fun k _ => congrArg (fun x => hf n k * x) (hwc1 k o)
  have sQ0 : ∀ n : Fin 32768, S n ⟨o.val, by omega⟩ = Q hf Wm n o := fun n => by
    rw [hS]; unfold Q
    exact Finset.sum_congr rfl fun k _ => congrArg (fun x => hf n k * x) (hwc2 k o)
  have sQ1 : ∀ n : Fin 32768, S n ⟨256 + o.val, by omega⟩ = Q hf Wr n o := fun n => by
    rw [hS]; unfold Q
    exact Finset.sum_congr rfl fun k _ => congrArg (fun x => hf n k * x)
      ((congrArg (wc k) (Fin.ext (by show 512 + (256 + o.val) = 768 + o.val; omega))).trans (hwc3 k o))
  have e0 : (∑ e : Fin 262144, if srow 32768 (b e) = some v then G (row (a e)) ⟨o.val, by omega⟩ else 0)
      = ∑ e : Fin 262144, if srow 32768 (b e) = some v then P hf Wm (row (a e)) o else 0 :=
    Finset.sum_congr rfl fun e _ => by rw [gP0]
  have e1 : (∑ e : Fin 262144, if srow 32768 (a e) = some v then G (row (b e)) ⟨256 + o.val, by omega⟩ else 0)
      = ∑ e : Fin 262144, if srow 32768 (a e) = some v then P hf Wr (row (b e)) o else 0 :=
    Finset.sum_congr rfl fun e _ => by rw [gP1]
  unfold agg
  rw [hT, hdin, hdout, sQ0, sQ1, e0, e1, zero_add, zero_add, zero_add, zero_add]

theorem agg_of_messages (hf : Fin 32768 → Fin 128 → EReal) (a b : Fin 262144 → BitVec 32)
    (Wm Wr : Fin 256 → Fin 256 → EReal) (bm br : Fin 256 → EReal)
    (tgt : Fin 524288 → BitVec 32) (A : Fin 524288 → Fin 256 → EReal)
    (ht0 : ∀ e : Fin 262144, tgt ⟨e.val, by omega⟩ = b e)
    (ht1 : ∀ e : Fin 262144, tgt ⟨262144 + e.val, by omega⟩ = a e)
    (hA0 : ∀ (e : Fin 262144) (o : Fin 256), A ⟨e.val, by omega⟩ o = msgIn hf Wm bm (row (a e)) (row (b e)) o)
    (hA1 : ∀ (e : Fin 262144) (o : Fin 256), A ⟨262144 + e.val, by omega⟩ o = msgIn hf Wr br (row (b e)) (row (a e)) o)
    (v : Fin 32768) (o : Fin 256) :
    (0 + ∑ e : Fin 524288, if srow 32768 (tgt e) = some v then A e o else 0) = agg hf a b Wm Wr bm br v o := by

  have h0 : (∑ e : Fin 262144, if srow 32768 (tgt ⟨e.val, by omega⟩) = some v then A ⟨e.val, by omega⟩ o else 0)
      = ∑ e : Fin 262144, if srow 32768 (b e) = some v then (P hf Wm (row (a e)) o + (Q hf Wm v o + bm o)) else 0 :=
    Finset.sum_congr rfl fun e _ => by
      rw [ht0 e, hA0 e o]
      by_cases h : srow 32768 (b e) = some v
      · rw [if_pos h, if_pos h, row_of_srow h, msgIn_split]
      · rw [if_neg h, if_neg h]

  have h1 : (∑ e : Fin 262144, if srow 32768 (tgt ⟨262144 + e.val, by omega⟩) = some v then A ⟨262144 + e.val, by omega⟩ o else 0)
      = ∑ e : Fin 262144, if srow 32768 (a e) = some v then (P hf Wr (row (b e)) o + (Q hf Wr v o + br o)) else 0 :=
    Finset.sum_congr rfl fun e _ => by
      rw [ht1 e, hA1 e o]
      by_cases h : srow 32768 (a e) = some v
      · rw [if_pos h, if_pos h, row_of_srow h, msgIn_split]
      · rw [if_neg h, if_neg h]
  unfold agg
  rw [zero_add, sum_fin_524288, h0, h1]
  exact sum_ite_add_const_two (fun e => srow 32768 (b e) = some v) (fun e => srow 32768 (a e) = some v)
    (fun e => P hf Wm (row (a e)) o) (fun e => P hf Wr (row (b e)) o) (Q hf Wm v o + bm o) (Q hf Wr v o + br o)

end Cert.Spec

end
-- ==== Proof.KI.LayerParts.lean ====
import proofs.«425588_j41618233098847_3_alg».proof.Proof.SpecNet
import proofs.«425588_j41618233098847_3_alg».proof.Proof.KAgg

noncomputable section

namespace Cert.KernelIdeal.Val

open Idealize.ShloMosaic Idealize.ShloMosaic.ValueIdx Idealize.ShloMosaic.Rows
open scoped BigOperators

theorem gru_congr {g g' : Fin 32768 → Fin 256 → EReal} {hf hf' : Fin 32768 → Fin 128 → EReal}
    {Wih Wih' : Fin 384 → Fin 256 → EReal} {Whh Whh' : Fin 384 → Fin 128 → EReal} {bih bih' bhh bhh' : Fin 384 → EReal}
    (eg : g = g') (ehf : hf = hf') (eih : Wih = Wih') (ehh : Whh = Whh') (ebi : bih = bih') (ebh : bhh = bhh')
    (n : Fin 32768) (j : Fin 128) :
    Cert.Spec.gru g hf Wih Whh bih bhh n j = Cert.Spec.gru g' hf' Wih' Whh' bih' bhh' n j := by
  subst eg ehf eih ehh ebi ebh; rfl

theorem gru_parts_eq_layerOf (l : Fin 2) (h : Fin 32768 → Fin 128 → EReal)
    (x1 : (⟨2, ![2, 262144]⟩ : Shape).Idx → BitVec 32)
    (x2 : (⟨3, ![2, 256, 256]⟩ : Shape).Idx → EReal) (x3 : (⟨2, ![2, 256]⟩ : Shape).Idx → EReal)
    (x4 : (⟨3, ![2, 256, 256]⟩ : Shape).Idx → EReal) (x5 : (⟨2, ![2, 256]⟩ : Shape).Idx → EReal)
    (x6 : (⟨3, ![2, 384, 256]⟩ : Shape).Idx → EReal) (x7 : (⟨3, ![2, 384, 128]⟩ : Shape).Idx → EReal)
    (x8 x9 : (⟨2, ![2, 384]⟩ : Shape).Idx → EReal)
    (T : (⟨2, ![32768, 256]⟩ : Shape).Idx → EReal) (din dout : (⟨2, ![32768, 1]⟩ : Shape).Idx → EReal)
    (G S : (⟨2, ![32768, 512]⟩ : Shape).Idx → EReal) (b72 b73 : (⟨2, ![1, 256]⟩ : Shape).Idx → EReal)
    (F0 F1 : (⟨2, ![32768, 128]⟩ : Shape).Idx → EReal) (wc : (⟨2, ![128, 1024]⟩ : Shape).Idx → EReal)
    (w76 : (⟨2, ![256, 384]⟩ : Shape).Idx → EReal) (w77 : (⟨2, ![128, 384]⟩ : Shape).Idx → EReal)
    (b74 b75 : (⟨2, ![1, 384]⟩ : Shape).Idx → EReal)
    (hF0 : ∀ (n : Fin 32768) (k : Fin 128), F0 (ix2 n k) = h n k)
    (hF1 : ∀ (n : Fin 32768) (k : Fin 128), F1 (ix2 n k) = h n k)
    (hwc0 : ∀ (k : Fin 128) (o : Fin 256), wc (ix2 k (⟨o.val, by omega⟩ : Fin 1024)) = Cert.Spec.mat x2 l o ⟨k.val, by omega⟩)
    (hwc1 : ∀ (k : Fin 128) (o : Fin 256), wc (ix2 k (⟨256 + o.val, by omega⟩ : Fin 1024)) = Cert.Spec.mat x4 l o ⟨k.val, by omega⟩)
    (hwc2 : ∀ (k : Fin 128) (o : Fin 256), wc (ix2 k (⟨512 + o.val, by omega⟩ : Fin 1024)) = Cert.Spec.mat x2 l o ⟨128 + k.val, by omega⟩)
    (hwc3 : ∀ (k : Fin 128) (o : Fin 256), wc (ix2 k (⟨768 + o.val, by omega⟩ : Fin 1024)) = Cert.Spec.mat x4 l o ⟨128 + k.val, by omega⟩)
    (hG : ∀ (n : Fin 32768) (j : Fin 512), G (ix2 n j) = ∑ k : Fin 128, F1 (ix2 n k) * wc (ix2 k (⟨j.val, by omega⟩ : Fin 1024)))
    (hS : ∀ (n : Fin 32768) (j : Fin 512), S (ix2 n j) = ∑ k : Fin 128, F1 (ix2 n k) * wc (ix2 k (⟨512 + j.val, by omega⟩ : Fin 1024)))
    (hT : ∀ (v : Fin 32768) (o : Fin 256), T (ix2 v o)
      = (0 + ∑ e : Fin 262144, if srow 32768 (Cert.Spec.endB x1 e) = some v
            then G (ix2 (Cert.Spec.row (Cert.Spec.endA x1 e)) (⟨o.val, by omega⟩ : Fin 512)) else 0)
        + (0 + ∑ e : Fin 262144, if srow 32768 (Cert.Spec.endA x1 e) = some v
            then G (ix2 (Cert.Spec.row (Cert.Spec.endB x1 e)) (⟨256 + o.val, by omega⟩ : Fin 512)) else 0))
    (hdin : ∀ v : Fin 32768, din (ix2 v (0 : Fin 1))
      = 0 + ∑ e : Fin 262144, if srow 32768 (Cert.Spec.endB x1 e) = some v then (1 : EReal) else 0)
    (hdout : ∀ v : Fin 32768, dout (ix2 v (0 : Fin 1))
      = 0 + ∑ e : Fin 262144, if srow 32768 (Cert.Spec.endA x1 e) = some v then (1 : EReal) else 0)
    (h72 : ∀ o : Fin 256, b72 (ix2 (0 : Fin 1) o) = Cert.Spec.vec x3 l o)
    (h73 : ∀ o : Fin 256, b73 (ix2 (0 : Fin 1) o) = Cert.Spec.vec x5 l o)
    (h76 : ∀ (k : Fin 256) (q : Fin 384), w76 (ix2 k q) = Cert.Spec.mat x6 l q k)
    (h77 : ∀ (k : Fin 128) (q : Fin 384), w77 (ix2 k q) = Cert.Spec.mat x7 l q k)
    (h74 : ∀ q : Fin 384, b74 (ix2 (0 : Fin 1) q) = Cert.Spec.vec x8 l q)
    (h75 : ∀ q : Fin 384, b75 (ix2 (0 : Fin 1) q) = Cert.Spec.vec x9 l q)
    (n : Fin 32768) (j : Fin 128) :
    Cert.Spec.gru
        (fun n o => (T (ix2 n o) + din (ix2 n (0 : Fin 1)) * (S (ix2 n (⟨o.val, by omega⟩ : Fin 512)) + b72 (ix2 (0 : Fin 1) o)))
          + dout (ix2 n (0 : Fin 1)) * (S (ix2 n (⟨256 + o.val, by omega⟩ : Fin 512)) + b73 (ix2 (0 : Fin 1) o)))
        (fun n k => F0 (ix2 n k)) (fun q k => w76 (ix2 k q)) (fun q k => w77 (ix2 k q))
        (fun q => b74 (ix2 (0 : Fin 1) q)) (fun q => b75 (ix2 (0 : Fin 1) q)) n j
      = Cert.Spec.layerOf l h x1 x2 x3 x4 x5 x6 x7 x8 x9 n j := by
  unfold Cert.Spec.layerOf Cert.Spec.layer
  refine gru_congr (funext fun v => funext fun o => ?_) (funext fun n => funext fun k => hF0 n k)
    (funext fun q => funext fun k => h76 k q) (funext fun q => funext fun k => h77 k q)
    (funext fun q => h74 q) (funext fun q => h75 q) n j
  rw [h72, h73]
  exact Cert.Spec.agg_of_parts h (Cert.Spec.endA x1) (Cert.Spec.endB x1) (Cert.Spec.mat x2 l) (Cert.Spec.mat x4 l)
    (Cert.Spec.vec x3 l) (Cert.Spec.vec x5 l) (fun k q => wc (ix2 k q)) (fun n j => G (ix2 n j)) (fun n j => S (ix2 n j))
    (fun v o => T (ix2 v o)) (fun v => din (ix2 v (0 : Fin 1))) (fun v => dout (ix2 v (0 : Fin 1)))
    hwc0 hwc1 hwc2 hwc3
    (fun n j => (hG n j).trans (Finset.sum_congr rfl fun k _ => by rw [hF1]))
    (fun n j => (hS n j).trans (Finset.sum_congr rfl fun k _ => by rw [hF1]))
    hT hdin hdout v o

end Cert.KernelIdeal.Val

end
-- ==== Proof.KI.Val1.lean ====
import proofs.«425588_j41618233098847_3_alg».proof.Proof.KI.Body1
import proofs.«425588_j41618233098847_3_alg».proof.Proof.Spec
import Idealize.ShloMosaic.Lib.Pipeline.Value
import Idealize.ShloMosaic.Lib.ValueLayout
import proofs.«425588_j41618233098847_3_alg».proof.Proof.LibSums

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.RA Idealize.SL.Sem
open Idealize.ShloMosaic.Pipeline (Dat Cfg Window)

variable (V : (c : Dev nD) → (b : Ref sig .tc) → Buf (Elt Ideal) ((c : Thread nD τ).loc b))

namespace Cell

theorem lhsA_0 (j : S4096x384.Idx) (k : dot_S4096x256_S256x384_S4096x384_1_0_0_1_n_n.contr.Idx) :
    (dot_S4096x256_S256x384_S4096x384_1_0_0_1_n_n.lhsIdx j k 0 : ℕ) = j 0 := by
  simp [DotDims.lhsIdx, dot_S4096x256_S256x384_S4096x384_1_0_0_1_n_n]; rfl
theorem lhsA_1 (j : S4096x384.Idx) (k : dot_S4096x256_S256x384_S4096x384_1_0_0_1_n_n.contr.Idx) :
    (dot_S4096x256_S256x384_S4096x384_1_0_0_1_n_n.lhsIdx j k 1 : ℕ) = k ⟨0, by decide⟩ := by
  simp [DotDims.lhsIdx, dot_S4096x256_S256x384_S4096x384_1_0_0_1_n_n]; rfl
theorem rhsA_0 (j : S4096x384.Idx) (k : dot_S4096x256_S256x384_S4096x384_1_0_0_1_n_n.contr.Idx) :
    (dot_S4096x256_S256x384_S4096x384_1_0_0_1_n_n.rhsIdx j k 0 : ℕ) = k ⟨0, by decide⟩ := by
  simp [DotDims.rhsIdx, dot_S4096x256_S256x384_S4096x384_1_0_0_1_n_n]; rfl
theorem rhsA_1 (j : S4096x384.Idx) (k : dot_S4096x256_S256x384_S4096x384_1_0_0_1_n_n.contr.Idx) :
    (dot_S4096x256_S256x384_S4096x384_1_0_0_1_n_n.rhsIdx j k 1 : ℕ) = j 1 := by
  simp [DotDims.rhsIdx, dot_S4096x256_S256x384_S4096x384_1_0_0_1_n_n]; rfl
theorem lhsB_0 (j : S4096x384.Idx) (k : dot_S4096x128_S128x384_S4096x384_1_0_0_1_n_n.contr.Idx) :
    (dot_S4096x128_S128x384_S4096x384_1_0_0_1_n_n.lhsIdx j k 0 : ℕ) = j 0 := by
  simp [DotDims.lhsIdx, dot_S4096x128_S128x384_S4096x384_1_0_0_1_n_n]; rfl
theorem lhsB_1 (j : S4096x384.Idx) (k : dot_S4096x128_S128x384_S4096x384_1_0_0_1_n_n.contr.Idx) :
    (dot_S4096x128_S128x384_S4096x384_1_0_0_1_n_n.lhsIdx j k 1 : ℕ) = k ⟨0, by decide⟩ := by
  simp [DotDims.lhsIdx, dot_S4096x128_S128x384_S4096x384_1_0_0_1_n_n]; rfl
theorem rhsB_0 (j : S4096x384.Idx) (k : dot_S4096x128_S128x384_S4096x384_1_0_0_1_n_n.contr.Idx) :
    (dot_S4096x128_S128x384_S4096x384_1_0_0_1_n_n.rhsIdx j k 0 : ℕ) = k ⟨0, by decide⟩ := by
  simp [DotDims.rhsIdx, dot_S4096x128_S128x384_S4096x384_1_0_0_1_n_n]; rfl
theorem rhsB_1 (j : S4096x384.Idx) (k : dot_S4096x128_S128x384_S4096x384_1_0_0_1_n_n.contr.Idx) :
    (dot_S4096x128_S128x384_S4096x384_1_0_0_1_n_n.rhsIdx j k 1 : ℕ) = j 1 := by
  simp [DotDims.rhsIdx, dot_S4096x128_S128x384_S4096x384_1_0_0_1_n_n]; rfl

theorem matmulA_apply (lhs : FVec Ideal S4096x256 .bf16) (rhs : FVec Ideal S256x384 .bf16) (p : Fin 4096) (m : Fin 384) :
    matmul dot_S4096x256_S256x384_S4096x384_1_0_0_1_n_n none lhs rhs (constant S4096x384 .f32 0x00000000#32) (ix2 p m)
      = ∑ k : Fin 256, lhs (ix2 p k) * rhs (ix2 k m) := by
  refine (Ideal.matmul_constant_zero_apply (φ₁ := .bf16) (φ₂ := .bf16) dot_S4096x256_S256x384_S4096x384_1_0_0_1_n_n none lhs rhs (ix2 p m)).trans ?_
  rw [← Equiv.sum_comp (contrEquiv1 dot_S4096x256_S256x384_S4096x384_1_0_0_1_n_n 256 rfl rfl).symm]
  refine Finset.sum_congr rfl fun k _ => ?_
  congr 1
  · congr 1; funext a; apply Fin.ext
    match a with
    | ⟨0, _⟩ => exact lhsA_0 _ _
    | ⟨1, _⟩ => exact (lhsA_1 _ _).trans (contrEquiv1_symm_val _ 256 rfl rfl k)
  · congr 1; funext a; apply Fin.ext
    match a with
    | ⟨0, _⟩ => exact (rhsA_0 _ _).trans (contrEquiv1_symm_val _ 256 rfl rfl k)
    | ⟨1, _⟩ => exact rhsA_1 _ _

theorem matmulB_apply (lhs : FVec Ideal S4096x128 .bf16) (rhs : FVec Ideal S128x384 .bf16) (p : Fin 4096) (m : Fin 384) :
    matmul dot_S4096x128_S128x384_S4096x384_1_0_0_1_n_n none lhs rhs (constant S4096x384 .f32 0x00000000#32) (ix2 p m)
      = ∑ k : Fin 128, lhs (ix2 p k) * rhs (ix2 k m) := by
  refine (Ideal.matmul_constant_zero_apply (φ₁ := .bf16) (φ₂ := .bf16) dot_S4096x128_S128x384_S4096x384_1_0_0_1_n_n none lhs rhs (ix2 p m)).trans ?_
  rw [← Equiv.sum_comp (contrEquiv1 dot_S4096x128_S128x384_S4096x384_1_0_0_1_n_n 128 rfl rfl).symm]
  refine Finset.sum_congr rfl fun k _ => ?_
  congr 1
  · congr 1; funext a; apply Fin.ext
    match a with
    | ⟨0, _⟩ => exact lhsB_0 _ _
    | ⟨1, _⟩ => exact (lhsB_1 _ _).trans (contrEquiv1_symm_val _ 128 rfl rfl k)
  · congr 1; funext a; apply Fin.ext
    match a with
    | ⟨0, _⟩ => exact (rhsB_0 _ _).trans (contrEquiv1_symm_val _ 128 rfl rfl k)
    | ⟨1, _⟩ => exact rhsB_1 _ _

theorem bcast_row {α : Type} {R C : Nat} (x : (⟨2, ![1, C]⟩ : Shape).Idx → α) (h : (⟨2, ![1, C]⟩ : Shape).Broadcasts ⟨2, ![R, C]⟩)
    (p : Fin R) (k : Fin C) : broadcastTo ⟨2, ![R, C]⟩ x h (ix2 p k) = x (ix2 (0 : Fin 1) k) :=
  broadcastTo_apply x h (ix2 p k) (ix2 (0 : Fin 1) k) (by
    intro a
    match a with
    | ⟨0, _⟩ => rfl
    | ⟨1, _⟩ =>
      show k.val = if C = 1 then 0 else k.val
      split
      · have := k.isLt; omega
      · rfl)

theorem bcast_col {α : Type} {R C : Nat} (x : (⟨2, ![R, 1]⟩ : Shape).Idx → α) (h : (⟨2, ![R, 1]⟩ : Shape).Broadcasts ⟨2, ![R, C]⟩)
    (p : Fin R) (k : Fin C) : broadcastTo ⟨2, ![R, C]⟩ x h (ix2 p k) = x (ix2 p (0 : Fin 1)) :=
  broadcastTo_apply x h (ix2 p k) (ix2 p (0 : Fin 1)) (by
    intro a
    match a with
    | ⟨0, _⟩ =>
      show p.val = if R = 1 then 0 else p.val
      split
      · have := p.isLt; omega
      · rfl
    | ⟨1, _⟩ => rfl)

theorem slice_cols {α : Type} (o : Nat) (ho : o + 128 ≤ 384) (x : S4096x384.Idx → α) (h : S4096x384.Slices ![0, o] S4096x128)
    (p : Fin 4096) (q : Fin 128) :
    extractStridedSlice S4096x128 ![0, o] x h (ix2 p q) = x (ix2 p (⟨o + q.val, by omega⟩ : Fin 384)) :=
  extractStridedSlice_apply ![0, o] x h (ix2 p q) (ix2 p (⟨o + q.val, by omega⟩ : Fin 384)) (by
    intro a
    match a with
    | ⟨0, _⟩ => show p.val = 0 + p.val; omega
    | ⟨1, _⟩ => rfl)

theorem pay4_apply (x0 : Vec Ideal S4096x256 .f32) (x3 : Vec Ideal S4096x1 .f32) (x1 : Vec Ideal S4096x256 .f32) (x5 : Vec Ideal S1x256 .f32)
    (x4 : Vec Ideal S4096x1 .f32) (x2 : Vec Ideal S4096x256 .f32) (x6 : Vec Ideal S1x256 .f32) (x8 : Vec Ideal S256x384 .bf16)
    (x10 : Vec Ideal S1x384 .f32) (p : Fin 4096) (m : Fin 384) :
    k1_pay4 x0 x3 x1 x5 x4 x2 x6 x8 x10 (ix2 p m)
      = (∑ k : Fin 256, ((x0 (ix2 p k) + x3 (ix2 p (0 : Fin 1)) * (x1 (ix2 p k) + x5 (ix2 (0 : Fin 1) k)))
            + x4 (ix2 p (0 : Fin 1)) * (x2 (ix2 p k) + x6 (ix2 (0 : Fin 1) k))) * x8 (ix2 k m))
        + x10 (ix2 (0 : Fin 1) m) := by
  unfold k1_pay4
  simp only [shapeCast_self]
  rw [addf_apply, matmulA_apply, bcast_row]
  congr 1
  refine Finset.sum_congr rfl fun k _ => ?_
  rw [truncf_apply, addf_apply, addf_apply, mulf_apply, mulf_apply, addf_apply, addf_apply, bcast_col, bcast_col, bcast_row, bcast_row]

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

theorem slice_cols0 {α : Type} (x : S4096x384.Idx → α) (h : S4096x384.Slices ![0, 0] S4096x128)
    (p : Fin 4096) (q : Fin 128) :
    extractStridedSlice S4096x128 ![0, 0] x h (ix2 p q) = x (ix2 p (⟨q.val, by omega⟩ : Fin 384)) :=
  extractStridedSlice_apply ![0, 0] x h (ix2 p q) (ix2 p (⟨q.val, by omega⟩ : Fin 384)) (by
    intro a
    match a with
    | ⟨0, _⟩ => show p.val = 0 + p.val; omega
    | ⟨1, _⟩ => show q.val = 0 + q.val; omega)

theorem cell_apply (x0 : Vec Ideal S4096x256 .f32) (x1 : Vec Ideal S4096x256 .f32) (x2 : Vec Ideal S4096x256 .f32)
    (x3 : Vec Ideal S4096x1 .f32) (x4 : Vec Ideal S4096x1 .f32) (x5 : Vec Ideal S1x256 .f32) (x6 : Vec Ideal S1x256 .f32)
    (x7 : Vec Ideal S4096x128 .f32) (x8 : Vec Ideal S256x384 .bf16) (x9 : Vec Ideal S128x384 .bf16)
    (x10 : Vec Ideal S1x384 .f32) (x11 : Vec Ideal S1x384 .f32) (p : Fin 4096) (q : Fin 128) (n : Fin 32768) :
    k1_pay1 (k1_pay2 x7) (k1_pay3 x7) (k1_pay4 x0 x3 x1 x5 x4 x2 x6 x8 x10) x9 x11 (ix2 p q)
      = Cert.Spec.gru
          (fun _ o => (x0 (ix2 p o) + x3 (ix2 p (0 : Fin 1)) * (x1 (ix2 p o) + x5 (ix2 (0 : Fin 1) o)))
            + x4 (ix2 p (0 : Fin 1)) * (x2 (ix2 p o) + x6 (ix2 (0 : Fin 1) o)))
          (fun _ k => x7 (ix2 p k)) (fun m k => x8 (ix2 k m)) (fun m k => x9 (ix2 k m))
          (fun m => x10 (ix2 (0 : Fin 1) m)) (fun m => x11 (ix2 (0 : Fin 1) m)) n q := by
  unfold k1_pay1 k1_pay3 k1_pay2 Cert.Spec.gru
  simp only [shapeCast_self]
  simp only [addf_apply, mulf_apply, subf_apply, broadcast_apply, logistic_apply, tanh_apply, slice_cols0,
    slice_cols 128 (by omega), slice_cols 256 (by omega), matmulB_apply, bcast_row, pay4_apply, truncf_apply]
  rw [show (Scalar.ofBits .f32 0x3F800000#32 : Ideal .f32) = (1 : EReal) from Idealize.ShloMosaic.Rows.ofBits_f32_one]

theorem hz : (![0, 0] : Fin 2 → Nat) = fun _ => 0 := funext fun a => by fin_cases a <;> rfl

theorem gru_congr {g g' : Fin 32768 → Fin 256 → EReal} {hf hf' : Fin 32768 → Fin 128 → EReal}
    {Wih Wih' : Fin 384 → Fin 256 → EReal} {Whh Whh' : Fin 384 → Fin 128 → EReal} {bih bih' bhh bhh' : Fin 384 → EReal}
    (n : Fin 32768) (j : Fin 128) (h1 : ∀ o, g n o = g' n o) (h2 : ∀ k, hf n k = hf' n k) (h3 : ∀ m k, Wih m k = Wih' m k)
    (h4 : ∀ m k, Whh m k = Whh' m k) (h5 : ∀ m, bih m = bih' m) (h6 : ∀ m, bhh m = bhh' m) :
    Cert.Spec.gru g hf Wih Whh bih bhh n j = Cert.Spec.gru g' hf' Wih' Whh' bih' bhh' n j := by
  unfold Cert.Spec.gru
  simp only [h1, h2, h3, h4, h5, h6]

end Cell

open Cell

abbrev rd {R C : ℕ} (x : (⟨2, ![R, C]⟩ : Shape).Idx → EReal) (a : Fin R) (b : Fin C) : EReal := x (ix2 a b)

theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 1)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = t.val ∧ win1_12.index t (1 : Fin 2) = 0) :=
  (by decide +kernel : ∀ t : Fin grid1.N, _)

theorem lt8_1 (t : Fin cfg1.N) : t.val < 8 := lt_of_lt_of_eq t.isLt N_1

def rowAt1 (t : Fin cfg1.N) (p : Fin 4096) : Fin 32768 := ⟨t.val * 4096 + p.val, by have := lt8_1 t; omega⟩

theorem blk1_0 (c : Dev nD) (t : Fin cfg1.N) (p : Fin 4096) (o : Fin 256) :
    iblk1 V c 0 t (ix2 p o) = V c main_v57 (ix2 (rowAt1 t p) o) := by
  obtain ⟨e0, e1, e2, e3, e4, e5, e6, e7, e8, e9, e10, e11, e12⟩ := idx_facts1 t
  show V c main_v57 (((cfg1.win 0).blk t).view.emb (ix2 p o)) = V c main_v57 (ix2 (rowAt1 t p) o)
  congr 1
  funext a; apply Fin.ext
  match a with
  | ⟨0, _⟩ => show win1_0.index t (0 : Fin 2) * 4096 + 1 * p.val = t.val * 4096 + p.val; omega
  | ⟨1, _⟩ => show win1_0.index t (1 : Fin 2) * 256 + 1 * o.val = o.val; omega

theorem blk1_1 (c : Dev nD) (t : Fin cfg1.N) (p : Fin 4096) (o : Fin 256) :
    iblk1 V c 1 t (ix2 p o) = V c main_v32_1 (ix2 (rowAt1 t p) (⟨o.val, by omega⟩ : Fin 512)) := by
  obtain ⟨e0, e1, e2, e3, e4, e5, e6, e7, e8, e9, e10, e11, e12⟩ := idx_facts1 t
  show V c main_v32_1 (((cfg1.win 1).blk t).view.emb (ix2 p o)) = V c main_v32_1 (ix2 (rowAt1 t p) (⟨o.val, by omega⟩ : Fin 512))
  congr 1
  funext a; apply Fin.ext
  match a with
  | ⟨0, _⟩ => show win1_1.index t (0 : Fin 2) * 4096 + 1 * p.val = t.val * 4096 + p.val; omega
  | ⟨1, _⟩ => show win1_1.index t (1 : Fin 2) * 256 + 1 * o.val = o.val; omega

theorem blk1_2 (c : Dev nD) (t : Fin cfg1.N) (p : Fin 4096) (o : Fin 256) :
    iblk1 V c 2 t (ix2 p o) = V c main_v32_1 (ix2 (rowAt1 t p) (⟨256 + o.val, by omega⟩ : Fin 512)) := by
  obtain ⟨e0, e1, e2, e3, e4, e5, e6, e7, e8, e9, e10, e11, e12⟩ := idx_facts1 t
  show V c main_v32_1 (((cfg1.win 2).blk t).view.emb (ix2 p o)) = V c main_v32_1 (ix2 (rowAt1 t p) (⟨256 + o.val, by omega⟩ : Fin 512))
  congr 1
  funext a; apply Fin.ext
  match a with
  | ⟨0, _⟩ => show win1_2.index t (0 : Fin 2) * 4096 + 1 * p.val = t.val * 4096 + p.val; omega
  | ⟨1, _⟩ => show win1_2.index t (1 : Fin 2) * 256 + 1 * o.val = 256 + o.val; omega

theorem blk1_3 (c : Dev nD) (t : Fin cfg1.N) (p : Fin 4096) (o : Fin 1) :
    iblk1 V c 3 t (ix2 p o) = V c main_v9 (ix2 (rowAt1 t p) o) := by
  obtain ⟨e0, e1, e2, e3, e4, e5, e6, e7, e8, e9, e10, e11, e12⟩ := idx_facts1 t
  show V c main_v9 (((cfg1.win 3).blk t).view.emb (ix2 p o)) = V c main_v9 (ix2 (rowAt1 t p) o)
  congr 1
  funext a; apply Fin.ext
  match a with
  | ⟨0, _⟩ => show win1_3.index t (0 : Fin 2) * 4096 + 1 * p.val = t.val * 4096 + p.val; omega
  | ⟨1, _⟩ => show win1_3.index t (1 : Fin 2) * 1 + 1 * o.val = o.val; omega

theorem blk1_4 (c : Dev nD) (t : Fin cfg1.N) (p : Fin 4096) (o : Fin 1) :
    iblk1 V c 4 t (ix2 p o) = V c main_v13 (ix2 (rowAt1 t p) o) := by
  obtain ⟨e0, e1, e2, e3, e4, e5, e6, e7, e8, e9, e10, e11, e12⟩ := idx_facts1 t
  show V c main_v13 (((cfg1.win 4).blk t).view.emb (ix2 p o)) = V c main_v13 (ix2 (rowAt1 t p) o)
  congr 1
  funext a; apply Fin.ext
  match a with
  | ⟨0, _⟩ => show win1_4.index t (0 : Fin 2) * 4096 + 1 * p.val = t.val * 4096 + p.val; omega
  | ⟨1, _⟩ => show win1_4.index t (1 : Fin 2) * 1 + 1 * o.val = o.val; omega

theorem blk1_5 (c : Dev nD) (t : Fin cfg1.N) (p : Fin 1) (o : Fin 256) :
    iblk1 V c 5 t (ix2 p o) = V c main_v72 (ix2 p o) := by
  obtain ⟨e0, e1, e2, e3, e4, e5, e6, e7, e8, e9, e10, e11, e12⟩ := idx_facts1 t
  show V c main_v72 (((cfg1.win 5).blk t).view.emb (ix2 p o)) = V c main_v72 (ix2 p o)
  congr 1
  funext a; apply Fin.ext
  match a with
  | ⟨0, _⟩ => show win1_5.index t (0 : Fin 2) * 1 + 1 * p.val = p.val; omega
  | ⟨1, _⟩ => show win1_5.index t (1 : Fin 2) * 256 + 1 * o.val = o.val; omega

theorem blk1_6 (c : Dev nD) (t : Fin cfg1.N) (p : Fin 1) (o : Fin 256) :
    iblk1 V c 6 t (ix2 p o) = V c main_v73 (ix2 p o) := by
  obtain ⟨e0, e1, e2, e3, e4, e5, e6, e7, e8, e9, e10, e11, e12⟩ := idx_facts1 t
  show V c main_v73 (((cfg1.win 6).blk t).view.emb (ix2 p o)) = V c main_v73 (ix2 p o)
  congr 1
  funext a; apply Fin.ext
  match a with
  | ⟨0, _⟩ => show win1_6.index t (0 : Fin 2) * 1 + 1 * p.val = p.val; omega
  | ⟨1, _⟩ => show win1_6.index t (1 : Fin 2) * 256 + 1 * o.val = o.val; omega

theorem blk1_7 (c : Dev nD) (t : Fin cfg1.N) (p : Fin 4096) (o : Fin 128) :
    iblk1 V c 7 t (ix2 p o) = V c main_v0 (ix2 (rowAt1 t p) o) := by
  obtain ⟨e0, e1, e2, e3, e4, e5, e6, e7, e8, e9, e10, e11, e12⟩ := idx_facts1 t
  show V c main_v0 (((cfg1.win 7).blk t).view.emb (ix2 p o)) = V c main_v0 (ix2 (rowAt1 t p) o)
  congr 1
  funext a; apply Fin.ext
  match a with
  | ⟨0, _⟩ => show win1_7.index t (0 : Fin 2) * 4096 + 1 * p.val = t.val * 4096 + p.val; omega
  | ⟨1, _⟩ => show win1_7.index t (1 : Fin 2) * 128 + 1 * o.val = o.val; omega

theorem blk1_8 (c : Dev nD) (t : Fin cfg1.N) (p : Fin 256) (o : Fin 384) :
    iblk1 V c 8 t (ix2 p o) = V c main_v76 (ix2 p o) := by
  obtain ⟨e0, e1, e2, e3, e4, e5, e6, e7, e8, e9, e10, e11, e12⟩ := idx_facts1 t
  show V c main_v76 (((cfg1.win 8).blk t).view.emb (ix2 p o)) = V c main_v76 (ix2 p o)
  congr 1
  funext a; apply Fin.ext
  match a with
  | ⟨0, _⟩ => show win1_8.index t (0 : Fin 2) * 256 + 1 * p.val = p.val; omega
  | ⟨1, _⟩ => show win1_8.index t (1 : Fin 2) * 384 + 1 * o.val = o.val; omega

theorem blk1_9 (c : Dev nD) (t : Fin cfg1.N) (p : Fin 128) (o : Fin 384) :
    iblk1 V c 9 t (ix2 p o) = V c main_v77 (ix2 p o) := by
  obtain ⟨e0, e1, e2, e3, e4, e5, e6, e7, e8, e9, e10, e11, e12⟩ := idx_facts1 t
  show V c main_v77 (((cfg1.win 9).blk t).view.emb (ix2 p o)) = V c main_v77 (ix2 p o)
  congr 1
  funext a; apply Fin.ext
  match a with
  | ⟨0, _⟩ => show win1_9.index t (0 : Fin 2) * 128 + 1 * p.val = p.val; omega
  | ⟨1, _⟩ => show win1_9.index t (1 : Fin 2) * 384 + 1 * o.val = o.val; omega

theorem blk1_10 (c : Dev nD) (t : Fin cfg1.N) (p : Fin 1) (o : Fin 384) :
    iblk1 V c 10 t (ix2 p o) = V c main_v74 (ix2 p o) := by
  obtain ⟨e0, e1, e2, e3, e4, e5, e6, e7, e8, e9, e10, e11, e12⟩ := idx_facts1 t
  show V c main_v74 (((cfg1.win 10).blk t).view.emb (ix2 p o)) = V c main_v74 (ix2 p o)
  congr 1
  funext a; apply Fin.ext
  match a with
  | ⟨0, _⟩ => show win1_10.index t (0 : Fin 2) * 1 + 1 * p.val = p.val; omega
  | ⟨1, _⟩ => show win1_10.index t (1 : Fin 2) * 384 + 1 * o.val = o.val; omega

theorem blk1_11 (c : Dev nD) (t : Fin cfg1.N) (p : Fin 1) (o : Fin 384) :
    iblk1 V c 11 t (ix2 p o) = V c main_v75 (ix2 p o) := by
  obtain ⟨e0, e1, e2, e3, e4, e5, e6, e7, e8, e9, e10, e11, e12⟩ := idx_facts1 t
  show V c main_v75 (((cfg1.win 11).blk t).view.emb (ix2 p o)) = V c main_v75 (ix2 p o)
  congr 1
  funext a; apply Fin.ext
  match a with
  | ⟨0, _⟩ => show win1_11.index t (0 : Fin 2) * 1 + 1 * p.val = p.val; omega
  | ⟨1, _⟩ => show win1_11.index t (1 : Fin 2) * 384 + 1 * o.val = o.val; omega

theorem emb1_12 (t : Fin cfg1.N) (p : Fin 4096) (q : Fin 128) :
    ((cfg1.win 12).blk t).view.emb (ix2 p q) = ix2 (rowAt1 t p) q := by
  obtain ⟨e0, e1, e2, e3, e4, e5, e6, e7, e8, e9, e10, e11, e12⟩ := idx_facts1 t
  funext a; apply Fin.ext
  match a with
  | ⟨0, _⟩ => show win1_12.index t (0 : Fin 2) * 4096 + 1 * p.val = t.val * 4096 + p.val; omega
  | ⟨1, _⟩ => show win1_12.index t (1 : Fin 2) * 128 + 1 * q.val = q.val; omega

def G1_12 (a0 : S32768x256.Idx → EReal) (a1 : S32768x512.Idx → EReal) (a3 a4 : S32768x1.Idx → EReal)
    (a5 a6 : S1x256.Idx → EReal) (a7 : S32768x128.Idx → EReal) (a8 : S256x384.Idx → EReal) (a9 : S128x384.Idx → EReal)
    (a10 a11 : S1x384.Idx → EReal) : S32768x128.Idx → EReal := fun i =>
  Cert.Spec.gru
    (fun n o => (a0 (ix2 n o) + a3 (ix2 n (0 : Fin 1)) * (a1 (ix2 n (⟨o.val, by omega⟩ : Fin 512)) + a5 (ix2 (0 : Fin 1) o)))
      + a4 (ix2 n (0 : Fin 1)) * (a1 (ix2 n (⟨256 + o.val, by omega⟩ : Fin 512)) + a6 (ix2 (0 : Fin 1) o)))
    (fun n k => a7 (ix2 n k)) (fun q k => a8 (ix2 k q)) (fun q k => a9 (ix2 k q))
    (fun q => a10 (ix2 (0 : Fin 1) q)) (fun q => a11 (ix2 (0 : Fin 1) q)) (i 0) (i 1)

theorem flushed1_12_eq (c : Dev nD) (t : Fin cfg1.N) :
    (dat1 V c).flushed 12 t = ((cfg1.win 12).blk t).view.read (Elt Ideal)
      (G1_12 (V c main_v57) (V c main_v32_1) (V c main_v9) (V c main_v13) (V c main_v72) (V c main_v73) (V c main_v0)
        (V c main_v76) (V c main_v77) (V c main_v74) (V c main_v75)) := by
  show (cfg1.win 12).cut (grid1.coords t) ((dat1 V c).after 12 t) = _
  rw [after1_12]
  unfold out1_12
  rw [View.canon_unit_zero hz]
  simp only [View.ld_unit_zero (S := S4096x256) hz, View.ld_unit_zero (S := S4096x1) hz, View.ld_unit_zero (S := S1x256) hz,
    View.ld_unit_zero (S := S4096x128) hz, View.ld_unit_zero (S := S256x384) hz, View.ld_unit_zero (S := S128x384) hz,
    View.ld_unit_zero (S := S1x384) hz]
  funext j
  obtain ⟨p, q, rfl⟩ : ∃ (p : Fin 4096) (q : Fin 128), j = ix2 p q := ⟨j 0, j 1, eq_ix2 j⟩
  refine (cell_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) p q (rowAt1 t p)).trans ?_
  show _ = G1_12 (V c main_v57) (V c main_v32_1) (V c main_v9) (V c main_v13) (V c main_v72) (V c main_v73) (V c main_v0)
        (V c main_v76) (V c main_v77) (V c main_v74) (V c main_v75) (((cfg1.win 12).blk t).view.emb (ix2 p q))
  rw [emb1_12]
  unfold G1_12
  exact gru_congr (rowAt1 t p) q
    (fun o => by rw [blk1_0, blk1_1, blk1_2, blk1_3, blk1_4, blk1_5, blk1_6])
    (fun k => blk1_7 V c t p k) (fun m k => blk1_8 V c t k m) (fun m k => blk1_9 V c t k m)
    (fun m => blk1_10 V c t 0 m) (fun m => blk1_11 V c t 0 m)

theorem mem_blk1_12 (t : Fin cfg1.N) (i : S32768x128.Idx) :
    i ∈ ((cfg1.win 12).blk t).view.set ↔ ∀ a : Fin 2, win1_12.index t a * S4096x128.size a ≤ (i a).val ∧ (i a).val < win1_12.index t a * S4096x128.size a + S4096x128.size a := by
  show i ∈ ((View.whole main_v78).slice (win1_12.rect t)).set ↔ _
  rw [View.set_slice_whole, Rect.mem_set_unit]
  exact Iff.rfl

theorem covered1_12 (i : S32768x128.Idx) :
    ∃ t : Fin cfg1.N, (cfg1.win 12).flush t = true ∧ i ∈ ((cfg1.win 12).blk t).view.set := by
  have hi0 : (i 0).val < 32768 := (i 0).isLt
  have hi1 : (i 1).val < 128 := (i 1).isLt
  have hlt : (i 0).val / 4096 < cfg1.N := lt_of_lt_of_eq (by omega : (i 0).val / 4096 < 8) N_1.symm
  obtain ⟨e0, e1, e2, e3, e4, e5, e6, e7, e8, e9, e10, e11, e12⟩ := idx_facts1 ⟨(i 0).val / 4096, hlt⟩
  have q0 : win1_12.index ⟨(i 0).val / 4096, hlt⟩ (0 : Fin 2) = (i 0).val / 4096 := e12.1
  have q1 : win1_12.index ⟨(i 0).val / 4096, hlt⟩ (1 : Fin 2) = 0 := e12.2
  refine ⟨⟨(i 0).val / 4096, hlt⟩, flush1_12 _, ?_⟩
  rw [mem_blk1_12]
  intro a
  match a with
  | ⟨0, _⟩ => show win1_12.index ⟨(i 0).val / 4096, hlt⟩ (0 : Fin 2) * 4096 ≤ (i 0).val ∧ (i 0).val < win1_12.index ⟨(i 0).val / 4096, hlt⟩ (0 : Fin 2) * 4096 + 4096; omega
  | ⟨1, _⟩ => show win1_12.index ⟨(i 0).val / 4096, hlt⟩ (1 : Fin 2) * 128 ≤ (i 1).val ∧ (i 1).val < win1_12.index ⟨(i 0).val / 4096, hlt⟩ (1 : Fin 2) * 128 + 128; omega

theorem final1_12 (c : Dev nD) : (dat1 (F := Ideal) V c).arrAt 12 cfg1.N =
    G1_12 (V c main_v57) (V c main_v32_1) (V c main_v9) (V c main_v13) (V c main_v72) (V c main_v73) (V c main_v0)
      (V c main_v76) (V c main_v77) (V c main_v74) (V c main_v75) :=
  (dat1 V c).arrAt_eq_of_cover 12 _ (fun t _ => flushed1_12_eq V c t) covered1_12

theorem final1_12_apply (c : Dev nD) (n : Fin 32768) (j : Fin 128) :
    (dat1 (F := Ideal) V c).arrAt 12 cfg1.N (ix2 n j) =
      Cert.Spec.gru
        (fun n o => (rd (V c main_v57) n o + rd (V c main_v9) n (0 : Fin 1) * (rd (V c main_v32_1) n (⟨o.val, by omega⟩ : Fin 512) + rd (V c main_v72) (0 : Fin 1) o))
          + rd (V c main_v13) n (0 : Fin 1) * (rd (V c main_v32_1) n (⟨256 + o.val, by omega⟩ : Fin 512) + rd (V c main_v73) (0 : Fin 1) o))
        (fun n k => rd (V c main_v0) n k) (fun q k => rd (V c main_v76) k q) (fun q k => rd (V c main_v77) k q)
        (fun q => rd (V c main_v74) (0 : Fin 1) q) (fun q => rd (V c main_v75) (0 : Fin 1) q) n j := by
  rw [final1_12]
  rfl

end Cert.KernelIdeal.Val

end
-- ==== Proof.KI.Host0.lean ====
import proofs.«425588_j41618233098847_3_alg».proof.Proof.Gen.KernelIdeal.Launch
import proofs.«425588_j41618233098847_3_alg».proof.Proof.Gen.KernelIdeal.Regions
import proofs.«425588_j41618233098847_3_alg».proof.Proof.LibSums
import Idealize.ShloMosaic.Lib.StableHlo.Run
import Idealize.ShloMosaic.Lib.Pipeline.Value
import Idealize.ShloMosaic.Lib.ValueLayout
import Idealize.ShloMosaic.Lib.IdealHost

set_option maxRecDepth 16384

noncomputable section

namespace Cert.KernelIdeal.Val

open Cert.KernelIdeal Cert.KernelIdeal.Gen Idealize.ShloMosaic Idealize.ShloMosaic.TcCoe
open Idealize.ShloMosaic.ValueIdx
open scoped BigOperators

theorem half_apply (X : S2x256x256.Idx → EReal) (l o : ℕ)
    (h1 : S2x256x256.Slices ![l, 0, 0] S1x256x256) (h2 : S256x256.Slices ![0, o] S256x128)
    (k : Fin 128) (j : Fin 256) (lf : Fin 2) (hl : lf.val = l) (c : Fin 256) (hc : c.val = o + k.val) :
    transpose S128x256 [1, 0]
        (extractStridedSlice S256x128 ![0, o]
          (shapeCast S256x256 (extractStridedSlice S1x256x256 ![l, 0, 0] X h1) shapeCasts_S1x256x256_S256x256) h2)
        transposes_S256x128_S128x256_1_0 (ix2 k j)
      = X (ix3 lf j c) := by
  refine (transpose_ix2_apply _ transposes_S256x128_S128x256_1_0 k j).trans ?_
  refine (slice2_axis1_apply o _ h2 j k c hc).trans ?_
  refine (shapeCast_1ab_ab_apply _ shapeCasts_S1x256x256_S256x256 j c).trans ?_
  refine extractStridedSlice_apply _ X h1 _ (ix3 lf j c) fun a => ?_
  match a with
  | ⟨0, _⟩ => show lf.val = l + 0; omega
  | ⟨1, _⟩ => show j.val = 0 + j.val; omega
  | ⟨2, _⟩ => show c.val = 0 + c.val; omega

theorem concat4_apply_0 (x0 x1 x2 x3 : S128x256.Idx → EReal) (k : Fin 128) (j : Fin 1024) (c : Fin 256)
    (hc : c.val = j.val) :
    concatenate S128x1024 1 [⟨S128x256, x0⟩, ⟨S128x256, x1⟩, ⟨S128x256, x2⟩, ⟨S128x256, x3⟩]
        concatenates_S128x256_S128x256_S128x256_S128x256_S128x1024_d1 (ix2 k j) = x0 (ix2 k c) := by
  refine concatenate_apply_piece 1 _ _ (ix2 k j) 0 (by show (0 : ℕ) < 4; omega) S128x256 x0 rfl rfl 0 rfl (ix2 k c) (fun b hb => ?_) ?_
  · match b with
    | ⟨0, _⟩ => rfl
    | ⟨1, _⟩ => exact absurd rfl hb
  · show 0 + c.val = j.val; omega

theorem concat4_apply_1 (x0 x1 x2 x3 : S128x256.Idx → EReal) (k : Fin 128) (j : Fin 1024) (c : Fin 256)
    (hc : 256 + c.val = j.val) :
    concatenate S128x1024 1 [⟨S128x256, x0⟩, ⟨S128x256, x1⟩, ⟨S128x256, x2⟩, ⟨S128x256, x3⟩]
        concatenates_S128x256_S128x256_S128x256_S128x256_S128x1024_d1 (ix2 k j) = x1 (ix2 k c) := by
  refine concatenate_apply_piece 1 _ _ (ix2 k j) 1 (by show (1 : ℕ) < 4; omega) S128x256 x1 rfl rfl 256 rfl (ix2 k c) (fun b hb => ?_) ?_
  · match b with
    | ⟨0, _⟩ => rfl
    | ⟨1, _⟩ => exact absurd rfl hb
  · show 256 + c.val = j.val; omega

theorem concat4_apply_2 (x0 x1 x2 x3 : S128x256.Idx → EReal) (k : Fin 128) (j : Fin 1024) (c : Fin 256)
    (hc : 512 + c.val = j.val) :
    concatenate S128x1024 1 [⟨S128x256, x0⟩, ⟨S128x256, x1⟩, ⟨S128x256, x2⟩, ⟨S128x256, x3⟩]
        concatenates_S128x256_S128x256_S128x256_S128x256_S128x1024_d1 (ix2 k j) = x2 (ix2 k c) := by
  refine concatenate_apply_piece 1 _ _ (ix2 k j) 2 (by show (2 : ℕ) < 4; omega) S128x256 x2 rfl rfl 512 rfl (ix2 k c) (fun b hb => ?_) ?_
  · match b with
    | ⟨0, _⟩ => rfl
    | ⟨1, _⟩ => exact absurd rfl hb
  · show 512 + c.val = j.val; omega

theorem concat4_apply_3 (x0 x1 x2 x3 : S128x256.Idx → EReal) (k : Fin 128) (j : Fin 1024) (c : Fin 256)
    (hc : 768 + c.val = j.val) :
    concatenate S128x1024 1 [⟨S128x256, x0⟩, ⟨S128x256, x1⟩, ⟨S128x256, x2⟩, ⟨S128x256, x3⟩]
        concatenates_S128x256_S128x256_S128x256_S128x256_S128x1024_d1 (ix2 k j) = x3 (ix2 k c) := by
  refine concatenate_apply_piece 1 _ _ (ix2 k j) 3 (by show (3 : ℕ) < 4; omega) S128x256 x3 rfl rfl 768 rfl (ix2 k c) (fun b hb => ?_) ?_
  · match b with
    | ⟨0, _⟩ => rfl
    | ⟨1, _⟩ => exact absurd rfl hb
  · show 768 + c.val = j.val; omega

abbrev halfT (X : S2x256x256.Idx → EReal) (l o : ℕ)
    (h1 : S2x256x256.Slices ![l, 0, 0] S1x256x256) (h2 : S256x256.Slices ![0, o] S256x128) : S128x256.Idx → EReal :=
  transpose S128x256 [1, 0]
    (extractStridedSlice S256x128 ![0, o]
      (shapeCast S256x256 (extractStridedSlice S1x256x256 ![l, 0, 0] X h1) shapeCasts_S1x256x256_S256x256) h2)
    transposes_S256x128_S128x256_1_0

abbrev wcat (A B : S2x256x256.Idx → EReal) (l : ℕ) (h1 : S2x256x256.Slices ![l, 0, 0] S1x256x256) :
    S128x1024.Idx → EReal :=
  truncf (F := Ideal) .bf16 (concatenate S128x1024 1
    [⟨S128x256, halfT A l 0 h1 slices_S256x256_S256x128_0_0⟩,
     ⟨S128x256, halfT B l 0 h1 slices_S256x256_S256x128_0_0⟩,
     ⟨S128x256, halfT A l 128 h1 slices_S256x256_S256x128_0_128⟩,
     ⟨S128x256, halfT B l 128 h1 slices_S256x256_S256x128_0_128⟩]
    concatenates_S128x256_S128x256_S128x256_S128x256_S128x1024_d1) bitsLt_bf16_f32

section Wcat
variable (A B : S2x256x256.Idx → EReal) (l : ℕ) (h1 : S2x256x256.Slices ![l, 0, 0] S1x256x256)
  (lf : Fin 2) (k : Fin 128) (j : Fin 1024)

theorem wcat_apply_0 (hl : lf.val = l) (hj : j.val < 256) :
    wcat A B l h1 (ix2 k j) = A (ix3 lf (⟨j.val, by omega⟩ : Fin 256) (⟨k.val, by omega⟩ : Fin 256)) := by
  refine (concat4_apply_0 _ _ _ _ k j ⟨j.val, by omega⟩ rfl).trans ?_
  exact half_apply A l 0 h1 _ k ⟨j.val, by omega⟩ lf hl ⟨k.val, by omega⟩ (by show k.val = 0 + k.val; omega)

theorem wcat_apply_1 (hl : lf.val = l) (hj : 256 ≤ j.val) (hj' : j.val < 512) :
    wcat A B l h1 (ix2 k j) = B (ix3 lf (⟨j.val - 256, by omega⟩ : Fin 256) (⟨k.val, by omega⟩ : Fin 256)) := by
  refine (concat4_apply_1 _ _ _ _ k j ⟨j.val - 256, by omega⟩ (by show 256 + (j.val - 256) = j.val; omega)).trans ?_
  exact half_apply B l 0 h1 _ k ⟨j.val - 256, by omega⟩ lf hl ⟨k.val, by omega⟩ (by show k.val = 0 + k.val; omega)

theorem wcat_apply_2 (hl : lf.val = l) (hj : 512 ≤ j.val) (hj' : j.val < 768) :
    wcat A B l h1 (ix2 k j) = A (ix3 lf (⟨j.val - 512, by omega⟩ : Fin 256) (⟨128 + k.val, by omega⟩ : Fin 256)) := by
  refine (concat4_apply_2 _ _ _ _ k j ⟨j.val - 512, by omega⟩ (by show 512 + (j.val - 512) = j.val; omega)).trans ?_
  exact half_apply A l 128 h1 _ k ⟨j.val - 512, by omega⟩ lf hl ⟨128 + k.val, by omega⟩ rfl

theorem wcat_apply_3 (hl : lf.val = l) (hj : 768 ≤ j.val) :
    wcat A B l h1 (ix2 k j) = B (ix3 lf (⟨j.val - 768, by omega⟩ : Fin 256) (⟨128 + k.val, by omega⟩ : Fin 256)) := by
  refine (concat4_apply_3 _ _ _ _ k j ⟨j.val - 768, by omega⟩ (by show 768 + (j.val - 768) = j.val; omega)).trans ?_
  exact half_apply B l 128 h1 _ k ⟨j.val - 768, by omega⟩ lf hl ⟨128 + k.val, by omega⟩ rfl

end Wcat

theorem edge_row_apply (X : S2x262144.Idx → BitVec 32) (r : ℕ) (h : S2x262144.Slices ![r, 0] S1x262144)
    (rf : Fin 2) (hr : rf.val = r) (e : Fin 262144) :
    shapeCast S262144 (extractStridedSlice S1x262144 ![r, 0] X h) shapeCasts_S1x262144_S262144 (ix1 e) = X (ix2 rf e) := by
  refine (shapeCast_1a_a_apply _ shapeCasts_S1x262144_S262144 e).trans ?_
  exact slice2_axis0_apply r X h (0 : Fin 1) e rf (by show rf.val = r + 0; omega)

theorem edge_col_apply (x : S262144.Idx → BitVec 32) (e : Fin 262144) (z : Fin 1) :
    broadcastInDim S262144x1 ![0] bcast_S262144_S262144x1_0 x (ix2 e z) = x (ix1 e) :=
  broadcastInDim_apply ![0] bcast_S262144_S262144x1_0 x (ix2 e z) (ix1 e) fun a => match a with | ⟨0, _⟩ => rfl

theorem degree_apply (x : S262144.Idx → BitVec 32) (v : Fin 32768) :
    broadcastInDim S32768x1 ![0] bcast_S32768_S32768x1_0
        (Host.scatterAdd (F := Ideal) scatter_S32768_S262144x1_S262144_n_0_0_1
          (broadcastInDim S32768 ![] bcast_S_S32768 (constant (F := Ideal) S_ .f32 0x00000000#32))
          (broadcastInDim S262144x1 ![0] bcast_S262144_S262144x1_0 x)
          (broadcastInDim S262144 ![] bcast_S_S262144 (constant (F := Ideal) S_ .f32 0x3F800000#32)))
        (ix2 v (0 : Fin 1))
      = 0 + ∑ e : Fin 262144, if Rows.srow 32768 (x (ix1 e)) = some v then (1 : EReal) else 0 := by
  refine (broadcastInDim_apply ![0] bcast_S32768_S32768x1_0 _ (ix2 v (0 : Fin 1)) (ix1 v)
    (fun a => match a with | ⟨0, _⟩ => rfl)).trans ?_
  refine (Rows.scatterAdd_col_apply scatter_S32768_S262144x1_S262144_n_0_0_1_wf _ _ _ (ix1 v)).trans ?_
  refine congrArg₂ (· + ·) ?_ (Finset.sum_congr rfl fun e _ => ?_)
  · rw [broadcastInDim_scalar_apply, constant_apply, Rows.ofBits_f32_zero]
  · rw [broadcastInDim_scalar_apply, constant_apply, Rows.ofBits_f32_one, edge_col_apply]

variable (W : Valuation τ sig (Elt Ideal))

theorem host0_v0_arr :
    (StableHlo.after (hostOps0 (F := Ideal)) W (Proc.devRef .tc main_v0) : S32768x128.Idx → EReal)
      = shapeCast S32768x128 (W (Proc.devRef .tc main_arg0) : S256x128x128.Idx → EReal) shapeCasts_S256x128x128_S32768x128 := by
  after_results; rfl

theorem host0_v0 (n : Fin 32768) (k : Fin 128) :
    (StableHlo.after (hostOps0 (F := Ideal)) W (Proc.devRef .tc main_v0) : S32768x128.Idx → EReal) (ix2 n k)
      = (W (Proc.devRef .tc main_arg0) : S256x128x128.Idx → EReal)
          (ix3 (⟨n.val / 128, by omega⟩ : Fin 256) (⟨n.val % 128, by omega⟩ : Fin 128) k) := by
  rw [host0_v0_arr]
  refine shapeCast_apply (s := S256x128x128) (t := S32768x128) _ _ _ _ ?_
  rw [Shape.rowMajor_val_three, Shape.rowMajor_val_two]
  show (n.val / 128 * 128 + n.val % 128) * 128 + k.val = n.val * 128 + k.val
  omega

theorem host0_v2_arr :
    (StableHlo.after (hostOps0 (F := Ideal)) W (Proc.devRef .tc main_v2) : S262144.Idx → BitVec 32)
      = shapeCast S262144 (extractStridedSlice S1x262144 ![0, 0] (W (Proc.devRef .tc main_arg1) : S2x262144.Idx → BitVec 32)
          slices_S2x262144_S1x262144_0_0) shapeCasts_S1x262144_S262144 := by
  after_results; rfl

theorem host0_v4_arr :
    (StableHlo.after (hostOps0 (F := Ideal)) W (Proc.devRef .tc main_v4) : S262144.Idx → BitVec 32)
      = shapeCast S262144 (extractStridedSlice S1x262144 ![1, 0] (W (Proc.devRef .tc main_arg1) : S2x262144.Idx → BitVec 32)
          slices_S2x262144_S1x262144_1_0) shapeCasts_S1x262144_S262144 := by
  after_results; rfl

theorem host0_v2 (e : Fin 262144) :
    (StableHlo.after (hostOps0 (F := Ideal)) W (Proc.devRef .tc main_v2) : S262144.Idx → BitVec 32) (ix1 e)
      = (W (Proc.devRef .tc main_arg1) : S2x262144.Idx → BitVec 32) (ix2 (0 : Fin 2) e) := by
  rw [host0_v2_arr]; exact edge_row_apply _ 0 _ 0 rfl e

theorem host0_v4 (e : Fin 262144) :
    (StableHlo.after (hostOps0 (F := Ideal)) W (Proc.devRef .tc main_v4) : S262144.Idx → BitVec 32) (ix1 e)
      = (W (Proc.devRef .tc main_arg1) : S2x262144.Idx → BitVec 32) (ix2 (1 : Fin 2) e) := by
  rw [host0_v4_arr]; exact edge_row_apply _ 1 _ 1 rfl e

theorem host0_v9_arr :
    (StableHlo.after (hostOps0 (F := Ideal)) W (Proc.devRef .tc main_v9) : S32768x1.Idx → EReal)
      = broadcastInDim S32768x1 ![0] bcast_S32768_S32768x1_0
          (Host.scatterAdd (F := Ideal) scatter_S32768_S262144x1_S262144_n_0_0_1
            (broadcastInDim S32768 ![] bcast_S_S32768 (constant (F := Ideal) S_ .f32 0x00000000#32))
            (broadcastInDim S262144x1 ![0] bcast_S262144_S262144x1_0
              (shapeCast S262144 (extractStridedSlice S1x262144 ![1, 0] (W (Proc.devRef .tc main_arg1) : S2x262144.Idx → BitVec 32)
                slices_S2x262144_S1x262144_1_0) shapeCasts_S1x262144_S262144))
            (broadcastInDim S262144 ![] bcast_S_S262144 (constant (F := Ideal) S_ .f32 0x3F800000#32))) := by
  after_results; rfl

theorem host0_v13_arr :
    (StableHlo.after (hostOps0 (F := Ideal)) W (Proc.devRef .tc main_v13) : S32768x1.Idx → EReal)
      = broadcastInDim S32768x1 ![0] bcast_S32768_S32768x1_0
          (Host.scatterAdd (F := Ideal) scatter_S32768_S262144x1_S262144_n_0_0_1
            (broadcastInDim S32768 ![] bcast_S_S32768 (constant (F := Ideal) S_ .f32 0x00000000#32))
            (broadcastInDim S262144x1 ![0] bcast_S262144_S262144x1_0
              (shapeCast S262144 (extractStridedSlice S1x262144 ![0, 0] (W (Proc.devRef .tc main_arg1) : S2x262144.Idx → BitVec 32)
                slices_S2x262144_S1x262144_0_0) shapeCasts_S1x262144_S262144))
            (broadcastInDim S262144 ![] bcast_S_S262144 (constant (F := Ideal) S_ .f32 0x3F800000#32))) := by
  after_results; rfl

theorem host0_v9 (v : Fin 32768) :
    (StableHlo.after (hostOps0 (F := Ideal)) W (Proc.devRef .tc main_v9) : S32768x1.Idx → EReal) (ix2 v (0 : Fin 1))
      = 0 + ∑ e : Fin 262144,
          if Rows.srow 32768 ((W (Proc.devRef .tc main_arg1) : S2x262144.Idx → BitVec 32) (ix2 (1 : Fin 2) e)) = some v
          then (1 : EReal) else 0 := by
  rw [host0_v9_arr]
  refine (degree_apply _ v).trans (congrArg (0 + ·) (Finset.sum_congr rfl fun e _ => ?_))
  rw [edge_row_apply _ 1 _ 1 rfl e]

theorem host0_v13 (v : Fin 32768) :
    (StableHlo.after (hostOps0 (F := Ideal)) W (Proc.devRef .tc main_v13) : S32768x1.Idx → EReal) (ix2 v (0 : Fin 1))
      = 0 + ∑ e : Fin 262144,
          if Rows.srow 32768 ((W (Proc.devRef .tc main_arg1) : S2x262144.Idx → BitVec 32) (ix2 (0 : Fin 2) e)) = some v
          then (1 : EReal) else 0 := by
  rw [host0_v13_arr]
  refine (degree_apply _ v).trans (congrArg (0 + ·) (Finset.sum_congr rfl fun e _ => ?_))
  rw [edge_row_apply _ 0 _ 0 rfl e]

theorem host0_v31_arr :
    (StableHlo.after (hostOps0 (F := Ideal)) W (Proc.devRef .tc main_v31) : S128x1024.Idx → EReal)
      = wcat (W (Proc.devRef .tc main_arg2) : S2x256x256.Idx → EReal) (W (Proc.devRef .tc main_arg4) : S2x256x256.Idx → EReal)
          0 slices_S2x256x256_S1x256x256_0_0_0 := by
  after_results; rfl

theorem host0_v31_0 (k : Fin 128) (j : Fin 1024) (hj : j.val < 256) :
    (StableHlo.after (hostOps0 (F := Ideal)) W (Proc.devRef .tc main_v31) : S128x1024.Idx → EReal) (ix2 k j)
      = (W (Proc.devRef .tc main_arg2) : S2x256x256.Idx → EReal)
          (ix3 (0 : Fin 2) (⟨j.val, by omega⟩ : Fin 256) (⟨k.val, by omega⟩ : Fin 256)) := by
  rw [host0_v31_arr]; exact wcat_apply_0 _ _ 0 _ 0 k j rfl hj

theorem host0_v31_1 (k : Fin 128) (j : Fin 1024) (hj : 256 ≤ j.val) (hj' : j.val < 512) :
    (StableHlo.after (hostOps0 (F := Ideal)) W (Proc.devRef .tc main_v31) : S128x1024.Idx → EReal) (ix2 k j)
      = (W (Proc.devRef .tc main_arg4) : S2x256x256.Idx → EReal)
          (ix3 (0 : Fin 2) (⟨j.val - 256, by omega⟩ : Fin 256) (⟨k.val, by omega⟩ : Fin 256)) := by
  rw [host0_v31_arr]; exact wcat_apply_1 _ _ 0 _ 0 k j rfl hj hj'

theorem host0_v31_2 (k : Fin 128) (j : Fin 1024) (hj : 512 ≤ j.val) (hj' : j.val < 768) :
    (StableHlo.after (hostOps0 (F := Ideal)) W (Proc.devRef .tc main_v31) : S128x1024.Idx → EReal) (ix2 k j)
      = (W (Proc.devRef .tc main_arg2) : S2x256x256.Idx → EReal)
          (ix3 (0 : Fin 2) (⟨j.val - 512, by omega⟩ : Fin 256) (⟨128 + k.val, by omega⟩ : Fin 256)) := by
  rw [host0_v31_arr]; exact wcat_apply_2 _ _ 0 _ 0 k j rfl hj hj'

theorem host0_v31_3 (k : Fin 128) (j : Fin 1024) (hj : 768 ≤ j.val) :
    (StableHlo.after (hostOps0 (F := Ideal)) W (Proc.devRef .tc main_v31) : S128x1024.Idx → EReal) (ix2 k j)
      = (W (Proc.devRef .tc main_arg4) : S2x256x256.Idx → EReal)
          (ix3 (0 : Fin 2) (⟨j.val - 768, by omega⟩ : Fin 256) (⟨128 + k.val, by omega⟩ : Fin 256)) := by
  rw [host0_v31_arr]; exact wcat_apply_3 _ _ 0 _ 0 k j rfl hj

end Cert.KernelIdeal.Val

end
-- ==== Proof.KI.Host1.lean ====
import proofs.«425588_j41618233098847_3_alg».proof.Proof.Gen.KernelIdeal.Launch
import proofs.«425588_j41618233098847_3_alg».proof.Proof.Gen.KernelIdeal.Regions
import proofs.«425588_j41618233098847_3_alg».proof.Proof.Spec
import proofs.«425588_j41618233098847_3_alg».proof.Proof.LibSums
import Idealize.ShloMosaic.Lib.StableHlo.Run
import Idealize.ShloMosaic.Lib.ValueLayout
import Idealize.ShloMosaic.Lib.IdealHost

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Idealize.ShloMosaic.Rows
open scoped BigOperators

variable (W : Valuation τ sig (Elt Ideal))

abbrev wTbl1 : S32768x512.Idx → EReal := W main_v32_0

abbrev wEdgeA : S262144.Idx → BitVec 32 := W main_v2

abbrev wEdgeB : S262144.Idx → BitVec 32 := W main_v4

abbrev wArg3 : S2x256.Idx → EReal := W main_arg3

abbrev wArg5 : S2x256.Idx → EReal := W main_arg5

abbrev wArg6 : S2x384x256.Idx → EReal := W main_arg6

abbrev wArg7 : S2x384x128.Idx → EReal := W main_arg7

abbrev wArg8 : S2x384.Idx → EReal := W main_arg8

abbrev wArg9 : S2x384.Idx → EReal := W main_arg9

theorem hostWrap_word (w : BitVec 32) :
    Scalar.select (IntOp.cmpi .slt w 0#32) (IntOp.addi w 32768#32) w = Cert.Spec.wrap w := by
  unfold Cert.Spec.wrap Scalar.select IntOp.cmpi IntOp.addi
  by_cases h : w.toInt < 0
  · have hs : w.slt 0#32 = true := by
      rw [BitVec.slt_iff_toInt_lt]; exact h
    rw [if_pos h]
    simp only [hs]
    rfl
  · have hs : w.slt 0#32 = false := by
      rw [Bool.eq_false_iff]; intro hc; rw [BitVec.slt_iff_toInt_lt] at hc; exact h hc
    rw [if_neg h]
    simp only [hs]
    rfl

theorem hostCol_apply {α : Type} {n : ℕ} (h : (⟨1, ![n]⟩ : Shape).BroadcastsInDim ⟨2, ![n, 1]⟩ ![0])
    (x : (⟨1, ![n]⟩ : Shape).Idx → α) (e : Fin n) (z : Fin 1) :
    broadcastInDim ⟨2, ![n, 1]⟩ ![0] h x (ix2 e z) = x (ix1 e) := by
  refine broadcastInDim_apply _ h x _ _ fun a => ?_
  obtain rfl : a = 0 := Subsingleton.elim _ _
  show e.val = if n = 1 then 0 else e.val
  split
  · have := e.isLt; omega
  · rfl

def hostWrap (x : IVec S262144 32) : IVec S262144 32 :=
  select (cmpi .slt x (broadcastInDim S262144 ![] bcast_S_S262144 (constantI S_ 32 0#32)))
    (addi x (broadcastInDim S262144 ![] bcast_S_S262144 (constantI S_ 32 32768#32))) x

theorem hostWrap_apply (x : IVec S262144 32) (e : Fin 262144) : hostWrap x (ix1 e) = Cert.Spec.wrap (x (ix1 e)) := by
  unfold hostWrap
  rw [select_apply]
  show Scalar.select (IntOp.cmpi .slt (x (ix1 e)) (broadcastInDim S262144 ![] bcast_S_S262144 (constantI S_ 32 0#32) (ix1 e)))
    (IntOp.addi (x (ix1 e)) (broadcastInDim S262144 ![] bcast_S_S262144 (constantI S_ 32 32768#32) (ix1 e))) (x (ix1 e)) = _
  rw [broadcastInDim_scalar_apply, broadcastInDim_scalar_apply, constantI_apply, constantI_apply]
  exact hostWrap_word _

def hostSegSum (T : FVec Ideal S32768x256 .bf16) (src dst : IVec S262144 32) : FVec Ideal S32768x256 .f32 :=
  Host.scatterAdd (F := Ideal) scatter_S32768x256_S262144x1_S262144x256_1_0_0_1
    (broadcastInDim S32768x256 ![] bcast_S_S32768x256 (constant (F := Ideal) S_ .f32 0x00000000#32))
    (broadcastInDim S262144x1 ![0] bcast_S262144_S262144x1_0 dst)
    (extf .f32 (Host.gather gather_S32768x256_S262144x1_S262144x256_1_0_n_n_0_1_1256 T
      (broadcastInDim S262144x1 ![0] bcast_S262144_S262144x1_0 (hostWrap src))) bitsLt_bf16_f32)

theorem hostSegSum_apply (T : FVec Ideal S32768x256 .bf16) (src dst : IVec S262144 32) (v : Fin 32768) (o : Fin 256) :
    hostSegSum T src dst (ix2 v o)
      = 0 + ∑ e : Fin 262144,
          if srow 32768 (dst (ix1 e)) = some v then T (ix2 (Cert.Spec.row (src (ix1 e))) o) else 0 := by
  unfold hostSegSum
  show Host.scatterAdd (F := Ideal) (φ := .f32)
    (rowScatterDims 32768 262144 256 scatter_S32768x256_S262144x1_S262144x256_1_0_0_1_wf) _ _ _ (ix2 v o) = _
  rw [scatterAdd_rows_apply]
  refine congrArg₂ (· + ·) ?_ ?_
  · rw [broadcastInDim_scalar_apply, constant_apply]
    exact ofBits_f32_zero
  · refine Finset.sum_congr rfl fun e _ => ?_
    rw [hostCol_apply]
    refine if_congr Iff.rfl ?_ rfl
    rw [extf_apply]
    show Host.gather (rowGatherDims 32768 262144 256 gather_S32768x256_S262144x1_S262144x256_1_0_n_n_0_1_1256_wf) T _
      (ix2 e o) = _
    rw [gather_rows_apply (by decide : 0 < 32768), hostCol_apply, hostWrap_apply]
    rfl

theorem hostSlice3_axis0_apply {α : Type} {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

theorem hostParamRow_apply {α : Type} {n : ℕ} (r : ℕ) (X : (⟨2, ![2, n]⟩ : Shape).Idx → α)
    (h1 : (⟨2, ![2, n]⟩ : Shape).Slices ![r, 0] ⟨2, ![1, n]⟩)
    (h2 : (⟨2, ![1, n]⟩ : Shape).ShapeCasts ⟨1, ![n]⟩) (h3 : (⟨1, ![n]⟩ : Shape).ShapeCasts ⟨2, ![1, n]⟩)
    (z : Fin 1) (o : Fin n) (k : Fin 2) (hk : k.val = r) :
    shapeCast ⟨2, ![1, n]⟩ (shapeCast ⟨1, ![n]⟩ (extractStridedSlice ⟨2, ![1, n]⟩ ![r, 0] X h1) h2) h3 (ix2 z o)
      = X (ix2 k o) := by
  rw [shapeCast_a_1a_apply, shapeCast_1a_a_apply]
  exact slice2_axis0_apply r X h1 0 o k (hk.trans (Nat.add_zero r).symm)

theorem hostParamMat_apply {α : Type} {p q : ℕ} (r : ℕ) (X : (⟨3, ![2, p, q]⟩ : Shape).Idx → α)
    (h1 : (⟨3, ![2, p, q]⟩ : Shape).Slices ![r, 0, 0] ⟨3, ![1, p, q]⟩)
    (h2 : (⟨3, ![1, p, q]⟩ : Shape).ShapeCasts ⟨2, ![p, q]⟩)
    (h3 : (⟨2, ![p, q]⟩ : Shape).Transposes [1, 0] ⟨2, ![q, p]⟩)
    (i : Fin q) (j : Fin p) (k : Fin 2) (hk : k.val = r) :
    transpose ⟨2, ![q, p]⟩ [1, 0] (shapeCast ⟨2, ![p, q]⟩ (extractStridedSlice ⟨3, ![1, p, q]⟩ ![r, 0, 0] X h1) h2) h3
        (ix2 i j)
      = X (ix3 k j i) := by
  rw [transpose_ix2_apply, shapeCast_1ab_ab_apply]
  exact hostSlice3_axis0_apply r X h1 0 j i k (hk.trans (Nat.add_zero r).symm)

set_option maxHeartbeats 4000000 in

theorem host1_v57 :
    StableHlo.after (hostOps1 (F := Ideal)) W (Proc.devRef .tc main_v57)
      = (addf
          (hostSegSum (extractStridedSlice S32768x256 ![0, 0] (wTbl1 W) slices_S32768x512_S32768x256_0_0) (wEdgeA W) (wEdgeB W))
          (hostSegSum (extractStridedSlice S32768x256 ![0, 256] (wTbl1 W) slices_S32768x512_S32768x256_0_256) (wEdgeB W) (wEdgeA W))
        : FVec Ideal S32768x256 .f32) := by
  show StableHlo.after hostOps1 W (Proc.devRef .tc main_v57) = _
  after_results_simp
  rfl

theorem host1_v57_apply (v : Fin 32768) (o : Fin 256) :
    StableHlo.after (hostOps1 (F := Ideal)) W (Proc.devRef .tc main_v57) (ix2 v o)
      = ((0 + ∑ e : Fin 262144,
            if srow 32768 (wEdgeB W (ix1 e)) = some v
            then wTbl1 W (ix2 (Cert.Spec.row (wEdgeA W (ix1 e))) ⟨o.val, by omega⟩) else 0)
        + (0 + ∑ e : Fin 262144,
            if srow 32768 (wEdgeA W (ix1 e)) = some v
            then wTbl1 W (ix2 (Cert.Spec.row (wEdgeB W (ix1 e))) ⟨256 + o.val, by omega⟩) else 0) : EReal) := by
  rw [host1_v57, addf_apply, hostSegSum_apply, hostSegSum_apply]
  refine congrArg₂ (· + ·) (congrArg (0 + ·) ?_) (congrArg (0 + ·) ?_)
  · refine Finset.sum_congr rfl fun e _ => if_congr Iff.rfl ?_ rfl
    exact slice2_axis1_apply 0 _ slices_S32768x512_S32768x256_0_0 _ o ⟨o.val, by omega⟩ (Nat.zero_add _).symm
  · refine Finset.sum_congr rfl fun e _ => if_congr Iff.rfl ?_ rfl
    exact slice2_axis1_apply 256 _ slices_S32768x512_S32768x256_0_256 _ o ⟨256 + o.val, by omega⟩ rfl

theorem host1_v72 :
    StableHlo.after (hostOps1 (F := Ideal)) W (Proc.devRef .tc main_v72)
      = (shapeCast S1x256 (shapeCast S256 (extractStridedSlice S1x256 ![0, 0] (wArg3 W)
          slices_S2x256_S1x256_0_0) shapeCasts_S1x256_S256) shapeCasts_S256_S1x256 : FVec Ideal S1x256 .f32) := by
  show StableHlo.after hostOps1 W (Proc.devRef .tc main_v72) = _
  after_results
  rfl

theorem host1_v72_apply (z : Fin 1) (o : Fin 256) :
    StableHlo.after (hostOps1 (F := Ideal)) W (Proc.devRef .tc main_v72) (ix2 z o)
      = wArg3 W (ix2 (0 : Fin 2) o) := by
  rw [host1_v72]
  exact hostParamRow_apply 0 _ _ _ _ z o 0 rfl

theorem host1_v73 :
    StableHlo.after (hostOps1 (F := Ideal)) W (Proc.devRef .tc main_v73)
      = (shapeCast S1x256 (shapeCast S256 (extractStridedSlice S1x256 ![0, 0] (wArg5 W)
          slices_S2x256_S1x256_0_0) shapeCasts_S1x256_S256) shapeCasts_S256_S1x256 : FVec Ideal S1x256 .f32) := by
  show StableHlo.after hostOps1 W (Proc.devRef .tc main_v73) = _
  after_results
  rfl

theorem host1_v73_apply (z : Fin 1) (o : Fin 256) :
    StableHlo.after (hostOps1 (F := Ideal)) W (Proc.devRef .tc main_v73) (ix2 z o)
      = wArg5 W (ix2 (0 : Fin 2) o) := by
  rw [host1_v73]
  exact hostParamRow_apply 0 _ _ _ _ z o 0 rfl

theorem host1_v74 :
    StableHlo.after (hostOps1 (F := Ideal)) W (Proc.devRef .tc main_v74)
      = (shapeCast S1x384 (shapeCast S384 (extractStridedSlice S1x384 ![0, 0] (wArg8 W)
          slices_S2x384_S1x384_0_0) shapeCasts_S1x384_S384) shapeCasts_S384_S1x384 : FVec Ideal S1x384 .f32) := by
  show StableHlo.after hostOps1 W (Proc.devRef .tc main_v74) = _
  after_results
  rfl

theorem host1_v74_apply (z : Fin 1) (q : Fin 384) :
    StableHlo.after (hostOps1 (F := Ideal)) W (Proc.devRef .tc main_v74) (ix2 z q)
      = wArg8 W (ix2 (0 : Fin 2) q) := by
  rw [host1_v74]
  exact hostParamRow_apply 0 _ _ _ _ z q 0 rfl

theorem host1_v75 :
    StableHlo.after (hostOps1 (F := Ideal)) W (Proc.devRef .tc main_v75)
      = (shapeCast S1x384 (shapeCast S384 (extractStridedSlice S1x384 ![0, 0] (wArg9 W)
          slices_S2x384_S1x384_0_0) shapeCasts_S1x384_S384) shapeCasts_S384_S1x384 : FVec Ideal S1x384 .f32) := by
  show StableHlo.after hostOps1 W (Proc.devRef .tc main_v75) = _
  after_results
  rfl

theorem host1_v75_apply (z : Fin 1) (q : Fin 384) :
    StableHlo.after (hostOps1 (F := Ideal)) W (Proc.devRef .tc main_v75) (ix2 z q)
      = wArg9 W (ix2 (0 : Fin 2) q) := by
  rw [host1_v75]
  exact hostParamRow_apply 0 _ _ _ _ z q 0 rfl

theorem host1_v76 :
    StableHlo.after (hostOps1 (F := Ideal)) W (Proc.devRef .tc main_v76)
      = (truncf .bf16 (transpose S256x384 [1, 0] (shapeCast S384x256 (extractStridedSlice S1x384x256 ![0, 0, 0]
          (wArg6 W : FVec Ideal S2x384x256 .f32) slices_S2x384x256_S1x384x256_0_0_0) shapeCasts_S1x384x256_S384x256)
          transposes_S384x256_S256x384_1_0) bitsLt_bf16_f32 : FVec Ideal S256x384 .bf16) := by
  show StableHlo.after hostOps1 W (Proc.devRef .tc main_v76) = _
  after_results
  rfl

theorem host1_v76_apply (k : Fin 256) (q : Fin 384) :
    StableHlo.after (hostOps1 (F := Ideal)) W (Proc.devRef .tc main_v76) (ix2 k q)
      = wArg6 W (ix3 (0 : Fin 2) q k) := by
  rw [host1_v76, truncf_apply]
  exact hostParamMat_apply 0 _ _ _ _ k q 0 rfl

theorem host1_v77 :
    StableHlo.after (hostOps1 (F := Ideal)) W (Proc.devRef .tc main_v77)
      = (truncf .bf16 (transpose S128x384 [1, 0] (shapeCast S384x128 (extractStridedSlice S1x384x128 ![0, 0, 0]
          (wArg7 W : FVec Ideal S2x384x128 .f32) slices_S2x384x128_S1x384x128_0_0_0) shapeCasts_S1x384x128_S384x128)
          transposes_S384x128_S128x384_1_0) bitsLt_bf16_f32 : FVec Ideal S128x384 .bf16) := by
  show StableHlo.after hostOps1 W (Proc.devRef .tc main_v77) = _
  after_results
  rfl

theorem host1_v77_apply (k : Fin 128) (q : Fin 384) :
    StableHlo.after (hostOps1 (F := Ideal)) W (Proc.devRef .tc main_v77) (ix2 k q)
      = wArg7 W (ix3 (0 : Fin 2) q k) := by
  rw [host1_v77, truncf_apply]
  exact hostParamMat_apply 0 _ _ _ _ k q 0 rfl

end Cert.KernelIdeal.Val

end
-- ==== Proof.KI.Layer1.lean ====
import proofs.«425588_j41618233098847_3_alg».proof.Proof.KI.Carry
import proofs.«425588_j41618233098847_3_alg».proof.Proof.KI.LayerParts
import proofs.«425588_j41618233098847_3_alg».proof.Proof.KI.Val1
import proofs.«425588_j41618233098847_3_alg».proof.Proof.KI.Host0
import proofs.«425588_j41618233098847_3_alg».proof.Proof.KI.Host1

set_option maxRecDepth 16384

noncomputable section

namespace Cert.KernelIdeal.Val

open Cert.KernelIdeal Cert.KernelIdeal.Gen Cert.KernelIdeal.Hand Idealize.ShloMosaic Idealize.ShloMosaic.TcCoe Idealize.SL.Sem
open Idealize.ShloMosaic.ValueIdx Idealize.ShloMosaic.Rows
open scoped BigOperators

variable (m : (ℓ : Loc nD τ sig) → Buf (Elt Ideal) ℓ)

theorem W2_edgeA (c : Dev nD) (e : Fin 262144) : wEdgeA (W2 m c) (ix1 e) = Cert.Spec.endA (arg1 m c) e :=
  (congrFun (W2_keep m c main_v2 (by decide)) (ix1 e)).trans (host0_v2 (W0 m c) e)

theorem W2_edgeB (c : Dev nD) (e : Fin 262144) : wEdgeB (W2 m c) (ix1 e) = Cert.Spec.endB (arg1 m c) e :=
  (congrFun (W2_keep m c main_v4 (by decide)) (ix1 e)).trans (host0_v4 (W0 m c) e)

theorem klayer1 (c : Dev nD) (n : Fin 32768) (j : Fin 128) :
    W4 m c main_v78 (ix2 n j)
      = Cert.Spec.layerOf 0 (Cert.Spec.rows (arg0 m c)) (arg1 m c) (arg2 m c) (arg3 m c) (arg4 m c) (arg5 m c)
          (arg6 m c) (arg7 m c) (arg8 m c) (arg9 m c) n j := by
  refine ((congrFun (W4_out m c) (ix2 n j)).trans (final1_12_apply (Hand.V3 m) c n j)).trans ?_
  refine gru_parts_eq_layerOf 0 (Cert.Spec.rows (arg0 m c)) (arg1 m c) (arg2 m c) (arg3 m c) (arg4 m c) (arg5 m c)
    (arg6 m c) (arg7 m c) (arg8 m c) (arg9 m c)
    (T := W3 m c main_v57) (din := W3 m c main_v9) (dout := W3 m c main_v13)
    (G := W2 m c main_v32_0) (S := W3 m c main_v32_1) (b72 := W3 m c main_v72) (b73 := W3 m c main_v73)
    (F0 := W3 m c main_v0) (F1 := W1 m c main_v0) (wc := W1 m c main_v31)
    (w76 := W3 m c main_v76) (w77 := W3 m c main_v77) (b74 := W3 m c main_v74) (b75 := W3 m c main_v75)
    ?hF0 ?hF1 ?hwc0 ?hwc1 ?hwc2 ?hwc3 ?hG ?hS ?hT ?hdin ?hdout ?h72 ?h73 ?h76 ?h77 ?h74 ?h75 n j
  case hF0 =>
    exact fun n k => (congrFun (W3_eq_W1 m c main_v0 (by decide) (by decide)) (ix2 n k)).trans (host0_v0 (W0 m c) n k)
  case hF1 => exact fun n k => host0_v0 (W0 m c) n k
  case hwc0 => exact fun k o => host0_v31_0 (W0 m c) k ⟨o.val, by omega⟩ o.isLt
  case hwc1 =>
    exact fun k o => (host0_v31_1 (W0 m c) k ⟨256 + o.val, by omega⟩ (Nat.le_add_right _ _) (by show 256 + o.val < 512; omega)).trans
      (congrArg (fun i : Fin 256 => arg4 m c (ix3 (0 : Fin 2) i (⟨k.val, by omega⟩ : Fin 256)))
        (Fin.ext (by show 256 + o.val - 256 = o.val; omega)))
  case hwc2 =>
    exact fun k o => (host0_v31_2 (W0 m c) k ⟨512 + o.val, by omega⟩ (Nat.le_add_right _ _) (by show 512 + o.val < 768; omega)).trans
      (congrArg (fun i : Fin 256 => arg2 m c (ix3 (0 : Fin 2) i (⟨128 + k.val, by omega⟩ : Fin 256)))
        (Fin.ext (by show 512 + o.val - 512 = o.val; omega)))
  case hwc3 =>
    exact fun k o => (host0_v31_3 (W0 m c) k ⟨768 + o.val, by omega⟩ (Nat.le_add_right _ _)).trans
      (congrArg (fun i : Fin 256 => arg4 m c (ix3 (0 : Fin 2) i (⟨128 + k.val, by omega⟩ : Fin 256)))
        (Fin.ext (by show 768 + o.val - 768 = o.val; omega)))
  case hG => exact fun n j => (congrFun (W2_v32_0 m c) (ix2 n j)).trans (G0_2_apply _ _ n j)
  case hS =>
    exact fun n j => ((congrFun (W3_keep m c main_v32_1 (by decide)) (ix2 n j)).trans
      (congrFun (W2_v32_1 m c) (ix2 n j))).trans (G0_3_apply _ _ n j)
  case hT =>
    intro v o
    refine (host1_v57_apply (W2 m c) v o).trans ?_
    refine congrArg₂ (· + ·) (congrArg (0 + ·) (Finset.sum_congr rfl fun e _ => ?_))
      (congrArg (0 + ·) (Finset.sum_congr rfl fun e _ => ?_))
    · exact if_congr (by rw [W2_edgeB]) (by rw [W2_edgeA]) rfl
    · exact if_congr (by rw [W2_edgeA]) (by rw [W2_edgeB]) rfl
  case hdin =>
    exact fun v => (congrFun (W3_eq_W1 m c main_v9 (by decide) (by decide)) (ix2 v (0 : Fin 1))).trans (host0_v9 (W0 m c) v)
  case hdout =>
    exact fun v => (congrFun (W3_eq_W1 m c main_v13 (by decide) (by decide)) (ix2 v (0 : Fin 1))).trans (host0_v13 (W0 m c) v)
  case h72 =>
    exact fun o => (host1_v72_apply (W2 m c) 0 o).trans (congrFun (W2_arg m c main_arg3 (by decide)) (ix2 (0 : Fin 2) o))
  case h73 =>
    exact fun o => (host1_v73_apply (W2 m c) 0 o).trans (congrFun (W2_arg m c main_arg5 (by decide)) (ix2 (0 : Fin 2) o))
  case h76 =>
    exact fun k q => (host1_v76_apply (W2 m c) k q).trans (congrFun (W2_arg m c main_arg6 (by decide)) (ix3 (0 : Fin 2) q k))
  case h77 =>
    exact fun k q => (host1_v77_apply (W2 m c) k q).trans (congrFun (W2_arg m c main_arg7 (by decide)) (ix3 (0 : Fin 2) q k))
  case h74 =>
    exact fun q => (host1_v74_apply (W2 m c) 0 q).trans (congrFun (W2_arg m c main_arg8 (by decide)) (ix2 (0 : Fin 2) q))
  case h75 =>
    exact fun q => (host1_v75_apply (W2 m c) 0 q).trans (congrFun (W2_arg m c main_arg9 (by decide)) (ix2 (0 : Fin 2) q))

end Cert.KernelIdeal.Val

end
-- ==== Proof.KI.Val3.lean ====
import proofs.«425588_j41618233098847_3_alg».proof.Proof.KI.Body3
import proofs.«425588_j41618233098847_3_alg».proof.Proof.KI.Val1
import proofs.«425588_j41618233098847_3_alg».proof.Proof.Spec
import proofs.«425588_j41618233098847_3_alg».proof.Proof.LibSums

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.RA Idealize.SL.Sem
open Idealize.ShloMosaic.Pipeline (Dat Cfg Window)

variable (V : (c : Dev nD) → (b : Ref sig .tc) → Buf (Elt Ideal) ((c : Thread nD τ).loc b))

namespace Cell

theorem sqrt_apply {s : Shape} {φ : FTy} (a : FVec Ideal s φ) (i : s.Idx) : sqrt a i = Ideal.sqrt (a i) := rfl

theorem cast_col_apply {α : Type} {R : ℕ} (x : (⟨1, ![R]⟩ : Shape).Idx → α) (h : (⟨1, ![R]⟩ : Shape).ShapeCasts ⟨2, ![R, 1]⟩)
    (p : Fin R) : shapeCast ⟨2, ![R, 1]⟩ x h (ix2 p (0 : Fin 1)) = x (ix1 p) :=
  shapeCast_apply x h (ix2 p (0 : Fin 1)) (ix1 p) (by
    rw [Shape.rowMajor_val_two, Shape.rowMajor_val_one]; show p.val = p.val * 1 + 0; omega)

theorem featsum_apply (v : FVec Ideal S4096x128 .f32) (h : S4096x128.Reduces [1] S4096) (hφ : FKind.Formats .f32)
    (hacc : (0x00000000#32 : BitVec 32) = 0x00000000#32) (p : Fin 4096) :
    multiReduction .add [1] S4096 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext a; apply Fin.ext
  match a with
  | ⟨0, _⟩ => rfl
  | ⟨1, _⟩ => rfl

def normVec (hred : S4096x128.Reduces [1] S4096) (hsc : S4096.ShapeCasts S4096x1) (hb : S4096x1.Broadcasts S4096x128)
    (y : FVec Ideal S4096x128 .f32) : FVec Ideal S4096x128 .f32 :=
  divf y (broadcastTo S4096x128 (maximumf (sqrt (shapeCast S4096x1
    (multiReduction (F := Ideal) .add [1] S4096 (mulf y y) 0x00000000#32 hred (.inl rfl) rfl) hsc))
    (broadcast S4096x1 (Scalar.ofBits (F := Ideal) .f32 0x2B8CBCCC#32))) hb)

theorem normVec_apply (hred : S4096x128.Reduces [1] S4096) (hsc : S4096.ShapeCasts S4096x1) (hb : S4096x1.Broadcasts S4096x128)
    (y : FVec Ideal S4096x128 .f32) (p : Fin 4096) (q : Fin 128) :
    normVec hred hsc hb y (ix2 p q)
      = Ideal.div (y (ix2 p q)) (max (Ideal.sqrt (∑ k : Fin 128, y (ix2 p k) * y (ix2 p k))) Cert.Spec.eps) := by
  unfold normVec
  rw [divf_apply, bcast_col, maximumf_apply, sqrt_apply, cast_col_apply, featsum_apply, broadcast_apply]
  rfl

theorem pay3_1_eq (v1 : FVec Ideal S4096x128 .f32) (v27 : FVec Ideal S4096x128 .bf16) (v34 : FVec Ideal S4096x384 .f32)
    (v35 : Vec Ideal S128x384 .bf16) (v38 : Vec Ideal S1x384 .f32) :
    k3_pay1 v1 v27 v34 v35 v38
      = normVec reduces_S4096x128_S4096 shapeCasts_S4096_S4096x1 broadcasts_S4096x1_S4096x128 (k1_pay1 v1 v27 v34 v35 v38) := rfl
theorem pay3_2_eq (v0 : Vec Ideal S4096x128 .f32) : k3_pay2 v0 = k1_pay2 v0 := rfl
theorem pay3_3_eq (v0 : Vec Ideal S4096x128 .f32) : k3_pay3 v0 = k1_pay3 v0 := rfl
theorem pay3_4_eq (v2 : Vec Ideal S4096x256 .f32) (v4 : Vec Ideal S4096x1 .f32) (v6 : Vec Ideal S4096x256 .f32) (v8 : Vec Ideal S1x256 .f32)
    (v15 : Vec Ideal S4096x1 .f32) (v17 : Vec Ideal S4096x256 .f32) (v19 : Vec Ideal S1x256 .f32) (v28 : Vec Ideal S256x384 .bf16)
    (v31 : Vec Ideal S1x384 .f32) : k3_pay4 v2 v4 v6 v8 v15 v17 v19 v28 v31 = k1_pay4 v2 v4 v6 v8 v15 v17 v19 v28 v31 := rfl

theorem cell3_apply (x0 : Vec Ideal S4096x256 .f32) (x1 : Vec Ideal S4096x256 .f32) (x2 : Vec Ideal S4096x256 .f32)
    (x3 : Vec Ideal S4096x1 .f32) (x4 : Vec Ideal S4096x1 .f32) (x5 : Vec Ideal S1x256 .f32) (x6 : Vec Ideal S1x256 .f32)
    (x7 : Vec Ideal S4096x128 .f32) (x8 : Vec Ideal S256x384 .bf16) (x9 : Vec Ideal S128x384 .bf16)
    (x10 : Vec Ideal S1x384 .f32) (x11 : Vec Ideal S1x384 .f32) (p : Fin 4096) (q : Fin 128) (n : Fin 32768) :
    k3_pay1 (k3_pay2 x7) (k3_pay3 x7) (k3_pay4 x0 x3 x1 x5 x4 x2 x6 x8 x10) x9 x11 (ix2 p q)
      = Cert.Spec.normalize (Cert.Spec.gru
          (fun _ o => (x0 (ix2 p o) + x3 (ix2 p (0 : Fin 1)) * (x1 (ix2 p o) + x5 (ix2 (0 : Fin 1) o)))
            + x4 (ix2 p (0 : Fin 1)) * (x2 (ix2 p o) + x6 (ix2 (0 : Fin 1) o)))
          (fun _ k => x7 (ix2 p k)) (fun m k => x8 (ix2 k m)) (fun m k => x9 (ix2 k m))
          (fun m => x10 (ix2 (0 : Fin 1) m)) (fun m => x11 (ix2 (0 : Fin 1) m))) n q := by
  rw [pay3_1_eq, pay3_2_eq, pay3_3_eq, pay3_4_eq, normVec_apply]
  unfold Cert.Spec.normalize
  simp only [cell_apply x0 x1 x2 x3 x4 x5 x6 x7 x8 x9 x10 x11 p _ n]

theorem norm_gru_congr {g g' : Fin 32768 → Fin 256 → EReal} {hf hf' : Fin 32768 → Fin 128 → EReal}
    {Wih Wih' : Fin 384 → Fin 256 → EReal} {Whh Whh' : Fin 384 → Fin 128 → EReal} {bih bih' bhh bhh' : Fin 384 → EReal}
    (n : Fin 32768) (j : Fin 128) (h1 : ∀ o, g n o = g' n o) (h2 : ∀ k, hf n k = hf' n k) (h3 : ∀ m k, Wih m k = Wih' m k)
    (h4 : ∀ m k, Whh m k = Whh' m k) (h5 : ∀ m, bih m = bih' m) (h6 : ∀ m, bhh m = bhh' m) :
    Cert.Spec.normalize (Cert.Spec.gru g hf Wih Whh bih bhh) n j
      = Cert.Spec.normalize (Cert.Spec.gru g' hf' Wih' Whh' bih' bhh') n j := by
  unfold Cert.Spec.normalize
  simp only [fun k => gru_congr n k h1 h2 h3 h4 h5 h6]

end Cell

open Cell

theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 1)
    ∧ (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = 0 ∧ win3_11.index t (1 : Fin 2) = 0)
    ∧ (win3_12.index t (0 : Fin 2) = t.val ∧ win3_12.index t (1 : Fin 2) = 0) :=
  (by decide +kernel : ∀ t : Fin grid3.N, _)

theorem lt8_3 (t : Fin cfg3.N) : t.val < 8 := lt_of_lt_of_eq t.isLt N_3

def rowAt3 (t : Fin cfg3.N) (p : Fin 4096) : Fin 32768 := ⟨t.val * 4096 + p.val, by have := lt8_3 t; omega⟩

theorem blk3_0 (c : Dev nD) (t : Fin cfg3.N) (p : Fin 4096) (o : Fin 256) :
    iblk3 V c 0 t (ix2 p o) = V c main_v122 (ix2 (rowAt3 t p) o) := by
  obtain ⟨e0, e1, e2, e3, e4, e5, e6, e7, e8, e9, e10, e11, e12⟩ := idx_facts3 t
  show V c main_v122 (((cfg3.win 0).blk t).view.emb (ix2 p o)) = V c main_v122 (ix2 (rowAt3 t p) o)
  congr 1
  funext a; apply Fin.ext
  match a with
  | ⟨0, _⟩ => show win3_0.index t (0 : Fin 2) * 4096 + 1 * p.val = t.val * 4096 + p.val; omega
  | ⟨1, _⟩ => show win3_0.index t (1 : Fin 2) * 256 + 1 * o.val = o.val; omega

theorem blk3_1 (c : Dev nD) (t : Fin cfg3.N) (p : Fin 4096) (o : Fin 256) :
    iblk3 V c 1 t (ix2 p o) = V c main_v97_1 (ix2 (rowAt3 t p) (⟨o.val, by omega⟩ : Fin 512)) := by
  obtain ⟨e0, e1, e2, e3, e4, e5, e6, e7, e8, e9, e10, e11, e12⟩ := idx_facts3 t
  show V c main_v97_1 (((cfg3.win 1).blk t).view.emb (ix2 p o)) = V c main_v97_1 (ix2 (rowAt3 t p) (⟨o.val, by omega⟩ : Fin 512))
  congr 1
  funext a; apply Fin.ext
  match a with
  | ⟨0, _⟩ => show win3_1.index t (0 : Fin 2) * 4096 + 1 * p.val = t.val * 4096 + p.val; omega
  | ⟨1, _⟩ => show win3_1.index t (1 : Fin 2) * 256 + 1 * o.val = o.val; omega

theorem blk3_2 (c : Dev nD) (t : Fin cfg3.N) (p : Fin 4096) (o : Fin 256) :
    iblk3 V c 2 t (ix2 p o) = V c main_v97_1 (ix2 (rowAt3 t p) (⟨256 + o.val, by omega⟩ : Fin 512)) := by
  obtain ⟨e0, e1, e2, e3, e4, e5, e6, e7, e8, e9, e10, e11, e12⟩ := idx_facts3 t
  show V c main_v97_1 (((cfg3.win 2).blk t).view.emb (ix2 p o)) = V c main_v97_1 (ix2 (rowAt3 t p) (⟨256 + o.val, by omega⟩ : Fin 512))
  congr 1
  funext a; apply Fin.ext
  match a with
  | ⟨0, _⟩ => show win3_2.index t (0 : Fin 2) * 4096 + 1 * p.val = t.val * 4096 + p.val; omega
  | ⟨1, _⟩ => show win3_2.index t (1 : Fin 2) * 256 + 1 * o.val = 256 + o.val; omega

theorem blk3_3 (c : Dev nD) (t : Fin cfg3.N) (p : Fin 4096) (o : Fin 1) :
    iblk3 V c 3 t (ix2 p o) = V c main_v9 (ix2 (rowAt3 t p) o) := by
  obtain ⟨e0, e1, e2, e3, e4, e5, e6, e7, e8, e9, e10, e11, e12⟩ := idx_facts3 t
  show V c main_v9 (((cfg3.win 3).blk t).view.emb (ix2 p o)) = V c main_v9 (ix2 (rowAt3 t p) o)
  congr 1
  funext a; apply Fin.ext
  match a with
  | ⟨0, _⟩ => show win3_3.index t (0 : Fin 2) * 4096 + 1 * p.val = t.val * 4096 + p.val; omega
  | ⟨1, _⟩ => show win3_3.index t (1 : Fin 2) * 1 + 1 * o.val = o.val; omega

theorem blk3_4 (c : Dev nD) (t : Fin cfg3.N) (p : Fin 4096) (o : Fin 1) :
    iblk3 V c 4 t (ix2 p o) = V c main_v13 (ix2 (rowAt3 t p) o) := by
  obtain ⟨e0, e1, e2, e3, e4, e5, e6, e7, e8, e9, e10, e11, e12⟩ := idx_facts3 t
  show V c main_v13 (((cfg3.win 4).blk t).view.emb (ix2 p o)) = V c main_v13 (ix2 (rowAt3 t p) o)
  congr 1
  funext a; apply Fin.ext
  match a with
  | ⟨0, _⟩ => show win3_4.index t (0 : Fin 2) * 4096 + 1 * p.val = t.val * 4096 + p.val; omega
  | ⟨1, _⟩ => show win3_4.index t (1 : Fin 2) * 1 + 1 * o.val = o.val; omega

theorem blk3_5 (c : Dev nD) (t : Fin cfg3.N) (p : Fin 1) (o : Fin 256) :
    iblk3 V c 5 t (ix2 p o) = V c main_v137 (ix2 p o) := by
  obtain ⟨e0, e1, e2, e3, e4, e5, e6, e7, e8, e9, e10, e11, e12⟩ := idx_facts3 t
  show V c main_v137 (((cfg3.win 5).blk t).view.emb (ix2 p o)) = V c main_v137 (ix2 p o)
  congr 1
  funext a; apply Fin.ext
  match a with
  | ⟨0, _⟩ => show win3_5.index t (0 : Fin 2) * 1 + 1 * p.val = p.val; omega
  | ⟨1, _⟩ => show win3_5.index t (1 : Fin 2) * 256 + 1 * o.val = o.val; omega

theorem blk3_6 (c : Dev nD) (t : Fin cfg3.N) (p : Fin 1) (o : Fin 256) :
    iblk3 V c 6 t (ix2 p o) = V c main_v138 (ix2 p o) := by
  obtain ⟨e0, e1, e2, e3, e4, e5, e6, e7, e8, e9, e10, e11, e12⟩ := idx_facts3 t
  show V c main_v138 (((cfg3.win 6).blk t).view.emb (ix2 p o)) = V c main_v138 (ix2 p o)
  congr 1
  funext a; apply Fin.ext
  match a with
  | ⟨0, _⟩ => show win3_6.index t (0 : Fin 2) * 1 + 1 * p.val = p.val; omega
  | ⟨1, _⟩ => show win3_6.index t (1 : Fin 2) * 256 + 1 * o.val = o.val; omega

theorem blk3_7 (c : Dev nD) (t : Fin cfg3.N) (p : Fin 4096) (o : Fin 128) :
    iblk3 V c 7 t (ix2 p o) = V c main_v78 (ix2 (rowAt3 t p) o) := by
  obtain ⟨e0, e1, e2, e3, e4, e5, e6, e7, e8, e9, e10, e11, e12⟩ := idx_facts3 t
  show V c main_v78 (((cfg3.win 7).blk t).view.emb (ix2 p o)) = V c main_v78 (ix2 (rowAt3 t p) o)
  congr 1
  funext a; apply Fin.ext
  match a with
  | ⟨0, _⟩ => show win3_7.index t (0 : Fin 2) * 4096 + 1 * p.val = t.val * 4096 + p.val; omega
  | ⟨1, _⟩ => show win3_7.index t (1 : Fin 2) * 128 + 1 * o.val = o.val; omega

theorem blk3_8 (c : Dev nD) (t : Fin cfg3.N) (p : Fin 256) (o : Fin 384) :
    iblk3 V c 8 t (ix2 p o) = V c main_v141 (ix2 p o) := by
  obtain ⟨e0, e1, e2, e3, e4, e5, e6, e7, e8, e9, e10, e11, e12⟩ := idx_facts3 t
  show V c main_v141 (((cfg3.win 8).blk t).view.emb (ix2 p o)) = V c main_v141 (ix2 p o)
  congr 1
  funext a; apply Fin.ext
  match a with
  | ⟨0, _⟩ => show win3_8.index t (0 : Fin 2) * 256 + 1 * p.val = p.val; omega
  | ⟨1, _⟩ => show win3_8.index t (1 : Fin 2) * 384 + 1 * o.val = o.val; omega

theorem blk3_9 (c : Dev nD) (t : Fin cfg3.N) (p : Fin 128) (o : Fin 384) :
    iblk3 V c 9 t (ix2 p o) = V c main_v142 (ix2 p o) := by
  obtain ⟨e0, e1, e2, e3, e4, e5, e6, e7, e8, e9, e10, e11, e12⟩ := idx_facts3 t
  show V c main_v142 (((cfg3.win 9).blk t).view.emb (ix2 p o)) = V c main_v142 (ix2 p o)
  congr 1
  funext a; apply Fin.ext
  match a with
  | ⟨0, _⟩ => show win3_9.index t (0 : Fin 2) * 128 + 1 * p.val = p.val; omega
  | ⟨1, _⟩ => show win3_9.index t (1 : Fin 2) * 384 + 1 * o.val = o.val; omega

theorem blk3_10 (c : Dev nD) (t : Fin cfg3.N) (p : Fin 1) (o : Fin 384) :
    iblk3 V c 10 t (ix2 p o) = V c main_v139 (ix2 p o) := by
  obtain ⟨e0, e1, e2, e3, e4, e5, e6, e7, e8, e9, e10, e11, e12⟩ := idx_facts3 t
  show V c main_v139 (((cfg3.win 10).blk t).view.emb (ix2 p o)) = V c main_v139 (ix2 p o)
  congr 1
  funext a; apply Fin.ext
  match a with
  | ⟨0, _⟩ => show win3_10.index t (0 : Fin 2) * 1 + 1 * p.val = p.val; omega
  | ⟨1, _⟩ => show win3_10.index t (1 : Fin 2) * 384 + 1 * o.val = o.val; omega

theorem blk3_11 (c : Dev nD) (t : Fin cfg3.N) (p : Fin 1) (o : Fin 384) :
    iblk3 V c 11 t (ix2 p o) = V c main_v140 (ix2 p o) := by
  obtain ⟨e0, e1, e2, e3, e4, e5, e6, e7, e8, e9, e10, e11, e12⟩ := idx_facts3 t
  show V c main_v140 (((cfg3.win 11).blk t).view.emb (ix2 p o)) = V c main_v140 (ix2 p o)
  congr 1
  funext a; apply Fin.ext
  match a with
  | ⟨0, _⟩ => show win3_11.index t (0 : Fin 2) * 1 + 1 * p.val = p.val; omega
  | ⟨1, _⟩ => show win3_11.index t (1 : Fin 2) * 384 + 1 * o.val = o.val; omega

theorem emb3_12 (t : Fin cfg3.N) (p : Fin 4096) (q : Fin 128) :
    ((cfg3.win 12).blk t).view.emb (ix2 p q) = ix2 (rowAt3 t p) q := by
  obtain ⟨e0, e1, e2, e3, e4, e5, e6, e7, e8, e9, e10, e11, e12⟩ := idx_facts3 t
  funext a; apply Fin.ext
  match a with
  | ⟨0, _⟩ => show win3_12.index t (0 : Fin 2) * 4096 + 1 * p.val = t.val * 4096 + p.val; omega
  | ⟨1, _⟩ => show win3_12.index t (1 : Fin 2) * 128 + 1 * q.val = q.val; omega

def G3_12 (a0 : S32768x256.Idx → EReal) (a1 : S32768x512.Idx → EReal) (a3 a4 : S32768x1.Idx → EReal)
    (a5 a6 : S1x256.Idx → EReal) (a7 : S32768x128.Idx → EReal) (a8 : S256x384.Idx → EReal) (a9 : S128x384.Idx → EReal)
    (a10 a11 : S1x384.Idx → EReal) : S32768x128.Idx → EReal := fun i =>
  Cert.Spec.normalize (Cert.Spec.gru
    (fun n o => (a0 (ix2 n o) + a3 (ix2 n (0 : Fin 1)) * (a1 (ix2 n (⟨o.val, by omega⟩ : Fin 512)) + a5 (ix2 (0 : Fin 1) o)))
      + a4 (ix2 n (0 : Fin 1)) * (a1 (ix2 n (⟨256 + o.val, by omega⟩ : Fin 512)) + a6 (ix2 (0 : Fin 1) o)))
    (fun n k => a7 (ix2 n k)) (fun q k => a8 (ix2 k q)) (fun q k => a9 (ix2 k q))
    (fun q => a10 (ix2 (0 : Fin 1) q)) (fun q => a11 (ix2 (0 : Fin 1) q))) (i 0) (i 1)

theorem flushed3_12_eq (c : Dev nD) (t : Fin cfg3.N) :
    (dat3 V c).flushed 12 t = ((cfg3.win 12).blk t).view.read (Elt Ideal)
      (G3_12 (V c main_v122) (V c main_v97_1) (V c main_v9) (V c main_v13) (V c main_v137) (V c main_v138) (V c main_v78)
        (V c main_v141) (V c main_v142) (V c main_v139) (V c main_v140)) := by
  show (cfg3.win 12).cut (grid3.coords t) ((dat3 V c).after 12 t) = _
  rw [after3_12]
  unfold out3_12
  rw [View.canon_unit_zero hz]
  simp only [View.ld_unit_zero (S := S4096x256) hz, View.ld_unit_zero (S := S4096x1) hz, View.ld_unit_zero (S := S1x256) hz,
    View.ld_unit_zero (S := S4096x128) hz, View.ld_unit_zero (S := S256x384) hz, View.ld_unit_zero (S := S128x384) hz,
    View.ld_unit_zero (S := S1x384) hz]
  funext j
  obtain ⟨p, q, rfl⟩ : ∃ (p : Fin 4096) (q : Fin 128), j = ix2 p q := ⟨j 0, j 1, eq_ix2 j⟩
  refine (cell3_apply (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) (iblk3 V c 11 t) p q (rowAt3 t p)).trans ?_
  show _ = G3_12 (V c main_v122) (V c main_v97_1) (V c main_v9) (V c main_v13) (V c main_v137) (V c main_v138) (V c main_v78)
        (V c main_v141) (V c main_v142) (V c main_v139) (V c main_v140) (((cfg3.win 12).blk t).view.emb (ix2 p q))
  rw [emb3_12]
  unfold G3_12
  exact norm_gru_congr (rowAt3 t p) q
    (fun o => by rw [blk3_0, blk3_1, blk3_2, blk3_3, blk3_4, blk3_5, blk3_6])
    (fun k => blk3_7 V c t p k) (fun m k => blk3_8 V c t k m) (fun m k => blk3_9 V c t k m)
    (fun m => blk3_10 V c t 0 m) (fun m => blk3_11 V c t 0 m)

theorem mem_blk3_12 (t : Fin cfg3.N) (i : S32768x128.Idx) :
    i ∈ ((cfg3.win 12).blk t).view.set ↔ ∀ a : Fin 2, win3_12.index t a * S4096x128.size a ≤ (i a).val ∧ (i a).val < win3_12.index t a * S4096x128.size a + S4096x128.size a := by
  show i ∈ ((View.whole main_v143).slice (win3_12.rect t)).set ↔ _
  rw [View.set_slice_whole, Rect.mem_set_unit]
  exact Iff.rfl

theorem covered3_12 (i : S32768x128.Idx) :
    ∃ t : Fin cfg3.N, (cfg3.win 12).flush t = true ∧ i ∈ ((cfg3.win 12).blk t).view.set := by
  have hi0 : (i 0).val < 32768 := (i 0).isLt
  have hi1 : (i 1).val < 128 := (i 1).isLt
  have hlt : (i 0).val / 4096 < cfg3.N := lt_of_lt_of_eq (by omega : (i 0).val / 4096 < 8) N_3.symm
  obtain ⟨e0, e1, e2, e3, e4, e5, e6, e7, e8, e9, e10, e11, e12⟩ := idx_facts3 ⟨(i 0).val / 4096, hlt⟩
  have q0 : win3_12.index ⟨(i 0).val / 4096, hlt⟩ (0 : Fin 2) = (i 0).val / 4096 := e12.1
  have q1 : win3_12.index ⟨(i 0).val / 4096, hlt⟩ (1 : Fin 2) = 0 := e12.2
  refine ⟨⟨(i 0).val / 4096, hlt⟩, flush3_12 _, ?_⟩
  rw [mem_blk3_12]
  intro a
  match a with
  | ⟨0, _⟩ => show win3_12.index ⟨(i 0).val / 4096, hlt⟩ (0 : Fin 2) * 4096 ≤ (i 0).val ∧ (i 0).val < win3_12.index ⟨(i 0).val / 4096, hlt⟩ (0 : Fin 2) * 4096 + 4096; omega
  | ⟨1, _⟩ => show win3_12.index ⟨(i 0).val / 4096, hlt⟩ (1 : Fin 2) * 128 ≤ (i 1).val ∧ (i 1).val < win3_12.index ⟨(i 0).val / 4096, hlt⟩ (1 : Fin 2) * 128 + 128; omega

theorem final3_12 (c : Dev nD) : (dat3 (F := Ideal) V c).arrAt 12 cfg3.N =
    G3_12 (V c main_v122) (V c main_v97_1) (V c main_v9) (V c main_v13) (V c main_v137) (V c main_v138) (V c main_v78)
        (V c main_v141) (V c main_v142) (V c main_v139) (V c main_v140) :=
  (dat3 V c).arrAt_eq_of_cover 12 _ (fun t _ => flushed3_12_eq V c t) covered3_12

theorem final3_12_apply (c : Dev nD) (n : Fin 32768) (j : Fin 128) :
    (dat3 (F := Ideal) V c).arrAt 12 cfg3.N (ix2 n j) =
      Cert.Spec.normalize (Cert.Spec.gru
        (fun n o => (rd (V c main_v122) n o + rd (V c main_v9) n (0 : Fin 1) * (rd (V c main_v97_1) n (⟨o.val, by omega⟩ : Fin 512) + rd (V c main_v137) (0 : Fin 1) o))
          + rd (V c main_v13) n (0 : Fin 1) * (rd (V c main_v97_1) n (⟨256 + o.val, by omega⟩ : Fin 512) + rd (V c main_v138) (0 : Fin 1) o))
        (fun n k => rd (V c main_v78) n k) (fun q k => rd (V c main_v141) k q) (fun q k => rd (V c main_v142) k q)
        (fun q => rd (V c main_v139) (0 : Fin 1) q) (fun q => rd (V c main_v140) (0 : Fin 1) q)) n j := by
  rw [final3_12]
  rfl

end Cert.KernelIdeal.Val

end
-- ==== Proof.KI.Host2.lean ====
import proofs.«425588_j41618233098847_3_alg».proof.Proof.KI.Host0

set_option maxRecDepth 16384

noncomputable section

namespace Cert.KernelIdeal.Val

open Cert.KernelIdeal Cert.KernelIdeal.Gen Idealize.ShloMosaic Idealize.ShloMosaic.TcCoe
open Idealize.ShloMosaic.ValueIdx
open scoped BigOperators

variable (W : Valuation τ sig (Elt Ideal))

theorem host2_v96_arr :
    (StableHlo.after (hostOps2 (F := Ideal)) W (Proc.devRef .tc main_v96) : S128x1024.Idx → EReal)
      = wcat (W (Proc.devRef .tc main_arg2) : S2x256x256.Idx → EReal) (W (Proc.devRef .tc main_arg4) : S2x256x256.Idx → EReal)
          1 slices_S2x256x256_S1x256x256_1_0_0 := by
  after_results; rfl

theorem host2_v96_0 (k : Fin 128) (j : Fin 1024) (hj : j.val < 256) :
    (StableHlo.after (hostOps2 (F := Ideal)) W (Proc.devRef .tc main_v96) : S128x1024.Idx → EReal) (ix2 k j)
      = (W (Proc.devRef .tc main_arg2) : S2x256x256.Idx → EReal)
          (ix3 (1 : Fin 2) (⟨j.val, by omega⟩ : Fin 256) (⟨k.val, by omega⟩ : Fin 256)) := by
  rw [host2_v96_arr]; exact wcat_apply_0 _ _ 1 _ 1 k j rfl hj

theorem host2_v96_1 (k : Fin 128) (j : Fin 1024) (hj : 256 ≤ j.val) (hj' : j.val < 512) :
    (StableHlo.after (hostOps2 (F := Ideal)) W (Proc.devRef .tc main_v96) : S128x1024.Idx → EReal) (ix2 k j)
      = (W (Proc.devRef .tc main_arg4) : S2x256x256.Idx → EReal)
          (ix3 (1 : Fin 2) (⟨j.val - 256, by omega⟩ : Fin 256) (⟨k.val, by omega⟩ : Fin 256)) := by
  rw [host2_v96_arr]; exact wcat_apply_1 _ _ 1 _ 1 k j rfl hj hj'

theorem host2_v96_2 (k : Fin 128) (j : Fin 1024) (hj : 512 ≤ j.val) (hj' : j.val < 768) :
    (StableHlo.after (hostOps2 (F := Ideal)) W (Proc.devRef .tc main_v96) : S128x1024.Idx → EReal) (ix2 k j)
      = (W (Proc.devRef .tc main_arg2) : S2x256x256.Idx → EReal)
          (ix3 (1 : Fin 2) (⟨j.val - 512, by omega⟩ : Fin 256) (⟨128 + k.val, by omega⟩ : Fin 256)) := by
  rw [host2_v96_arr]; exact wcat_apply_2 _ _ 1 _ 1 k j rfl hj hj'

theorem host2_v96_3 (k : Fin 128) (j : Fin 1024) (hj : 768 ≤ j.val) :
    (StableHlo.after (hostOps2 (F := Ideal)) W (Proc.devRef .tc main_v96) : S128x1024.Idx → EReal) (ix2 k j)
      = (W (Proc.devRef .tc main_arg4) : S2x256x256.Idx → EReal)
          (ix3 (1 : Fin 2) (⟨j.val - 768, by omega⟩ : Fin 256) (⟨128 + k.val, by omega⟩ : Fin 256)) := by
  rw [host2_v96_arr]; exact wcat_apply_3 _ _ 1 _ 1 k j rfl hj

end Cert.KernelIdeal.Val

end
-- ==== Proof.KI.Host3.lean ====
import proofs.«425588_j41618233098847_3_alg».proof.Proof.Gen.KernelIdeal.Launch
import proofs.«425588_j41618233098847_3_alg».proof.Proof.Gen.KernelIdeal.Regions
import proofs.«425588_j41618233098847_3_alg».proof.Proof.Spec
import proofs.«425588_j41618233098847_3_alg».proof.Proof.LibSums
import proofs.«425588_j41618233098847_3_alg».proof.Proof.KI.Host1

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Idealize.ShloMosaic.Rows
open scoped BigOperators

variable (W : Valuation τ sig (Elt Ideal))

abbrev wTbl3 : S32768x512.Idx → EReal := W main_v97_0

set_option maxHeartbeats 4000000 in

theorem host3_v122 :
    StableHlo.after (hostOps3 (F := Ideal)) W (Proc.devRef .tc main_v122)
      = (addf
          (hostSegSum (extractStridedSlice S32768x256 ![0, 0] (wTbl3 W) slices_S32768x512_S32768x256_0_0) (wEdgeA W) (wEdgeB W))
          (hostSegSum (extractStridedSlice S32768x256 ![0, 256] (wTbl3 W) slices_S32768x512_S32768x256_0_256) (wEdgeB W) (wEdgeA W))
        : FVec Ideal S32768x256 .f32) := by
  show StableHlo.after hostOps3 W (Proc.devRef .tc main_v122) = _
  after_results_simp
  rfl

theorem host3_v122_apply (v : Fin 32768) (o : Fin 256) :
    StableHlo.after (hostOps3 (F := Ideal)) W (Proc.devRef .tc main_v122) (ix2 v o)
      = ((0 + ∑ e : Fin 262144,
            if srow 32768 (wEdgeB W (ix1 e)) = some v
            then wTbl3 W (ix2 (Cert.Spec.row (wEdgeA W (ix1 e))) ⟨o.val, by omega⟩) else 0)
        + (0 + ∑ e : Fin 262144,
            if srow 32768 (wEdgeA W (ix1 e)) = some v
            then wTbl3 W (ix2 (Cert.Spec.row (wEdgeB W (ix1 e))) ⟨256 + o.val, by omega⟩) else 0) : EReal) := by
  rw [host3_v122, addf_apply, hostSegSum_apply, hostSegSum_apply]
  refine congrArg₂ (· + ·) (congrArg (0 + ·) ?_) (congrArg (0 + ·) ?_)
  · refine Finset.sum_congr rfl fun e _ => if_congr Iff.rfl ?_ rfl
    exact slice2_axis1_apply 0 _ slices_S32768x512_S32768x256_0_0 _ o ⟨o.val, by omega⟩ (Nat.zero_add _).symm
  · refine Finset.sum_congr rfl fun e _ => if_congr Iff.rfl ?_ rfl
    exact slice2_axis1_apply 256 _ slices_S32768x512_S32768x256_0_256 _ o ⟨256 + o.val, by omega⟩ rfl

theorem host3_v137 :
    StableHlo.after (hostOps3 (F := Ideal)) W (Proc.devRef .tc main_v137)
      = (shapeCast S1x256 (shapeCast S256 (extractStridedSlice S1x256 ![1, 0] (wArg3 W)
          slices_S2x256_S1x256_1_0) shapeCasts_S1x256_S256) shapeCasts_S256_S1x256 : FVec Ideal S1x256 .f32) := by
  show StableHlo.after hostOps3 W (Proc.devRef .tc main_v137) = _
  after_results
  rfl

theorem host3_v137_apply (z : Fin 1) (o : Fin 256) :
    StableHlo.after (hostOps3 (F := Ideal)) W (Proc.devRef .tc main_v137) (ix2 z o)
      = wArg3 W (ix2 (1 : Fin 2) o) := by
  rw [host3_v137]
  exact hostParamRow_apply 1 _ _ _ _ z o 1 rfl

theorem host3_v138 :
    StableHlo.after (hostOps3 (F := Ideal)) W (Proc.devRef .tc main_v138)
      = (shapeCast S1x256 (shapeCast S256 (extractStridedSlice S1x256 ![1, 0] (wArg5 W)
          slices_S2x256_S1x256_1_0) shapeCasts_S1x256_S256) shapeCasts_S256_S1x256 : FVec Ideal S1x256 .f32) := by
  show StableHlo.after hostOps3 W (Proc.devRef .tc main_v138) = _
  after_results
  rfl

theorem host3_v138_apply (z : Fin 1) (o : Fin 256) :
    StableHlo.after (hostOps3 (F := Ideal)) W (Proc.devRef .tc main_v138) (ix2 z o)
      = wArg5 W (ix2 (1 : Fin 2) o) := by
  rw [host3_v138]
  exact hostParamRow_apply 1 _ _ _ _ z o 1 rfl

theorem host3_v139 :
    StableHlo.after (hostOps3 (F := Ideal)) W (Proc.devRef .tc main_v139)
      = (shapeCast S1x384 (shapeCast S384 (extractStridedSlice S1x384 ![1, 0] (wArg8 W)
          slices_S2x384_S1x384_1_0) shapeCasts_S1x384_S384) shapeCasts_S384_S1x384 : FVec Ideal S1x384 .f32) := by
  show StableHlo.after hostOps3 W (Proc.devRef .tc main_v139) = _
  after_results
  rfl

theorem host3_v139_apply (z : Fin 1) (q : Fin 384) :
    StableHlo.after (hostOps3 (F := Ideal)) W (Proc.devRef .tc main_v139) (ix2 z q)
      = wArg8 W (ix2 (1 : Fin 2) q) := by
  rw [host3_v139]
  exact hostParamRow_apply 1 _ _ _ _ z q 1 rfl

theorem host3_v140 :
    StableHlo.after (hostOps3 (F := Ideal)) W (Proc.devRef .tc main_v140)
      = (shapeCast S1x384 (shapeCast S384 (extractStridedSlice S1x384 ![1, 0] (wArg9 W)
          slices_S2x384_S1x384_1_0) shapeCasts_S1x384_S384) shapeCasts_S384_S1x384 : FVec Ideal S1x384 .f32) := by
  show StableHlo.after hostOps3 W (Proc.devRef .tc main_v140) = _
  after_results
  rfl

theorem host3_v140_apply (z : Fin 1) (q : Fin 384) :
    StableHlo.after (hostOps3 (F := Ideal)) W (Proc.devRef .tc main_v140) (ix2 z q)
      = wArg9 W (ix2 (1 : Fin 2) q) := by
  rw [host3_v140]
  exact hostParamRow_apply 1 _ _ _ _ z q 1 rfl

theorem host3_v141 :
    StableHlo.after (hostOps3 (F := Ideal)) W (Proc.devRef .tc main_v141)
      = (truncf .bf16 (transpose S256x384 [1, 0] (shapeCast S384x256 (extractStridedSlice S1x384x256 ![1, 0, 0]
          (wArg6 W : FVec Ideal S2x384x256 .f32) slices_S2x384x256_S1x384x256_1_0_0) shapeCasts_S1x384x256_S384x256)
          transposes_S384x256_S256x384_1_0) bitsLt_bf16_f32 : FVec Ideal S256x384 .bf16) := by
  show StableHlo.after hostOps3 W (Proc.devRef .tc main_v141) = _
  after_results
  rfl

theorem host3_v141_apply (k : Fin 256) (q : Fin 384) :
    StableHlo.after (hostOps3 (F := Ideal)) W (Proc.devRef .tc main_v141) (ix2 k q)
      = wArg6 W (ix3 (1 : Fin 2) q k) := by
  rw [host3_v141, truncf_apply]
  exact hostParamMat_apply 1 _ _ _ _ k q 1 rfl

theorem host3_v142 :
    StableHlo.after (hostOps3 (F := Ideal)) W (Proc.devRef .tc main_v142)
      = (truncf .bf16 (transpose S128x384 [1, 0] (shapeCast S384x128 (extractStridedSlice S1x384x128 ![1, 0, 0]
          (wArg7 W : FVec Ideal S2x384x128 .f32) slices_S2x384x128_S1x384x128_1_0_0) shapeCasts_S1x384x128_S384x128)
          transposes_S384x128_S128x384_1_0) bitsLt_bf16_f32 : FVec Ideal S128x384 .bf16) := by
  show StableHlo.after hostOps3 W (Proc.devRef .tc main_v142) = _
  after_results
  rfl

theorem host3_v142_apply (k : Fin 128) (q : Fin 384) :
    StableHlo.after (hostOps3 (F := Ideal)) W (Proc.devRef .tc main_v142) (ix2 k q)
      = wArg7 W (ix3 (1 : Fin 2) q k) := by
  rw [host3_v142, truncf_apply]
  exact hostParamMat_apply 1 _ _ _ _ k q 1 rfl

end Cert.KernelIdeal.Val

end
-- ==== Proof.KI.Layer2.lean ====
import proofs.«425588_j41618233098847_3_alg».proof.Proof.KI.Layer1
import proofs.«425588_j41618233098847_3_alg».proof.Proof.KI.Val3
import proofs.«425588_j41618233098847_3_alg».proof.Proof.KI.Host2
import proofs.«425588_j41618233098847_3_alg».proof.Proof.KI.Host3

set_option maxRecDepth 16384

noncomputable section

namespace Cert.KernelIdeal.Val

open Cert.KernelIdeal Cert.KernelIdeal.Gen Cert.KernelIdeal.Hand Idealize.ShloMosaic Idealize.ShloMosaic.TcCoe Idealize.SL.Sem
open Idealize.ShloMosaic.ValueIdx Idealize.ShloMosaic.Rows
open scoped BigOperators

variable (m : (ℓ : Loc nD τ sig) → Buf (Elt Ideal) ℓ)

theorem W6_edgeA (c : Dev nD) (e : Fin 262144) : wEdgeA (W6 m c) (ix1 e) = Cert.Spec.endA (arg1 m c) e :=
  (congrFun (W6_eq_W1 m c main_v2 (by decide) (by decide) (by decide) (by decide) (by decide)) (ix1 e)).trans (host0_v2 (W0 m c) e)
theorem W6_edgeB (c : Dev nD) (e : Fin 262144) : wEdgeB (W6 m c) (ix1 e) = Cert.Spec.endB (arg1 m c) e :=
  (congrFun (W6_eq_W1 m c main_v4 (by decide) (by decide) (by decide) (by decide) (by decide)) (ix1 e)).trans (host0_v4 (W0 m c) e)

theorem klayer2 (c : Dev nD) (n : Fin 32768) (j : Fin 128) :
    W8 m c main_v143 (ix2 n j)
      = Cert.Spec.net (arg0 m c) (arg1 m c) (arg2 m c) (arg3 m c) (arg4 m c) (arg5 m c)
          (arg6 m c) (arg7 m c) (arg8 m c) (arg9 m c) n j := by
  refine ((congrFun (W8_out m c) (ix2 n j)).trans (final3_12_apply (Hand.V7 m) c n j)).trans ?_
  unfold Cert.Spec.net
  refine congrArg (fun x => Cert.Spec.normalize x n j) (funext fun n => funext fun j => ?_)
  refine gru_parts_eq_layerOf 1
    (Cert.Spec.layerOf 0 (Cert.Spec.rows (arg0 m c)) (arg1 m c) (arg2 m c) (arg3 m c) (arg4 m c) (arg5 m c)
      (arg6 m c) (arg7 m c) (arg8 m c) (arg9 m c))
    (arg1 m c) (arg2 m c) (arg3 m c) (arg4 m c) (arg5 m c) (arg6 m c) (arg7 m c) (arg8 m c) (arg9 m c)
    (T := W7 m c main_v122) (din := W7 m c main_v9) (dout := W7 m c main_v13)
    (G := W6 m c main_v97_0) (S := W7 m c main_v97_1) (b72 := W7 m c main_v137) (b73 := W7 m c main_v138)
    (F0 := W7 m c main_v78) (F1 := W5 m c main_v78) (wc := W5 m c main_v96)
    (w76 := W7 m c main_v141) (w77 := W7 m c main_v142) (b74 := W7 m c main_v139) (b75 := W7 m c main_v140)
    ?hF0 ?hF1 ?hwc0 ?hwc1 ?hwc2 ?hwc3 ?hG ?hS ?hT ?hdin ?hdout ?h72 ?h73 ?h76 ?h77 ?h74 ?h75 n j
  case hF0 =>
    exact fun n k => (congrFun (W7_eq_W4 m c main_v78 (by decide) (by decide) (by decide)) (ix2 n k)).trans (klayer1 m c n k)
  case hF1 => exact fun n k => (congrFun (W5_keep m c main_v78 (by decide)) (ix2 n k)).trans (klayer1 m c n k)
  case hwc0 =>
    exact fun k o => (host2_v96_0 (W4 m c) k ⟨o.val, by omega⟩ o.isLt).trans
      (congrFun (W4_arg m c main_arg2 (by decide)) (ix3 (1 : Fin 2) o (⟨k.val, by omega⟩ : Fin 256)))
  case hwc1 =>
    exact fun k o => ((host2_v96_1 (W4 m c) k ⟨256 + o.val, by omega⟩ (Nat.le_add_right _ _) (by show 256 + o.val < 512; omega)).trans
      (congrFun (W4_arg m c main_arg4 (by decide)) _)).trans
      (congrArg (fun i : Fin 256 => arg4 m c (ix3 (1 : Fin 2) i (⟨k.val, by omega⟩ : Fin 256)))
        (Fin.ext (by show 256 + o.val - 256 = o.val; omega)))
  case hwc2 =>
    exact fun k o => ((host2_v96_2 (W4 m c) k ⟨512 + o.val, by omega⟩ (Nat.le_add_right _ _) (by show 512 + o.val < 768; omega)).trans
      (congrFun (W4_arg m c main_arg2 (by decide)) _)).trans
      (congrArg (fun i : Fin 256 => arg2 m c (ix3 (1 : Fin 2) i (⟨128 + k.val, by omega⟩ : Fin 256)))
        (Fin.ext (by show 512 + o.val - 512 = o.val; omega)))
  case hwc3 =>
    exact fun k o => ((host2_v96_3 (W4 m c) k ⟨768 + o.val, by omega⟩ (Nat.le_add_right _ _)).trans
      (congrFun (W4_arg m c main_arg4 (by decide)) _)).trans
      (congrArg (fun i : Fin 256 => arg4 m c (ix3 (1 : Fin 2) i (⟨128 + k.val, by omega⟩ : Fin 256)))
        (Fin.ext (by show 768 + o.val - 768 = o.val; omega)))
  case hG => exact fun n j => (congrFun (W6_v97_0 m c) (ix2 n j)).trans (G2_2_apply _ _ n j)
  case hS =>
    exact fun n j => ((congrFun (W7_keep m c main_v97_1 (by decide)) (ix2 n j)).trans
      (congrFun (W6_v97_1 m c) (ix2 n j))).trans (G2_3_apply _ _ n j)
  case hT =>
    intro v o
    refine (host3_v122_apply (W6 m c) v o).trans ?_
    refine congrArg₂ (· + ·) (congrArg (0 + ·) (Finset.sum_congr rfl fun e _ => ?_))
      (congrArg (0 + ·) (Finset.sum_congr rfl fun e _ => ?_))
    · exact if_congr (by rw [W6_edgeB]) (by rw [W6_edgeA]) rfl
    · exact if_congr (by rw [W6_edgeA]) (by rw [W6_edgeB]) rfl
  case hdin =>
    exact fun v => (congrFun (W7_eq_W1 m c main_v9 (by decide) (by decide) (by decide) (by decide) (by decide) (by decide))
      (ix2 v (0 : Fin 1))).trans (host0_v9 (W0 m c) v)
  case hdout =>
    exact fun v => (congrFun (W7_eq_W1 m c main_v13 (by decide) (by decide) (by decide) (by decide) (by decide) (by decide))
      (ix2 v (0 : Fin 1))).trans (host0_v13 (W0 m c) v)
  case h72 =>
    exact fun o => (host3_v137_apply (W6 m c) 0 o).trans (congrFun (W6_arg m c main_arg3 (by decide)) (ix2 (1 : Fin 2) o))
  case h73 =>
    exact fun o => (host3_v138_apply (W6 m c) 0 o).trans (congrFun (W6_arg m c main_arg5 (by decide)) (ix2 (1 : Fin 2) o))
  case h76 =>
    exact fun k q => (host3_v141_apply (W6 m c) k q).trans (congrFun (W6_arg m c main_arg6 (by decide)) (ix3 (1 : Fin 2) q k))
  case h77 =>
    exact fun k q => (host3_v142_apply (W6 m c) k q).trans (congrFun (W6_arg m c main_arg7 (by decide)) (ix3 (1 : Fin 2) q k))
  case h74 =>
    exact fun q => (host3_v139_apply (W6 m c) 0 q).trans (congrFun (W6_arg m c main_arg8 (by decide)) (ix2 (1 : Fin 2) q))
  case h75 =>
    exact fun q => (host3_v140_apply (W6 m c) 0 q).trans (congrFun (W6_arg m c main_arg9 (by decide)) (ix2 (1 : Fin 2) q))

end Cert.KernelIdeal.Val

end
-- ==== Proof.KI.Val4.lean ====
import proofs.«425588_j41618233098847_3_alg».proof.Proof.KI.Body4
import proofs.«425588_j41618233098847_3_alg».proof.Proof.Spec
import Idealize.ShloMosaic.Lib.Pipeline.Value
import Idealize.ShloMosaic.Lib.ValueLayout

set_option maxRecDepth 16384

noncomputable section

open scoped BigOperators

namespace Cert.KernelIdeal.Val

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

def nodeRows (a : S256x128x128.Idx → Elt Ideal .f32) (q : Fin 8) : Vec Ideal S32x128x128 .f32 :=
  fun y => a (ix3 (⟨32 * q.val + (y 0).val, by have h0 : (y 0).val < 32 := (y 0).isLt; have h1 : q.val < 8 := q.isLt; show _ < 256; omega⟩ : Fin 256) (y 1) (y 2))

def G4_9 (a0 : S256x128x128.Idx → Elt Ideal .f32) (a1 : S128x128.Idx → Elt Ideal .bf16) (a2 : S1x128.Idx → Elt Ideal .f32)
    (a3 : S1x128.Idx → Elt Ideal .f32) (a4 : S1x1.Idx → Elt Ideal .f32) : S256x128.Idx → Elt Ideal .f32 :=
  fun i => k4_pay4 (F := Ideal) (nodeRows a0 ⟨(i 0).val / 32, by have h0 : (i 0).val < 256 := (i 0).isLt; show _ < 8; omega⟩) a1 a2 a3 a4
    (ix2 (⟨(i 0).val % 32, Nat.mod_lt _ (by decide)⟩ : Fin 32) (i 1))

def G4_10 (a0 : S256x128x128.Idx → Elt Ideal .f32) (a5 : S128x128.Idx → Elt Ideal .bf16) (a6 : S1x128.Idx → Elt Ideal .f32)
    (a7 : S1x128.Idx → Elt Ideal .f32) (a8 : S1x1.Idx → Elt Ideal .f32) : S256x128.Idx → Elt Ideal .f32 :=
  fun i => k4_pay1 (F := Ideal) (k4_pay2 (nodeRows a0 ⟨(i 0).val / 32, by have h0 : (i 0).val < 256 := (i 0).isLt; show _ < 8; omega⟩))
    (k4_pay5 (nodeRows a0 ⟨(i 0).val / 32, by have h0 : (i 0).val < 256 := (i 0).isLt; show _ < 8; omega⟩) a5) a6 a7 a8
    (ix2 (⟨(i 0).val % 32, Nat.mod_lt _ (by decide)⟩ : Fin 32) (i 1))

theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts4 : ∀ t : Fin cfg4.N, win4_0.index t (0 : Fin 3) = t.val ∧ win4_0.index t (1 : Fin 3) = 0 ∧ win4_0.index t (2 : Fin 3) = 0
    ∧ win4_9.index t (0 : Fin 2) = t.val ∧ win4_9.index t (1 : Fin 2) = 0
    ∧ win4_10.index t (0 : Fin 2) = t.val ∧ win4_10.index t (1 : Fin 2) = 0 ∧ t.val < 8 :=
  (by decide +kernel : ∀ t : Fin grid4.N, _)

theorem idx_params4 : ∀ t : Fin cfg4.N, (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0) :=
  (by decide +kernel : ∀ t : Fin grid4.N, _)

theorem idx_onto4_9 : ∀ q : Fin 8, ∃ t : Fin cfg4.N, win4_9.index t = ![q.val, 0] :=
  (by decide +kernel : ∀ q : Fin 8, ∃ t : Fin grid4.N, win4_9.index t = ![q.val, 0])
theorem idx_onto4_10 : ∀ q : Fin 8, ∃ t : Fin cfg4.N, win4_10.index t = ![q.val, 0] :=
  (by decide +kernel : ∀ q : Fin 8, ∃ t : Fin grid4.N, win4_10.index t = ![q.val, 0])

theorem iblk4_0_eq (c : Dev nD) (t : Fin cfg4.N) (q : Fin 8) (hq : q.val = t.val) :
    iblk4 V c 0 t = nodeRows (V c main_v144) q := by
  obtain ⟨e0, e1, e2, -⟩ := idx_facts4 t
  funext y
  show V c main_v144 (((cfg4.win 0).blk t).view.emb y) = V c main_v144 _
  congr 1
  funext a; apply Fin.ext
  match a with
  | ⟨0, _⟩ => show win4_0.index t (0 : Fin 3) * 32 + 1 * (y 0).val = 32 * q.val + (y 0).val; omega
  | ⟨1, _⟩ => show win4_0.index t (1 : Fin 3) * 128 + 1 * (y 1).val = (y 1).val; omega
  | ⟨2, _⟩ => show win4_0.index t (2 : Fin 3) * 128 + 1 * (y 2).val = (y 2).val; omega

theorem iblk4_1_eq (c : Dev nD) (t : Fin cfg4.N) : iblk4 V c 1 t = V c main_v146 := by
  obtain ⟨⟨e0, e1⟩, -, -, -, -, -, -, -⟩ := idx_params4 t
  funext y
  show V c main_v146 (((cfg4.win 1).blk t).view.emb y) = V c main_v146 y
  congr 1
  funext a; apply Fin.ext
  match a with
  | ⟨0, _⟩ => show win4_1.index t (0 : Fin 2) * 128 + 1 * (y 0).val = (y 0).val; omega
  | ⟨1, _⟩ => show win4_1.index t (1 : Fin 2) * 128 + 1 * (y 1).val = (y 1).val; omega

theorem iblk4_2_eq (c : Dev nD) (t : Fin cfg4.N) : iblk4 V c 2 t = V c main_v149 := by
  obtain ⟨-, ⟨e0, e1⟩, -, -, -, -, -, -⟩ := idx_params4 t
  funext y
  show V c main_v149 (((cfg4.win 2).blk t).view.emb y) = V c main_v149 y
  congr 1
  funext a; apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

theorem iblk4_3_eq (c : Dev nD) (t : Fin cfg4.N) : iblk4 V c 3 t = V c main_arg12 := by
  obtain ⟨-, -, ⟨e0, e1⟩, -, -, -, -, -⟩ := idx_params4 t
  funext y
  show V c main_arg12 (((cfg4.win 3).blk t).view.emb y) = V c main_arg12 y
  congr 1
  funext a; apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

theorem iblk4_4_eq (c : Dev nD) (t : Fin cfg4.N) : iblk4 V c 4 t = V c main_v150 := by
  obtain ⟨-, -, -, ⟨e0, e1⟩, -, -, -, -⟩ := idx_params4 t
  funext y
  show V c main_v150 (((cfg4.win 4).blk t).view.emb y) = V c main_v150 y
  congr 1
  funext a; apply Fin.ext
  match a with
  | ⟨0, _⟩ => show win4_4.index t (0 : Fin 2) * 1 + 1 * (y 0).val = (y 0).val; omega
  | ⟨1, _⟩ => show win4_4.index t (1 : Fin 2) * 1 + 1 * (y 1).val = (y 1).val; omega

theorem iblk4_5_eq (c : Dev nD) (t : Fin cfg4.N) : iblk4 V c 5 t = V c main_v148 := by
  obtain ⟨-, -, -, -, ⟨e0, e1⟩, -, -, -⟩ := idx_params4 t
  funext y
  show V c main_v148 (((cfg4.win 5).blk t).view.emb y) = V c main_v148 y
  congr 1
  funext a; apply Fin.ext
  match a with
  | ⟨0, _⟩ => show win4_5.index t (0 : Fin 2) * 128 + 1 * (y 0).val = (y 0).val; omega
  | ⟨1, _⟩ => show win4_5.index t (1 : Fin 2) * 128 + 1 * (y 1).val = (y 1).val; omega

theorem iblk4_6_eq (c : Dev nD) (t : Fin cfg4.N) : iblk4 V c 6 t = V c main_v151 := by
  obtain ⟨-, -, -, -, -, ⟨e0, e1⟩, -, -⟩ := idx_params4 t
  funext y
  show V c main_v151 (((cfg4.win 6).blk t).view.emb y) = V c main_v151 y
  congr 1
  funext a; apply Fin.ext
  match a with
  | ⟨0, _⟩ => show win4_6.index t (0 : Fin 2) * 1 + 1 * (y 0).val = (y 0).val; omega
  | ⟨1, _⟩ => show win4_6.index t (1 : Fin 2) * 128 + 1 * (y 1).val = (y 1).val; omega

theorem iblk4_7_eq (c : Dev nD) (t : Fin cfg4.N) : iblk4 V c 7 t = V c main_arg16 := by
  obtain ⟨-, -, -, -, -, -, ⟨e0, e1⟩, -⟩ := idx_params4 t
  funext y
  show V c main_arg16 (((cfg4.win 7).blk t).view.emb y) = V c main_arg16 y
  congr 1
  funext a; apply Fin.ext
  match a with
  | ⟨0, _⟩ => show win4_7.index t (0 : Fin 2) * 1 + 1 * (y 0).val = (y 0).val; omega
  | ⟨1, _⟩ => show win4_7.index t (1 : Fin 2) * 128 + 1 * (y 1).val = (y 1).val; omega

theorem iblk4_8_eq (c : Dev nD) (t : Fin cfg4.N) : iblk4 V c 8 t = V c main_v152 := by
  obtain ⟨-, -, -, -, -, -, -, ⟨e0, e1⟩⟩ := idx_params4 t
  funext y
  show V c main_v152 (((cfg4.win 8).blk t).view.emb y) = V c main_v152 y
  congr 1
  funext a; apply Fin.ext
  match a with
  | ⟨0, _⟩ => show win4_8.index t (0 : Fin 2) * 1 + 1 * (y 0).val = (y 0).val; omega
  | ⟨1, _⟩ => show win4_8.index t (1 : Fin 2) * 1 + 1 * (y 1).val = (y 1).val; omega

theorem flushed4_9_eq (c : Dev nD) (t : Fin cfg4.N) :
    (dat4 (F := Ideal) V c).flushed 9 t = ((cfg4.win 9).blk t).view.read (Elt Ideal) (G4_9 (V c main_v144) (V c main_v146) (V c main_v149) (V c main_arg12) (V c main_v150)) := by
  show (cfg4.win 9).cut (grid4.coords t) ((dat4 (F := Ideal) V c).after 9 t) = _
  rw [after4_9]
  unfold out4_9
  rw [View.canon_unit_zero hz2]
  simp only [View.ld_unit_zero (S := S32x128x128) hz3, View.ld_unit_zero (S := S128x128) hz2, View.ld_unit_zero (S := S1x128) hz2, View.ld_unit_zero (S := S1x1) hz2]
  obtain ⟨-, -, -, e0, e1, -, -, h8⟩ := idx_facts4 t
  rw [iblk4_0_eq V c t ⟨t.val, h8⟩ rfl, iblk4_1_eq V c t, iblk4_2_eq V c t, iblk4_3_eq V c t, iblk4_4_eq V c t]
  funext j
  show k4_pay4 (F := Ideal) (nodeRows (V c main_v144) ⟨t.val, h8⟩) (V c main_v146) (V c main_v149) (V c main_arg12) (V c main_v150) j = G4_9 (V c main_v144) (V c main_v146) (V c main_v149) (V c main_arg12) (V c main_v150) (((cfg4.win 9).blk t).view.emb j)
  have hj0 : ((((cfg4.win 9).blk t).view.emb j) 0).val = t.val * 32 + (j 0).val := by
    show win4_9.index t (0 : Fin 2) * 32 + 1 * (j 0).val = _; omega
  have hj1 : ((((cfg4.win 9).blk t).view.emb j) 1) = j 1 := by
    apply Fin.ext; show win4_9.index t (1 : Fin 2) * 128 + 1 * (j 1).val = _; omega
  have hlt : (j 0).val < 32 := (j 0).isLt
  have key : ∀ (X X' : Vec Ideal S32x128x128 .f32) (y y' : S32x128.Idx), X = X' → y = y' →
      k4_pay4 (F := Ideal) X (V c main_v146) (V c main_v149) (V c main_arg12) (V c main_v150) y = k4_pay4 (F := Ideal) X' (V c main_v146) (V c main_v149) (V c main_arg12) (V c main_v150) y' := by
    rintro _ _ _ _ rfl rfl; rfl
  unfold G4_9
  apply key
  · congr 1; apply Fin.ext; show t.val = _ / 32; rw [hj0]; omega
  · funext a
    match a with
    | ⟨0, _⟩ => apply Fin.ext; show (j 0).val = _ % 32; rw [hj0]; omega
    | ⟨1, _⟩ => exact hj1.symm

theorem mem_blk4_9 (t : Fin cfg4.N) (i : S256x128.Idx) :
    i ∈ ((cfg4.win 9).blk t).view.set ↔ ∀ a : Fin 2, win4_9.index t a * S32x128.size a ≤ (i a).val ∧ (i a).val < win4_9.index t a * S32x128.size a + S32x128.size a := by
  show i ∈ ((View.whole main_v153_0).slice (win4_9.rect t)).set ↔ _
  rw [View.set_slice_whole, Rect.mem_set_unit]
  exact Iff.rfl

theorem covered4_9 (i : S256x128.Idx) : ∃ t : Fin cfg4.N, (cfg4.win 9).flush t = true ∧ i ∈ ((cfg4.win 9).blk t).view.set := by
  have hi0 : (i 0).val < 256 := (i 0).isLt
  have hi1 : (i 1).val < 128 := (i 1).isLt
  obtain ⟨t, ht⟩ := idx_onto4_9 ⟨(i 0).val / 32, by omega⟩
  have q0 : win4_9.index t (0 : Fin 2) = (i 0).val / 32 := congrFun ht 0
  have q1 : win4_9.index t (1 : Fin 2) = 0 := congrFun ht 1
  refine ⟨t, flush4_9 t, ?_⟩
  rw [mem_blk4_9]
  intro a
  match a with
  | ⟨0, _⟩ => show win4_9.index t (0 : Fin 2) * 32 ≤ (i 0).val ∧ (i 0).val < win4_9.index t (0 : Fin 2) * 32 + 32; omega
  | ⟨1, _⟩ => show win4_9.index t (1 : Fin 2) * 128 ≤ (i 1).val ∧ (i 1).val < win4_9.index t (1 : Fin 2) * 128 + 128; omega

theorem final4_9 (c : Dev nD) : (dat4 (F := Ideal) V c).arrAt 9 cfg4.N = G4_9 (V c main_v144) (V c main_v146) (V c main_v149) (V c main_arg12) (V c main_v150) :=
  (dat4 (F := Ideal) V c).arrAt_eq_of_cover 9 (G4_9 (V c main_v144) (V c main_v146) (V c main_v149) (V c main_arg12) (V c main_v150)) (fun t _ => flushed4_9_eq V c t) covered4_9

theorem flushed4_10_eq (c : Dev nD) (t : Fin cfg4.N) :
    (dat4 (F := Ideal) V c).flushed 10 t = ((cfg4.win 10).blk t).view.read (Elt Ideal) (G4_10 (V c main_v144) (V c main_v148) (V c main_v151) (V c main_arg16) (V c main_v152)) := by
  show (cfg4.win 10).cut (grid4.coords t) ((dat4 (F := Ideal) V c).after 10 t) = _
  rw [after4_10]
  unfold out4_10
  rw [View.canon_unit_zero hz2]
  simp only [View.ld_unit_zero (S := S32x128x128) hz3, View.ld_unit_zero (S := S128x128) hz2, View.ld_unit_zero (S := S1x128) hz2, View.ld_unit_zero (S := S1x1) hz2]
  obtain ⟨-, -, -, -, -, e0, e1, h8⟩ := idx_facts4 t
  rw [iblk4_0_eq V c t ⟨t.val, h8⟩ rfl, iblk4_5_eq V c t, iblk4_6_eq V c t, iblk4_7_eq V c t, iblk4_8_eq V c t]
  funext j
  show k4_pay1 (F := Ideal) (k4_pay2 (nodeRows (V c main_v144) ⟨t.val, h8⟩)) (k4_pay5 (nodeRows (V c main_v144) ⟨t.val, h8⟩) (V c main_v148)) (V c main_v151) (V c main_arg16) (V c main_v152) j = G4_10 (V c main_v144) (V c main_v148) (V c main_v151) (V c main_arg16) (V c main_v152) (((cfg4.win 10).blk t).view.emb j)
  have hj0 : ((((cfg4.win 10).blk t).view.emb j) 0).val = t.val * 32 + (j 0).val := by
    show win4_10.index t (0 : Fin 2) * 32 + 1 * (j 0).val = _; omega
  have hj1 : ((((cfg4.win 10).blk t).view.emb j) 1) = j 1 := by
    apply Fin.ext; show win4_10.index t (1 : Fin 2) * 128 + 1 * (j 1).val = _; omega
  have hlt : (j 0).val < 32 := (j 0).isLt
  have key : ∀ (X X' : Vec Ideal S32x128x128 .f32) (y y' : S32x128.Idx), X = X' → y = y' →
      k4_pay1 (F := Ideal) (k4_pay2 X) (k4_pay5 X (V c main_v148)) (V c main_v151) (V c main_arg16) (V c main_v152) y = k4_pay1 (F := Ideal) (k4_pay2 X') (k4_pay5 X' (V c main_v148)) (V c main_v151) (V c main_arg16) (V c main_v152) y' := by
    rintro _ _ _ _ rfl rfl; rfl
  unfold G4_10
  apply key
  · congr 1; apply Fin.ext; show t.val = _ / 32; rw [hj0]; omega
  · funext a
    match a with
    | ⟨0, _⟩ => apply Fin.ext; show (j 0).val = _ % 32; rw [hj0]; omega
    | ⟨1, _⟩ => exact hj1.symm

theorem mem_blk4_10 (t : Fin cfg4.N) (i : S256x128.Idx) :
    i ∈ ((cfg4.win 10).blk t).view.set ↔ ∀ a : Fin 2, win4_10.index t a * S32x128.size a ≤ (i a).val ∧ (i a).val < win4_10.index t a * S32x128.size a + S32x128.size a := by
  show i ∈ ((View.whole main_v153_1).slice (win4_10.rect t)).set ↔ _
  rw [View.set_slice_whole, Rect.mem_set_unit]
  exact Iff.rfl

theorem covered4_10 (i : S256x128.Idx) : ∃ t : Fin cfg4.N, (cfg4.win 10).flush t = true ∧ i ∈ ((cfg4.win 10).blk t).view.set := by
  have hi0 : (i 0).val < 256 := (i 0).isLt
  have hi1 : (i 1).val < 128 := (i 1).isLt
  obtain ⟨t, ht⟩ := idx_onto4_10 ⟨(i 0).val / 32, by omega⟩
  have q0 : win4_10.index t (0 : Fin 2) = (i 0).val / 32 := congrFun ht 0
  have q1 : win4_10.index t (1 : Fin 2) = 0 := congrFun ht 1
  refine ⟨t, flush4_10 t, ?_⟩
  rw [mem_blk4_10]
  intro a
  match a with
  | ⟨0, _⟩ => show win4_10.index t (0 : Fin 2) * 32 ≤ (i 0).val ∧ (i 0).val < win4_10.index t (0 : Fin 2) * 32 + 32; omega
  | ⟨1, _⟩ => show win4_10.index t (1 : Fin 2) * 128 ≤ (i 1).val ∧ (i 1).val < win4_10.index t (1 : Fin 2) * 128 + 128; omega

theorem final4_10 (c : Dev nD) : (dat4 (F := Ideal) V c).arrAt 10 cfg4.N = G4_10 (V c main_v144) (V c main_v148) (V c main_v151) (V c main_arg16) (V c main_v152) :=
  (dat4 (F := Ideal) V c).arrAt_eq_of_cover 10 (G4_10 (V c main_v144) (V c main_v148) (V c main_v151) (V c main_arg16) (V c main_v152)) (fun t _ => flushed4_10_eq V c t) covered4_10

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_flat_apply (x : S32x128x128.Idx → α) (h : S32x128x128.ShapeCasts S4096x128) (p : Fin 32) (q : Fin 128) (k : Fin 128)
    (hr : p.val * 128 + q.val < 4096) :
    shapeCast S4096x128 x h (ix2 (⟨p.val * 128 + q.val, hr⟩ : Fin 4096) k) = x (ix3 p q k) :=
  shapeCast_apply x h _ _ (by
    rw [Shape.rowMajor_val_three, Shape.rowMajor_val_two]
    rfl)

theorem shapeCast_split_apply (x : S4096x128.Idx → α) (h : S4096x128.ShapeCasts S32x128x128) (p : Fin 32) (q : Fin 128) (k : Fin 128)
    (hr : p.val * 128 + q.val < 4096) :
    shapeCast S32x128x128 x h (ix3 p q k) = x (ix2 (⟨p.val * 128 + q.val, hr⟩ : Fin 4096) k) :=
  shapeCast_apply x h _ _ (by
    rw [Shape.rowMajor_val_three, Shape.rowMajor_val_two]
    rfl)

end Layout

theorem flat_lt (p : Fin 32) (q : Fin 128) : p.val * 128 + q.val < 4096 := by
  have := p.isLt; have := q.isLt; omega

theorem rowsum_apply (v : FVec Ideal S4096x128 .f32) (h : S4096x128.Reduces [1] S4096) (hφ : FKind.Formats .f32)
    (hacc : (0x00000000#32 : BitVec 32) = 0x00000000#32) (r : Fin 4096) :
    multiReduction .add [1] S4096 v 0x00000000#32 h hφ hacc (ix1 r) = ∑ k : Fin 128, v (ix2 r k) := by
  refine (Ideal.multiReduction_add_single v 0x00000000#32 h hφ hacc (ix1 r)).trans ?_
  refine Finset.sum_congr rfl fun k _ => congrArg v ?_
  funext c; apply Fin.ext
  match c with
  | ⟨0, _⟩ => rfl
  | ⟨1, _⟩ => rfl

theorem nodesum_apply (v : FVec Ideal S32x128x128 .f32) (h : S32x128x128.Reduces [1] S32x128) (hφ : FKind.Formats .f32)
    (hacc : (0x00000000#32 : BitVec 32) = 0x00000000#32) (b : Fin 32) (j : Fin 128) :
    multiReduction .add [1] S32x128 v 0x00000000#32 h hφ hacc (ix2 b j) = ∑ n : Fin 128, v (ix3 b n j) := by
  refine (Ideal.multiReduction_add_single v 0x00000000#32 h hφ hacc (ix2 b j)).trans ?_
  refine Finset.sum_congr rfl fun n _ => congrArg v ?_
  funext c; apply Fin.ext
  match c with
  | ⟨0, _⟩ => rfl
  | ⟨1, _⟩ => rfl
  | ⟨2, _⟩ => rfl

theorem lanesum_apply (v : FVec Ideal S32x128 .f32) (h : S32x128.Reduces [1] S32) (hφ : FKind.Formats .f32)
    (hacc : (0x00000000#32 : BitVec 32) = 0x00000000#32) (b : Fin 32) :
    multiReduction .add [1] S32 v 0x00000000#32 h hφ hacc (ix1 b) = ∑ k : Fin 128, v (ix2 b k) := by
  refine (Ideal.multiReduction_add_single v 0x00000000#32 h hφ hacc (ix1 b)).trans ?_
  refine Finset.sum_congr rfl fun k _ => congrArg v ?_
  funext c; apply Fin.ext
  match c with
  | ⟨0, _⟩ => rfl
  | ⟨1, _⟩ => rfl

theorem lhs_proj_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_proj_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_proj_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_proj_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem proj_apply (l : FVec Ideal S4096x128 .bf16) (w : FVec Ideal S128x128 .bf16) (r : Fin 4096) (j : Fin 128) :
    matmul dot_S4096x128_S128x128_S4096x128_1_0_0_1_n_n none l w (constant S4096x128 .f32 0x00000000#32) (ix2 r j) = ∑ k : Fin 128, l (ix2 r k) * w (ix2 k j) := by
  show FloatOps.matmul dot_S4096x128_S128x128_S4096x128_1_0_0_1_n_n none l w (constant S4096x128 .f32 0x00000000#32) (ix2 r j) = _
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r j) ((contrEquiv1 dot_S4096x128_S128x128_S4096x128_1_0_0_1_n_n 128 rfl rfl).symm k) = ix2 r k := funext fun a => Fin.ext (by
    match a with
    | ⟨0, _⟩ => exact lhs_proj_0 _ _
    | ⟨1, _⟩ => exact (lhs_proj_1 _ _).trans hk)
  have er : dot_S4096x128_S128x128_S4096x128_1_0_0_1_n_n.rhsIdx (ix2 r j) ((contrEquiv1 dot_S4096x128_S128x128_S4096x128_1_0_0_1_n_n 128 rfl rfl).symm k) = ix2 k j := funext fun a => Fin.ext (by
    match a with
    | ⟨0, _⟩ => exact (rhs_proj_0 _ _).trans hk
    | ⟨1, _⟩ => exact rhs_proj_1 _ _)
  rw [el, er]

theorem pay2_apply (x : Vec Ideal S32x128x128 .f32) (p : Fin 32) (q : Fin 128) (k : Fin 128) :
    k4_pay2 (F := Ideal) x (ix2 (⟨p.val * 128 + q.val, flat_lt p q⟩ : Fin 4096) k) = x (ix3 p q k) := by
  unfold k4_pay2
  rw [shapeCast_flat_apply, shapeCast_self]

theorem pay2_apply' (x : Vec Ideal S32x128x128 .f32) (p : Fin 32) (q : Fin 128) (k : Fin 128) (r : Fin 4096) (hr : r.val = p.val * 128 + q.val) :
    k4_pay2 (F := Ideal) x (ix2 r k) = x (ix3 p q k) := by
  obtain rfl : r = ⟨p.val * 128 + q.val, flat_lt p q⟩ := Fin.ext hr
  exact pay2_apply x p q k

theorem pay5_apply (x : Vec Ideal S32x128x128 .f32) (W : Vec Ideal S128x128 .bf16) (r : Fin 4096) (j : Fin 128) :
    k4_pay5 (F := Ideal) x W (ix2 r j) = ∑ k : Fin 128, k4_pay2 (F := Ideal) x (ix2 r k) * W (ix2 k j) := by
  unfold k4_pay5 k4_pay3
  rw [proj_apply, shapeCast_self]
  rfl

def gsum (v u : S4096x128.Idx → EReal) (β g : S1x128.Idx → EReal) (γ : S1x1.Idx → EReal) (b : Fin 32) (j : Fin 128) : EReal :=
  ∑ p : Fin 128, (u (ix2 (⟨b.val * 128 + p.val, flat_lt b p⟩ : Fin 4096) j) + β (ix2 0 j))
    * Ideal.logistic ((∑ k : Fin 128, v (ix2 (⟨b.val * 128 + p.val, flat_lt b p⟩ : Fin 4096) k) * g (ix2 0 k)) + γ (ix2 0 0))

def gateCol (v : FVec Ideal S4096x128 .f32) (g : Vec Ideal S1x128 .f32) (γ : Vec Ideal S1x1 .f32) : FVec Ideal S4096x1 .f32 :=
  logistic (addf (shapeCast S4096x1 (multiReduction .add [1] S4096 (mulf v (broadcastTo S4096x128 g broadcasts_S1x128_S4096x128)) 0x00000000#32 reduces_S4096x128_S4096 (.inl rfl) rfl) shapeCasts_S4096_S4096x1)
    (broadcastTo S4096x1 (shapeCast S1x1 γ shapeCasts_S1x1_S1x1) broadcasts_S1x1_S4096x1))

theorem gateCol_apply (v : FVec Ideal S4096x128 .f32) (g : Vec Ideal S1x128 .f32) (γ : Vec Ideal S1x1 .f32) (r : Fin 4096) (u : Fin 1) :
    gateCol v g γ (ix2 r u) = Ideal.logistic ((∑ k : Fin 128, v (ix2 r k) * g (ix2 0 k)) + γ (ix2 0 0)) := by
  obtain rfl : u = 0 := Subsingleton.elim _ _
  unfold gateCol
  show Ideal.logistic (_ + _) = _
  rw [shapeCast_a_a1_apply, rowsum_apply, broadcastTo_1b_ab_apply, shapeCast_self]
  congr 2
  refine Finset.sum_congr rfl fun k _ => ?_
  show v (ix2 r k) * _ = _
  rw [broadcastTo_1b_ab_apply]

def poolVec (v u : FVec Ideal S4096x128 .f32) (β g : Vec Ideal S1x128 .f32) (γ : Vec Ideal S1x1 .f32) : FVec Ideal S32x128 .f32 :=
  multiReduction .add [1] S32x128 (shapeCast S32x128x128 (mulf (addf u (broadcastTo S4096x128 (shapeCast S1x128 β shapeCasts_S1x128_S1x128) broadcasts_S1x128_S4096x128))
    (broadcastTo S4096x128 (gateCol v g γ) broadcasts_S4096x1_S4096x128)) shapeCasts_S4096x128_S32x128x128) 0x00000000#32 reduces_S32x128x128_S32x128 (.inl rfl) rfl

theorem poolVec_apply (v u : FVec Ideal S4096x128 .f32) (β g : Vec Ideal S1x128 .f32) (γ : Vec Ideal S1x1 .f32) (b : Fin 32) (j : Fin 128) :
    poolVec v u β g γ (ix2 b j) = gsum v u β g γ b j := by
  unfold poolVec gsum
  rw [nodesum_apply]
  refine Finset.sum_congr rfl fun p _ => ?_
  rw [shapeCast_split_apply _ _ b p j (flat_lt b p)]
  show (u _ + _) * _ = _
  rw [broadcastTo_1b_ab_apply, shapeCast_self, broadcastTo_a1_ab_apply, gateCol_apply]

theorem pay1_eq (v u : FVec Ideal S4096x128 .f32) (β g : Vec Ideal S1x128 .f32) (γ : Vec Ideal S1x1 .f32) :
    k4_pay1 (F := Ideal) v u β g γ = divf (poolVec v u β g γ) (broadcastTo S32x128 (maximumf (sqrt (shapeCast S32x1
      (multiReduction .add [1] S32 (mulf (poolVec v u β g γ) (poolVec v u β g γ)) 0x00000000#32 reduces_S32x128_S32 (.inl rfl) rfl) shapeCasts_S32_S32x1))
      (broadcast S32x1 (Scalar.ofBits (F := Ideal) .f32 0x2B8CBCCC#32))) broadcasts_S32x1_S32x128) := rfl

theorem pay1_apply (v u : FVec Ideal S4096x128 .f32) (β g : Vec Ideal S1x128 .f32) (γ : Vec Ideal S1x1 .f32) (b : Fin 32) (j : Fin 128) :
    k4_pay1 (F := Ideal) v u β g γ (ix2 b j) = Cert.Spec.normalize (gsum v u β g γ) b j := by
  rw [pay1_eq]
  unfold Cert.Spec.normalize Cert.Spec.eps
  show Ideal.div _ _ = _
  rw [broadcastTo_a1_ab_apply]
  show Ideal.div _ (max (Ideal.sqrt _) _) = _
  rw [shapeCast_a_a1_apply, lanesum_apply, poolVec_apply]
  have hs : (∑ k : Fin 128, mulf (poolVec v u β g γ) (poolVec v u β g γ) (ix2 b k)) = ∑ k : Fin 128, gsum v u β g γ b k * gsum v u β g γ b k :=
    Finset.sum_congr rfl fun k _ => by
      show poolVec v u β g γ (ix2 b k) * poolVec v u β g γ (ix2 b k) = _
      rw [poolVec_apply]
  rw [hs]
  rfl

theorem pay4_eq (x : Vec Ideal S32x128x128 .f32) (W : Vec Ideal S128x128 .bf16) (β g : Vec Ideal S1x128 .f32) (γ : Vec Ideal S1x1 .f32) :
    k4_pay4 (F := Ideal) x W β g γ = k4_pay1 (F := Ideal) (k4_pay2 x) (k4_pay5 x W) β g γ := rfl

theorem normalize_congr {N M : ℕ} (x : Fin N → Fin 128 → EReal) (y : Fin M → Fin 128 → EReal) (n : Fin N) (m : Fin M)
    (h : ∀ k, x n k = y m k) (j : Fin 128) : Cert.Spec.normalize x n j = Cert.Spec.normalize y m j := by
  unfold Cert.Spec.normalize
  rw [h j]
  congr 3
  exact Finset.sum_congr rfl fun k _ => by rw [h k]

theorem nodeRows_apply (a : S256x128x128.Idx → Elt Ideal .f32) (b : Fin 256) (p k : Fin 128) (h1 : b.val / 32 < 8) (h2 : b.val % 32 < 32)
    (h3 : (b.val * 128 + p.val) / 128 < 256) (h4 : (b.val * 128 + p.val) % 128 < 128) :
    nodeRows a ⟨b.val / 32, h1⟩ (ix3 (⟨b.val % 32, h2⟩ : Fin 32) p k)
      = a (ix3 (⟨(b.val * 128 + p.val) / 128, h3⟩ : Fin 256) (⟨(b.val * 128 + p.val) % 128, h4⟩ : Fin 128) k) := by
  unfold nodeRows
  congr 1
  funext ax
  match ax with
  | ⟨0, _⟩ => exact Fin.ext (by show 32 * (b.val / 32) + b.val % 32 = (b.val * 128 + p.val) / 128; have := p.isLt; omega)
  | ⟨1, _⟩ => exact Fin.ext (by show p.val = (b.val * 128 + p.val) % 128; have := p.isLt; omega)
  | ⟨2, _⟩ => rfl

theorem G4_apply (a0 : S256x128x128.Idx → Elt Ideal .f32) (a1 : S128x128.Idx → Elt Ideal .bf16) (a2 a3 : S1x128.Idx → Elt Ideal .f32)
    (a4 : S1x1.Idx → Elt Ideal .f32) (b : Fin 256) (j : Fin 128) :
    G4_9 a0 a1 a2 a3 a4 (ix2 b j)
      = Cert.Spec.readout (fun n k => a0 (ix3 (⟨n.val / 128, by have := n.isLt; omega⟩ : Fin 256) (⟨n.val % 128, Nat.mod_lt _ (by decide)⟩ : Fin 128) k))
          (fun j k => a1 (ix2 k j)) (fun j => a2 (ix2 0 j)) (fun k => a3 (ix2 0 k)) (a4 (ix2 0 0)) b j := by
  have h1 : b.val / 32 < 8 := by have := b.isLt; omega
  have h2 : b.val % 32 < 32 := Nat.mod_lt _ (by decide)
  show k4_pay4 (F := Ideal) (nodeRows a0 ⟨b.val / 32, h1⟩) a1 a2 a3 a4 (ix2 (⟨b.val % 32, h2⟩ : Fin 32) j) = _
  rw [pay4_eq, pay1_apply]
  unfold Cert.Spec.readout
  refine normalize_congr _ _ _ _ (fun k => ?_) j
  unfold gsum Cert.Spec.pooled
  refine Finset.sum_congr rfl fun p _ => ?_
  rw [pay5_apply]
  have hlt : b.val % 32 * 128 + p.val < 4096 := by have := p.isLt; omega
  have hn : ∀ k' : Fin 128, k4_pay2 (F := Ideal) (nodeRows a0 ⟨b.val / 32, h1⟩) (ix2 (⟨b.val % 32 * 128 + p.val, hlt⟩ : Fin 4096) k')
      = a0 (ix3 (⟨(b.val * 128 + p.val) / 128, by have := b.isLt; have := p.isLt; omega⟩ : Fin 256) (⟨(b.val * 128 + p.val) % 128, Nat.mod_lt _ (by decide)⟩ : Fin 128) k') :=
    fun k' => (pay2_apply' _ (⟨b.val % 32, h2⟩ : Fin 32) p k' _ rfl).trans (nodeRows_apply a0 b p k' h1 h2 _ _)
  simp only [hn]

theorem G4_10_eq (a0 : S256x128x128.Idx → Elt Ideal .f32) (a5 : S128x128.Idx → Elt Ideal .bf16) (a6 a7 : S1x128.Idx → Elt Ideal .f32)
    (a8 : S1x1.Idx → Elt Ideal .f32) : G4_10 a0 a5 a6 a7 a8 = G4_9 a0 a5 a6 a7 a8 := rfl

theorem final4_9_apply (c : Dev nD) (b : Fin 256) (j : Fin 128) :
    (dat4 (F := Ideal) V c).arrAt 9 cfg4.N (ix2 b j)
      = Cert.Spec.readout (fun n k => V c main_v144 (ix3 (⟨n.val / 128, by have := n.isLt; omega⟩ : Fin 256) (⟨n.val % 128, Nat.mod_lt _ (by decide)⟩ : Fin 128) k))
          (fun j k => V c main_v146 (ix2 k j)) (fun j => V c main_v149 (ix2 0 j)) (fun k => V c main_arg12 (ix2 0 k)) (V c main_v150 (ix2 0 0)) b j := by
  rw [final4_9]
  exact G4_apply (V c main_v144) (V c main_v146) (V c main_v149) (V c main_arg12) (V c main_v150) b j

theorem final4_10_apply (c : Dev nD) (b : Fin 256) (j : Fin 128) :
    (dat4 (F := Ideal) V c).arrAt 10 cfg4.N (ix2 b j)
      = Cert.Spec.readout (fun n k => V c main_v144 (ix3 (⟨n.val / 128, by have := n.isLt; omega⟩ : Fin 256) (⟨n.val % 128, Nat.mod_lt _ (by decide)⟩ : Fin 128) k))
          (fun j k => V c main_v148 (ix2 k j)) (fun j => V c main_v151 (ix2 0 j)) (fun k => V c main_arg16 (ix2 0 k)) (V c main_v152 (ix2 0 0)) b j := by
  rw [final4_10, G4_10_eq]
  exact G4_apply (V c main_v144) (V c main_v148) (V c main_v151) (V c main_arg16) (V c main_v152) b j

end Cert.KernelIdeal.Val

end
-- ==== Proof.KI.Host4.lean ====
import proofs.«425588_j41618233098847_3_alg».proof.Proof.Gen.KernelIdeal.Launch
import proofs.«425588_j41618233098847_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo
open Idealize.ShloMosaic.ValueIdx

variable (W : Valuation τ sig (Elt Ideal))

theorem host4_v144 : StableHlo.after (hostOps4 (F := Ideal)) W main_v144
    = shapeCast S256x128x128 (W main_v143) shapeCasts_S32768x128_S256x128x128 := by
  after_results
  rfl

theorem host4_v146 : StableHlo.after (hostOps4 (F := Ideal)) W main_v146
    = truncf (F := Ideal) .bf16 (transpose S128x128 [1, 0] (W main_arg10) transposes_S128x128_S128x128_1_0) bitsLt_bf16_f32 := by
  after_results

theorem host4_v148 : StableHlo.after (hostOps4 (F := Ideal)) W main_v148
    = truncf (F := Ideal) .bf16 (transpose S128x128 [1, 0] (W main_arg14) transposes_S128x128_S128x128_1_0) bitsLt_bf16_f32 := by
  after_results

theorem host4_v149 : StableHlo.after (hostOps4 (F := Ideal)) W main_v149
    = shapeCast S1x128 (W main_arg11) shapeCasts_S128_S1x128 := by
  after_results
  rfl

theorem host4_v150 : StableHlo.after (hostOps4 (F := Ideal)) W main_v150
    = shapeCast S1x1 (W main_arg13) shapeCasts_S1_S1x1 := by
  after_results
  rfl

theorem host4_v151 : StableHlo.after (hostOps4 (F := Ideal)) W main_v151
    = shapeCast S1x128 (W main_arg15) shapeCasts_S128_S1x128 := by
  after_results
  rfl

theorem host4_v152 : StableHlo.after (hostOps4 (F := Ideal)) W main_v152
    = shapeCast S1x1 (W main_arg17) shapeCasts_S1_S1x1 := by
  after_results
  rfl

theorem host4_v144_apply (b : Fin 256) (p k : Fin 128) :
    StableHlo.after (hostOps4 (F := Ideal)) W main_v144 (ix3 b p k)
      = W main_v143 (ix2 (⟨b.val * 128 + p.val, by have := b.isLt; have := p.isLt; omega⟩ : Fin 32768) k) := by
  rw [host4_v144]
  exact shapeCast_apply (s := S32768x128) (t := S256x128x128) (W main_v143) shapeCasts_S32768x128_S256x128x128 (ix3 b p k) _ (by
    rw [Shape.rowMajor_val_three, Shape.rowMajor_val_two]
    rfl)

theorem host4_v146_apply (k j : Fin 128) :
    StableHlo.after (hostOps4 (F := Ideal)) W main_v146 (ix2 k j) = W main_arg10 (ix2 j k) := by
  rw [host4_v146]
  exact transpose_ix2_apply (a := 128) (b := 128) (W main_arg10) transposes_S128x128_S128x128_1_0 k j

theorem host4_v148_apply (k j : Fin 128) :
    StableHlo.after (hostOps4 (F := Ideal)) W main_v148 (ix2 k j) = W main_arg14 (ix2 j k) := by
  rw [host4_v148]
  exact transpose_ix2_apply (a := 128) (b := 128) (W main_arg14) transposes_S128x128_S128x128_1_0 k j

theorem host4_v149_apply (j : Fin 128) :
    StableHlo.after (hostOps4 (F := Ideal)) W main_v149 (ix2 (0 : Fin 1) j) = W main_arg11 (ix1 j) := by
  rw [host4_v149]
  exact shapeCast_a_1a_apply _ _ 0 j

theorem host4_v150_apply :
    StableHlo.after (hostOps4 (F := Ideal)) W main_v150 (ix2 (0 : Fin 1) (0 : Fin 1)) = W main_arg13 (ix1 (0 : Fin 1)) := by
  rw [host4_v150]
  exact shapeCast_a_1a_apply _ _ 0 0

theorem host4_v151_apply (j : Fin 128) :
    StableHlo.after (hostOps4 (F := Ideal)) W main_v151 (ix2 (0 : Fin 1) j) = W main_arg15 (ix1 j) := by
  rw [host4_v151]
  exact shapeCast_a_1a_apply _ _ 0 j

theorem host4_v152_apply :
    StableHlo.after (hostOps4 (F := Ideal)) W main_v152 (ix2 (0 : Fin 1) (0 : Fin 1)) = W main_arg17 (ix1 (0 : Fin 1)) := by
  rw [host4_v152]
  exact shapeCast_a_1a_apply _ _ 0 0

end Cert.KernelIdeal.Val

end
-- ==== Proof.KI.Outs.lean ====
import proofs.«425588_j41618233098847_3_alg».proof.Proof.KI.Layer2
import proofs.«425588_j41618233098847_3_alg».proof.Proof.KI.Val4
import proofs.«425588_j41618233098847_3_alg».proof.Proof.KI.Host4

set_option maxRecDepth 16384

noncomputable section

namespace Cert.KernelIdeal.Val

open Cert.KernelIdeal Cert.KernelIdeal.Gen Cert.KernelIdeal.Hand Idealize.ShloMosaic Idealize.ShloMosaic.TcCoe Idealize.SL.Sem
open Idealize.ShloMosaic.ValueIdx Idealize.ShloMosaic.Rows
open scoped BigOperators

variable (m : (ℓ : Loc nD τ sig) → Buf (Elt Ideal) ℓ)

theorem kout0 (c : Dev nD) (b : Fin 256) (p k : Fin 128) :
    W10 m c main_v144 (ix3 b p k)
      = Cert.Spec.net (arg0 m c) (arg1 m c) (arg2 m c) (arg3 m c) (arg4 m c) (arg5 m c)
          (arg6 m c) (arg7 m c) (arg8 m c) (arg9 m c)
          (⟨b.val * 128 + p.val, by have := b.isLt; have := p.isLt; omega⟩ : Fin 32768) k :=
  ((congrFun (W10_keep m c main_v144 (by decide)) (ix3 b p k)).trans (host4_v144_apply (W8 m c) b p k)).trans
    (klayer2 m c _ k)

theorem W9_v144 (c : Dev nD) (n : Fin 32768) (k : Fin 128) :
    W9 m c main_v144 (ix3 (⟨n.val / 128, by have := n.isLt; omega⟩ : Fin 256) (⟨n.val % 128, Nat.mod_lt _ (by decide)⟩ : Fin 128) k)
      = Cert.Spec.net (arg0 m c) (arg1 m c) (arg2 m c) (arg3 m c) (arg4 m c) (arg5 m c)
          (arg6 m c) (arg7 m c) (arg8 m c) (arg9 m c) n k :=
  ((host4_v144_apply (W8 m c) _ _ k).trans (klayer2 m c _ k)).trans
    (congrArg (fun i : Fin 32768 => Cert.Spec.net (arg0 m c) (arg1 m c) (arg2 m c) (arg3 m c) (arg4 m c) (arg5 m c)
        (arg6 m c) (arg7 m c) (arg8 m c) (arg9 m c) i k)
      (Fin.ext (by show n.val / 128 * 128 + n.val % 128 = n.val; omega)))

theorem readout_congr {h h' : Fin 32768 → Fin 128 → EReal} {A A' : Fin 128 → Fin 128 → EReal} {β β' w w' : Fin 128 → EReal}
    {γ γ' : EReal} (eh : h = h') (eA : A = A') (eβ : β = β') (ew : w = w') (eγ : γ = γ') (b : Fin 256) (j : Fin 128) :
    Cert.Spec.readout h A β w γ b j = Cert.Spec.readout h' A' β' w' γ' b j := by
  subst eh eA eβ ew eγ; rfl

theorem kout1 (c : Dev nD) (b : Fin 256) (j : Fin 128) :
    W10 m c main_v153_0 (ix2 b j)
      = Cert.Spec.out (Cert.Spec.net (arg0 m c) (arg1 m c) (arg2 m c) (arg3 m c) (arg4 m c) (arg5 m c)
          (arg6 m c) (arg7 m c) (arg8 m c) (arg9 m c)) (arg10 m c) (arg11 m c) (arg12 m c) (arg13 m c) b j := by
  refine ((congrFun (W10_arr m c 9) (ix2 b j)).trans (final4_9_apply (Hand.V9 m) c b j)).trans ?_
  unfold Cert.Spec.out
  refine readout_congr (funext fun n => funext fun k => W9_v144 m c n k) (funext fun j => funext fun k => ?_)
    (funext fun j => ?_) (funext fun k => ?_) ?_ b j
  · exact (host4_v146_apply (W8 m c) k j).trans (congrFun (W8_arg m c main_arg10 (by decide)) (ix2 j k))
  · exact (host4_v149_apply (W8 m c) j).trans (congrFun (W8_arg m c main_arg11 (by decide)) (ix1 j))
  · exact congrFun (W9_arg m c main_arg12 (by decide)) (ix2 (0 : Fin 1) k)
  · exact (host4_v150_apply (W8 m c)).trans (congrFun (W8_arg m c main_arg13 (by decide)) (ix1 (0 : Fin 1)))

theorem kout2 (c : Dev nD) (b : Fin 256) (j : Fin 128) :
    W10 m c main_v153_1 (ix2 b j)
      = Cert.Spec.out (Cert.Spec.net (arg0 m c) (arg1 m c) (arg2 m c) (arg3 m c) (arg4 m c) (arg5 m c)
          (arg6 m c) (arg7 m c) (arg8 m c) (arg9 m c)) (arg14 m c) (arg15 m c) (arg16 m c) (arg17 m c) b j := by
  refine ((congrFun (W10_arr m c 10) (ix2 b j)).trans (final4_10_apply (Hand.V9 m) c b j)).trans ?_
  unfold Cert.Spec.out
  refine readout_congr (funext fun n => funext fun k => W9_v144 m c n k) (funext fun j => funext fun k => ?_)
    (funext fun j => ?_) (funext fun k => ?_) ?_ b j
  · exact (host4_v148_apply (W8 m c) k j).trans (congrFun (W8_arg m c main_arg14 (by decide)) (ix2 j k))
  · exact (host4_v151_apply (W8 m c) j).trans (congrFun (W8_arg m c main_arg15 (by decide)) (ix1 j))
  · exact congrFun (W9_arg m c main_arg16 (by decide)) (ix2 (0 : Fin 1) k)
  · exact (host4_v152_apply (W8 m c)).trans (congrFun (W8_arg m c main_arg17 (by decide)) (ix1 (0 : Fin 1)))

end Cert.KernelIdeal.Val

end
-- ==== Proof.KI.Layers.lean ====
import proofs.«425588_j41618233098847_3_alg».proof.Proof.KI.Layer1
import proofs.«425588_j41618233098847_3_alg».proof.Proof.KI.Layer2
import proofs.«425588_j41618233098847_3_alg».proof.Proof.KI.Outs
-- ==== Proof.RefRun.lean ====
import proofs.«425588_j41618233098847_3_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ reshape main_arg0 main_v0 rfl shapeCasts_S256x128x128_S32768x128,
    unary main_arg1 main_v1 ((extractStridedSlice S1x262144 ![0, 0] · slices_S2x262144_S1x262144_0_0)),
    reshape main_v1 main_v2 rfl shapeCasts_S1x262144_S262144,
    unary main_arg1 main_v3 ((extractStridedSlice S1x262144 ![1, 0] · slices_S2x262144_S1x262144_1_0)),
    reshape main_v3 main_v4 rfl shapeCasts_S1x262144_S262144 ]

abbrev ops2 : List (HloOp τ sig (Elt F)) :=
  [ binary main_v2 main_v4 main_v5 ((fun a b => concatenate S524288 0 [⟨S262144, a⟩, ⟨S262144, b⟩] concatenates_S262144_S262144_S524288_d0)),
    unary main_arg1 main_v6 ((extractStridedSlice S1x262144 ![1, 0] · slices_S2x262144_S1x262144_1_0)),
    reshape main_v6 main_v7 rfl shapeCasts_S1x262144_S262144,
    unary main_arg1 main_v8 ((extractStridedSlice S1x262144 ![0, 0] · slices_S2x262144_S1x262144_0_0)),
    reshape main_v8 main_v9 rfl shapeCasts_S1x262144_S262144 ]

abbrev ops3 : List (HloOp τ sig (Elt F)) :=
  [ binary main_v7 main_v9 main_v10 ((fun a b => concatenate S524288 0 [⟨S262144, a⟩, ⟨S262144, b⟩] concatenates_S262144_S262144_S524288_d0)),
    nullary main_c (constantI S_ 32 0#32),
    unary main_c main_v11 (broadcastInDim S524288 ![] bcast_S_S524288),
    binary main_v5 main_v11 main_v12 (cmpi .slt),
    nullary main_c_0 (constantI S_ 32 32768#32),
    unary main_c_0 main_v13 (broadcastInDim S524288 ![] bcast_S_S524288),
    binary main_v5 main_v13 main_v14 (addi),
    ternary main_v12 main_v14 main_v5 main_v15 (select),
    unary main_v15 main_v16 (broadcastInDim S524288x1 ![0] bcast_S524288_S524288x1_0),
    binary main_v0 main_v16 main_v17 ((fun x i => Host.gather gather_S32768x128_S524288x1_S524288x128_1_0_n_n_0_1_1128 x i)),
    nullary main_c_1 (constantI S_ 32 0#32),
    unary main_c_1 main_v18 (broadcastInDim S524288 ![] bcast_S_S524288),
    binary main_v10 main_v18 main_v19 (cmpi .slt),
    nullary main_c_2 (constantI S_ 32 32768#32),
    unary main_c_2 main_v20 (broadcastInDim S524288 ![] bcast_S_S524288),
    binary main_v10 main_v20 main_v21 (addi),
    ternary main_v19 main_v21 main_v10 main_v22 (select),
    unary main_v22 main_v23 (broadcastInDim S524288x1 ![0] bcast_S524288_S524288x1_0),
    binary main_v0 main_v23 main_v24 ((fun x i => Host.gather gather_S32768x128_S524288x1_S524288x128_1_0_n_n_0_1_1128 x i)) ]

abbrev ops4 : List (HloOp τ sig (Elt F)) :=
  [ binary main_v17 main_v24 main_v25 ((fun a b => concatenate S524288x256 1 [⟨S524288x128, a⟩, ⟨S524288x128, b⟩] concatenates_S524288x128_S524288x128_S524288x256_d1)),
    unary main_v25 main_v26 ((extractStridedSlice S262144x256 ![0, 0] · slices_S524288x256_S262144x256_0_0)),
    unary main_arg2 main_v27 ((extractStridedSlice S1x256x256 ![0, 0, 0] · slices_S2x256x256_S1x256x256_0_0_0)),
    reshape main_v27 main_v28 rfl shapeCasts_S1x256x256_S256x256,
    unary main_v28 main_v29 ((transpose S256x256 [1, 0] · transposes_S256x256_S256x256_1_0)),
    binary main_v26 main_v29 main_v30 ((fun l r => Host.dotGeneral dot_S262144x256_S256x256_S262144x256_1_0_0_1_n_n none l r)),
    unary main_arg3 main_v31 ((extractStridedSlice S1x256 ![0, 0] · slices_S2x256_S1x256_0_0)),
    reshape main_v31 main_v32 rfl shapeCasts_S1x256_S256,
    unary main_v32 main_v33 (broadcastInDim S1x256 ![1] bcast_S256_S1x256_1),
    unary main_v33 main_v34 (broadcastInDim S262144x256 ![0, 1] bcast_S1x256_S262144x256_0_1),
    binary main_v30 main_v34 main_v35 (addf),
    unary main_v25 main_v36 ((extractStridedSlice S262144x256 ![262144, 0] · slices_S524288x256_S262144x256_262144_0)),
    unary main_arg4 main_v37 ((extractStridedSlice S1x256x256 ![0, 0, 0] · slices_S2x256x256_S1x256x256_0_0_0)),
    reshape main_v37 main_v38 rfl shapeCasts_S1x256x256_S256x256,
    unary main_v38 main_v39 ((transpose S256x256 [1, 0] · transposes_S256x256_S256x256_1_0)),
    binary main_v36 main_v39 main_v40 ((fun l r => Host.dotGeneral dot_S262144x256_S256x256_S262144x256_1_0_0_1_n_n none l r)),
    unary main_arg5 main_v41 ((extractStridedSlice S1x256 ![0, 0] · slices_S2x256_S1x256_0_0)),
    reshape main_v41 main_v42 rfl shapeCasts_S1x256_S256,
    unary main_v42 main_v43 (broadcastInDim S1x256 ![1] bcast_S256_S1x256_1),
    unary main_v43 main_v44 (broadcastInDim S262144x256 ![0, 1] bcast_S1x256_S262144x256_0_1),
    binary main_v40 main_v44 main_v45 (addf) ]

abbrev ops5 : List (HloOp τ sig (Elt F)) :=
  [ binary main_v35 main_v45 main_v46 ((fun a b => concatenate S524288x256 0 [⟨S262144x256, a⟩, ⟨S262144x256, b⟩] concatenates_S262144x256_S262144x256_S524288x256_d0)),
    nullary main_cst (constant S_ .f32 0x00000000#32),
    unary main_cst main_v47 (broadcastInDim S32768x256 ![] bcast_S_S32768x256),
    unary main_v10 main_v48 (broadcastInDim S524288x1 ![0] bcast_S524288_S524288x1_0),
    ternary main_v47 main_v48 main_v46 main_v49 ((fun x i u => Host.scatterAdd scatter_S32768x256_S524288x1_S524288x256_1_0_0_1 x i u)),
    unary main_arg6 main_v50 ((extractStridedSlice S1x384x256 ![0, 0, 0] · slices_S2x384x256_S1x384x256_0_0_0)),
    reshape main_v50 main_v51 rfl shapeCasts_S1x384x256_S384x256,
    unary main_v51 main_v52 ((transpose S256x384 [1, 0] · transposes_S384x256_S256x384_1_0)),
    binary main_v49 main_v52 main_v53 ((fun l r => Host.dotGeneral dot_S32768x256_S256x384_S32768x384_1_0_0_1_n_n none l r)),
    unary main_arg8 main_v54 ((extractStridedSlice S1x384 ![0, 0] · slices_S2x384_S1x384_0_0)) ]

abbrev ops6 : List (HloOp τ sig (Elt F)) :=
  [ reshape main_v54 main_v55 rfl shapeCasts_S1x384_S384,
    unary main_v55 main_v56 (broadcastInDim S1x384 ![1] bcast_S384_S1x384_1),
    unary main_v56 main_v57 (broadcastInDim S32768x384 ![0, 1] bcast_S1x384_S32768x384_0_1),
    binary main_v53 main_v57 main_v58 (addf),
    unary main_arg7 main_v59 ((extractStridedSlice S1x384x128 ![0, 0, 0] · slices_S2x384x128_S1x384x128_0_0_0)),
    reshape main_v59 main_v60 rfl shapeCasts_S1x384x128_S384x128,
    unary main_v60 main_v61 ((transpose S128x384 [1, 0] · transposes_S384x128_S128x384_1_0)),
    binary main_v0 main_v61 main_v62 ((fun l r => Host.dotGeneral dot_S32768x128_S128x384_S32768x384_1_0_0_1_n_n none l r)),
    unary main_arg9 main_v63 ((extractStridedSlice S1x384 ![0, 0] · slices_S2x384_S1x384_0_0)),
    reshape main_v63 main_v64 rfl shapeCasts_S1x384_S384,
    unary main_v64 main_v65 (broadcastInDim S1x384 ![1] bcast_S384_S1x384_1),
    unary main_v65 main_v66 (broadcastInDim S32768x384 ![0, 1] bcast_S1x384_S32768x384_0_1),
    binary main_v62 main_v66 main_v67 (addf),
    unary main_v58 main_v68 ((extractStridedSlice S32768x128 ![0, 0] · slices_S32768x384_S32768x128_0_0)),
    unary main_v58 main_v69 ((extractStridedSlice S32768x128 ![0, 128] · slices_S32768x384_S32768x128_0_128)),
    unary main_v58 main_v70 ((extractStridedSlice S32768x128 ![0, 256] · slices_S32768x384_S32768x128_0_256)),
    unary main_v67 main_v71 ((extractStridedSlice S32768x128 ![0, 0] · slices_S32768x384_S32768x128_0_0)),
    unary main_v67 main_v72 ((extractStridedSlice S32768x128 ![0, 128] · slices_S32768x384_S32768x128_0_128)),
    unary main_v67 main_v73 ((extractStridedSlice S32768x128 ![0, 256] · slices_S32768x384_S32768x128_0_256)),
    binary main_v68 main_v71 main_v74 (addf),
    unary main_v74 main_v75 (Host.negf),
    unary main_v75 main_v76 (Host.exp),
    nullary main_cst_3 (constant S_ .f32 0x3F800000#32),
    unary main_cst_3 main_v77 (broadcastInDim S32768x128 ![] bcast_S_S32768x128),
    binary main_v77 main_v76 main_v78 (addf),
    nullary main_cst_4 (constant S_ .f32 0x3F800000#32),
    unary main_cst_4 main_v79 (broadcastInDim S32768x128 ![] bcast_S_S32768x128),
    binary main_v79 main_v78 main_v80 (Host.divf) ]

abbrev ops7 : List (HloOp τ sig (Elt F)) :=
  [ binary main_v69 main_v72 main_v81 (addf),
    unary main_v81 main_v82 (Host.negf),
    unary main_v82 main_v83 (Host.exp),
    nullary main_cst_5 (constant S_ .f32 0x3F800000#32),
    unary main_cst_5 main_v84 (broadcastInDim S32768x128 ![] bcast_S_S32768x128),
    binary main_v84 main_v83 main_v85 (addf),
    nullary main_cst_6 (constant S_ .f32 0x3F800000#32),
    unary main_cst_6 main_v86 (broadcastInDim S32768x128 ![] bcast_S_S32768x128),
    binary main_v86 main_v85 main_v87 (Host.divf),
    binary main_v80 main_v73 main_v88 (mulf),
    binary main_v70 main_v88 main_v89 (addf),
    unary main_v89 main_v90 (Host.tanh),
    nullary main_cst_7 (constant S_ .f32 0x3F800000#32),
    unary main_cst_7 main_v91 (broadcastInDim S32768x128 ![] bcast_S_S32768x128),
    binary main_v91 main_v87 main_v92 (subf),
    binary main_v92 main_v90 main_v93 (mulf),
    binary main_v87 main_v0 main_v94 (mulf),
    binary main_v93 main_v94 main_v95 (addf),
    nullary main_c_8 (constantI S_ 32 0#32),
    unary main_c_8 main_v96 (broadcastInDim S524288 ![] bcast_S_S524288),
    binary main_v5 main_v96 main_v97 (cmpi .slt),
    nullary main_c_9 (constantI S_ 32 32768#32),
    unary main_c_9 main_v98 (broadcastInDim S524288 ![] bcast_S_S524288),
    binary main_v5 main_v98 main_v99 (addi),
    ternary main_v97 main_v99 main_v5 main_v100 (select),
    unary main_v100 main_v101 (broadcastInDim S524288x1 ![0] bcast_S524288_S524288x1_0),
    binary main_v95 main_v101 main_v102 ((fun x i => Host.gather gather_S32768x128_S524288x1_S524288x128_1_0_n_n_0_1_1128 x i)),
    nullary main_c_10 (constantI S_ 32 0#32),
    unary main_c_10 main_v103 (broadcastInDim S524288 ![] bcast_S_S524288),
    binary main_v10 main_v103 main_v104 (cmpi .slt),
    nullary main_c_11 (constantI S_ 32 32768#32),
    unary main_c_11 main_v105 (broadcastInDim S524288 ![] bcast_S_S524288) ]

abbrev ops8 : List (HloOp τ sig (Elt F)) :=
  [ binary main_v10 main_v105 main_v106 (addi),
    ternary main_v104 main_v106 main_v10 main_v107 (select),
    unary main_v107 main_v108 (broadcastInDim S524288x1 ![0] bcast_S524288_S524288x1_0),
    binary main_v95 main_v108 main_v109 ((fun x i => Host.gather gather_S32768x128_S524288x1_S524288x128_1_0_n_n_0_1_1128 x i)) ]

abbrev ops9 : List (HloOp τ sig (Elt F)) :=
  [ binary main_v102 main_v109 main_v110 ((fun a b => concatenate S524288x256 1 [⟨S524288x128, a⟩, ⟨S524288x128, b⟩] concatenates_S524288x128_S524288x128_S524288x256_d1)),
    unary main_v110 main_v111 ((extractStridedSlice S262144x256 ![0, 0] · slices_S524288x256_S262144x256_0_0)),
    unary main_arg2 main_v112 ((extractStridedSlice S1x256x256 ![1, 0, 0] · slices_S2x256x256_S1x256x256_1_0_0)),
    reshape main_v112 main_v113 rfl shapeCasts_S1x256x256_S256x256,
    unary main_v113 main_v114 ((transpose S256x256 [1, 0] · transposes_S256x256_S256x256_1_0)),
    binary main_v111 main_v114 main_v115 ((fun l r => Host.dotGeneral dot_S262144x256_S256x256_S262144x256_1_0_0_1_n_n none l r)),
    unary main_arg3 main_v116 ((extractStridedSlice S1x256 ![1, 0] · slices_S2x256_S1x256_1_0)),
    reshape main_v116 main_v117 rfl shapeCasts_S1x256_S256,
    unary main_v117 main_v118 (broadcastInDim S1x256 ![1] bcast_S256_S1x256_1),
    unary main_v118 main_v119 (broadcastInDim S262144x256 ![0, 1] bcast_S1x256_S262144x256_0_1),
    binary main_v115 main_v119 main_v120 (addf),
    unary main_v110 main_v121 ((extractStridedSlice S262144x256 ![262144, 0] · slices_S524288x256_S262144x256_262144_0)),
    unary main_arg4 main_v122 ((extractStridedSlice S1x256x256 ![1, 0, 0] · slices_S2x256x256_S1x256x256_1_0_0)),
    reshape main_v122 main_v123 rfl shapeCasts_S1x256x256_S256x256,
    unary main_v123 main_v124 ((transpose S256x256 [1, 0] · transposes_S256x256_S256x256_1_0)),
    binary main_v121 main_v124 main_v125 ((fun l r => Host.dotGeneral dot_S262144x256_S256x256_S262144x256_1_0_0_1_n_n none l r)),
    unary main_arg5 main_v126 ((extractStridedSlice S1x256 ![1, 0] · slices_S2x256_S1x256_1_0)),
    reshape main_v126 main_v127 rfl shapeCasts_S1x256_S256,
    unary main_v127 main_v128 (broadcastInDim S1x256 ![1] bcast_S256_S1x256_1),
    unary main_v128 main_v129 (broadcastInDim S262144x256 ![0, 1] bcast_S1x256_S262144x256_0_1),
    binary main_v125 main_v129 main_v130 (addf) ]

abbrev ops10 : List (HloOp τ sig (Elt F)) :=
  [ binary main_v120 main_v130 main_v131 ((fun a b => concatenate S524288x256 0 [⟨S262144x256, a⟩, ⟨S262144x256, b⟩] concatenates_S262144x256_S262144x256_S524288x256_d0)),
    nullary main_cst_12 (constant S_ .f32 0x00000000#32),
    unary main_cst_12 main_v132 (broadcastInDim S32768x256 ![] bcast_S_S32768x256),
    unary main_v10 main_v133 (broadcastInDim S524288x1 ![0] bcast_S524288_S524288x1_0),
    ternary main_v132 main_v133 main_v131 main_v134 ((fun x i u => Host.scatterAdd scatter_S32768x256_S524288x1_S524288x256_1_0_0_1 x i u)),
    unary main_arg6 main_v135 ((extractStridedSlice S1x384x256 ![1, 0, 0] · slices_S2x384x256_S1x384x256_1_0_0)),
    reshape main_v135 main_v136 rfl shapeCasts_S1x384x256_S384x256,
    unary main_v136 main_v137 ((transpose S256x384 [1, 0] · transposes_S384x256_S256x384_1_0)),
    binary main_v134 main_v137 main_v138 ((fun l r => Host.dotGeneral dot_S32768x256_S256x384_S32768x384_1_0_0_1_n_n none l r)),
    unary main_arg8 main_v139 ((extractStridedSlice S1x384 ![1, 0] · slices_S2x384_S1x384_1_0)),
    reshape main_v139 main_v140 rfl shapeCasts_S1x384_S384,
    unary main_v140 main_v141 (broadcastInDim S1x384 ![1] bcast_S384_S1x384_1),
    unary main_v141 main_v142 (broadcastInDim S32768x384 ![0, 1] bcast_S1x384_S32768x384_0_1),
    binary main_v138 main_v142 main_v143 (addf),
    unary main_arg7 main_v144 ((extractStridedSlice S1x384x128 ![1, 0, 0] · slices_S2x384x128_S1x384x128_1_0_0)),
    reshape main_v144 main_v145 rfl shapeCasts_S1x384x128_S384x128,
    unary main_v145 main_v146 ((transpose S128x384 [1, 0] · transposes_S384x128_S128x384_1_0)),
    binary main_v95 main_v146 main_v147 ((fun l r => Host.dotGeneral dot_S32768x128_S128x384_S32768x384_1_0_0_1_n_n none l r)),
    unary main_arg9 main_v148 ((extractStridedSlice S1x384 ![1, 0] · slices_S2x384_S1x384_1_0)),
    reshape main_v148 main_v149 rfl shapeCasts_S1x384_S384,
    unary main_v149 main_v150 (broadcastInDim S1x384 ![1] bcast_S384_S1x384_1),
    unary main_v150 main_v151 (broadcastInDim S32768x384 ![0, 1] bcast_S1x384_S32768x384_0_1),
    binary main_v147 main_v151 main_v152 (addf),
    unary main_v143 main_v153 ((extractStridedSlice S32768x128 ![0, 0] · slices_S32768x384_S32768x128_0_0)),
    unary main_v143 main_v154 ((extractStridedSlice S32768x128 ![0, 128] · slices_S32768x384_S32768x128_0_128)),
    unary main_v143 main_v155 ((extractStridedSlice S32768x128 ![0, 256] · slices_S32768x384_S32768x128_0_256)),
    unary main_v152 main_v156 ((extractStridedSlice S32768x128 ![0, 0] · slices_S32768x384_S32768x128_0_0)),
    unary main_v152 main_v157 ((extractStridedSlice S32768x128 ![0, 128] · slices_S32768x384_S32768x128_0_128)),
    unary main_v152 main_v158 ((extractStridedSlice S32768x128 ![0, 256] · slices_S32768x384_S32768x128_0_256)),
    binary main_v153 main_v156 main_v159 (addf),
    unary main_v159 main_v160 (Host.negf),
    unary main_v160 main_v161 (Host.exp),
    nullary main_cst_13 (constant S_ .f32 0x3F800000#32),
    unary main_cst_13 main_v162 (broadcastInDim S32768x128 ![] bcast_S_S32768x128),
    binary main_v162 main_v161 main_v163 (addf) ]

abbrev ops11 : List (HloOp τ sig (Elt F)) :=
  [ nullary main_cst_14 (constant S_ .f32 0x3F800000#32),
    unary main_cst_14 main_v164 (broadcastInDim S32768x128 ![] bcast_S_S32768x128),
    binary main_v164 main_v163 main_v165 (Host.divf),
    binary main_v154 main_v157 main_v166 (addf),
    unary main_v166 main_v167 (Host.negf),
    unary main_v167 main_v168 (Host.exp),
    nullary main_cst_15 (constant S_ .f32 0x3F800000#32),
    unary main_cst_15 main_v169 (broadcastInDim S32768x128 ![] bcast_S_S32768x128),
    binary main_v169 main_v168 main_v170 (addf),
    nullary main_cst_16 (constant S_ .f32 0x3F800000#32),
    unary main_cst_16 main_v171 (broadcastInDim S32768x128 ![] bcast_S_S32768x128),
    binary main_v171 main_v170 main_v172 (Host.divf),
    binary main_v165 main_v158 main_v173 (mulf),
    binary main_v155 main_v173 main_v174 (addf),
    unary main_v174 main_v175 (Host.tanh),
    nullary main_cst_17 (constant S_ .f32 0x3F800000#32),
    unary main_cst_17 main_v176 (broadcastInDim S32768x128 ![] bcast_S_S32768x128),
    binary main_v176 main_v172 main_v177 (subf),
    binary main_v177 main_v175 main_v178 (mulf),
    binary main_v172 main_v95 main_v179 (mulf),
    binary main_v178 main_v179 main_v180 (addf),
    TRef.binary (TRef.of (T := ⟨S32768x128, .f32⟩) main_v180) (TRef.of (T := ⟨S32768x128, .f32⟩) main_v180) (TRef.of (T := ⟨S32768x128, .f32⟩) main_call0_v0) mulf,
    TRef.nullary (TRef.of (T := ⟨S_, .f32⟩) main_call0_cst) (constant S_ .f32 0x00000000#32),
    TRef.binary (TRef.of (T := ⟨S32768x128, .f32⟩) main_call0_v0) (TRef.of (T := ⟨S_, .f32⟩) main_call0_cst) (TRef.of (T := ⟨S32768, .f32⟩) main_call0_v1) (fun x v => Host.reduceAdd x v reducesTo_S32768x128_S32768_d1 h_S_),
    TRef.unary (TRef.of (T := ⟨S32768, .f32⟩) main_call0_v1) (TRef.of (T := ⟨S32768x1, .f32⟩) main_call0_v2) (broadcastInDim S32768x1 ![0] bcast_S32768_S32768x1_0),
    TRef.unary (TRef.of (T := ⟨S32768x1, .f32⟩) main_call0_v2) (TRef.of (T := ⟨S32768x1, .f32⟩) main_v181) Host.sqrt ]

abbrev ops12 : List (HloOp τ sig (Elt F)) :=
  [ nullary main_cst_18 (constant S_ .f32 0x2B8CBCCC#32),
    unary main_cst_18 main_v182 (broadcastInDim S32768x1 ![] bcast_S_S32768x1),
    binary main_v181 main_v182 main_v183 (maximumf),
    unary main_v183 main_v184 (broadcastInDim S32768x128 ![0, 1] bcast_S32768x1_S32768x128_0_1),
    binary main_v180 main_v184 main_v185 (Host.divf),
    unary main_arg10 main_v186 ((transpose S128x128 [1, 0] · transposes_S128x128_S128x128_1_0)),
    binary main_v185 main_v186 main_v187 ((fun l r => Host.dotGeneral dot_S32768x128_S128x128_S32768x128_1_0_0_1_n_n none l r)),
    unary main_arg11 main_v188 (broadcastInDim S1x128 ![1] bcast_S128_S1x128_1),
    unary main_v188 main_v189 (broadcastInDim S32768x128 ![0, 1] bcast_S1x128_S32768x128_0_1),
    binary main_v187 main_v189 main_v190 (addf),
    unary main_arg12 main_v191 ((transpose S128x1 [1, 0] · transposes_S1x128_S128x1_1_0)),
    binary main_v185 main_v191 main_v192 ((fun l r => Host.dotGeneral dot_S32768x128_S128x1_S32768x1_1_0_0_1_n_n none l r)),
    unary main_arg13 main_v193 (broadcastInDim S1x1 ![1] bcast_S1_S1x1_1),
    unary main_v193 main_v194 (broadcastInDim S32768x1 ![0, 1] bcast_S1x1_S32768x1_0_1),
    binary main_v192 main_v194 main_v195 (addf),
    unary main_v195 main_v196 (Host.negf),
    unary main_v196 main_v197 (Host.exp),
    nullary main_cst_19 (constant S_ .f32 0x3F800000#32),
    unary main_cst_19 main_v198 (broadcastInDim S32768x1 ![] bcast_S_S32768x1),
    binary main_v198 main_v197 main_v199 (addf),
    nullary main_cst_20 (constant S_ .f32 0x3F800000#32),
    unary main_cst_20 main_v200 (broadcastInDim S32768x1 ![] bcast_S_S32768x1),
    binary main_v200 main_v199 main_v201 (Host.divf),
    unary main_v201 main_v202 (broadcastInDim S32768x128 ![0, 1] bcast_S32768x1_S32768x128_0_1),
    binary main_v190 main_v202 main_v203 (mulf),
    reshape main_v203 main_v204 rfl shapeCasts_S32768x128_S256x128x128,
    nullary main_cst_21 (constant S_ .f32 0x00000000#32),
    binary main_v204 main_cst_21 main_v205 ((fun x v => Host.reduceAdd x v reducesTo_S256x128x128_S256x128_d1 h_S_)),
    TRef.binary (TRef.of (T := ⟨S256x128, .f32⟩) main_v205) (TRef.of (T := ⟨S256x128, .f32⟩) main_v205) (TRef.of (T := ⟨S256x128, .f32⟩) main_call1_v0) mulf,
    TRef.nullary (TRef.of (T := ⟨S_, .f32⟩) main_call1_cst) (constant S_ .f32 0x00000000#32),
    TRef.binary (TRef.of (T := ⟨S256x128, .f32⟩) main_call1_v0) (TRef.of (T := ⟨S_, .f32⟩) main_call1_cst) (TRef.of (T := ⟨S256, .f32⟩) main_call1_v1) (fun x v => Host.reduceAdd x v reducesTo_S256x128_S256_d1 h_S_),
    TRef.unary (TRef.of (T := ⟨S256, .f32⟩) main_call1_v1) (TRef.of (T := ⟨S256x1, .f32⟩) main_call1_v2) (broadcastInDim S256x1 ![0] bcast_S256_S256x1_0),
    TRef.unary (TRef.of (T := ⟨S256x1, .f32⟩) main_call1_v2) (TRef.of (T := ⟨S256x1, .f32⟩) main_v206) Host.sqrt,
    nullary main_cst_22 (constant S_ .f32 0x2B8CBCCC#32),
    unary main_cst_22 main_v207 (broadcastInDim S256x1 ![] bcast_S_S256x1),
    binary main_v206 main_v207 main_v208 (maximumf),
    unary main_v208 main_v209 (broadcastInDim S256x128 ![0, 1] bcast_S256x1_S256x128_0_1),
    binary main_v205 main_v209 main_v210 (Host.divf),
    unary main_arg14 main_v211 ((transpose S128x128 [1, 0] · transposes_S128x128_S128x128_1_0)),
    binary main_v185 main_v211 main_v212 ((fun l r => Host.dotGeneral dot_S32768x128_S128x128_S32768x128_1_0_0_1_n_n none l r)),
    unary main_arg15 main_v213 (broadcastInDim S1x128 ![1] bcast_S128_S1x128_1),
    unary main_v213 main_v214 (broadcastInDim S32768x128 ![0, 1] bcast_S1x128_S32768x128_0_1) ]

abbrev ops13 : List (HloOp τ sig (Elt F)) :=
  [ binary main_v212 main_v214 main_v215 (addf),
    unary main_arg16 main_v216 ((transpose S128x1 [1, 0] · transposes_S1x128_S128x1_1_0)),
    binary main_v185 main_v216 main_v217 ((fun l r => Host.dotGeneral dot_S32768x128_S128x1_S32768x1_1_0_0_1_n_n none l r)),
    unary main_arg17 main_v218 (broadcastInDim S1x1 ![1] bcast_S1_S1x1_1),
    unary main_v218 main_v219 (broadcastInDim S32768x1 ![0, 1] bcast_S1x1_S32768x1_0_1),
    binary main_v217 main_v219 main_v220 (addf),
    unary main_v220 main_v221 (Host.negf),
    unary main_v221 main_v222 (Host.exp),
    nullary main_cst_23 (constant S_ .f32 0x3F800000#32),
    unary main_cst_23 main_v223 (broadcastInDim S32768x1 ![] bcast_S_S32768x1),
    binary main_v223 main_v222 main_v224 (addf),
    nullary main_cst_24 (constant S_ .f32 0x3F800000#32),
    unary main_cst_24 main_v225 (broadcastInDim S32768x1 ![] bcast_S_S32768x1),
    binary main_v225 main_v224 main_v226 (Host.divf),
    unary main_v226 main_v227 (broadcastInDim S32768x128 ![0, 1] bcast_S32768x1_S32768x128_0_1),
    binary main_v215 main_v227 main_v228 (mulf),
    reshape main_v228 main_v229 rfl shapeCasts_S32768x128_S256x128x128,
    nullary main_cst_25 (constant S_ .f32 0x00000000#32),
    binary main_v229 main_cst_25 main_v230 ((fun x v => Host.reduceAdd x v reducesTo_S256x128x128_S256x128_d1 h_S_)),
    TRef.binary (TRef.of (T := ⟨S256x128, .f32⟩) main_v230) (TRef.of (T := ⟨S256x128, .f32⟩) main_v230) (TRef.of (T := ⟨S256x128, .f32⟩) main_call2_v0) mulf,
    TRef.nullary (TRef.of (T := ⟨S_, .f32⟩) main_call2_cst) (constant S_ .f32 0x00000000#32),
    TRef.binary (TRef.of (T := ⟨S256x128, .f32⟩) main_call2_v0) (TRef.of (T := ⟨S_, .f32⟩) main_call2_cst) (TRef.of (T := ⟨S256, .f32⟩) main_call2_v1) (fun x v => Host.reduceAdd x v reducesTo_S256x128_S256_d1 h_S_),
    TRef.unary (TRef.of (T := ⟨S256, .f32⟩) main_call2_v1) (TRef.of (T := ⟨S256x1, .f32⟩) main_call2_v2) (broadcastInDim S256x1 ![0] bcast_S256_S256x1_0),
    TRef.unary (TRef.of (T := ⟨S256x1, .f32⟩) main_call2_v2) (TRef.of (T := ⟨S256x1, .f32⟩) main_v231) Host.sqrt,
    nullary main_cst_26 (constant S_ .f32 0x2B8CBCCC#32),
    unary main_cst_26 main_v232 (broadcastInDim S256x1 ![] bcast_S_S256x1),
    binary main_v231 main_v232 main_v233 (maximumf),
    unary main_v233 main_v234 (broadcastInDim S256x128 ![0, 1] bcast_S256x1_S256x128_0_1),
    binary main_v230 main_v234 main_v235 (Host.divf),
    reshape main_v185 main_v236 rfl shapeCasts_S32768x128_S256x128x128 ]

abbrev ops : List (HloOp τ sig (Elt F)) :=
  ops1 ++ (ops2 ++ (ops3 ++ (ops4 ++ (ops5 ++ (ops6 ++ (ops7 ++ (ops8 ++ (ops9 ++ (ops10 ++ (ops11 ++ (ops12 ++ (ops13))))))))))))

theorem main_eq (c : Dev nD) : main (F := F) c = seq ops := by
  chain_rfl

abbrev X0 (V : Valuation τ sig (Elt F)) : (⟨S256x128x128, .f32⟩ : BufTy).Contents (Elt F) := V (Proc.devRef .tc main_arg0)
abbrev X1 (V : Valuation τ sig (Elt F)) : (⟨S2x262144, .i32⟩ : BufTy).Contents (Elt F) := V (Proc.devRef .tc main_arg1)
abbrev X2 (V : Valuation τ sig (Elt F)) : (⟨S2x256x256, .f32⟩ : BufTy).Contents (Elt F) := V (Proc.devRef .tc main_arg2)
abbrev X3 (V : Valuation τ sig (Elt F)) : (⟨S2x256, .f32⟩ : BufTy).Contents (Elt F) := V (Proc.devRef .tc main_arg3)
abbrev X4 (V : Valuation τ sig (Elt F)) : (⟨S2x256x256, .f32⟩ : BufTy).Contents (Elt F) := V (Proc.devRef .tc main_arg4)
abbrev X5 (V : Valuation τ sig (Elt F)) : (⟨S2x256, .f32⟩ : BufTy).Contents (Elt F) := V (Proc.devRef .tc main_arg5)
abbrev X6 (V : Valuation τ sig (Elt F)) : (⟨S2x384x256, .f32⟩ : BufTy).Contents (Elt F) := V (Proc.devRef .tc main_arg6)
abbrev X7 (V : Valuation τ sig (Elt F)) : (⟨S2x384x128, .f32⟩ : BufTy).Contents (Elt F) := V (Proc.devRef .tc main_arg7)
abbrev X8 (V : Valuation τ sig (Elt F)) : (⟨S2x384, .f32⟩ : BufTy).Contents (Elt F) := V (Proc.devRef .tc main_arg8)
abbrev X9 (V : Valuation τ sig (Elt F)) : (⟨S2x384, .f32⟩ : BufTy).Contents (Elt F) := V (Proc.devRef .tc main_arg9)
abbrev X10 (V : Valuation τ sig (Elt F)) : (⟨S128x128, .f32⟩ : BufTy).Contents (Elt F) := V (Proc.devRef .tc main_arg10)
abbrev X11 (V : Valuation τ sig (Elt F)) : (⟨S128, .f32⟩ : BufTy).Contents (Elt F) := V (Proc.devRef .tc main_arg11)
abbrev X12 (V : Valuation τ sig (Elt F)) : (⟨S1x128, .f32⟩ : BufTy).Contents (Elt F) := V (Proc.devRef .tc main_arg12)
abbrev X13 (V : Valuation τ sig (Elt F)) : (⟨S1, .f32⟩ : BufTy).Contents (Elt F) := V (Proc.devRef .tc main_arg13)
abbrev X14 (V : Valuation τ sig (Elt F)) : (⟨S128x128, .f32⟩ : BufTy).Contents (Elt F) := V (Proc.devRef .tc main_arg14)
abbrev X15 (V : Valuation τ sig (Elt F)) : (⟨S128, .f32⟩ : BufTy).Contents (Elt F) := V (Proc.devRef .tc main_arg15)
abbrev X16 (V : Valuation τ sig (Elt F)) : (⟨S1x128, .f32⟩ : BufTy).Contents (Elt F) := V (Proc.devRef .tc main_arg16)
abbrev X17 (V : Valuation τ sig (Elt F)) : (⟨S1, .f32⟩ : BufTy).Contents (Elt F) := V (Proc.devRef .tc main_arg17)

theorem ops1_sub : (ops1 : List (HloOp τ sig (Elt F))).Forall fun op => op.bufs ⊆ tcRefs τ sig :=
  ⟨reshape_bufs_sub .., unary_bufs_sub .., reshape_bufs_sub .., unary_bufs_sub .., reshape_bufs_sub ..⟩
theorem ops1_fresh : (ops1 : List (HloOp τ sig (Elt F))).Forall fun op => op.fresh = ∅ := by
  simp only [List.Forall]; repeat' constructor
theorem ops2_sub : (ops2 : List (HloOp τ sig (Elt F))).Forall fun op => op.bufs ⊆ tcRefs τ sig :=
  ⟨binary_bufs_sub .., unary_bufs_sub .., reshape_bufs_sub .., unary_bufs_sub .., reshape_bufs_sub ..⟩
theorem ops2_fresh : (ops2 : List (HloOp τ sig (Elt F))).Forall fun op => op.fresh = ∅ := by
  simp only [List.Forall]; repeat' constructor
theorem ops3_sub : (ops3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ops3_fresh : (ops3 : List (HloOp τ sig (Elt F))).Forall fun op => op.fresh = ∅ := by
  simp only [List.Forall]; repeat' constructor
theorem ops4_sub : (ops4 : List (HloOp τ sig (Elt F))).Forall fun op => op.bufs ⊆ tcRefs τ sig :=
  ⟨binary_bufs_sub .., unary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub ..⟩
theorem ops4_fresh : (ops4 : List (HloOp τ sig (Elt F))).Forall fun op => op.fresh = ∅ := by
  simp only [List.Forall]; repeat' constructor
theorem ops5_sub : (ops5 : List (HloOp τ sig (Elt F))).Forall fun op => op.bufs ⊆ tcRefs τ sig :=
  ⟨binary_bufs_sub .., nullary_bufs_sub .., unary_bufs_sub .., unary_bufs_sub .., ternary_bufs_sub .., unary_bufs_sub .., reshape_bufs_sub .., unary_bufs_sub .., binary_bufs_sub .., unary_bufs_sub ..⟩
theorem ops5_fresh : (ops5 : List (HloOp τ sig (Elt F))).Forall fun op => op.fresh = ∅ := by
  simp only [List.Forall]; repeat' constructor
theorem ops6_sub : (ops6 : List (HloOp τ sig (Elt F))).Forall fun op => op.bufs ⊆ tcRefs τ sig :=
  ⟨reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem ops6_fresh : (ops6 : List (HloOp τ sig (Elt F))).Forall fun op => op.fresh = ∅ := by
  simp only [List.Forall]; repeat' constructor
theorem ops7_sub : (ops7 : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩
theorem ops7_fresh : (ops7 : List (HloOp τ sig (Elt F))).Forall fun op => op.fresh = ∅ := by
  simp only [List.Forall]; repeat' constructor
theorem ops8_sub : (ops8 : List (HloOp τ sig (Elt F))).Forall fun op => op.bufs ⊆ tcRefs τ sig :=
  ⟨binary_bufs_sub .., ternary_bufs_sub .., unary_bufs_sub .., binary_bufs_sub ..⟩
theorem ops8_fresh : (ops8 : List (HloOp τ sig (Elt F))).Forall fun op => op.fresh = ∅ := by
  simp only [List.Forall]; repeat' constructor
theorem ops9_sub : (ops9 : List (HloOp τ sig (Elt F))).Forall fun op => op.bufs ⊆ tcRefs τ sig :=
  ⟨binary_bufs_sub .., unary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub ..⟩
theorem ops9_fresh : (ops9 : List (HloOp τ sig (Elt F))).Forall fun op => op.fresh = ∅ := by
  simp only [List.Forall]; repeat' constructor
theorem ops10_sub : (ops10 : List (HloOp τ sig (Elt F))).Forall fun op => op.bufs ⊆ tcRefs τ sig :=
  ⟨binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub ..⟩
theorem ops10_fresh : (ops10 : List (HloOp τ sig (Elt F))).Forall fun op => op.fresh = ∅ := by
  simp only [List.Forall]; repeat' constructor
theorem ops11_sub : (ops11 : List (HloOp τ sig (Elt F))).Forall fun op => op.bufs ⊆ tcRefs τ sig :=
  ⟨nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., binary_bufs_sub .., nullary_bufs_sub .., binary_bufs_sub .., unary_bufs_sub .., unary_bufs_sub ..⟩
theorem ops11_fresh : (ops11 : List (HloOp τ sig (Elt F))).Forall fun op => op.fresh = ∅ := by
  simp only [List.Forall]; repeat' constructor
theorem ops12_sub : (ops12 : List (HloOp τ sig (Elt F))).Forall fun op => op.bufs ⊆ tcRefs τ sig :=
  ⟨nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., reshape_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., unary_bufs_sub ..⟩
theorem ops12_fresh : (ops12 : List (HloOp τ sig (Elt F))).Forall fun op => op.fresh = ∅ := by
  simp only [List.Forall]; repeat' constructor
theorem ops13_sub : (ops13 : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., reshape_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub ..⟩
theorem ops13_fresh : (ops13 : List (HloOp τ sig (Elt F))).Forall fun op => op.fresh = ∅ := by
  simp only [List.Forall]; repeat' constructor

theorem ops_sub : (ops : List (HloOp τ sig (Elt F))).Forall fun op => op.bufs ⊆ tcRefs τ sig := by
  simp only [ops, List.forall_append]
  exact ⟨ops1_sub, ops2_sub, ops3_sub, ops4_sub, ops5_sub, ops6_sub, ops7_sub, ops8_sub, ops9_sub, ops10_sub, ops11_sub, ops12_sub, ops13_sub⟩

theorem ops_fresh : ∀ op ∈ (ops : List (HloOp τ sig (Elt F))), op.fresh = ∅ :=
  List.forall_iff_forall_mem.mp (by
    simp only [ops, List.forall_append]
    exact ⟨ops1_fresh, ops2_fresh, ops3_fresh, ops4_fresh, ops5_fresh, ops6_fresh, ops7_fresh, ops8_fresh, ops9_fresh, ops10_fresh, ops11_fresh, ops12_fresh, ops13_fresh⟩)

theorem scopedRefs_eq : (Finset.univ.filter fun b : Ref sig .tc => b.isScoped) = ∅ := by decide
theorem scopedSems_eq : (Finset.univ.filter fun sm : SemLoc sig => sm.isScoped .tc) = ∅ := by decide

def val0 (V : Valuation τ sig (Elt F)) : Valuation τ sig (Elt F) := V
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- A stretch that writes no argument hands every argument on as it found it. -/
theorem keep_args {ops : List (HloOp τ sig (Elt F))} {W : List (Ref sig .tc)}
    (hW : ops.Forall fun op => op.writes ⊆ (W.map (Proc.devRef (τ := τ) .tc)).toFinset) (hd : ∀ r ∈ args, r ∉ W)
    {V V₀ : Valuation τ sig (Elt F)} (h : ∀ r ∈ args, V (Proc.devRef .tc r) = V₀ (Proc.devRef .tc r)) :
    ∀ r ∈ args, after ops V (Proc.devRef .tc r) = V₀ (Proc.devRef .tc r) :=
  fun r hr => (after_of_writes_sub ops V hW (hd r hr)).trans (h r hr)
theorem val0_arg (V : Valuation τ sig (Elt F)) : ∀ r ∈ args, val0 V (Proc.devRef .tc r) = V (Proc.devRef .tc r) := fun _ _ => rfl

def val1 (V : Valuation τ sig (Elt F)) : Valuation τ sig (Elt F) := after ops1 (val0 V)
abbrev ops1_W : List (Ref sig .tc) := [main_v0, main_v1, main_v2, main_v3, main_v4]
theorem ops1_writes : (ops1 : List (HloOp τ sig (Elt F))).Forall fun op => op.writes ⊆ (ops1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val1_keep (V : Valuation τ sig (Elt F)) (r : Ref sig .tc) (h : r ∉ ops1_W) :
    val1 V (Proc.devRef .tc r) = val0 V (Proc.devRef .tc r) :=
  after_of_writes_sub ops1 _ ops1_writes h
theorem val1_arg (V : Valuation τ sig (Elt F)) : ∀ r ∈ args, val1 V (Proc.devRef .tc r) = V (Proc.devRef .tc r) :=
  keep_args ops1_writes (by decide) (val0_arg V)
set_option maxRecDepth 8192 in
theorem val1_main_v0 (V : Valuation τ sig (Elt F)) : val1 V (no_index (Proc.devRef .tc main_v0)) = Stages.val_main_v0 (F := F) (X0 V) := by
  unfold val1
  simp only [ops1]
  after_results_simp
  try rw [val0_arg V main_arg0 (by decide)]
  all_goals rfl
set_option maxRecDepth 8192 in
theorem val1_main_v2 (V : Valuation τ sig (Elt F)) : val1 V (no_index (Proc.devRef .tc main_v2)) = Stages.val_main_v2 (F := F) (X1 V) := by
  unfold val1
  simp only [ops1]
  after_results_simp
  try rw [val0_arg V main_arg1 (by decide)]
  all_goals rfl
set_option maxRecDepth 8192 in
theorem val1_main_v4 (V : Valuation τ sig (Elt F)) : val1 V (no_index (Proc.devRef .tc main_v4)) = Stages.val_main_v4 (F := F) (X1 V) := by
  unfold val1
  simp only [ops1]
  after_results_simp
  try rw [val0_arg V main_arg1 (by decide)]
  all_goals rfl

def val2 (V : Valuation τ sig (Elt F)) : Valuation τ sig (Elt F) := after ops2 (val1 V)
abbrev ops2_W : List (Ref sig .tc) := [main_v5, main_v6, main_v7, main_v8, main_v9]
theorem ops2_writes : (ops2 : List (HloOp τ sig (Elt F))).Forall fun op => op.writes ⊆ (ops2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val2_keep (V : Valuation τ sig (Elt F)) (r : Ref sig .tc) (h : r ∉ ops2_W) :
    val2 V (Proc.devRef .tc r) = val1 V (Proc.devRef .tc r) :=
  after_of_writes_sub ops2 _ ops2_writes h
theorem val2_arg (V : Valuation τ sig (Elt F)) : ∀ r ∈ args, val2 V (Proc.devRef .tc r) = V (Proc.devRef .tc r) :=
  keep_args ops2_writes (by decide) (val1_arg V)
theorem val2_main_v0 (V : Valuation τ sig (Elt F)) : val2 V (no_index (Proc.devRef .tc main_v0)) = Stages.val_main_v0 (F := F) (X0 V) :=
  (val2_keep V main_v0 (by decide)).trans (val1_main_v0 V)
set_option maxRecDepth 8192 in
theorem val2_main_v5 (V : Valuation τ sig (Elt F)) : val2 V (no_index (Proc.devRef .tc main_v5)) = Stages.val_main_v5 (F := F) (X1 V) := by
  unfold val2
  simp only [ops2]
  after_results_simp
  try rw [val1_main_v4]
  try rw [val1_main_v2]
  all_goals rfl
set_option maxRecDepth 8192 in
theorem val2_main_v7 (V : Valuation τ sig (Elt F)) : val2 V (no_index (Proc.devRef .tc main_v7)) = Stages.val_main_v7 (F := F) (X1 V) := by
  unfold val2
  simp only [ops2]
  after_results_simp
  try rw [val1_arg V main_arg1 (by decide)]
  all_goals rfl
set_option maxRecDepth 8192 in
theorem val2_main_v9 (V : Valuation τ sig (Elt F)) : val2 V (no_index (Proc.devRef .tc main_v9)) = Stages.val_main_v9 (F := F) (X1 V) := by
  unfold val2
  simp only [ops2]
  after_results_simp
  try rw [val1_arg V main_arg1 (by decide)]
  all_goals rfl

def val3 (V : Valuation τ sig (Elt F)) : Valuation τ sig (Elt F) := after ops3 (val2 V)
abbrev ops3_W : List (Ref sig .tc) := [main_v10, main_c, main_v11, main_v12, main_c_0, main_v13, main_v14, main_v15, main_v16, main_v17, main_c_1, main_v18, main_v19, main_c_2, main_v20, main_v21, main_v22, main_v23, main_v24]
theorem ops3_writes : (ops3 : List (HloOp τ sig (Elt F))).Forall fun op => op.writes ⊆ (ops3_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val3_keep (V : Valuation τ sig (Elt F)) (r : Ref sig .tc) (h : r ∉ ops3_W) :
    val3 V (Proc.devRef .tc r) = val2 V (Proc.devRef .tc r) :=
  after_of_writes_sub ops3 _ ops3_writes h
theorem val3_arg (V : Valuation τ sig (Elt F)) : ∀ r ∈ args, val3 V (Proc.devRef .tc r) = V (Proc.devRef .tc r) :=
  keep_args ops3_writes (by decide) (val2_arg V)
theorem val3_main_v0 (V : Valuation τ sig (Elt F)) : val3 V (no_index (Proc.devRef .tc main_v0)) = Stages.val_main_v0 (F := F) (X0 V) :=
  (val3_keep V main_v0 (by decide)).trans (val2_main_v0 V)
theorem val3_main_v5 (V : Valuation τ sig (Elt F)) : val3 V (no_index (Proc.devRef .tc main_v5)) = Stages.val_main_v5 (F := F) (X1 V) :=
  (val3_keep V main_v5 (by decide)).trans (val2_main_v5 V)
set_option maxRecDepth 8192 in
set_option maxHeartbeats 1900000 in
theorem val3_main_v10 (V : Valuation τ sig (Elt F)) : val3 V (no_index (Proc.devRef .tc main_v10)) = Stages.val_main_v10 (F := F) (X1 V) := by
  unfold val3
  simp only [ops3]
  after_results_simp
  try rw [val2_main_v9]
  try rw [val2_main_v7]
  all_goals rfl
set_option maxRecDepth 8192 in
set_option maxHeartbeats 1900000 in
theorem val3_main_v17 (V : Valuation τ sig (Elt F)) : val3 V (no_index (Proc.devRef .tc main_v17)) = Stages.val_main_v17 (F := F) (X0 V) (X1 V) := by
  unfold val3
  simp only [ops3]
  after_results_simp
  try rw [val2_main_v5]
  try rw [val2_main_v0]
  all_goals rfl
set_option maxRecDepth 8192 in
set_option maxHeartbeats 1900000 in
theorem val3_main_v24 (V : Valuation τ sig (Elt F)) : val3 V (no_index (Proc.devRef .tc main_v24)) = Stages.val_main_v24 (F := F) (X0 V) (X1 V) := by
  unfold val3
  simp only [ops3]
  after_results_simp
  try rw [val2_main_v9]
  try rw [val2_main_v7]
  try rw [val2_main_v0]
  all_goals rfl

def val4 (V : Valuation τ sig (Elt F)) : Valuation τ sig (Elt F) := after ops4 (val3 V)
abbrev ops4_W : List (Ref sig .tc) := [main_v25, main_v26, main_v27, main_v28, main_v29, main_v30, main_v31, main_v32, main_v33, main_v34, main_v35, main_v36, main_v37, main_v38, main_v39, main_v40, main_v41, main_v42, main_v43, main_v44, main_v45]
theorem ops4_writes : (ops4 : List (HloOp τ sig (Elt F))).Forall fun op => op.writes ⊆ (ops4_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val4_keep (V : Valuation τ sig (Elt F)) (r : Ref sig .tc) (h : r ∉ ops4_W) :
    val4 V (Proc.devRef .tc r) = val3 V (Proc.devRef .tc r) :=
  after_of_writes_sub ops4 _ ops4_writes h
theorem val4_arg (V : Valuation τ sig (Elt F)) : ∀ r ∈ args, val4 V (Proc.devRef .tc r) = V (Proc.devRef .tc r) :=
  keep_args ops4_writes (by decide) (val3_arg V)
theorem val4_main_v0 (V : Valuation τ sig (Elt F)) : val4 V (no_index (Proc.devRef .tc main_v0)) = Stages.val_main_v0 (F := F) (X0 V) :=
  (val4_keep V main_v0 (by decide)).trans (val3_main_v0 V)
theorem val4_main_v5 (V : Valuation τ sig (Elt F)) : val4 V (no_index (Proc.devRef .tc main_v5)) = Stages.val_main_v5 (F := F) (X1 V) :=
  (val4_keep V main_v5 (by decide)).trans (val3_main_v5 V)
theorem val4_main_v10 (V : Valuation τ sig (Elt F)) : val4 V (no_index (Proc.devRef .tc main_v10)) = Stages.val_main_v10 (F := F) (X1 V) :=
  (val4_keep V main_v10 (by decide)).trans (val3_main_v10 V)
set_option maxRecDepth 8192 in
set_option maxHeartbeats 2000000 in
theorem val4_main_v35 (V : Valuation τ sig (Elt F)) : val4 V (no_index (Proc.devRef .tc main_v35)) = Stages.val_main_v35 (F := F) (X0 V) (X1 V) (X2 V) (X3 V) := by
  unfold val4
  simp only [ops4]
  after_results_simp
  try rw [val3_arg V main_arg3 (by decide)]
  try rw [val3_arg V main_arg2 (by decide)]
  try rw [val3_main_v24]
  try rw [val3_main_v17]
  all_goals rfl
set_option maxRecDepth 8192 in
set_option maxHeartbeats 2000000 in
theorem val4_main_v45 (V : Valuation τ sig (Elt F)) : val4 V (no_index (Proc.devRef .tc main_v45)) = Stages.val_main_v45 (F := F) (X0 V) (X1 V) (X4 V) (X5 V) := by
  unfold val4
  simp only [ops4]
  after_results_simp
  try rw [val3_arg V main_arg5 (by decide)]
  try rw [val3_arg V main_arg4 (by decide)]
  try rw [val3_main_v24]
  try rw [val3_main_v17]
  all_goals rfl

def val5 (V : Valuation τ sig (Elt F)) : Valuation τ sig (Elt F) := after ops5 (val4 V)
abbrev ops5_W : List (Ref sig .tc) := [main_v46, main_cst, main_v47, main_v48, main_v49, main_v50, main_v51, main_v52, main_v53, main_v54]
theorem ops5_writes : (ops5 : List (HloOp τ sig (Elt F))).Forall fun op => op.writes ⊆ (ops5_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val5_keep (V : Valuation τ sig (Elt F)) (r : Ref sig .tc) (h : r ∉ ops5_W) :
    val5 V (Proc.devRef .tc r) = val4 V (Proc.devRef .tc r) :=
  after_of_writes_sub ops5 _ ops5_writes h
theorem val5_arg (V : Valuation τ sig (Elt F)) : ∀ r ∈ args, val5 V (Proc.devRef .tc r) = V (Proc.devRef .tc r) :=
  keep_args ops5_writes (by decide) (val4_arg V)
theorem val5_main_v0 (V : Valuation τ sig (Elt F)) : val5 V (no_index (Proc.devRef .tc main_v0)) = Stages.val_main_v0 (F := F) (X0 V) :=
  (val5_keep V main_v0 (by decide)).trans (val4_main_v0 V)
theorem val5_main_v5 (V : Valuation τ sig (Elt F)) : val5 V (no_index (Proc.devRef .tc main_v5)) = Stages.val_main_v5 (F := F) (X1 V) :=
  (val5_keep V main_v5 (by decide)).trans (val4_main_v5 V)
theorem val5_main_v10 (V : Valuation τ sig (Elt F)) : val5 V (no_index (Proc.devRef .tc main_v10)) = Stages.val_main_v10 (F := F) (X1 V) :=
  (val5_keep V main_v10 (by decide)).trans (val4_main_v10 V)
set_option maxRecDepth 8192 in
set_option maxHeartbeats 1000000 in
theorem val5_main_v53 (V : Valuation τ sig (Elt F)) : val5 V (no_index (Proc.devRef .tc main_v53)) = Stages.val_main_v53 (F := F) (X0 V) (X1 V) (X2 V) (X3 V) (X4 V) (X5 V) (X6 V) := by
  unfold val5
  simp only [ops5]
  after_results_simp
  try rw [val4_arg V main_arg6 (by decide)]
  try rw [val4_main_v45]
  try rw [val4_main_v35]
  try rw [val4_main_v10]
  all_goals rfl
set_option maxRecDepth 8192 in
set_option maxHeartbeats 1000000 in
theorem val5_main_v54 (V : Valuation τ sig (Elt F)) : val5 V (no_index (Proc.devRef .tc main_v54)) = Stages.val_main_v54 (F := F) (X8 V) := by
  unfold val5
  simp only [ops5]
  after_results_simp
  try rw [val4_arg V main_arg8 (by decide)]
  all_goals rfl

def val6 (V : Valuation τ sig (Elt F)) : Valuation τ sig (Elt F) := after ops6 (val5 V)
abbrev ops6_W : List (Ref sig .tc) := [main_v55, main_v56, main_v57, main_v58, main_v59, main_v60, main_v61, main_v62, main_v63, main_v64, main_v65, main_v66, main_v67, main_v68, main_v69, main_v70, main_v71, main_v72, main_v73, main_v74, main_v75, main_v76, main_cst_3, main_v77, main_v78, main_cst_4, main_v79, main_v80]
theorem ops6_writes : (ops6 : List (HloOp τ sig (Elt F))).Forall fun op => op.writes ⊆ (ops6_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val6_keep (V : Valuation τ sig (Elt F)) (r : Ref sig .tc) (h : r ∉ ops6_W) :
    val6 V (Proc.devRef .tc r) = val5 V (Proc.devRef .tc r) :=
  after_of_writes_sub ops6 _ ops6_writes h
theorem val6_arg (V : Valuation τ sig (Elt F)) : ∀ r ∈ args, val6 V (Proc.devRef .tc r) = V (Proc.devRef .tc r) :=
  keep_args ops6_writes (by decide) (val5_arg V)
theorem val6_main_v0 (V : Valuation τ sig (Elt F)) : val6 V (no_index (Proc.devRef .tc main_v0)) = Stages.val_main_v0 (F := F) (X0 V) :=
  (val6_keep V main_v0 (by decide)).trans (val5_main_v0 V)
theorem val6_main_v5 (V : Valuation τ sig (Elt F)) : val6 V (no_index (Proc.devRef .tc main_v5)) = Stages.val_main_v5 (F := F) (X1 V) :=
  (val6_keep V main_v5 (by decide)).trans (val5_main_v5 V)
theorem val6_main_v10 (V : Valuation τ sig (Elt F)) : val6 V (no_index (Proc.devRef .tc main_v10)) = Stages.val_main_v10 (F := F) (X1 V) :=
  (val6_keep V main_v10 (by decide)).trans (val5_main_v10 V)
set_option maxRecDepth 8192 in
set_option maxHeartbeats 2000000 in
theorem val6_main_v69 (V : Valuation τ sig (Elt F)) : val6 V (no_index (Proc.devRef .tc main_v69)) = Stages.val_main_v69 (F := F) (X0 V) (X1 V) (X2 V) (X3 V) (X4 V) (X5 V) (X6 V) (X8 V) := by
  unfold val6
  simp only [ops6]
  after_results_simp
  try rw [val5_main_v54]
  try rw [val5_main_v53]
  all_goals rfl
set_option maxRecDepth 8192 in
set_option maxHeartbeats 2000000 in
theorem val6_main_v70 (V : Valuation τ sig (Elt F)) : val6 V (no_index (Proc.devRef .tc main_v70)) = Stages.val_main_v70 (F := F) (X0 V) (X1 V) (X2 V) (X3 V) (X4 V) (X5 V) (X6 V) (X8 V) := by
  unfold val6
  simp only [ops6]
  after_results_simp
  try rw [val5_main_v54]
  try rw [val5_main_v53]
  all_goals rfl
set_option maxRecDepth 8192 in
set_option maxHeartbeats 2000000 in
theorem val6_main_v72 (V : Valuation τ sig (Elt F)) : val6 V (no_index (Proc.devRef .tc main_v72)) = Stages.val_main_v72 (F := F) (X0 V) (X7 V) (X9 V) := by
  unfold val6
  simp only [ops6]
  after_results_simp
  try rw [val5_arg V main_arg9 (by decide)]
  try rw [val5_arg V main_arg7 (by decide)]
  try rw [val5_main_v0]
  all_goals rfl
set_option maxRecDepth 8192 in
set_option maxHeartbeats 2000000 in
theorem val6_main_v73 (V : Valuation τ sig (Elt F)) : val6 V (no_index (Proc.devRef .tc main_v73)) = Stages.val_main_v73 (F := F) (X0 V) (X7 V) (X9 V) := by
  unfold val6
  simp only [ops6]
  after_results_simp
  try rw [val5_arg V main_arg9 (by decide)]
  try rw [val5_arg V main_arg7 (by decide)]
  try rw [val5_main_v0]
  all_goals rfl
set_option maxRecDepth 8192 in
set_option maxHeartbeats 2000000 in
theorem val6_main_v80 (V : Valuation τ sig (Elt F)) : val6 V (no_index (Proc.devRef .tc main_v80)) = Stages.val_main_v80 (F := F) (X0 V) (X1 V) (X2 V) (X3 V) (X4 V) (X5 V) (X6 V) (X7 V) (X8 V) (X9 V) := by
  unfold val6
  simp only [ops6]
  after_results_simp
  try rw [val5_arg V main_arg9 (by decide)]
  try rw [val5_arg V main_arg7 (by decide)]
  try rw [val5_main_v0]
  try rw [val5_main_v54]
  try rw [val5_main_v53]
  all_goals rfl

def val7 (V : Valuation τ sig (Elt F)) : Valuation τ sig (Elt F) := after ops7 (val6 V)
abbrev ops7_W : List (Ref sig .tc) := [main_v81, main_v82, main_v83, main_cst_5, main_v84, main_v85, main_cst_6, main_v86, main_v87, main_v88, main_v89, main_v90, main_cst_7, main_v91, main_v92, main_v93, main_v94, main_v95, main_c_8, main_v96, main_v97, main_c_9, main_v98, main_v99, main_v100, main_v101, main_v102, main_c_10, main_v103, main_v104, main_c_11, main_v105]
theorem ops7_writes : (ops7 : List (HloOp τ sig (Elt F))).Forall fun op => op.writes ⊆ (ops7_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val7_keep (V : Valuation τ sig (Elt F)) (r : Ref sig .tc) (h : r ∉ ops7_W) :
    val7 V (Proc.devRef .tc r) = val6 V (Proc.devRef .tc r) :=
  after_of_writes_sub ops7 _ ops7_writes h
theorem val7_arg (V : Valuation τ sig (Elt F)) : ∀ r ∈ args, val7 V (Proc.devRef .tc r) = V (Proc.devRef .tc r) :=
  keep_args ops7_writes (by decide) (val6_arg V)
theorem val7_main_v10 (V : Valuation τ sig (Elt F)) : val7 V (no_index (Proc.devRef .tc main_v10)) = Stages.val_main_v10 (F := F) (X1 V) :=
  (val7_keep V main_v10 (by decide)).trans (val6_main_v10 V)
set_option maxRecDepth 8192 in
set_option maxHeartbeats 2000000 in
theorem val7_main_v95 (V : Valuation τ sig (Elt F)) : val7 V (no_index (Proc.devRef .tc main_v95)) = Stages.val_main_v95 (F := F) (X0 V) (X1 V) (X2 V) (X3 V) (X4 V) (X5 V) (X6 V) (X7 V) (X8 V) (X9 V) := by
  unfold val7
  simp only [ops7]
  after_results_simp
  try rw [val6_main_v0]
  try rw [val6_main_v72]
  try rw [val6_main_v69]
  try rw [val6_main_v73]
  try rw [val6_main_v80]
  try rw [val6_main_v70]
  all_goals rfl
set_option maxRecDepth 8192 in
set_option maxHeartbeats 2000000 in
theorem val7_main_v102 (V : Valuation τ sig (Elt F)) : val7 V (no_index (Proc.devRef .tc main_v102)) = Stages.val_main_v102 (F := F) (X0 V) (X1 V) (X2 V) (X3 V) (X4 V) (X5 V) (X6 V) (X7 V) (X8 V) (X9 V) := by
  unfold val7
  simp only [ops7]
  after_results_simp
  try rw [val6_main_v5]
  try rw [val6_main_v0]
  try rw [val6_main_v72]
  try rw [val6_main_v69]
  try rw [val6_main_v73]
  try rw [val6_main_v80]
  try rw [val6_main_v70]
  all_goals rfl
set_option maxRecDepth 8192 in
set_option maxHeartbeats 2000000 in
theorem val7_main_v104 (V : Valuation τ sig (Elt F)) : val7 V (no_index (Proc.devRef .tc main_v104)) = Stages.val_main_v104 (F := F) (X1 V) := by
  unfold val7
  simp only [ops7]
  after_results_simp
  try rw [val6_main_v10]
  all_goals rfl
set_option maxRecDepth 8192 in
set_option maxHeartbeats 2000000 in
theorem val7_main_v105 (V : Valuation τ sig (Elt F)) : val7 V (no_index (Proc.devRef .tc main_v105)) = Stages.val_main_v105 (F := F) := by
  unfold val7
  simp only [ops7]
  after_results_simp
  all_goals rfl

def val8 (V : Valuation τ sig (Elt F)) : Valuation τ sig (Elt F) := after ops8 (val7 V)
abbrev ops8_W : List (Ref sig .tc) := [main_v106, main_v107, main_v108, main_v109]
theorem ops8_writes : (ops8 : List (HloOp τ sig (Elt F))).Forall fun op => op.writes ⊆ (ops8_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val8_keep (V : Valuation τ sig (Elt F)) (r : Ref sig .tc) (h : r ∉ ops8_W) :
    val8 V (Proc.devRef .tc r) = val7 V (Proc.devRef .tc r) :=
  after_of_writes_sub ops8 _ ops8_writes h
theorem val8_arg (V : Valuation τ sig (Elt F)) : ∀ r ∈ args, val8 V (Proc.devRef .tc r) = V (Proc.devRef .tc r) :=
  keep_args ops8_writes (by decide) (val7_arg V)
theorem val8_main_v10 (V : Valuation τ sig (Elt F)) : val8 V (no_index (Proc.devRef .tc main_v10)) = Stages.val_main_v10 (F := F) (X1 V) :=
  (val8_keep V main_v10 (by decide)).trans (val7_main_v10 V)
theorem val8_main_v95 (V : Valuation τ sig (Elt F)) : val8 V (no_index (Proc.devRef .tc main_v95)) = Stages.val_main_v95 (F := F) (X0 V) (X1 V) (X2 V) (X3 V) (X4 V) (X5 V) (X6 V) (X7 V) (X8 V) (X9 V) :=
  (val8_keep V main_v95 (by decide)).trans (val7_main_v95 V)
theorem val8_main_v102 (V : Valuation τ sig (Elt F)) : val8 V (no_index (Proc.devRef .tc main_v102)) = Stages.val_main_v102 (F := F) (X0 V) (X1 V) (X2 V) (X3 V) (X4 V) (X5 V) (X6 V) (X7 V) (X8 V) (X9 V) :=
  (val8_keep V main_v102 (by decide)).trans (val7_main_v102 V)
set_option maxRecDepth 8192 in
theorem val8_main_v109 (V : Valuation τ sig (Elt F)) : val8 V (no_index (Proc.devRef .tc main_v109)) = Stages.val_main_v109 (F := F) (X0 V) (X1 V) (X2 V) (X3 V) (X4 V) (X5 V) (X6 V) (X7 V) (X8 V) (X9 V) := by
  unfold val8
  simp only [ops8]
  after_results_simp
  try rw [val7_main_v10]
  try rw [val7_main_v105]
  try rw [val7_main_v104]
  try rw [val7_main_v95]
  all_goals rfl

def val9 (V : Valuation τ sig (Elt F)) : Valuation τ sig (Elt F) := after ops9 (val8 V)
abbrev ops9_W : List (Ref sig .tc) := [main_v110, main_v111, main_v112, main_v113, main_v114, main_v115, main_v116, main_v117, main_v118, main_v119, main_v120, main_v121, main_v122, main_v123, main_v124, main_v125, main_v126, main_v127, main_v128, main_v129, main_v130]
theorem ops9_writes : (ops9 : List (HloOp τ sig (Elt F))).Forall fun op => op.writes ⊆ (ops9_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val9_keep (V : Valuation τ sig (Elt F)) (r : Ref sig .tc) (h : r ∉ ops9_W) :
    val9 V (Proc.devRef .tc r) = val8 V (Proc.devRef .tc r) :=
  after_of_writes_sub ops9 _ ops9_writes h
theorem val9_arg (V : Valuation τ sig (Elt F)) : ∀ r ∈ args, val9 V (Proc.devRef .tc r) = V (Proc.devRef .tc r) :=
  keep_args ops9_writes (by decide) (val8_arg V)
theorem val9_main_v10 (V : Valuation τ sig (Elt F)) : val9 V (no_index (Proc.devRef .tc main_v10)) = Stages.val_main_v10 (F := F) (X1 V) :=
  (val9_keep V main_v10 (by decide)).trans (val8_main_v10 V)
theorem val9_main_v95 (V : Valuation τ sig (Elt F)) : val9 V (no_index (Proc.devRef .tc main_v95)) = Stages.val_main_v95 (F := F) (X0 V) (X1 V) (X2 V) (X3 V) (X4 V) (X5 V) (X6 V) (X7 V) (X8 V) (X9 V) :=
  (val9_keep V main_v95 (by decide)).trans (val8_main_v95 V)
set_option maxRecDepth 8192 in
set_option maxHeartbeats 2000000 in
theorem val9_main_v120 (V : Valuation τ sig (Elt F)) : val9 V (no_index (Proc.devRef .tc main_v120)) = Stages.val_main_v120 (F := F) (X0 V) (X1 V) (X2 V) (X3 V) (X4 V) (X5 V) (X6 V) (X7 V) (X8 V) (X9 V) := by
  unfold val9
  simp only [ops9]
  after_results_simp
  try rw [val8_arg V main_arg3 (by decide)]
  try rw [val8_arg V main_arg2 (by decide)]
  try rw [val8_main_v109]
  try rw [val8_main_v102]
  all_goals rfl
set_option maxRecDepth 8192 in
set_option maxHeartbeats 2000000 in
theorem val9_main_v130 (V : Valuation τ sig (Elt F)) : val9 V (no_index (Proc.devRef .tc main_v130)) = Stages.val_main_v130 (F := F) (X0 V) (X1 V) (X2 V) (X3 V) (X4 V) (X5 V) (X6 V) (X7 V) (X8 V) (X9 V) := by
  unfold val9
  simp only [ops9]
  after_results_simp
  try rw [val8_arg V main_arg5 (by decide)]
  try rw [val8_arg V main_arg4 (by decide)]
  try rw [val8_main_v109]
  try rw [val8_main_v102]
  all_goals rfl

def val10 (V : Valuation τ sig (Elt F)) : Valuation τ sig (Elt F) := after ops10 (val9 V)
abbrev ops10_W : List (Ref sig .tc) := [main_v131, main_cst_12, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_cst_13, main_v162, main_v163]
theorem ops10_writes : (ops10 : List (HloOp τ sig (Elt F))).Forall fun op => op.writes ⊆ (ops10_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val10_keep (V : Valuation τ sig (Elt F)) (r : Ref sig .tc) (h : r ∉ ops10_W) :
    val10 V (Proc.devRef .tc r) = val9 V (Proc.devRef .tc r) :=
  after_of_writes_sub ops10 _ ops10_writes h
theorem val10_arg (V : Valuation τ sig (Elt F)) : ∀ r ∈ args, val10 V (Proc.devRef .tc r) = V (Proc.devRef .tc r) :=
  keep_args ops10_writes (by decide) (val9_arg V)
theorem val10_main_v95 (V : Valuation τ sig (Elt F)) : val10 V (no_index (Proc.devRef .tc main_v95)) = Stages.val_main_v95 (F := F) (X0 V) (X1 V) (X2 V) (X3 V) (X4 V) (X5 V) (X6 V) (X7 V) (X8 V) (X9 V) :=
  (val10_keep V main_v95 (by decide)).trans (val9_main_v95 V)
set_option maxRecDepth 8192 in
set_option maxHeartbeats 2000000 in
theorem val10_main_v154 (V : Valuation τ sig (Elt F)) : val10 V (no_index (Proc.devRef .tc main_v154)) = Stages.val_main_v154 (F := F) (X0 V) (X1 V) (X2 V) (X3 V) (X4 V) (X5 V) (X6 V) (X7 V) (X8 V) (X9 V) := by
  unfold val10
  simp only [ops10]
  after_results_simp
  try rw [val9_arg V main_arg8 (by decide)]
  try rw [val9_arg V main_arg6 (by decide)]
  try rw [val9_main_v130]
  try rw [val9_main_v120]
  try rw [val9_main_v10]
  all_goals rfl
set_option maxRecDepth 8192 in
set_option maxHeartbeats 2000000 in
theorem val10_main_v155 (V : Valuation τ sig (Elt F)) : val10 V (no_index (Proc.devRef .tc main_v155)) = Stages.val_main_v155 (F := F) (X0 V) (X1 V) (X2 V) (X3 V) (X4 V) (X5 V) (X6 V) (X7 V) (X8 V) (X9 V) := by
  unfold val10
  simp only [ops10]
  after_results_simp
  try rw [val9_arg V main_arg8 (by decide)]
  try rw [val9_arg V main_arg6 (by decide)]
  try rw [val9_main_v130]
  try rw [val9_main_v120]
  try rw [val9_main_v10]
  all_goals rfl
set_option maxRecDepth 8192 in
set_option maxHeartbeats 2000000 in
theorem val10_main_v157 (V : Valuation τ sig (Elt F)) : val10 V (no_index (Proc.devRef .tc main_v157)) = Stages.val_main_v157 (F := F) (X0 V) (X1 V) (X2 V) (X3 V) (X4 V) (X5 V) (X6 V) (X7 V) (X8 V) (X9 V) := by
  unfold val10
  simp only [ops10]
  after_results_simp
  try rw [val9_arg V main_arg9 (by decide)]
  try rw [val9_arg V main_arg7 (by decide)]
  try rw [val9_main_v95]
  all_goals rfl
set_option maxRecDepth 8192 in
set_option maxHeartbeats 2000000 in
theorem val10_main_v158 (V : Valuation τ sig (Elt F)) : val10 V (no_index (Proc.devRef .tc main_v158)) = Stages.val_main_v158 (F := F) (X0 V) (X1 V) (X2 V) (X3 V) (X4 V) (X5 V) (X6 V) (X7 V) (X8 V) (X9 V) := by
  unfold val10
  simp only [ops10]
  after_results_simp
  try rw [val9_arg V main_arg9 (by decide)]
  try rw [val9_arg V main_arg7 (by decide)]
  try rw [val9_main_v95]
  all_goals rfl
set_option maxRecDepth 8192 in
set_option maxHeartbeats 2000000 in
theorem val10_main_v163 (V : Valuation τ sig (Elt F)) : val10 V (no_index (Proc.devRef .tc main_v163)) = Stages.val_main_v163 (F := F) (X0 V) (X1 V) (X2 V) (X3 V) (X4 V) (X5 V) (X6 V) (X7 V) (X8 V) (X9 V) := by
  unfold val10
  simp only [ops10]
  after_results_simp
  try rw [val9_arg V main_arg9 (by decide)]
  try rw [val9_arg V main_arg7 (by decide)]
  try rw [val9_main_v95]
  try rw [val9_arg V main_arg8 (by decide)]
  try rw [val9_arg V main_arg6 (by decide)]
  try rw [val9_main_v130]
  try rw [val9_main_v120]
  try rw [val9_main_v10]
  all_goals rfl

def val11 (V : Valuation τ sig (Elt F)) : Valuation τ sig (Elt F) := after ops11 (val10 V)
abbrev ops11_W : List (Ref sig .tc) := [main_cst_14, main_v164, main_v165, main_v166, main_v167, main_v168, main_cst_15, main_v169, main_v170, main_cst_16, main_v171, main_v172, main_v173, main_v174, main_v175, main_cst_17, main_v176, main_v177, main_v178, main_v179, main_v180, main_call0_v0, main_call0_cst, main_call0_v1, main_call0_v2, main_v181]
theorem ops11_writes : (ops11 : List (HloOp τ sig (Elt F))).Forall fun op => op.writes ⊆ (ops11_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val11_keep (V : Valuation τ sig (Elt F)) (r : Ref sig .tc) (h : r ∉ ops11_W) :
    val11 V (Proc.devRef .tc r) = val10 V (Proc.devRef .tc r) :=
  after_of_writes_sub ops11 _ ops11_writes h
theorem val11_arg (V : Valuation τ sig (Elt F)) : ∀ r ∈ args, val11 V (Proc.devRef .tc r) = V (Proc.devRef .tc r) :=
  keep_args ops11_writes (by decide) (val10_arg V)
set_option maxRecDepth 8192 in
set_option maxHeartbeats 2000000 in
theorem val11_main_v180 (V : Valuation τ sig (Elt F)) : val11 V (no_index (Proc.devRef .tc main_v180)) = Stages.val_main_v180 (F := F) (X0 V) (X1 V) (X2 V) (X3 V) (X4 V) (X5 V) (X6 V) (X7 V) (X8 V) (X9 V) := by
  unfold val11
  simp only [ops11]
  after_results_simp
  try rw [val10_main_v95]
  try rw [val10_main_v157]
  try rw [val10_main_v154]
  try rw [val10_main_v158]
  try rw [val10_main_v163]
  try rw [val10_main_v155]
  all_goals rfl
set_option maxRecDepth 8192 in
set_option maxHeartbeats 2000000 in
theorem val11_main_v181 (V : Valuation τ sig (Elt F)) : val11 V (no_index (Proc.devRef .tc main_v181)) = Stages.val_main_v181 (F := F) (X0 V) (X1 V) (X2 V) (X3 V) (X4 V) (X5 V) (X6 V) (X7 V) (X8 V) (X9 V) := by
  unfold val11
  simp only [ops11]
  after_results_simp
  try rw [val10_main_v95]
  try rw [val10_main_v157]
  try rw [val10_main_v154]
  try rw [val10_main_v158]
  try rw [val10_main_v163]
  try rw [val10_main_v155]
  all_goals rfl

def val12 (V : Valuation τ sig (Elt F)) : Valuation τ sig (Elt F) := after ops12 (val11 V)
abbrev ops12_W : List (Ref sig .tc) := [main_cst_18, main_v182, main_v183, main_v184, main_v185, main_v186, main_v187, main_v188, main_v189, main_v190, main_v191, main_v192, main_v193, main_v194, main_v195, main_v196, main_v197, main_cst_19, main_v198, main_v199, main_cst_20, main_v200, main_v201, main_v202, main_v203, main_v204, main_cst_21, main_v205, main_call1_v0, main_call1_cst, main_call1_v1, main_call1_v2, main_v206, main_cst_22, main_v207, main_v208, main_v209, main_v210, main_v211, main_v212, main_v213, main_v214]
theorem ops12_writes : (ops12 : List (HloOp τ sig (Elt F))).Forall fun op => op.writes ⊆ (ops12_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val12_keep (V : Valuation τ sig (Elt F)) (r : Ref sig .tc) (h : r ∉ ops12_W) :
    val12 V (Proc.devRef .tc r) = val11 V (Proc.devRef .tc r) :=
  after_of_writes_sub ops12 _ ops12_writes h
theorem val12_arg (V : Valuation τ sig (Elt F)) : ∀ r ∈ args, val12 V (Proc.devRef .tc r) = V (Proc.devRef .tc r) :=
  keep_args ops12_writes (by decide) (val11_arg V)
set_option maxRecDepth 8192 in
set_option maxHeartbeats 2000000 in
theorem val12_main_v185 (V : Valuation τ sig (Elt F)) : val12 V (no_index (Proc.devRef .tc main_v185)) = Stages.val_main_v185 (F := F) (X0 V) (X1 V) (X2 V) (X3 V) (X4 V) (X5 V) (X6 V) (X7 V) (X8 V) (X9 V) := by
  unfold val12
  simp only [ops12]
  after_results_simp
  try rw [val11_main_v181]
  try rw [val11_main_v180]
  all_goals rfl
set_option maxRecDepth 8192 in
set_option maxHeartbeats 2000000 in
theorem val12_main_v210 (V : Valuation τ sig (Elt F)) : val12 V (no_index (Proc.devRef .tc main_v210)) = Stages.val_main_v210 (F := F) (X0 V) (X1 V) (X2 V) (X3 V) (X4 V) (X5 V) (X6 V) (X7 V) (X8 V) (X9 V) (X10 V) (X11 V) (X12 V) (X13 V) := by
  unfold val12
  simp only [ops12]
  after_results_simp
  try rw [val11_arg V main_arg13 (by decide)]
  try rw [val11_arg V main_arg12 (by decide)]
  try rw [val11_main_v181]
  try rw [val11_main_v180]
  try rw [val11_arg V main_arg11 (by decide)]
  try rw [val11_arg V main_arg10 (by decide)]
  all_goals rfl
set_option maxRecDepth 8192 in
set_option maxHeartbeats 2000000 in
theorem val12_main_v212 (V : Valuation τ sig (Elt F)) : val12 V (no_index (Proc.devRef .tc main_v212)) = Stages.val_main_v212 (F := F) (X0 V) (X1 V) (X2 V) (X3 V) (X4 V) (X5 V) (X6 V) (X7 V) (X8 V) (X9 V) (X14 V) := by
  unfold val12
  simp only [ops12]
  after_results_simp
  try rw [val11_arg V main_arg14 (by decide)]
  try rw [val11_main_v181]
  try rw [val11_main_v180]
  all_goals rfl
set_option maxRecDepth 8192 in
set_option maxHeartbeats 2000000 in
theorem val12_main_v214 (V : Valuation τ sig (Elt F)) : val12 V (no_index (Proc.devRef .tc main_v214)) = Stages.val_main_v214 (F := F) (X15 V) := by
  unfold val12
  simp only [ops12]
  after_results_simp
  try rw [val11_arg V main_arg15 (by decide)]
  all_goals rfl

def val13 (V : Valuation τ sig (Elt F)) : Valuation τ sig (Elt F) := after ops13 (val12 V)
abbrev ops13_W : List (Ref sig .tc) := [main_v215, main_v216, main_v217, main_v218, main_v219, main_v220, main_v221, main_v222, main_cst_23, main_v223, main_v224, main_cst_24, main_v225, main_v226, main_v227, main_v228, main_v229, main_cst_25, main_v230, main_call2_v0, main_call2_cst, main_call2_v1, main_call2_v2, main_v231, main_cst_26, main_v232, main_v233, main_v234, main_v235, main_v236]
theorem ops13_writes : (ops13 : List (HloOp τ sig (Elt F))).Forall fun op => op.writes ⊆ (ops13_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
theorem val13_keep (V : Valuation τ sig (Elt F)) (r : Ref sig .tc) (h : r ∉ ops13_W) :
    val13 V (Proc.devRef .tc r) = val12 V (Proc.devRef .tc r) :=
  after_of_writes_sub ops13 _ ops13_writes h
theorem val13_arg (V : Valuation τ sig (Elt F)) : ∀ r ∈ args, val13 V (Proc.devRef .tc r) = V (Proc.devRef .tc r) :=
  keep_args ops13_writes (by decide) (val12_arg V)
theorem val13_main_v210 (V : Valuation τ sig (Elt F)) : val13 V (no_index (Proc.devRef .tc main_v210)) = Stages.val_main_v210 (F := F) (X0 V) (X1 V) (X2 V) (X3 V) (X4 V) (X5 V) (X6 V) (X7 V) (X8 V) (X9 V) (X10 V) (X11 V) (X12 V) (X13 V) :=
  (val13_keep V main_v210 (by decide)).trans (val12_main_v210 V)
set_option maxRecDepth 8192 in
set_option maxHeartbeats 2000000 in
theorem val13_main_v235 (V : Valuation τ sig (Elt F)) : val13 V (no_index (Proc.devRef .tc main_v235)) = Stages.val_main_v235 (F := F) (X0 V) (X1 V) (X2 V) (X3 V) (X4 V) (X5 V) (X6 V) (X7 V) (X8 V) (X9 V) (X14 V) (X15 V) (X16 V) (X17 V) := by
  unfold val13
  simp only [ops13]
  after_results_simp
  try rw [val12_arg V main_arg17 (by decide)]
  try rw [val12_arg V main_arg16 (by decide)]
  try rw [val12_main_v185]
  try rw [val12_main_v214]
  try rw [val12_main_v212]
  all_goals rfl
set_option maxRecDepth 8192 in
set_option maxHeartbeats 2000000 in
theorem val13_main_v236 (V : Valuation τ sig (Elt F)) : val13 V (no_index (Proc.devRef .tc main_v236)) = Stages.val_main_v236 (F := F) (X0 V) (X1 V) (X2 V) (X3 V) (X4 V) (X5 V) (X6 V) (X7 V) (X8 V) (X9 V) := by
  unfold val13
  simp only [ops13]
  after_results_simp
  try rw [val12_main_v185]
  all_goals rfl

theorem after_ops (V : Valuation τ sig (Elt F)) : after ops V = val13 V := by
  simp only [ops, after_append]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v236) = Stages.val_main_v236 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v210) = Stages.val_main_v210 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v235) = Stages.val_main_v235 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v236).trans (by simp only [after_ops]; exact val13_main_v236 (launchContents m c)),
      (h c main_v210).trans (by simp only [after_ops]; exact val13_main_v210 (launchContents m c)),
      (h c main_v235).trans (by simp only [after_ops]; exact val13_main_v235 (launchContents m c)),
      (h c main_arg0).trans (by simp only [after_ops]; exact val13_arg (launchContents m c) main_arg0 (by decide)),
      (h c main_arg1).trans (by simp only [after_ops]; exact val13_arg (launchContents m c) main_arg1 (by decide)),
      (h c main_arg2).trans (by simp only [after_ops]; exact val13_arg (launchContents m c) main_arg2 (by decide)),
      (h c main_arg3).trans (by simp only [after_ops]; exact val13_arg (launchContents m c) main_arg3 (by decide)),
      (h c main_arg4).trans (by simp only [after_ops]; exact val13_arg (launchContents m c) main_arg4 (by decide)),
      (h c main_arg5).trans (by simp only [after_ops]; exact val13_arg (launchContents m c) main_arg5 (by decide)),
      (h c main_arg6).trans (by simp only [after_ops]; exact val13_arg (launchContents m c) main_arg6 (by decide)),
      (h c main_arg7).trans (by simp only [after_ops]; exact val13_arg (launchContents m c) main_arg7 (by decide)),
      (h c main_arg8).trans (by simp only [after_ops]; exact val13_arg (launchContents m c) main_arg8 (by decide)),
      (h c main_arg9).trans (by simp only [after_ops]; exact val13_arg (launchContents m c) main_arg9 (by decide)),
      (h c main_arg10).trans (by simp only [after_ops]; exact val13_arg (launchContents m c) main_arg10 (by decide)),
      (h c main_arg11).trans (by simp only [after_ops]; exact val13_arg (launchContents m c) main_arg11 (by decide)),
      (h c main_arg12).trans (by simp only [after_ops]; exact val13_arg (launchContents m c) main_arg12 (by decide)),
      (h c main_arg13).trans (by simp only [after_ops]; exact val13_arg (launchContents m c) main_arg13 (by decide)),
      (h c main_arg14).trans (by simp only [after_ops]; exact val13_arg (launchContents m c) main_arg14 (by decide)),
      (h c main_arg15).trans (by simp only [after_ops]; exact val13_arg (launchContents m c) main_arg15 (by decide)),
      (h c main_arg16).trans (by simp only [after_ops]; exact val13_arg (launchContents m c) main_arg16 (by decide)),
      (h c main_arg17).trans (by simp only [after_ops]; exact val13_arg (launchContents m c) main_arg17 (by decide))⟩)
    (run_seq scopedRefs_eq scopedSems_eq defs main (fun _ => ops) main_eq (fun _ => ops_sub) m ρ (fun _ => ops_fresh))

end Cert.ReferenceIdeal.RefRun

end
-- ==== Proof.RefLayer1.lean ====
import proofs.«425588_j41618233098847_3_alg».proof.Proof.Spec
import proofs.«425588_j41618233098847_3_alg».proof.Proof.LibSums
import proofs.«425588_j41618233098847_3_alg».proof.Proof.KAgg
import proofs.«425588_j41618233098847_3_alg».proof.Proof.RefStages

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Rows

abbrev FV (s : Shape) : Type := FVec Ideal s .f32
abbrev IV (s : Shape) : Type := IVec s 32

def startCol (w : IV S524288) : IV S524288x1 :=
  broadcastInDim S524288x1 ![0] bcast_S524288_S524288x1_0
    (select (cmpi .slt w (broadcastInDim S524288 ![] bcast_S_S524288 (constantI S_ 32 0#32)))
      (addi w (broadcastInDim S524288 ![] bcast_S_S524288 (constantI S_ 32 32768#32))) w)

def taken (h : FV S32768x128) (w : IV S524288) : FV S524288x128 :=
  Host.gather gather_S32768x128_S524288x1_S524288x128_1_0_n_n_0_1_1128 h (startCol w)

def paired (h : FV S32768x128) (ws wt : IV S524288) : FV S524288x256 :=
  concatenate S524288x256 1 [⟨S524288x128, taken h ws⟩, ⟨S524288x128, taken h wt⟩]
    concatenates_S524288x128_S524288x128_S524288x256_d1

def messages (h : FV S32768x128) (ws wt : IV S524288) (wm wr : FV S256x256) (bm br : FV S262144x256) :
    FV S524288x256 :=
  concatenate S524288x256 0
    [⟨S262144x256, addf (F := Ideal) (Host.dotGeneral (F := Ideal) dot_S262144x256_S256x256_S262144x256_1_0_0_1_n_n none
        (extractStridedSlice S262144x256 ![0, 0] (paired h ws wt) slices_S524288x256_S262144x256_0_0) wm) bm⟩,
     ⟨S262144x256, addf (F := Ideal) (Host.dotGeneral (F := Ideal) dot_S262144x256_S256x256_S262144x256_1_0_0_1_n_n none
        (extractStridedSlice S262144x256 ![262144, 0] (paired h ws wt) slices_S524288x256_S262144x256_262144_0) wr) br⟩]
    concatenates_S262144x256_S262144x256_S524288x256_d0

def summed (h : FV S32768x128) (ws wt : IV S524288) (wm wr : FV S256x256) (bm br : FV S262144x256) :
    FV S32768x256 :=
  Host.scatterAdd (F := Ideal) scatter_S32768x256_S524288x1_S524288x256_1_0_0_1
    (broadcastInDim S32768x256 ![] bcast_S_S32768x256 (constant (F := Ideal) S_ .f32 0x00000000#32))
    (broadcastInDim S524288x1 ![0] bcast_S524288_S524288x1_0 wt)
    (messages h ws wt wm wr bm br)

def ones : FV S32768x128 := broadcastInDim S32768x128 ![] bcast_S_S32768x128 (constant (F := Ideal) S_ .f32 0x3F800000#32)

def cell (g : FV S32768x256) (h : FV S32768x128) (wih : FV S256x384) (bih : FV S32768x384) (whh : FV S128x384)
    (bhh : FV S32768x384) : FV S32768x128 :=
  let gi : FV S32768x384 := addf (F := Ideal) (Host.dotGeneral (F := Ideal) dot_S32768x256_S256x384_S32768x384_1_0_0_1_n_n none g wih) bih
  let gh : FV S32768x384 := addf (F := Ideal) (Host.dotGeneral (F := Ideal) dot_S32768x128_S128x384_S32768x384_1_0_0_1_n_n none h whh) bhh
  let r : FV S32768x128 := Host.divf (F := Ideal) ones (addf (F := Ideal) ones (Host.exp (F := Ideal) (Host.negf (F := Ideal)
    (addf (F := Ideal) (extractStridedSlice S32768x128 ![0, 0] gi slices_S32768x384_S32768x128_0_0)
      (extractStridedSlice S32768x128 ![0, 0] gh slices_S32768x384_S32768x128_0_0)))))
  let z : FV S32768x128 := Host.divf (F := Ideal) ones (addf (F := Ideal) ones (Host.exp (F := Ideal) (Host.negf (F := Ideal)
    (addf (F := Ideal) (extractStridedSlice S32768x128 ![0, 128] gi slices_S32768x384_S32768x128_0_128)
      (extractStridedSlice S32768x128 ![0, 128] gh slices_S32768x384_S32768x128_0_128)))))
  let c : FV S32768x128 := Host.tanh (F := Ideal)
    (addf (F := Ideal) (extractStridedSlice S32768x128 ![0, 256] gi slices_S32768x384_S32768x128_0_256)
      (mulf (F := Ideal) r (extractStridedSlice S32768x128 ![0, 256] gh slices_S32768x384_S32768x128_0_256)))
  addf (F := Ideal) (mulf (F := Ideal) (subf (F := Ideal) ones z) c) (mulf (F := Ideal) z h)

theorem main_v95_eq (x0 : FV S256x128x128) (x1 : IV S2x262144) (x2 : FV S2x256x256) (x3 : FV S2x256)
    (x4 : FV S2x256x256) (x5 : FV S2x256) (x6 : FV S2x384x256) (x7 : FV S2x384x128) (x8 x9 : FV S2x384) :
    Stages.val_main_v95 (F := Ideal) x0 x1 x2 x3 x4 x5 x6 x7 x8 x9
      = cell (summed (Stages.val_main_v0 (F := Ideal) x0) (Stages.val_main_v5 (F := Ideal) x1)
            (Stages.val_main_v10 (F := Ideal) x1) (Stages.val_main_v29 (F := Ideal) x2)
            (Stages.val_main_v39 (F := Ideal) x4) (Stages.val_main_v34 (F := Ideal) x3)
            (Stages.val_main_v44 (F := Ideal) x5))
          (Stages.val_main_v0 (F := Ideal) x0) (Stages.val_main_v52 (F := Ideal) x6)
          (Stages.val_main_v57 (F := Ideal) x8) (Stages.val_main_v61 (F := Ideal) x7)
          (Stages.val_main_v66 (F := Ideal) x9) := rfl

theorem addf_at {s : Shape} (x y : FV s) (i : s.Idx) : addf (F := Ideal) x y i = x i + y i := rfl
theorem mulf_at {s : Shape} (x y : FV s) (i : s.Idx) : mulf (F := Ideal) x y i = x i * y i := rfl
theorem subf_at {s : Shape} (x y : FV s) (i : s.Idx) : subf (F := Ideal) x y i = x i - y i := rfl
theorem divf_at {s : Shape} (x y : FV s) (i : s.Idx) : Host.divf (F := Ideal) x y i = Ideal.div (x i) (y i) := rfl
theorem exp_at {s : Shape} (x : FV s) (i : s.Idx) : Host.exp (F := Ideal) x i = Ideal.exp (x i) := rfl
theorem negf_at {s : Shape} (x : FV s) (i : s.Idx) : Host.negf (F := Ideal) x i = -(x i) := rfl
theorem tanh_at {s : Shape} (x : FV s) (i : s.Idx) : Host.tanh (F := Ideal) x i = Ideal.tanh (x i) := rfl

theorem ones_at (i : S32768x128.Idx) : ones i = 1 := by
  show Ideal.ofBits .f32 0x3F800000#32 = 1
  exact ofBits_f32_one

theorem wrap_read (w : BitVec 32) :
    Scalar.select (IntOp.cmpi .slt w 0#32) (IntOp.addi w 32768#32) w = Spec.wrap w := by
  show (if BitVec.ofBool (w.slt 0#32) = 1 then w + 32768#32 else w) = if w.toInt < 0 then w + 32768#32 else w
  by_cases h : w.toInt < 0
  · have hs : w.slt 0#32 = true := by simp [BitVec.slt, h]
    rw [hs, if_pos h]; rfl
  · have hs : w.slt 0#32 = false := by simp [BitVec.slt, h]
    rw [hs, if_neg h]; rfl

theorem startCol_apply (w : IV S524288) (e : Fin 524288) :
    startCol w (ix2 e ⟨0, Nat.one_pos⟩) = Spec.wrap (w (ix1 e)) := by
  unfold startCol
  rw [broadcastInDim_apply _ bcast_S524288_S524288x1_0 _ (ix2 e ⟨0, Nat.one_pos⟩) (ix1 e)
    (fun a => match a with
      | ⟨0, _⟩ => by show e.val = if (524288 : Nat) = 1 then 0 else e.val; rw [if_neg (by decide)])]
  exact wrap_read _

theorem gatherDims_eq : gather_S32768x128_S524288x1_S524288x128_1_0_n_n_0_1_1128
    = rowGatherDims 32768 524288 128 gather_S32768x128_S524288x1_S524288x128_1_0_n_n_0_1_1128_wf := rfl

theorem scatterDims_eq : scatter_S32768x256_S524288x1_S524288x256_1_0_0_1
    = rowScatterDims 32768 524288 256 scatter_S32768x256_S524288x1_S524288x256_1_0_0_1_wf := rfl

theorem taken_apply (h : FV S32768x128) (w : IV S524288) (e : Fin 524288) (k : Fin 128) :
    taken h w (ix2 e k) = h (ix2 (Spec.row (w (ix1 e))) k) := by
  unfold taken
  rw [gatherDims_eq, gather_rows_apply (by decide : 0 < 32768)]
  show h (ix2 (grow 32768 _ (startCol w (ix2 e ⟨0, Nat.one_pos⟩))) k) = _
  rw [startCol_apply]
  rfl

theorem paired_left (h : FV S32768x128) (ws wt : IV S524288) (e : Fin 524288) (k : Fin 128) :
    paired h ws wt (ix2 e ⟨k.val, by have := k.isLt; omega⟩) = taken h ws (ix2 e k) := by
  unfold paired
  exact concatenate_pair_apply_left (t := S524288x256) (s₁ := S524288x128) (s₂ := S524288x128) 1 _ _
    concatenates_S524288x128_S524288x128_S524288x256_d1 _ rfl _ (fun b => by
      match b with
      | ⟨0, _⟩ => rfl
      | ⟨1, _⟩ => rfl)

theorem paired_right (h : FV S32768x128) (ws wt : IV S524288) (e : Fin 524288) (k : Fin 128) :
    paired h ws wt (ix2 e ⟨128 + k.val, by have := k.isLt; omega⟩) = taken h wt (ix2 e k) := by
  unfold paired
  exact concatenate_pair_apply_right (t := S524288x256) (s₁ := S524288x128) (s₂ := S524288x128) 1 _ _
    concatenates_S524288x128_S524288x128_S524288x256_d1 _ rfl rfl _
    (fun b hb => by
      match b with
      | ⟨0, _⟩ => rfl
      | ⟨1, _⟩ => exact absurd rfl hb)
    (by show k.val + 128 = 128 + k.val; omega)

theorem dotMsg_apply (y0 : FV S262144x256) (y1 : FV S256x256) (e : Fin 262144) (o : Fin 256) :
    Host.dotGeneral (F := Ideal) dot_S262144x256_S256x256_S262144x256_1_0_0_1_n_n none y0 y1 (ix2 e o)
      = ∑ k : Fin 256, y0 (ix2 e k) * y1 (ix2 k o) := by
  simp only [Host.dotGeneral]
  rw [Ideal.dotGeneral_apply,
    ← Equiv.sum_comp (ValueIdx.contrEquiv1 dot_S262144x256_S256x256_S262144x256_1_0_0_1_n_n 256 rfl rfl).symm]
  refine Finset.sum_congr rfl fun k _ => ?_
  have hk := ValueIdx.contrEquiv1_symm_val dot_S262144x256_S256x256_S262144x256_1_0_0_1_n_n 256 rfl rfl k
  have el : dot_S262144x256_S256x256_S262144x256_1_0_0_1_n_n.lhsIdx (ix2 e o)
      ((ValueIdx.contrEquiv1 dot_S262144x256_S256x256_S262144x256_1_0_0_1_n_n 256 rfl rfl).symm k) = ix2 e k :=
    funext fun a => Fin.ext (by
      match a with
      | ⟨0, _⟩ => exact Stages.lhs_main_v30_0 _ _
      | ⟨1, _⟩ => exact (Stages.lhs_main_v30_1 _ _).trans hk)
  have er : dot_S262144x256_S256x256_S262144x256_1_0_0_1_n_n.rhsIdx (ix2 e o)
      ((ValueIdx.contrEquiv1 dot_S262144x256_S256x256_S262144x256_1_0_0_1_n_n 256 rfl rfl).symm k) = ix2 k o :=
    funext fun a => Fin.ext (by
      match a with
      | ⟨0, _⟩ => exact (Stages.rhs_main_v30_0 _ _).trans hk
      | ⟨1, _⟩ => exact Stages.rhs_main_v30_1 _ _)
  rw [el, er]

theorem dotIh_apply (y0 : FV S32768x256) (y1 : FV S256x384) (n : Fin 32768) (q : Fin 384) :
    Host.dotGeneral (F := Ideal) dot_S32768x256_S256x384_S32768x384_1_0_0_1_n_n none y0 y1 (ix2 n q)
      = ∑ k : Fin 256, y0 (ix2 n k) * y1 (ix2 k q) := by
  simp only [Host.dotGeneral]
  rw [Ideal.dotGeneral_apply,
    ← Equiv.sum_comp (ValueIdx.contrEquiv1 dot_S32768x256_S256x384_S32768x384_1_0_0_1_n_n 256 rfl rfl).symm]
  refine Finset.sum_congr rfl fun k _ => ?_
  have hk := ValueIdx.contrEquiv1_symm_val dot_S32768x256_S256x384_S32768x384_1_0_0_1_n_n 256 rfl rfl k
  have el : dot_S32768x256_S256x384_S32768x384_1_0_0_1_n_n.lhsIdx (ix2 n q)
      ((ValueIdx.contrEquiv1 dot_S32768x256_S256x384_S32768x384_1_0_0_1_n_n 256 rfl rfl).symm k) = ix2 n k :=
    funext fun a => Fin.ext (by
      match a with
      | ⟨0, _⟩ => exact Stages.lhs_main_v53_0 _ _
      | ⟨1, _⟩ => exact (Stages.lhs_main_v53_1 _ _).trans hk)
  have er : dot_S32768x256_S256x384_S32768x384_1_0_0_1_n_n.rhsIdx (ix2 n q)
      ((ValueIdx.contrEquiv1 dot_S32768x256_S256x384_S32768x384_1_0_0_1_n_n 256 rfl rfl).symm k) = ix2 k q :=
    funext fun a => Fin.ext (by
      match a with
      | ⟨0, _⟩ => exact (Stages.rhs_main_v53_0 _ _).trans hk
      | ⟨1, _⟩ => exact Stages.rhs_main_v53_1 _ _)
  rw [el, er]

theorem dotHh_apply (y0 : FV S32768x128) (y1 : FV S128x384) (n : Fin 32768) (q : Fin 384) :
    Host.dotGeneral (F := Ideal) dot_S32768x128_S128x384_S32768x384_1_0_0_1_n_n none y0 y1 (ix2 n q)
      = ∑ k : Fin 128, y0 (ix2 n k) * y1 (ix2 k q) := by
  simp only [Host.dotGeneral]
  rw [Ideal.dotGeneral_apply,
    ← Equiv.sum_comp (ValueIdx.contrEquiv1 dot_S32768x128_S128x384_S32768x384_1_0_0_1_n_n 128 rfl rfl).symm]
  refine Finset.sum_congr rfl fun k _ => ?_
  have hk := ValueIdx.contrEquiv1_symm_val dot_S32768x128_S128x384_S32768x384_1_0_0_1_n_n 128 rfl rfl k
  have el : dot_S32768x128_S128x384_S32768x384_1_0_0_1_n_n.lhsIdx (ix2 n q)
      ((ValueIdx.contrEquiv1 dot_S32768x128_S128x384_S32768x384_1_0_0_1_n_n 128 rfl rfl).symm k) = ix2 n k :=
    funext fun a => Fin.ext (by
      match a with
      | ⟨0, _⟩ => exact Stages.lhs_main_v62_0 _ _
      | ⟨1, _⟩ => exact (Stages.lhs_main_v62_1 _ _).trans hk)
  have er : dot_S32768x128_S128x384_S32768x384_1_0_0_1_n_n.rhsIdx (ix2 n q)
      ((ValueIdx.contrEquiv1 dot_S32768x128_S128x384_S32768x384_1_0_0_1_n_n 128 rfl rfl).symm k) = ix2 k q :=
    funext fun a => Fin.ext (by
      match a with
      | ⟨0, _⟩ => exact (Stages.rhs_main_v62_0 _ _).trans hk
      | ⟨1, _⟩ => exact Stages.rhs_main_v62_1 _ _)
  rw [el, er]

theorem messages_fwd (h : FV S32768x128) (ws wt : IV S524288) (wm wr : FV S256x256) (bm br : FV S262144x256)
    (e : Fin 262144) (o : Fin 256) :
    messages h ws wt wm wr bm br (ix2 ⟨e.val, by have := e.isLt; omega⟩ o)
      = (∑ k : Fin 256, paired h ws wt (ix2 ⟨e.val, by have := e.isLt; omega⟩ k) * wm (ix2 k o)) + bm (ix2 e o) := by
  unfold messages
  refine (concatenate_pair_apply_left (t := S524288x256) (s₁ := S262144x256) (s₂ := S262144x256) 0 _ _
    concatenates_S262144x256_S262144x256_S524288x256_d0 _ rfl (ix2 e o) (fun b => by
      match b with
      | ⟨0, _⟩ => rfl
      | ⟨1, _⟩ => rfl)).trans ?_
  rw [addf_at, dotMsg_apply]
  refine congrArg (· + bm (ix2 e o)) (Finset.sum_congr rfl fun k _ => ?_)
  refine congrArg (· * wm (ix2 k o)) ?_
  exact extractStridedSlice_apply (s := S524288x256) (t := S262144x256) ![0, 0] (paired h ws wt)
    slices_S524288x256_S262144x256_0_0 (ix2 e k) (ix2 ⟨e.val, by have := e.isLt; omega⟩ k) (fun a => match a with
    | ⟨0, _⟩ => by show e.val = 0 + e.val; omega
    | ⟨1, _⟩ => by show k.val = 0 + k.val; omega)

theorem messages_rev (h : FV S32768x128) (ws wt : IV S524288) (wm wr : FV S256x256) (bm br : FV S262144x256)
    (e : Fin 262144) (o : Fin 256) :
    messages h ws wt wm wr bm br (ix2 ⟨262144 + e.val, by have := e.isLt; omega⟩ o)
      = (∑ k : Fin 256, paired h ws wt (ix2 ⟨262144 + e.val, by have := e.isLt; omega⟩ k) * wr (ix2 k o))
        + br (ix2 e o) := by
  unfold messages
  refine (concatenate_pair_apply_right (t := S524288x256) (s₁ := S262144x256) (s₂ := S262144x256) 0 _ _
    concatenates_S262144x256_S262144x256_S524288x256_d0 _ rfl rfl (ix2 e o)
    (fun b hb => by
      match b with
      | ⟨0, _⟩ => exact absurd rfl hb
      | ⟨1, _⟩ => rfl)
    (by show e.val + 262144 = 262144 + e.val; omega)).trans ?_
  rw [addf_at, dotMsg_apply]
  refine congrArg (· + br (ix2 e o)) (Finset.sum_congr rfl fun k _ => ?_)
  refine congrArg (· * wr (ix2 k o)) ?_
  exact extractStridedSlice_apply (s := S524288x256) (t := S262144x256) ![262144, 0] (paired h ws wt)
    slices_S524288x256_S262144x256_262144_0 (ix2 e k) (ix2 ⟨262144 + e.val, by have := e.isLt; omega⟩ k)
    (fun a => match a with
    | ⟨0, _⟩ => rfl
    | ⟨1, _⟩ => by show k.val = 0 + k.val; omega)

theorem summed_apply (h : FV S32768x128) (ws wt : IV S524288) (wm wr : FV S256x256) (bm br : FV S262144x256)
    (v : Fin 32768) (o : Fin 256) :
    summed h ws wt wm wr bm br (ix2 v o)
      = 0 + ∑ e : Fin 524288, if srow 32768 (wt (ix1 e)) = some v then messages h ws wt wm wr bm br (ix2 e o) else 0 := by
  unfold summed
  rw [scatterDims_eq, scatterAdd_rows_apply]
  refine congrArg₂ (· + ·) ?_ (Finset.sum_congr rfl fun e _ => ?_)
  · show Ideal.ofBits .f32 0x00000000#32 = 0
    exact ofBits_f32_zero
  · rw [broadcastInDim_apply _ bcast_S524288_S524288x1_0 wt (ix2 e ⟨0, Nat.one_pos⟩) (ix1 e)
      (fun a => match a with
        | ⟨0, _⟩ => by show e.val = if (524288 : Nat) = 1 then 0 else e.val; rw [if_neg (by decide)])]

theorem gate0_apply (x : FV S32768x384) (n : Fin 32768) (j : Fin 128) :
    extractStridedSlice S32768x128 ![0, 0] x slices_S32768x384_S32768x128_0_0 (ix2 n j)
      = x (ix2 n ⟨j.val, by have := j.isLt; omega⟩) :=
  extractStridedSlice_apply (s := S32768x384) (t := S32768x128) ![0, 0] x slices_S32768x384_S32768x128_0_0 (ix2 n j)
    (ix2 n ⟨j.val, by have := j.isLt; omega⟩) (fun a => match a with
    | ⟨0, _⟩ => by show n.val = 0 + n.val; omega
    | ⟨1, _⟩ => by show j.val = 0 + j.val; omega)

theorem gate1_apply (x : FV S32768x384) (n : Fin 32768) (j : Fin 128) :
    extractStridedSlice S32768x128 ![0, 128] x slices_S32768x384_S32768x128_0_128 (ix2 n j)
      = x (ix2 n ⟨128 + j.val, by have := j.isLt; omega⟩) :=
  extractStridedSlice_apply (s := S32768x384) (t := S32768x128) ![0, 128] x slices_S32768x384_S32768x128_0_128 (ix2 n j)
    (ix2 n ⟨128 + j.val, by have := j.isLt; omega⟩) (fun a => match a with
    | ⟨0, _⟩ => by show n.val = 0 + n.val; omega
    | ⟨1, _⟩ => rfl)

theorem gate2_apply (x : FV S32768x384) (n : Fin 32768) (j : Fin 128) :
    extractStridedSlice S32768x128 ![0, 256] x slices_S32768x384_S32768x128_0_256 (ix2 n j)
      = x (ix2 n ⟨256 + j.val, by have := j.isLt; omega⟩) :=
  extractStridedSlice_apply (s := S32768x384) (t := S32768x128) ![0, 256] x slices_S32768x384_S32768x128_0_256 (ix2 n j)
    (ix2 n ⟨256 + j.val, by have := j.isLt; omega⟩) (fun a => match a with
    | ⟨0, _⟩ => by show n.val = 0 + n.val; omega
    | ⟨1, _⟩ => rfl)

theorem cell_apply (g : FV S32768x256) (h : FV S32768x128) (wih : FV S256x384) (bih : FV S32768x384)
    (whh : FV S128x384) (bhh : FV S32768x384) (n : Fin 32768) (j : Fin 128) :
    cell g h wih bih whh bhh (ix2 n j)
      = Spec.gru (fun m k => g (ix2 m k)) (fun m k => h (ix2 m k)) (fun q k => wih (ix2 k q))
          (fun q k => whh (ix2 k q)) (fun q => bih (ix2 n q)) (fun q => bhh (ix2 n q)) n j := by
  unfold cell Spec.gru Ideal.logistic
  simp only [addf_at, mulf_at, subf_at, divf_at, exp_at, negf_at, tanh_at, ones_at, gate0_apply, gate1_apply,
    gate2_apply, dotIh_apply, dotHh_apply]

theorem paired_apply (h : FV S32768x128) (ws wt : IV S524288) (e : Fin 524288) (k : Fin 256) :
    paired h ws wt (ix2 e k)
      = if hk : k.val < 128 then h (ix2 (Spec.row (ws (ix1 e))) ⟨k.val, hk⟩)
        else h (ix2 (Spec.row (wt (ix1 e))) ⟨k.val - 128, by have := k.isLt; omega⟩) := by
  by_cases hk : k.val < 128
  · rw [dif_pos hk]
    exact (paired_left h ws wt e ⟨k.val, hk⟩).trans (taken_apply h ws e ⟨k.val, hk⟩)
  · rw [dif_neg hk]
    have hk' : k = ⟨128 + (⟨k.val - 128, by have := k.isLt; omega⟩ : Fin 128).val, by have := k.isLt; omega⟩ :=
      Fin.ext (by show k.val = 128 + (k.val - 128); omega)
    exact (congrArg (fun c => paired h ws wt (ix2 e c)) hk').trans
      ((paired_right h ws wt e ⟨k.val - 128, by have := k.isLt; omega⟩).trans
        (taken_apply h wt e ⟨k.val - 128, by have := k.isLt; omega⟩))

theorem layer_apply (h : FV S32768x128) (ws wt : IV S524288) (wm wr : FV S256x256) (bm br : FV S262144x256)
    (wih : FV S256x384) (bih : FV S32768x384) (whh : FV S128x384) (bhh : FV S32768x384)
    (a b : Fin 262144 → BitVec 32) (Wm Wr : Fin 256 → Fin 256 → EReal) (Bm Br : Fin 256 → EReal)
    (Wih : Fin 384 → Fin 256 → EReal) (Whh : Fin 384 → Fin 128 → EReal) (Bih Bhh : Fin 384 → EReal)
    (hws0 : ∀ e : Fin 262144, ws (ix1 ⟨e.val, by have := e.isLt; omega⟩) = a e)
    (hws1 : ∀ e : Fin 262144, ws (ix1 ⟨262144 + e.val, by have := e.isLt; omega⟩) = b e)
    (hwt0 : ∀ e : Fin 262144, wt (ix1 ⟨e.val, by have := e.isLt; omega⟩) = b e)
    (hwt1 : ∀ e : Fin 262144, wt (ix1 ⟨262144 + e.val, by have := e.isLt; omega⟩) = a e)
    (hwm : ∀ k o : Fin 256, wm (ix2 k o) = Wm o k) (hwr : ∀ k o : Fin 256, wr (ix2 k o) = Wr o k)
    (hbm : ∀ (e : Fin 262144) (o : Fin 256), bm (ix2 e o) = Bm o)
    (hbr : ∀ (e : Fin 262144) (o : Fin 256), br (ix2 e o) = Br o)
    (hwih : ∀ (k : Fin 256) (q : Fin 384), wih (ix2 k q) = Wih q k)
    (hwhh : ∀ (k : Fin 128) (q : Fin 384), whh (ix2 k q) = Whh q k)
    (hbih : ∀ (m : Fin 32768) (q : Fin 384), bih (ix2 m q) = Bih q)
    (hbhh : ∀ (m : Fin 32768) (q : Fin 384), bhh (ix2 m q) = Bhh q)
    (n : Fin 32768) (j : Fin 128) :
    cell (summed h ws wt wm wr bm br) h wih bih whh bhh (ix2 n j)
      = Spec.layer (fun m k => h (ix2 m k)) a b Wm Wr Bm Br Wih Whh Bih Bhh n j := by

  have hagg : (fun m k => summed h ws wt wm wr bm br (ix2 m k))
      = Spec.agg (fun m k => h (ix2 m k)) a b Wm Wr Bm Br := by
    funext v o
    rw [summed_apply]
    refine Spec.agg_of_messages (fun m k => h (ix2 m k)) a b Wm Wr Bm Br (fun e => wt (ix1 e))
      (fun e o => messages h ws wt wm wr bm br (ix2 e o)) hwt0 hwt1 (fun e o => ?_) (fun e o => ?_) v o
    · show messages h ws wt wm wr bm br (ix2 ⟨e.val, _⟩ o) = _
      rw [messages_fwd, hbm]
      unfold Spec.msgIn
      refine congrArg (· + Bm o) (Finset.sum_congr rfl fun k _ => ?_)
      rw [paired_apply, hwm, hws0, hwt0]
    · show messages h ws wt wm wr bm br (ix2 ⟨262144 + e.val, _⟩ o) = _
      rw [messages_rev, hbr]
      unfold Spec.msgIn
      refine congrArg (· + Br o) (Finset.sum_congr rfl fun k _ => ?_)
      rw [paired_apply, hwr, hws1, hwt1]
  rw [cell_apply]
  unfold Spec.layer
  rw [hagg, show (fun q k => wih (ix2 k q)) = Wih from funext fun q => funext fun k => hwih k q,
    show (fun q k => whh (ix2 k q)) = Whh from funext fun q => funext fun k => hwhh k q,
    show (fun q => bih (ix2 n q)) = Bih from funext fun q => hbih n q,
    show (fun q => bhh (ix2 n q)) = Bhh from funext fun q => hbhh n q]

theorem src_fst (x1 : IV S2x262144) (e : Fin 262144) :
    Stages.val_main_v5 (F := Ideal) x1 (ix1 ⟨e.val, by have := e.isLt; omega⟩) = x1 (ix2 0 e) := by
  unfold Stages.val_main_v5
  refine (concatenate_pair_apply_left (t := S524288) (s₁ := S262144) (s₂ := S262144) 0 _ _
    concatenates_S262144_S262144_S524288_d0 _ rfl (ix1 e) (fun b => by
      match b with
      | ⟨0, _⟩ => rfl)).trans ?_
  rw [Stages.val_main_v2_apply, Stages.val_main_v1_apply]
  exact congrArg x1 (funext fun c => match c with
    | ⟨0, _⟩ => rfl
    | ⟨1, _⟩ => Fin.ext (by have := e.isLt; show e.val % 262144 = e.val; omega))

theorem src_snd (x1 : IV S2x262144) (e : Fin 262144) :
    Stages.val_main_v5 (F := Ideal) x1 (ix1 ⟨262144 + e.val, by have := e.isLt; omega⟩) = x1 (ix2 1 e) := by
  unfold Stages.val_main_v5
  refine (concatenate_pair_apply_right (t := S524288) (s₁ := S262144) (s₂ := S262144) 0 _ _
    concatenates_S262144_S262144_S524288_d0 _ rfl rfl (ix1 e)
    (fun b hb => by
      match b with
      | ⟨0, _⟩ => exact absurd rfl hb)
    (by show e.val + 262144 = 262144 + e.val; omega)).trans ?_
  rw [Stages.val_main_v4_apply, Stages.val_main_v3_apply]
  exact congrArg x1 (funext fun c => match c with
    | ⟨0, _⟩ => rfl
    | ⟨1, _⟩ => Fin.ext (by have := e.isLt; show e.val % 262144 = e.val; omega))

theorem tgt_fst (x1 : IV S2x262144) (e : Fin 262144) :
    Stages.val_main_v10 (F := Ideal) x1 (ix1 ⟨e.val, by have := e.isLt; omega⟩) = x1 (ix2 1 e) := by
  unfold Stages.val_main_v10
  refine (concatenate_pair_apply_left (t := S524288) (s₁ := S262144) (s₂ := S262144) 0 _ _
    concatenates_S262144_S262144_S524288_d0 _ rfl (ix1 e) (fun b => by
      match b with
      | ⟨0, _⟩ => rfl)).trans ?_
  rw [Stages.val_main_v7_apply, Stages.val_main_v6_apply]
  exact congrArg x1 (funext fun c => match c with
    | ⟨0, _⟩ => rfl
    | ⟨1, _⟩ => Fin.ext (by have := e.isLt; show e.val % 262144 = e.val; omega))

theorem tgt_snd (x1 : IV S2x262144) (e : Fin 262144) :
    Stages.val_main_v10 (F := Ideal) x1 (ix1 ⟨262144 + e.val, by have := e.isLt; omega⟩) = x1 (ix2 0 e) := by
  unfold Stages.val_main_v10
  refine (concatenate_pair_apply_right (t := S524288) (s₁ := S262144) (s₂ := S262144) 0 _ _
    concatenates_S262144_S262144_S524288_d0 _ rfl rfl (ix1 e)
    (fun b hb => by
      match b with
      | ⟨0, _⟩ => exact absurd rfl hb)
    (by show e.val + 262144 = 262144 + e.val; omega)).trans ?_
  rw [Stages.val_main_v9_apply, Stages.val_main_v8_apply]
  exact congrArg x1 (funext fun c => match c with
    | ⟨0, _⟩ => rfl
    | ⟨1, _⟩ => Fin.ext (by have := e.isLt; show e.val % 262144 = e.val; omega))

theorem feat0_read (x0 : FV S256x128x128) (n : Fin 32768) (k : Fin 128) :
    Stages.val_main_v0 (F := Ideal) x0 (ix2 n k)
      = x0 (ix3 ⟨n.val / 128, by have := n.isLt; omega⟩ ⟨n.val % 128, Nat.mod_lt _ (by decide)⟩ k) := by
  rw [Stages.val_main_v0_apply]
  exact congrArg x0 (funext fun c => match c with
    | ⟨0, _⟩ => Fin.ext (by have := n.isLt; have := k.isLt; show (n.val * 128 + k.val) / 16384 = n.val / 128; omega)
    | ⟨1, _⟩ => Fin.ext (by have := n.isLt; have := k.isLt; show (n.val * 128 + k.val) / 128 % 128 = n.val % 128; omega)
    | ⟨2, _⟩ => Fin.ext (by have := n.isLt; have := k.isLt; show (n.val * 128 + k.val) % 128 = k.val; omega))

theorem wm0_read (x2 : FV S2x256x256) (k o : Fin 256) :
    Stages.val_main_v29 (F := Ideal) x2 (ix2 k o) = x2 (ix3 0 o k) := by
  rw [Stages.val_main_v29_apply, Stages.val_main_v28_apply, Stages.val_main_v27_apply]
  exact congrArg x2 (funext fun c => match c with
    | ⟨0, _⟩ => rfl
    | ⟨1, _⟩ => Fin.ext (by have := k.isLt; have := o.isLt; show (o.val * 256 + k.val) / 256 % 256 = o.val; omega)
    | ⟨2, _⟩ => Fin.ext (by have := k.isLt; have := o.isLt; show (o.val * 256 + k.val) % 256 = k.val; omega))

theorem wr0_read (x4 : FV S2x256x256) (k o : Fin 256) :
    Stages.val_main_v39 (F := Ideal) x4 (ix2 k o) = x4 (ix3 0 o k) := by
  rw [Stages.val_main_v39_apply, Stages.val_main_v38_apply, Stages.val_main_v37_apply]
  exact congrArg x4 (funext fun c => match c with
    | ⟨0, _⟩ => rfl
    | ⟨1, _⟩ => Fin.ext (by have := k.isLt; have := o.isLt; show (o.val * 256 + k.val) / 256 % 256 = o.val; omega)
    | ⟨2, _⟩ => Fin.ext (by have := k.isLt; have := o.isLt; show (o.val * 256 + k.val) % 256 = k.val; omega))

theorem bm0_read (x3 : FV S2x256) (e : Fin 262144) (o : Fin 256) :
    Stages.val_main_v34 (F := Ideal) x3 (ix2 e o) = x3 (ix2 0 o) := by
  rw [Stages.val_main_v34_apply, Stages.val_main_v33_apply, Stages.val_main_v32_apply, Stages.val_main_v31_apply]
  exact congrArg x3 (funext fun c => match c with
    | ⟨0, _⟩ => rfl
    | ⟨1, _⟩ => Fin.ext (by have := o.isLt; show o.val % 256 = o.val; omega))

theorem br0_read (x5 : FV S2x256) (e : Fin 262144) (o : Fin 256) :
    Stages.val_main_v44 (F := Ideal) x5 (ix2 e o) = x5 (ix2 0 o) := by
  rw [Stages.val_main_v44_apply, Stages.val_main_v43_apply, Stages.val_main_v42_apply, Stages.val_main_v41_apply]
  exact congrArg x5 (funext fun c => match c with
    | ⟨0, _⟩ => rfl
    | ⟨1, _⟩ => Fin.ext (by have := o.isLt; show o.val % 256 = o.val; omega))

theorem wih0_read (x6 : FV S2x384x256) (k : Fin 256) (q : Fin 384) :
    Stages.val_main_v52 (F := Ideal) x6 (ix2 k q) = x6 (ix3 0 q k) := by
  rw [Stages.val_main_v52_apply, Stages.val_main_v51_apply, Stages.val_main_v50_apply]
  exact congrArg x6 (funext fun c => match c with
    | ⟨0, _⟩ => rfl
    | ⟨1, _⟩ => Fin.ext (by have := k.isLt; have := q.isLt; show (q.val * 256 + k.val) / 256 % 384 = q.val; omega)
    | ⟨2, _⟩ => Fin.ext (by have := k.isLt; have := q.isLt; show (q.val * 256 + k.val) % 256 = k.val; omega))

theorem whh0_read (x7 : FV S2x384x128) (k : Fin 128) (q : Fin 384) :
    Stages.val_main_v61 (F := Ideal) x7 (ix2 k q) = x7 (ix3 0 q k) := by
  rw [Stages.val_main_v61_apply, Stages.val_main_v60_apply, Stages.val_main_v59_apply]
  exact congrArg x7 (funext fun c => match c with
    | ⟨0, _⟩ => rfl
    | ⟨1, _⟩ => Fin.ext (by have := k.isLt; have := q.isLt; show (q.val * 128 + k.val) / 128 % 384 = q.val; omega)
    | ⟨2, _⟩ => Fin.ext (by have := k.isLt; have := q.isLt; show (q.val * 128 + k.val) % 128 = k.val; omega))

theorem bih0_read (x8 : FV S2x384) (m : Fin 32768) (q : Fin 384) :
    Stages.val_main_v57 (F := Ideal) x8 (ix2 m q) = x8 (ix2 0 q) := by
  rw [Stages.val_main_v57_apply, Stages.val_main_v56_apply, Stages.val_main_v55_apply, Stages.val_main_v54_apply]
  exact congrArg x8 (funext fun c => match c with
    | ⟨0, _⟩ => rfl
    | ⟨1, _⟩ => Fin.ext (by have := q.isLt; show q.val % 384 = q.val; omega))

theorem bhh0_read (x9 : FV S2x384) (m : Fin 32768) (q : Fin 384) :
    Stages.val_main_v66 (F := Ideal) x9 (ix2 m q) = x9 (ix2 0 q) := by
  rw [Stages.val_main_v66_apply, Stages.val_main_v65_apply, Stages.val_main_v64_apply, Stages.val_main_v63_apply]
  exact congrArg x9 (funext fun c => match c with
    | ⟨0, _⟩ => rfl
    | ⟨1, _⟩ => Fin.ext (by have := q.isLt; show q.val % 384 = q.val; omega))

theorem ref_layer1 (x0 : (⟨S256x128x128, .f32⟩ : BufTy).Contents (Elt Ideal)) (x1 : (⟨S2x262144, .i32⟩ : BufTy).Contents (Elt Ideal))
    (x2 : (⟨S2x256x256, .f32⟩ : BufTy).Contents (Elt Ideal)) (x3 : (⟨S2x256, .f32⟩ : BufTy).Contents (Elt Ideal))
    (x4 : (⟨S2x256x256, .f32⟩ : BufTy).Contents (Elt Ideal)) (x5 : (⟨S2x256, .f32⟩ : BufTy).Contents (Elt Ideal))
    (x6 : (⟨S2x384x256, .f32⟩ : BufTy).Contents (Elt Ideal)) (x7 : (⟨S2x384x128, .f32⟩ : BufTy).Contents (Elt Ideal))
    (x8 x9 : (⟨S2x384, .f32⟩ : BufTy).Contents (Elt Ideal))
    (n : Fin 32768) (j : Fin 128) :
    Stages.val_main_v95 (F := Ideal) x0 x1 x2 x3 x4 x5 x6 x7 x8 x9 (ix2 n j)
      = Cert.Spec.layer
          (fun n k => x0 (ix3 ⟨n.val / 128, by have := n.isLt; omega⟩ ⟨n.val % 128, Nat.mod_lt _ (by decide)⟩ k))
          (fun e => x1 (ix2 0 e)) (fun e => x1 (ix2 1 e)) (fun o k => x2 (ix3 0 o k)) (fun o k => x4 (ix3 0 o k))
          (fun o => x3 (ix2 0 o)) (fun o => x5 (ix2 0 o)) (fun q k => x6 (ix3 0 q k)) (fun q k => x7 (ix3 0 q k))
          (fun q => x8 (ix2 0 q)) (fun q => x9 (ix2 0 q)) n j := by
  rw [main_v95_eq]
  rw [layer_apply _ _ _ _ _ _ _ _ _ _ _ (fun e => x1 (ix2 0 e)) (fun e => x1 (ix2 1 e)) (fun o k => x2 (ix3 0 o k))
    (fun o k => x4 (ix3 0 o k)) (fun o => x3 (ix2 0 o)) (fun o => x5 (ix2 0 o)) (fun q k => x6 (ix3 0 q k))
    (fun q k => x7 (ix3 0 q k)) (fun q => x8 (ix2 0 q)) (fun q => x9 (ix2 0 q))
    (src_fst x1) (src_snd x1) (tgt_fst x1) (tgt_snd x1) (wm0_read x2) (wr0_read x4) (bm0_read x3) (br0_read x5)
    (wih0_read x6) (whh0_read x7) (bih0_read x8) (bhh0_read x9)]
  exact congrArg (fun hf => Spec.layer hf _ _ _ _ _ _ _ _ _ _ n j)
    (funext fun m => funext fun k => feat0_read x0 m k)

end Cert.ReferenceIdeal.RefValue

end
-- ==== Proof.RefLayer2.lean ====
import proofs.«425588_j41618233098847_3_alg».proof.Proof.RefLayer1

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Rows

theorem main_v180_eq (x0 : FV S256x128x128) (x1 : IV S2x262144) (x2 : FV S2x256x256) (x3 : FV S2x256)
    (x4 : FV S2x256x256) (x5 : FV S2x256) (x6 : FV S2x384x256) (x7 : FV S2x384x128) (x8 x9 : FV S2x384) :
    Stages.val_main_v180 (F := Ideal) x0 x1 x2 x3 x4 x5 x6 x7 x8 x9
      = cell (summed (Stages.val_main_v95 (F := Ideal) x0 x1 x2 x3 x4 x5 x6 x7 x8 x9)
            (Stages.val_main_v5 (F := Ideal) x1) (Stages.val_main_v10 (F := Ideal) x1)
            (Stages.val_main_v114 (F := Ideal) x2) (Stages.val_main_v124 (F := Ideal) x4)
            (Stages.val_main_v119 (F := Ideal) x3) (Stages.val_main_v129 (F := Ideal) x5))
          (Stages.val_main_v95 (F := Ideal) x0 x1 x2 x3 x4 x5 x6 x7 x8 x9) (Stages.val_main_v137 (F := Ideal) x6)
          (Stages.val_main_v142 (F := Ideal) x8) (Stages.val_main_v146 (F := Ideal) x7)
          (Stages.val_main_v151 (F := Ideal) x9) := rfl

theorem wm1_read (x2 : FV S2x256x256) (k o : Fin 256) :
    Stages.val_main_v114 (F := Ideal) x2 (ix2 k o) = x2 (ix3 1 o k) := by
  rw [Stages.val_main_v114_apply, Stages.val_main_v113_apply, Stages.val_main_v112_apply]
  exact congrArg x2 (funext fun c => match c with
    | ⟨0, _⟩ => rfl
    | ⟨1, _⟩ => Fin.ext (by have := k.isLt; have := o.isLt; show (o.val * 256 + k.val) / 256 % 256 = o.val; omega)
    | ⟨2, _⟩ => Fin.ext (by have := k.isLt; have := o.isLt; show (o.val * 256 + k.val) % 256 = k.val; omega))

theorem wr1_read (x4 : FV S2x256x256) (k o : Fin 256) :
    Stages.val_main_v124 (F := Ideal) x4 (ix2 k o) = x4 (ix3 1 o k) := by
  rw [Stages.val_main_v124_apply, Stages.val_main_v123_apply, Stages.val_main_v122_apply]
  exact congrArg x4 (funext fun c => match c with
    | ⟨0, _⟩ => rfl
    | ⟨1, _⟩ => Fin.ext (by have := k.isLt; have := o.isLt; show (o.val * 256 + k.val) / 256 % 256 = o.val; omega)
    | ⟨2, _⟩ => Fin.ext (by have := k.isLt; have := o.isLt; show (o.val * 256 + k.val) % 256 = k.val; omega))

theorem bm1_read (x3 : FV S2x256) (e : Fin 262144) (o : Fin 256) :
    Stages.val_main_v119 (F := Ideal) x3 (ix2 e o) = x3 (ix2 1 o) := by
  rw [Stages.val_main_v119_apply, Stages.val_main_v118_apply, Stages.val_main_v117_apply, Stages.val_main_v116_apply]
  exact congrArg x3 (funext fun c => match c with
    | ⟨0, _⟩ => rfl
    | ⟨1, _⟩ => Fin.ext (by have := o.isLt; show o.val % 256 = o.val; omega))

theorem br1_read (x5 : FV S2x256) (e : Fin 262144) (o : Fin 256) :
    Stages.val_main_v129 (F := Ideal) x5 (ix2 e o) = x5 (ix2 1 o) := by
  rw [Stages.val_main_v129_apply, Stages.val_main_v128_apply, Stages.val_main_v127_apply, Stages.val_main_v126_apply]
  exact congrArg x5 (funext fun c => match c with
    | ⟨0, _⟩ => rfl
    | ⟨1, _⟩ => Fin.ext (by have := o.isLt; show o.val % 256 = o.val; omega))

theorem wih1_read (x6 : FV S2x384x256) (k : Fin 256) (q : Fin 384) :
    Stages.val_main_v137 (F := Ideal) x6 (ix2 k q) = x6 (ix3 1 q k) := by
  rw [Stages.val_main_v137_apply, Stages.val_main_v136_apply, Stages.val_main_v135_apply]
  exact congrArg x6 (funext fun c => match c with
    | ⟨0, _⟩ => rfl
    | ⟨1, _⟩ => Fin.ext (by have := k.isLt; have := q.isLt; show (q.val * 256 + k.val) / 256 % 384 = q.val; omega)
    | ⟨2, _⟩ => Fin.ext (by have := k.isLt; have := q.isLt; show (q.val * 256 + k.val) % 256 = k.val; omega))

theorem whh1_read (x7 : FV S2x384x128) (k : Fin 128) (q : Fin 384) :
    Stages.val_main_v146 (F := Ideal) x7 (ix2 k q) = x7 (ix3 1 q k) := by
  rw [Stages.val_main_v146_apply, Stages.val_main_v145_apply, Stages.val_main_v144_apply]
  exact congrArg x7 (funext fun c => match c with
    | ⟨0, _⟩ => rfl
    | ⟨1, _⟩ => Fin.ext (by have := k.isLt; have := q.isLt; show (q.val * 128 + k.val) / 128 % 384 = q.val; omega)
    | ⟨2, _⟩ => Fin.ext (by have := k.isLt; have := q.isLt; show (q.val * 128 + k.val) % 128 = k.val; omega))

theorem bih1_read (x8 : FV S2x384) (m : Fin 32768) (q : Fin 384) :
    Stages.val_main_v142 (F := Ideal) x8 (ix2 m q) = x8 (ix2 1 q) := by
  rw [Stages.val_main_v142_apply, Stages.val_main_v141_apply, Stages.val_main_v140_apply, Stages.val_main_v139_apply]
  exact congrArg x8 (funext fun c => match c with
    | ⟨0, _⟩ => rfl
    | ⟨1, _⟩ => Fin.ext (by have := q.isLt; show q.val % 384 = q.val; omega))

theorem bhh1_read (x9 : FV S2x384) (m : Fin 32768) (q : Fin 384) :
    Stages.val_main_v151 (F := Ideal) x9 (ix2 m q) = x9 (ix2 1 q) := by
  rw [Stages.val_main_v151_apply, Stages.val_main_v150_apply, Stages.val_main_v149_apply, Stages.val_main_v148_apply]
  exact congrArg x9 (funext fun c => match c with
    | ⟨0, _⟩ => rfl
    | ⟨1, _⟩ => Fin.ext (by have := q.isLt; show q.val % 384 = q.val; omega))

theorem ref_layer2 (x0 : (⟨S256x128x128, .f32⟩ : BufTy).Contents (Elt Ideal)) (x1 : (⟨S2x262144, .i32⟩ : BufTy).Contents (Elt Ideal))
    (x2 : (⟨S2x256x256, .f32⟩ : BufTy).Contents (Elt Ideal)) (x3 : (⟨S2x256, .f32⟩ : BufTy).Contents (Elt Ideal))
    (x4 : (⟨S2x256x256, .f32⟩ : BufTy).Contents (Elt Ideal)) (x5 : (⟨S2x256, .f32⟩ : BufTy).Contents (Elt Ideal))
    (x6 : (⟨S2x384x256, .f32⟩ : BufTy).Contents (Elt Ideal)) (x7 : (⟨S2x384x128, .f32⟩ : BufTy).Contents (Elt Ideal))
    (x8 x9 : (⟨S2x384, .f32⟩ : BufTy).Contents (Elt Ideal))
    (n : Fin 32768) (j : Fin 128) :
    Stages.val_main_v180 (F := Ideal) x0 x1 x2 x3 x4 x5 x6 x7 x8 x9 (ix2 n j)
      = Cert.Spec.layer (fun n k => Stages.val_main_v95 (F := Ideal) x0 x1 x2 x3 x4 x5 x6 x7 x8 x9 (ix2 n k))
          (fun e => x1 (ix2 0 e)) (fun e => x1 (ix2 1 e)) (fun o k => x2 (ix3 1 o k)) (fun o k => x4 (ix3 1 o k))
          (fun o => x3 (ix2 1 o)) (fun o => x5 (ix2 1 o)) (fun q k => x6 (ix3 1 q k)) (fun q k => x7 (ix3 1 q k))
          (fun q => x8 (ix2 1 q)) (fun q => x9 (ix2 1 q)) n j := by
  rw [main_v180_eq]
  exact layer_apply _ _ _ _ _ _ _ _ _ _ _ (fun e => x1 (ix2 0 e)) (fun e => x1 (ix2 1 e)) (fun o k => x2 (ix3 1 o k))
    (fun o k => x4 (ix3 1 o k)) (fun o => x3 (ix2 1 o)) (fun o => x5 (ix2 1 o)) (fun q k => x6 (ix3 1 q k))
    (fun q k => x7 (ix3 1 q k)) (fun q => x8 (ix2 1 q)) (fun q => x9 (ix2 1 q))
    (src_fst x1) (src_snd x1) (tgt_fst x1) (tgt_snd x1) (wm1_read x2) (wr1_read x4) (bm1_read x3) (br1_read x5)
    (wih1_read x6) (whh1_read x7) (bih1_read x8) (bhh1_read x9) n j

end Cert.ReferenceIdeal.RefValue

end
-- ==== Proof.RefTail.lean ====
import proofs.«425588_j41618233098847_3_alg».proof.Proof.Spec
import proofs.«425588_j41618233098847_3_alg».proof.Proof.LibSums
import proofs.«425588_j41618233098847_3_alg».proof.Proof.RefStages

noncomputable section

open scoped BigOperators

namespace Cert.ReferenceIdeal.RefValue

open Cert.ReferenceIdeal Cert.ReferenceIdeal.Gen Idealize.ShloMosaic Idealize.ShloMosaic.ValueIdx Idealize.ShloMosaic.Rows

variable (x0 : (⟨S256x128x128, .f32⟩ : BufTy).Contents (Elt Ideal)) (x1 : (⟨S2x262144, .i32⟩ : BufTy).Contents (Elt Ideal)) (x2 : (⟨S2x256x256, .f32⟩ : BufTy).Contents (Elt Ideal)) (x3 : (⟨S2x256, .f32⟩ : BufTy).Contents (Elt Ideal)) (x4 : (⟨S2x256x256, .f32⟩ : BufTy).Contents (Elt Ideal)) (x5 : (⟨S2x256, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) (x14 : (⟨S128x128, .f32⟩ : BufTy).Contents (Elt Ideal)) (x15 : (⟨S128, .f32⟩ : BufTy).Contents (Elt Ideal)) (x16 : (⟨S1x128, .f32⟩ : BufTy).Contents (Elt Ideal)) (x17 : (⟨S1, .f32⟩ : BufTy).Contents (Elt Ideal))

theorem ref_norm (n : Fin 32768) (j : Fin 128) :
    Stages.val_main_v185 (F := Ideal) x0 x1 x2 x3 x4 x5 x6 x7 x8 x9 (ix2 n j)
      = Cert.Spec.normalize (fun n k => Stages.val_main_v180 (F := Ideal) x0 x1 x2 x3 x4 x5 x6 x7 x8 x9 (ix2 n k)) n j := by
  rw [Stages.val_main_v185_apply, Stages.val_main_v184_apply, Stages.val_main_v183_apply, Stages.val_main_v181_apply,
    Stages.val_main_call0_v2_apply, Stages.val_main_call0_v1_apply, Stages.val_main_call0_cst_apply,
    Stages.val_main_v182_apply, Stages.val_main_cst_18_apply]
  simp only [Ideal.ofBits_def, Ideal.hostDivf_def, Ideal.maximumf_def, Ideal.hostUnary_sqrt_def]
  rw [ofBits_f32_zero, zero_add]
  have hs : (∑ k : Fin 128, Stages.val_main_call0_v0 (F := Ideal) x0 x1 x2 x3 x4 x5 x6 x7 x8 x9
        (Stages.idx_main_call0_v1 (Stages.idx_main_call0_v2 (Stages.idx_main_v184 (ix2 n j))) k))
      = ∑ k : Fin 128, Stages.val_main_v180 (F := Ideal) x0 x1 x2 x3 x4 x5 x6 x7 x8 x9 (ix2 n k) * Stages.val_main_v180 (F := Ideal) x0 x1 x2 x3 x4 x5 x6 x7 x8 x9 (ix2 n k) := by
    refine Finset.sum_congr rfl fun k _ => ?_
    have e : Stages.idx_main_call0_v1 (Stages.idx_main_call0_v2 (Stages.idx_main_v184 (ix2 n j))) k = ix2 n k := by
      funext a; match a with | ⟨0, _⟩ => rfl | ⟨1, _⟩ => rfl
    rw [Stages.val_main_call0_v0_apply, e, Ideal.mulf_def]
  rw [hs]
  rfl

theorem ref_out0 (b : Fin 256) (p k : Fin 128) :
    Stages.val_main_v236 (F := Ideal) x0 x1 x2 x3 x4 x5 x6 x7 x8 x9 (ix3 b p k)
      = Stages.val_main_v185 (F := Ideal) x0 x1 x2 x3 x4 x5 x6 x7 x8 x9 (ix2 (⟨b.val * 128 + p.val, by omega⟩ : Fin 32768) k) := by
  rw [Stages.val_main_v236_apply]
  have e : Stages.idx_main_v236 (ix3 b p k) = ix2 (⟨b.val * 128 + p.val, by omega⟩ : Fin 32768) k := by
    have hb := b.isLt
    have hp := p.isLt
    have hk := k.isLt
    funext a
    match a with
    | ⟨0, _⟩ => exact Fin.ext (by show ((b.val * 128 + p.val) * 128 + k.val) / 128 = b.val * 128 + p.val; omega)
    | ⟨1, _⟩ => exact Fin.ext (by show ((b.val * 128 + p.val) * 128 + k.val) % 128 = k.val; omega)
  rw [e]

theorem proj1 (m : Fin 32768) (j : Fin 128) :
    Stages.val_main_v187 (F := Ideal) x0 x1 x2 x3 x4 x5 x6 x7 x8 x9 x10 (ix2 m j) = ∑ k : Fin 128, Stages.val_main_v185 (F := Ideal) x0 x1 x2 x3 x4 x5 x6 x7 x8 x9 (ix2 m k) * x10 (ix2 j k) := by
  rw [Stages.val_main_v187_apply]
  refine Finset.sum_congr rfl fun k _ => ?_
  rw [Stages.val_main_v186_apply]
  have e1 : Stages.lidx_main_v187 (ix2 m j) k = ix2 m k := by
    funext a; match a with | ⟨0, _⟩ => rfl | ⟨1, _⟩ => rfl
  have e2 : Stages.idx_main_v186 (Stages.ridx_main_v187 (ix2 m j) k) = ix2 j k := by
    funext a; match a with | ⟨0, _⟩ => rfl | ⟨1, _⟩ => rfl
  rw [e1, e2]

theorem bias1 (m : Fin 32768) (j : Fin 128) :
    Stages.val_main_v189 (F := Ideal) x11 (ix2 m j) = x11 (ix1 j) := by
  rw [Stages.val_main_v189_apply, Stages.val_main_v188_apply]
  have e : Stages.idx_main_v188 (Stages.idx_main_v189 (ix2 m j)) = ix1 j := by
    funext a; match a with | ⟨0, _⟩ => rfl
  rw [e]

theorem gateArg1 (m : Fin 32768) :
    Stages.val_main_v195 (F := Ideal) x0 x1 x2 x3 x4 x5 x6 x7 x8 x9 x12 x13 (ix2 m 0)
      = (∑ k : Fin 128, Stages.val_main_v185 (F := Ideal) x0 x1 x2 x3 x4 x5 x6 x7 x8 x9 (ix2 m k) * x12 (ix2 0 k)) + x13 (ix1 0) := by
  rw [Stages.val_main_v195_apply, Stages.val_main_v192_apply, Stages.val_main_v194_apply, Stages.val_main_v193_apply]
  have e0 : Stages.idx_main_v193 (Stages.idx_main_v194 (ix2 m 0)) = ix1 0 := by
    funext a; match a with | ⟨0, _⟩ => rfl
  rw [e0]
  show (∑ k : Fin 128, _) + _ = _
  refine congrArg (· + x13 (ix1 0)) (Finset.sum_congr rfl fun k _ => ?_)
  rw [Stages.val_main_v191_apply]
  have e1 : Stages.lidx_main_v192 (ix2 m 0) k = ix2 m k := by
    funext a; match a with | ⟨0, _⟩ => rfl | ⟨1, _⟩ => rfl
  have e2 : Stages.idx_main_v191 (Stages.ridx_main_v192 (ix2 m 0) k) = ix2 0 k := by
    funext a; match a with | ⟨0, _⟩ => rfl | ⟨1, _⟩ => rfl
  rw [e1, e2]

theorem gate1 (m : Fin 32768) (j : Fin 128) :
    Stages.val_main_v202 (F := Ideal) x0 x1 x2 x3 x4 x5 x6 x7 x8 x9 x12 x13 (ix2 m j)
      = Ideal.logistic ((∑ k : Fin 128, Stages.val_main_v185 (F := Ideal) x0 x1 x2 x3 x4 x5 x6 x7 x8 x9 (ix2 m k) * x12 (ix2 0 k)) + x13 (ix1 0)) := by
  rw [Stages.val_main_v202_apply]
  have e : Stages.idx_main_v202 (ix2 m j) = ix2 m 0 := by
    funext a; match a with | ⟨0, _⟩ => rfl | ⟨1, _⟩ => rfl
  rw [e, Stages.val_main_v201_apply, Stages.val_main_v200_apply, Stages.val_main_cst_20_apply,
    Stages.val_main_v199_apply, Stages.val_main_v198_apply, Stages.val_main_cst_19_apply,
    Stages.val_main_v197_apply, Stages.val_main_v196_apply, gateArg1]
  simp only [Ideal.ofBits_def, Ideal.hostDivf_def, Ideal.addf_def, Ideal.hostUnary_exp_def, Ideal.hostNegf_def, Ideal.negf_def]
  rw [ofBits_f32_one]
  rfl

theorem pool1 (b : Fin 256) (j : Fin 128) :
    Stages.val_main_v205 (F := Ideal) x0 x1 x2 x3 x4 x5 x6 x7 x8 x9 x10 x11 x12 x13 (ix2 b j) = Cert.Spec.pooled (fun n k => Stages.val_main_v185 (F := Ideal) x0 x1 x2 x3 x4 x5 x6 x7 x8 x9 (ix2 n k)) (fun j k => x10 (ix2 j k)) (fun j => x11 (ix1 j)) (fun k => x12 (ix2 0 k)) (x13 (ix1 0)) b j := by
  rw [Stages.val_main_v205_apply, Stages.val_main_cst_21_apply]
  show Ideal.ofBits .f32 0x00000000#32 + (∑ p : Fin 128, _) = _
  rw [ofBits_f32_zero, zero_add]
  unfold Cert.Spec.pooled
  refine Finset.sum_congr rfl fun p _ => ?_
  rw [Stages.val_main_v204_apply]
  have e : Stages.idx_main_v204 (Stages.idx_main_v205 (ix2 b j) p)
      = ix2 (⟨b.val * 128 + p.val, by omega⟩ : Fin 32768) j := by
    have hb := b.isLt
    have hp := p.isLt
    have hj := j.isLt
    funext a
    match a with
    | ⟨0, _⟩ => exact Fin.ext (by show ((b.val * 128 + p.val) * 128 + j.val) / 128 = b.val * 128 + p.val; omega)
    | ⟨1, _⟩ => exact Fin.ext (by show ((b.val * 128 + p.val) * 128 + j.val) % 128 = j.val; omega)
  rw [e, Stages.val_main_v203_apply, Stages.val_main_v190_apply, proj1, bias1, gate1]
  rfl

theorem ref_out1 (b : Fin 256) (j : Fin 128) :
    Stages.val_main_v210 (F := Ideal) x0 x1 x2 x3 x4 x5 x6 x7 x8 x9 x10 x11 x12 x13 (ix2 b j) = Cert.Spec.readout (fun n k => Stages.val_main_v185 (F := Ideal) x0 x1 x2 x3 x4 x5 x6 x7 x8 x9 (ix2 n k)) (fun j k => x10 (ix2 j k)) (fun j => x11 (ix1 j)) (fun k => x12 (ix2 0 k)) (x13 (ix1 0)) b j := by
  rw [Stages.val_main_v210_apply, Stages.val_main_v209_apply, Stages.val_main_v208_apply,
    Stages.val_main_v206_apply, Stages.val_main_call1_v2_apply, Stages.val_main_call1_v1_apply,
    Stages.val_main_call1_cst_apply, Stages.val_main_v207_apply, Stages.val_main_cst_22_apply, pool1]
  show Ideal.div _ (max (Ideal.sqrt (Ideal.ofBits .f32 0x00000000#32 + (∑ k : Fin 128, _))) (Ideal.ofBits .f32 0x2B8CBCCC#32)) = _
  rw [ofBits_f32_zero, zero_add]
  unfold Cert.Spec.readout Cert.Spec.normalize
  refine congrArg (fun s => Ideal.div _ (max (Ideal.sqrt s) Cert.Spec.eps)) (Finset.sum_congr rfl fun k _ => ?_)
  rw [Stages.val_main_call1_v0_apply]
  have e : Stages.idx_main_call1_v1 (Stages.idx_main_call1_v2 (Stages.idx_main_v209 (ix2 b j))) k = ix2 b k := by
    funext a; match a with | ⟨0, _⟩ => rfl | ⟨1, _⟩ => rfl
  rw [e, pool1]
  rfl

/-- The second read-out is the first one's operations again, at its own four weights. -/
theorem ref_out2 (b : Fin 256) (j : Fin 128) :
    Stages.val_main_v235 (F := Ideal) x0 x1 x2 x3 x4 x5 x6 x7 x8 x9 x14 x15 x16 x17 (ix2 b j) = Cert.Spec.readout (fun n k => Stages.val_main_v185 (F := Ideal) x0 x1 x2 x3 x4 x5 x6 x7 x8 x9 (ix2 n k)) (fun j k => x14 (ix2 j k)) (fun j => x15 (ix1 j)) (fun k => x16 (ix2 0 k)) (x17 (ix1 0)) b j :=
  (congrFun (show Stages.val_main_v235 (F := Ideal) x0 x1 x2 x3 x4 x5 x6 x7 x8 x9 x14 x15 x16 x17 = Stages.val_main_v210 (F := Ideal) x0 x1 x2 x3 x4 x5 x6 x7 x8 x9 x14 x15 x16 x17 from rfl) _).trans
    (ref_out1 x0 x1 x2 x3 x4 x5 x6 x7 x8 x9 x14 x15 x16 x17 b j)

end Cert.ReferenceIdeal.RefValue

end
-- ==== Proof.RefNet.lean ====
import proofs.«425588_j41618233098847_3_alg».proof.Proof.SpecNet
import proofs.«425588_j41618233098847_3_alg».proof.Proof.RefLayer1
import proofs.«425588_j41618233098847_3_alg».proof.Proof.RefLayer2
import proofs.«425588_j41618233098847_3_alg».proof.Proof.RefTail

noncomputable section

namespace Cert.ReferenceIdeal.RefValue

open Cert.ReferenceIdeal Cert.ReferenceIdeal.Gen Idealize.ShloMosaic Idealize.ShloMosaic.ValueIdx

variable (x0 : (⟨S256x128x128, .f32⟩ : BufTy).Contents (Elt Ideal)) (x1 : (⟨S2x262144, .i32⟩ : BufTy).Contents (Elt Ideal)) (x2 : (⟨S2x256x256, .f32⟩ : BufTy).Contents (Elt Ideal)) (x3 : (⟨S2x256, .f32⟩ : BufTy).Contents (Elt Ideal)) (x4 : (⟨S2x256x256, .f32⟩ : BufTy).Contents (Elt Ideal)) (x5 : (⟨S2x256, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) (x14 : (⟨S128x128, .f32⟩ : BufTy).Contents (Elt Ideal)) (x15 : (⟨S128, .f32⟩ : BufTy).Contents (Elt Ideal)) (x16 : (⟨S1x128, .f32⟩ : BufTy).Contents (Elt Ideal)) (x17 : (⟨S1, .f32⟩ : BufTy).Contents (Elt Ideal))

theorem ref_feat1 :
    (fun (n : Fin 32768) (k : Fin 128) => Stages.val_main_v95 (F := Ideal) x0 x1 x2 x3 x4 x5 x6 x7 x8 x9 (ix2 n k))
      = Cert.Spec.layerOf 0 (Cert.Spec.rows x0) x1 x2 x3 x4 x5 x6 x7 x8 x9 := by
  funext n k
  exact ref_layer1 x0 x1 x2 x3 x4 x5 x6 x7 x8 x9 n k

theorem ref_feat2 :
    (fun (n : Fin 32768) (k : Fin 128) => Stages.val_main_v180 (F := Ideal) x0 x1 x2 x3 x4 x5 x6 x7 x8 x9 (ix2 n k))
      = Cert.Spec.layerOf 1 (Cert.Spec.layerOf 0 (Cert.Spec.rows x0) x1 x2 x3 x4 x5 x6 x7 x8 x9) x1 x2 x3 x4 x5 x6 x7 x8 x9 := by
  funext n k
  exact (ref_layer2 x0 x1 x2 x3 x4 x5 x6 x7 x8 x9 n k).trans
    (congrArg (fun h => Cert.Spec.layerOf 1 h x1 x2 x3 x4 x5 x6 x7 x8 x9 n k) (ref_feat1 x0 x1 x2 x3 x4 x5 x6 x7 x8 x9))

theorem ref_feat3 :
    (fun (n : Fin 32768) (k : Fin 128) => Stages.val_main_v185 (F := Ideal) x0 x1 x2 x3 x4 x5 x6 x7 x8 x9 (ix2 n k))
      = Cert.Spec.net x0 x1 x2 x3 x4 x5 x6 x7 x8 x9 := by
  funext n k
  exact (ref_norm x0 x1 x2 x3 x4 x5 x6 x7 x8 x9 n k).trans
    (congrArg (fun h => Cert.Spec.normalize h n k) (ref_feat2 x0 x1 x2 x3 x4 x5 x6 x7 x8 x9))

theorem rnet0 (b : Fin 256) (p k : Fin 128) :
    Stages.val_main_v236 (F := Ideal) x0 x1 x2 x3 x4 x5 x6 x7 x8 x9 (ix3 b p k)
      = Cert.Spec.net x0 x1 x2 x3 x4 x5 x6 x7 x8 x9 (⟨b.val * 128 + p.val, by omega⟩ : Fin 32768) k :=
  (ref_out0 x0 x1 x2 x3 x4 x5 x6 x7 x8 x9 b p k).trans
    (congrFun (congrFun (ref_feat3 x0 x1 x2 x3 x4 x5 x6 x7 x8 x9) (⟨b.val * 128 + p.val, by omega⟩ : Fin 32768)) k)

theorem rnet1 (b : Fin 256) (j : Fin 128) :
    Stages.val_main_v210 (F := Ideal) x0 x1 x2 x3 x4 x5 x6 x7 x8 x9 x10 x11 x12 x13 (ix2 b j)
      = Cert.Spec.out (Cert.Spec.net x0 x1 x2 x3 x4 x5 x6 x7 x8 x9) x10 x11 x12 x13 b j :=
  (ref_out1 x0 x1 x2 x3 x4 x5 x6 x7 x8 x9 x10 x11 x12 x13 b j).trans
    (congrArg (fun h => Cert.Spec.out h x10 x11 x12 x13 b j) (ref_feat3 x0 x1 x2 x3 x4 x5 x6 x7 x8 x9))

theorem rnet2 (b : Fin 256) (j : Fin 128) :
    Stages.val_main_v235 (F := Ideal) x0 x1 x2 x3 x4 x5 x6 x7 x8 x9 x14 x15 x16 x17 (ix2 b j)
      = Cert.Spec.out (Cert.Spec.net x0 x1 x2 x3 x4 x5 x6 x7 x8 x9) x14 x15 x16 x17 b j :=
  (ref_out2 x0 x1 x2 x3 x4 x5 x6 x7 x8 x9 x14 x15 x16 x17 b j).trans
    (congrArg (fun h => Cert.Spec.out h x14 x15 x16 x17 b j) (ref_feat3 x0 x1 x2 x3 x4 x5 x6 x7 x8 x9))

end Cert.ReferenceIdeal.RefValue

end
-- ==== Proof.lean ====
import proofs.«425588_j41618233098847_3_alg».proof.Defs
import proofs.«425588_j41618233098847_3_alg».proof.Proof.Gen.Kernel
import proofs.«425588_j41618233098847_3_alg».proof.Proof.Gen.KernelIdeal
import proofs.«425588_j41618233098847_3_alg».proof.Proof.Gen.ReferenceIdeal
import proofs.«425588_j41618233098847_3_alg».proof.Proof.Gen.Pre_finite_inputs
import proofs.«425588_j41618233098847_3_alg».proof.Proof.K.Frame
import proofs.«425588_j41618233098847_3_alg».proof.Proof.KI.Frame
import proofs.«425588_j41618233098847_3_alg».proof.Proof.KI.Layers
import proofs.«425588_j41618233098847_3_alg».proof.Proof.RefRun
import proofs.«425588_j41618233098847_3_alg».proof.Proof.RefNet
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

/-- The plain program is one straight line of array operations: its frame is its run with the results dropped. -/
theorem frame_ri : Cert.frame_ReferenceIdeal := fun m ρ _ =>
  (θ_run Cert.ReferenceIdeal.defs _ _).mono (fun _ h c => (h c).2.2.2) (Cert.ReferenceIdeal.RefRun.run (F := Ideal) m ρ)

theorem preserves : Cert.preserves_Kernel_KernelIdeal := trivial

open Cert.KernelIdeal.Hand Cert.KernelIdeal.Val Cert.ReferenceIdeal.RefValue in

/-- Both programs end at the network's three results: the fused program read back through its ten segments, the plain one operation by operation. -/
theorem algebraic : Cert.algebraic_KernelIdeal_ReferenceIdeal := by
  intro m ρ m' ρ' _ hagree
  refine ⟨fun c => W10 m c Cert.KernelIdeal.main_v144, fun c => W10 m c Cert.KernelIdeal.main_v153_0,
    fun c => W10 m c Cert.KernelIdeal.main_v153_1, Cert.KernelIdeal.Hand.run_results m ρ, ?_⟩
  refine (θ_run Cert.ReferenceIdeal.defs _ _).mono (fun r h c => ?_) (Cert.ReferenceIdeal.RefRun.run (F := Ideal) m' ρ')
  obtain ⟨h0, h1, h2, hargs⟩ := h c
  obtain ⟨a0, a1, a2, a3, a4, a5, a6, a7, a8, a9, a10, a11, a12, a13, a14, a15, a16, a17⟩ := hagree c
  refine ⟨h0.trans ?_, h1.trans ?_, h2.trans ?_, hargs⟩
  · rw [a0, a1, a2, a3, a4, a5, a6, a7, a8, a9]
    funext i
    obtain ⟨b, p, k, rfl⟩ : ∃ (b : Fin 256) (p k : Fin 128), i = ix3 b p k := ⟨i 0, i 1, i 2, eq_ix3 i⟩
    exact (rnet0 _ _ _ _ _ _ _ _ _ _ b p k).trans (kout0 m c b p k).symm
  · rw [a0, a1, a2, a3, a4, a5, a6, a7, a8, a9, a10, a11, a12, a13]
    funext i
    obtain ⟨b, j, rfl⟩ : ∃ (b : Fin 256) (j : Fin 128), i = ix2 b j := ⟨i 0, i 1, eq_ix2 i⟩
    exact (rnet1 _ _ _ _ _ _ _ _ _ _ _ _ _ _ b j).trans (kout1 m c b j).symm
  · rw [a0, a1, a2, a3, a4, a5, a6, a7, a8, a9, a14, a15, a16, a17]
    funext i
    obtain ⟨b, j, rfl⟩ : ∃ (b : Fin 256) (j : Fin 128), i = ix2 b j := ⟨i 0, i 1, eq_ix2 i⟩
    exact (rnet2 _ _ _ _ _ _ _ _ _ _ _ _ _ _ b j).trans (kout2 m c b j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
